-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36)) (m ((c.tc : Thread Cert.Kernel.nD Cert.Kernel.τ).loc Cert.Kernel.main_arg37)) (m ((c.tc : Thread Cert.Kernel.nD Cert.Kernel.τ).loc Cert.Kernel.main_arg38))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36)) (m ((c.tc : Thread Cert.ReferenceIdeal.nD Cert.ReferenceIdeal.τ).loc Cert.ReferenceIdeal.main_arg37)) (m ((c.tc : Thread Cert.ReferenceIdeal.nD Cert.ReferenceIdeal.τ).loc Cert.ReferenceIdeal.main_arg38))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36)
      ∧ r.2.mem ((c.tc : Thread Cert.Kernel.nD Cert.Kernel.τ).loc Cert.Kernel.main_arg37) = m ((c.tc : Thread Cert.Kernel.nD Cert.Kernel.τ).loc Cert.Kernel.main_arg37)
      ∧ r.2.mem ((c.tc : Thread Cert.Kernel.nD Cert.Kernel.τ).loc Cert.Kernel.main_arg38) = m ((c.tc : Thread Cert.Kernel.nD Cert.Kernel.τ).loc Cert.Kernel.main_arg38))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
      ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
      ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36)
      ∧ r.2.mem ((c.tc : Thread Cert.ReferenceIdeal.nD Cert.ReferenceIdeal.τ).loc Cert.ReferenceIdeal.main_arg37) = m ((c.tc : Thread Cert.ReferenceIdeal.nD Cert.ReferenceIdeal.τ).loc Cert.ReferenceIdeal.main_arg37)
      ∧ r.2.mem ((c.tc : Thread Cert.ReferenceIdeal.nD Cert.ReferenceIdeal.τ).loc Cert.ReferenceIdeal.main_arg38) = m ((c.tc : Thread Cert.ReferenceIdeal.nD Cert.ReferenceIdeal.τ).loc Cert.ReferenceIdeal.main_arg38))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)) →
    ∃ (v0 : (c : Dev Cert.KernelIdeal.nD) → Buf (Elt Ideal) ((c.tc : Thread Cert.KernelIdeal.nD Cert.KernelIdeal.τ).loc Cert.KernelIdeal.main_v156)) (v1 : (c : Dev Cert.KernelIdeal.nD) → Buf (Elt Ideal) ((c.tc : Thread Cert.KernelIdeal.nD Cert.KernelIdeal.τ).loc Cert.KernelIdeal.main_v155)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v156) = v0 c
          ∧ r.2.mem ((c.tc : Thread Cert.KernelIdeal.nD Cert.KernelIdeal.τ).loc Cert.KernelIdeal.main_v155) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36)
          ∧ r.2.mem ((c.tc : Thread Cert.KernelIdeal.nD Cert.KernelIdeal.τ).loc Cert.KernelIdeal.main_arg37) = m ((c.tc : Thread Cert.KernelIdeal.nD Cert.KernelIdeal.τ).loc Cert.KernelIdeal.main_arg37)
          ∧ r.2.mem ((c.tc : Thread Cert.KernelIdeal.nD Cert.KernelIdeal.τ).loc Cert.KernelIdeal.main_arg38) = m ((c.tc : Thread Cert.KernelIdeal.nD Cert.KernelIdeal.τ).loc Cert.KernelIdeal.main_arg38))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v250) = v0 c
          ∧ r.2.mem ((c.tc : Thread Cert.ReferenceIdeal.nD Cert.ReferenceIdeal.τ).loc Cert.ReferenceIdeal.main_v249) = v1 c
          ∧ r.2.mem ((c.tc : Thread Cert.ReferenceIdeal.nD Cert.ReferenceIdeal.τ).loc Cert.ReferenceIdeal.main_v176) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36)
          ∧ r.2.mem ((c.tc : Thread Cert.ReferenceIdeal.nD Cert.ReferenceIdeal.τ).loc Cert.ReferenceIdeal.main_arg37) = m' ((c.tc : Thread Cert.ReferenceIdeal.nD Cert.ReferenceIdeal.τ).loc Cert.ReferenceIdeal.main_arg37)
          ∧ r.2.mem ((c.tc : Thread Cert.ReferenceIdeal.nD Cert.ReferenceIdeal.τ).loc Cert.ReferenceIdeal.main_arg38) = m' ((c.tc : Thread Cert.ReferenceIdeal.nD Cert.ReferenceIdeal.τ).loc Cert.ReferenceIdeal.main_arg38))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x128 : Shape := ⟨2, ![30000, 128]⟩
abbrev S480000x128 : Shape := ⟨2, ![480000, 128]⟩
abbrev S500x300 : Shape := ⟨2, ![500, 300]⟩
abbrev S480000 : Shape := ⟨1, ![480000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S300x128 : Shape := ⟨2, ![300, 128]⟩
abbrev S_ : Shape := ⟨0, ![]⟩

class Facts : Prop where
  bcast_S_S30000x128 : S_.BroadcastsInDim S30000x128 (![] : Fin 0 → Fin S30000x128.rank)
  reducesTo_S30000x128_S_d0_1 : S30000x128.ReducesTo [0, 1] S_
  h_S_ : 0 < S_.numel
  bcast_S_S480000x128 : S_.BroadcastsInDim S480000x128 (![] : Fin 0 → Fin S480000x128.rank)
  reducesTo_S480000x128_S_d0_1 : S480000x128.ReducesTo [0, 1] S_
  bcast_S_S500x300 : S_.BroadcastsInDim S500x300 (![] : Fin 0 → Fin S500x300.rank)
  reducesTo_S500x300_S_d0_1 : S500x300.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S300x128 : S_.BroadcastsInDim S300x128 (![] : Fin 0 → Fin S300x128.rank)
  reducesTo_S300x128_S_d0_1 : S300x128.ReducesTo [0, 1] S_
  bcast_S_S480000 : S_.BroadcastsInDim S480000 (![] : Fin 0 → Fin S480000.rank)
  reducesTo_S480000_S_d0 : S480000.ReducesTo [0] S_

variable [Facts]

def fn_part11 {F : FTy → Type} [FloatOps F] (main_arg3 : IVec S480000 32) (main_arg4 : IVec S480000 32) (main_v187 : IVec S_ 1) : IVec S_ 1 :=
  let main_c_74 : IVec S_ 32 := constantI S_ 32 30000#32
  let main_v188 : IVec S480000 32 := broadcastInDim S480000 ![] bcast_S_S480000 main_c_74
  let main_v189 : IVec S480000 1 := cmpi .slt main_arg3 main_v188
  let main_c_75 : IVec S_ 1 := constantI S_ 1 1#1
  let main_v190 : IVec S_ 1 := (fun x v => Host.reduce IntOp.andi x v reducesTo_S480000_S_d0 h_S_) main_v189 main_c_75
  let main_v191 : IVec S_ 1 := andi main_v187 main_v190
  let main_c_76 : IVec S_ 32 := constantI S_ 32 0#32
  let main_v192 : IVec S480000 32 := broadcastInDim S480000 ![] bcast_S_S480000 main_c_76
  let main_v193 : IVec S480000 1 := cmpi .sge main_arg4 main_v192
  let main_c_77 : IVec S_ 1 := constantI S_ 1 1#1
  let main_v194 : IVec S_ 1 := (fun x v => Host.reduce IntOp.andi x v reducesTo_S480000_S_d0 h_S_) main_v193 main_c_77
  let main_v195 : IVec S_ 1 := andi main_v191 main_v194
  let main_c_78 : IVec S_ 32 := constantI S_ 32 30000#32
  let main_v196 : IVec S480000 32 := broadcastInDim S480000 ![] bcast_S_S480000 main_c_78
  let main_v197 : IVec S480000 1 := cmpi .slt main_arg4 main_v196
  let main_c_79 : IVec S_ 1 := constantI S_ 1 1#1
  let main_v198 : IVec S_ 1 := (fun x v => Host.reduce IntOp.andi x v reducesTo_S480000_S_d0 h_S_) main_v197 main_c_79
  let main_v199 : IVec S_ 1 := andi main_v195 main_v198
  main_v199

def fn_part10 {F : FTy → Type} [FloatOps F] (main_arg3 : IVec S480000 32) (main_arg4 : IVec S480000 32) (main_arg37 : FVec F S128x256 .f32) (main_arg38 : FVec F S256x128 .f32) (main_v168 : IVec S_ 1) (main_v169 : FVec F S128 .f32) (main_v170 : FVec F S128 .f32) : IVec S_ 1 :=
  let main_v171 : IVec S128 1 := cmpf .olt main_v169 main_v170
  let main_c_67 : IVec S_ 1 := constantI S_ 1 1#1
  let main_v172 : IVec S_ 1 := (fun x v => Host.reduce IntOp.andi x v reducesTo_S128_S_d0 h_S_) main_v171 main_c_67
  let main_v173 : IVec S_ 1 := andi main_v168 main_v172
  let main_v174 : FVec F S128x256 .f32 := Host.absf main_arg37
  let main_cst_68 : FVec F S_ .f32 := constant S_ .f32 0x7F800000#32
  let main_v175 : FVec F S128x256 .f32 := broadcastInDim S128x256 ![] bcast_S_S128x256 main_cst_68
  let main_v176 : IVec S128x256 1 := cmpf .olt main_v174 main_v175
  let main_c_69 : IVec S_ 1 := constantI S_ 1 1#1
  let main_v177 : IVec S_ 1 := (fun x v => Host.reduce IntOp.andi x v reducesTo_S128x256_S_d0_1 h_S_) main_v176 main_c_69
  let main_v178 : IVec S_ 1 := andi main_v173 main_v177
  let main_v179 : FVec F S256x128 .f32 := Host.absf main_arg38
  let main_cst_70 : FVec F S_ .f32 := constant S_ .f32 0x7F800000#32
  let main_v180 : FVec F S256x128 .f32 := broadcastInDim S256x128 ![] bcast_S_S256x128 main_cst_70
  let main_v181 : IVec S256x128 1 := cmpf .olt main_v179 main_v180
  let main_c_71 : IVec S_ 1 := constantI S_ 1 1#1
  let main_v182 : IVec S_ 1 := (fun x v => Host.reduce IntOp.andi x v reducesTo_S256x128_S_d0_1 h_S_) main_v181 main_c_71
  let main_v183 : IVec S_ 1 := andi main_v178 main_v182
  let main_c_72 : IVec S_ 32 := constantI S_ 32 0#32
  let main_v184 : IVec S480000 32 := broadcastInDim S480000 ![] bcast_S_S480000 main_c_72
  let main_v185 : IVec S480000 1 := cmpi .sge main_arg3 main_v184
  let main_c_73 : IVec S_ 1 := constantI S_ 1 1#1
  let main_v186 : IVec S_ 1 := (fun x v => Host.reduce IntOp.andi x v reducesTo_S480000_S_d0 h_S_) main_v185 main_c_73
  let main_v187 : IVec S_ 1 := andi main_v183 main_v186
  fn_part11 (F := F) main_arg3 main_arg4 main_v187

def fn_part9 {F : FTy → Type} [FloatOps F] (main_arg3 : IVec S480000 32) (main_arg4 : IVec S480000 32) (main_arg33 : FVec F S128 .f32) (main_arg34 : FVec F S128 .f32) (main_arg35 : FVec F S128 .f32) (main_arg36 : FVec F S128 .f32) (main_arg37 : FVec F S128x256 .f32) (main_arg38 : FVec F S256x128 .f32) (main_v153 : IVec S_ 1) : IVec S_ 1 :=
  let main_v154 : FVec F S128 .f32 := Host.absf main_arg33
  let main_cst_60 : FVec F S_ .f32 := constant S_ .f32 0x7F800000#32
  let main_v155 : FVec F S128 .f32 := broadcastInDim S128 ![] bcast_S_S128 main_cst_60
  let main_v156 : IVec S128 1 := cmpf .olt main_v154 main_v155
  let main_c_61 : IVec S_ 1 := constantI S_ 1 1#1
  let main_v157 : IVec S_ 1 := (fun x v => Host.reduce IntOp.andi x v reducesTo_S128_S_d0 h_S_) main_v156 main_c_61
  let main_v158 : IVec S_ 1 := andi main_v153 main_v157
  let main_v159 : FVec F S128 .f32 := Host.absf main_arg34
  let main_cst_62 : FVec F S_ .f32 := constant S_ .f32 0x7F800000#32
  let main_v160 : FVec F S128 .f32 := broadcastInDim S128 ![] bcast_S_S128 main_cst_62
  let main_v161 : IVec S128 1 := cmpf .olt main_v159 main_v160
  let main_c_63 : IVec S_ 1 := constantI S_ 1 1#1
  let main_v162 : IVec S_ 1 := (fun x v => Host.reduce IntOp.andi x v reducesTo_S128_S_d0 h_S_) main_v161 main_c_63
  let main_v163 : IVec S_ 1 := andi main_v158 main_v162
  let main_v164 : FVec F S128 .f32 := Host.absf main_arg35
  let main_cst_64 : FVec F S_ .f32 := constant S_ .f32 0x7F800000#32
  let main_v165 : FVec F S128 .f32 := broadcastInDim S128 ![] bcast_S_S128 main_cst_64
  let main_v166 : IVec S128 1 := cmpf .olt main_v164 main_v165
  let main_c_65 : IVec S_ 1 := constantI S_ 1 1#1
  let main_v167 : IVec S_ 1 := (fun x v => Host.reduce IntOp.andi x v reducesTo_S128_S_d0 h_S_) main_v166 main_c_65
  let main_v168 : IVec S_ 1 := andi main_v163 main_v167
  let main_v169 : FVec F S128 .f32 := Host.absf main_arg36
  let main_cst_66 : FVec F S_ .f32 := constant S_ .f32 0x7F800000#32
  let main_v170 : FVec F S128 .f32 := broadcastInDim S128 ![] bcast_S_S128 main_cst_66
  fn_part10 (F := F) main_arg3 main_arg4 main_arg37 main_arg38 main_v168 main_v169 main_v170

def fn_part8 {F : FTy → Type} [FloatOps F] (main_arg3 : IVec S480000 32) (main_arg4 : IVec S480000 32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v133 : IVec S_ 1) (main_v136 : IVec S128x128 1) : IVec S_ 1 :=
  let main_c_53 : IVec S_ 1 := constantI S_ 1 1#1
  let main_v137 : IVec S_ 1 := (fun x v => Host.reduce IntOp.andi x v reducesTo_S128x128_S_d0_1 h_S_) main_v136 main_c_53
  let main_v138 : IVec S_ 1 := andi main_v133 main_v137
  let main_v139 : FVec F S300x128 .f32 := Host.absf main_arg30
  let main_cst_54 : FVec F S_ .f32 := constant S_ .f32 0x7F800000#32
  let main_v140 : FVec F S300x128 .f32 := broadcastInDim S300x128 ![] bcast_S_S300x128 main_cst_54
  let main_v141 : IVec S300x128 1 := cmpf .olt main_v139 main_v140
  let main_c_55 : IVec S_ 1 := constantI S_ 1 1#1
  let main_v142 : IVec S_ 1 := (fun x v => Host.reduce IntOp.andi x v reducesTo_S300x128_S_d0_1 h_S_) main_v141 main_c_55
  let main_v143 : IVec S_ 1 := andi main_v138 main_v142
  let main_v144 : FVec F S300x128 .f32 := Host.absf main_arg31
  let main_cst_56 : FVec F S_ .f32 := constant S_ .f32 0x7F800000#32
  let main_v145 : FVec F S300x128 .f32 := broadcastInDim S300x128 ![] bcast_S_S300x128 main_cst_56
  let main_v146 : IVec S300x128 1 := cmpf .olt main_v144 main_v145
  let main_c_57 : IVec S_ 1 := constantI S_ 1 1#1
  let main_v147 : IVec S_ 1 := (fun x v => Host.reduce IntOp.andi x v reducesTo_S300x128_S_d0_1 h_S_) main_v146 main_c_57
  let main_v148 : IVec S_ 1 := andi main_v143 main_v147
  let main_v149 : FVec F S128x128 .f32 := Host.absf main_arg32
  let main_cst_58 : FVec F S_ .f32 := constant S_ .f32 0x7F800000#32
  let main_v150 : FVec F S128x128 .f32 := broadcastInDim S128x128 ![] bcast_S_S128x128 main_cst_58
  let main_v151 : IVec S128x128 1 := cmpf .olt main_v149 main_v150
  let main_c_59 : IVec S_ 1 := constantI S_ 1 1#1
  let main_v152 : IVec S_ 1 := (fun x v => Host.reduce IntOp.andi x v reducesTo_S128x128_S_d0_1 h_S_) main_v151 main_c_59
  let main_v153 : IVec S_ 1 := andi main_v148 main_v152
  fn_part9 (F := F) main_arg3 main_arg4 main_arg33 main_arg34 main_arg35 main_arg36 main_arg37 main_arg38 main_v153

def fn_part7 {F : FTy → Type} [FloatOps F] (main_arg3 : IVec S480000 32) (main_arg4 : IVec S480000 32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128 .f32 := Host.absf main_arg27
  let main_cst_48 : FVec F S_ .f32 := constant S_ .f32 0x7F800000#32
  let main_v125 : FVec F S128 .f32 := broadcastInDim S128 ![] bcast_S_S128 main_cst_48
  let main_v126 : IVec S128 1 := cmpf .olt main_v124 main_v125
  let main_c_49 : IVec S_ 1 := constantI S_ 1 1#1
  let main_v127 : IVec S_ 1 := (fun x v => Host.reduce IntOp.andi x v reducesTo_S128_S_d0 h_S_) main_v126 main_c_49
  let main_v128 : IVec S_ 1 := andi main_v123 main_v127
  let main_v129 : FVec F S128 .f32 := Host.absf main_arg28
  let main_cst_50 : FVec F S_ .f32 := constant S_ .f32 0x7F800000#32
  let main_v130 : FVec F S128 .f32 := broadcastInDim S128 ![] bcast_S_S128 main_cst_50
  let main_v131 : IVec S128 1 := cmpf .olt main_v129 main_v130
  let main_c_51 : IVec S_ 1 := constantI S_ 1 1#1
  let main_v132 : IVec S_ 1 := (fun x v => Host.reduce IntOp.andi x v reducesTo_S128_S_d0 h_S_) main_v131 main_c_51
  let main_v133 : IVec S_ 1 := andi main_v128 main_v132
  let main_v134 : FVec F S128x128 .f32 := Host.absf main_arg29
  let main_cst_52 : FVec F S_ .f32 := constant S_ .f32 0x7F800000#32
  let main_v135 : FVec F S128x128 .f32 := broadcastInDim S128x128 ![] bcast_S_S128x128 main_cst_52
  let main_v136 : IVec S128x128 1 := cmpf .olt main_v134 main_v135
  fn_part8 (F := F) main_arg3 main_arg4 main_arg30 main_arg31 main_arg32 main_arg33 main_arg34 main_arg35 main_arg36 main_arg37 main_arg38 main_v133 main_v136

def fn_part6 {F : FTy → Type} [FloatOps F] (main_arg3 : IVec S480000 32) (main_arg4 : IVec S480000 32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256x128 .f32 := Host.absf main_arg23
  let main_cst_40 : FVec F S_ .f32 := constant S_ .f32 0x7F800000#32
  let main_v105 : FVec F S256x128 .f32 := broadcastInDim S256x128 ![] bcast_S_S256x128 main_cst_40
  let main_v106 : IVec S256x128 1 := cmpf .olt main_v104 main_v105
  let main_c_41 : IVec S_ 1 := constantI S_ 1 1#1
  let main_v107 : IVec S_ 1 := (fun x v => Host.reduce IntOp.andi x v reducesTo_S256x128_S_d0_1 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128 .f32 := Host.absf main_arg25
  let main_cst_44 : FVec F S_ .f32 := constant S_ .f32 0x7F800000#32
  let main_v115 : FVec F S128 .f32 := broadcastInDim S128 ![] bcast_S_S128 main_cst_44
  let main_v116 : IVec S128 1 := cmpf .olt main_v114 main_v115
  let main_c_45 : IVec S_ 1 := constantI S_ 1 1#1
  let main_v117 : IVec S_ 1 := (fun x v => Host.reduce IntOp.andi x v reducesTo_S128_S_d0 h_S_) main_v116 main_c_45
  let main_v118 : IVec S_ 1 := andi main_v113 main_v117
  let main_v119 : FVec F S128 .f32 := Host.absf main_arg26
  fn_part7 (F := F) main_arg3 main_arg4 main_arg27 main_arg28 main_arg29 main_arg30 main_arg31 main_arg32 main_arg33 main_arg34 main_arg35 main_arg36 main_arg37 main_arg38 main_v118 main_v119

def fn_part5 {F : FTy → Type} [FloatOps F] (main_arg3 : IVec S480000 32) (main_arg4 : IVec S480000 32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v83 : IVec S_ 1) (main_v84 : FVec F S256x128 .f32) (main_cst_32 : FVec F S_ .f32) : IVec S_ 1 :=
  let main_v85 : FVec F S256x128 .f32 := broadcastInDim S256x128 ![] bcast_S_S256x128 main_cst_32
  let main_v86 : IVec S256x128 1 := cmpf .olt main_v84 main_v85
  let main_c_33 : IVec S_ 1 := constantI S_ 1 1#1
  let main_v87 : IVec S_ 1 := (fun x v => Host.reduce IntOp.andi x v reducesTo_S256x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x256 .f32 := Host.absf main_arg21
  let main_cst_36 : FVec F S_ .f32 := constant S_ .f32 0x7F800000#32
  let main_v95 : FVec F S128x256 .f32 := broadcastInDim S128x256 ![] bcast_S_S128x256 main_cst_36
  let main_v96 : IVec S128x256 1 := cmpf .olt main_v94 main_v95
  let main_c_37 : IVec S_ 1 := constantI S_ 1 1#1
  let main_v97 : IVec S_ 1 := (fun x v => Host.reduce IntOp.andi x v reducesTo_S128x256_S_d0_1 h_S_) main_v96 main_c_37
  let main_v98 : IVec S_ 1 := andi main_v93 main_v97
  let main_v99 : FVec F S256 .f32 := Host.absf main_arg22
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg3 main_arg4 main_arg23 main_arg24 main_arg25 main_arg26 main_arg27 main_arg28 main_arg29 main_arg30 main_arg31 main_arg32 main_arg33 main_arg34 main_arg35 main_arg36 main_arg37 main_arg38 main_v98 main_v101 main_c_39

def fn_part4 {F : FTy → Type} [FloatOps F] (main_arg3 : IVec S480000 32) (main_arg4 : IVec S480000 32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x256 .f32 := Host.absf main_arg17
  let main_cst_28 : FVec F S_ .f32 := constant S_ .f32 0x7F800000#32
  let main_v75 : FVec F S128x256 .f32 := broadcastInDim S128x256 ![] bcast_S_S128x256 main_cst_28
  let main_v76 : IVec S128x256 1 := cmpf .olt main_v74 main_v75
  let main_c_29 : IVec S_ 1 := constantI S_ 1 1#1
  let main_v77 : IVec S_ 1 := (fun x v => Host.reduce IntOp.andi x v reducesTo_S128x256_S_d0_1 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256x128 .f32 := Host.absf main_arg19
  let main_cst_32 : FVec F S_ .f32 := constant S_ .f32 0x7F800000#32
  fn_part5 (F := F) main_arg3 main_arg4 main_arg20 main_arg21 main_arg22 main_arg23 main_arg24 main_arg25 main_arg26 main_arg27 main_arg28 main_arg29 main_arg30 main_arg31 main_arg32 main_arg33 main_arg34 main_arg35 main_arg36 main_arg37 main_arg38 main_v83 main_v84 main_cst_32

def fn_part3 {F : FTy → Type} [FloatOps F] (main_arg3 : IVec S480000 32) (main_arg4 : IVec S480000 32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg3 main_arg4 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v63 main_v67

def fn_part2 {F : FTy → Type} [FloatOps F] (main_arg3 : IVec S480000 32) (main_arg4 : IVec S480000 32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg3 main_arg4 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v48 main_v49 main_v50

def fn_part1 {F : FTy → Type} [FloatOps F] (main_arg3 : IVec S480000 32) (main_arg4 : IVec S480000 32) (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg3 main_arg4 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v33

def fn {F : FTy → Type} [FloatOps F] (main_arg0 : FVec F S30000x128 .f32) (main_arg1 : FVec F S480000x128 .f32) (main_arg2 : FVec F S500x300 .f32) (main_arg3 : IVec S480000 32) (main_arg4 : IVec S480000 32) (main_arg5 : FVec F S128x128 .f32) (main_arg6 : FVec F S128x128 .f32) (main_arg7 : FVec F S128x128 .f32) (main_arg8 : FVec F S128x128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x256 .f32) (main_arg18 : FVec F S256 .f32) (main_arg19 : FVec F S256x128 .f32) (main_arg20 : FVec F S128 .f32) (main_arg21 : FVec F S128x256 .f32) (main_arg22 : FVec F S256 .f32) (main_arg23 : FVec F S256x128 .f32) (main_arg24 : FVec F S128 .f32) (main_arg25 : FVec F S128 .f32) (main_arg26 : FVec F S128 .f32) (main_arg27 : FVec F S128 .f32) (main_arg28 : FVec F S128 .f32) (main_arg29 : FVec F S128x128 .f32) (main_arg30 : FVec F S300x128 .f32) (main_arg31 : FVec F S300x128 .f32) (main_arg32 : FVec F S128x128 .f32) (main_arg33 : FVec F S128 .f32) (main_arg34 : FVec F S128 .f32) (main_arg35 : FVec F S128 .f32) (main_arg36 : FVec F S128 .f32) (main_arg37 : FVec F S128x256 .f32) (main_arg38 : FVec F S256x128 .f32) : IVec S_ 1 :=
  let main_v0 : FVec F S30000x128 .f32 := Host.absf main_arg0
  let main_cst : FVec F S_ .f32 := constant S_ .f32 0x7F800000#32
  let main_v1 : FVec F S30000x128 .f32 := broadcastInDim S30000x128 ![] bcast_S_S30000x128 main_cst
  let main_v2 : IVec S30000x128 1 := cmpf .olt main_v0 main_v1
  let main_c : IVec S_ 1 := constantI S_ 1 1#1
  let main_v3 : IVec S_ 1 := (fun x v => Host.reduce IntOp.andi x v reducesTo_S30000x128_S_d0_1 h_S_) main_v2 main_c
  let main_v4 : FVec F S480000x128 .f32 := Host.absf main_arg1
  let main_cst_0 : FVec F S_ .f32 := constant S_ .f32 0x7F800000#32
  let main_v5 : FVec F S480000x128 .f32 := broadcastInDim S480000x128 ![] bcast_S_S480000x128 main_cst_0
  let main_v6 : IVec S480000x128 1 := cmpf .olt main_v4 main_v5
  let main_c_1 : IVec S_ 1 := constantI S_ 1 1#1
  let main_v7 : IVec S_ 1 := (fun x v => Host.reduce IntOp.andi x v reducesTo_S480000x128_S_d0_1 h_S_) main_v6 main_c_1
  let main_v8 : IVec S_ 1 := andi main_v3 main_v7
  let main_v9 : FVec F S500x300 .f32 := Host.absf main_arg2
  let main_cst_2 : FVec F S_ .f32 := constant S_ .f32 0x7F800000#32
  let main_v10 : FVec F S500x300 .f32 := broadcastInDim S500x300 ![] bcast_S_S500x300 main_cst_2
  let main_v11 : IVec S500x300 1 := cmpf .olt main_v9 main_v10
  let main_c_3 : IVec S_ 1 := constantI S_ 1 1#1
  let main_v12 : IVec S_ 1 := (fun x v => Host.reduce IntOp.andi x v reducesTo_S500x300_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg3 main_arg4 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_arg37 main_arg38 main_v13 main_v16
-- ==== Kernel.lean ====
abbrev S30000x128 : Shape := ⟨2, ![30000, 128]⟩
abbrev S480000x128 : Shape := ⟨2, ![480000, 128]⟩
abbrev S500x300 : Shape := ⟨2, ![500, 300]⟩
abbrev S480000 : Shape := ⟨1, ![480000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S300x128 : Shape := ⟨2, ![300, 128]⟩
abbrev S128x384 : Shape := ⟨2, ![128, 384]⟩
abbrev S30000x384 : Shape := ⟨2, ![30000, 384]⟩
abbrev S3000x128 : Shape := ⟨2, ![3000, 128]⟩
abbrev S3000x384 : Shape := ⟨2, ![3000, 384]⟩
abbrev S_ : Shape := ⟨0, ![]⟩
abbrev S480000x1 : Shape := ⟨2, ![480000, 1]⟩
abbrev S1 : Shape := ⟨1, ![1]⟩
abbrev S1x1 : Shape := ⟨2, ![1, 1]⟩
abbrev S480000x8 : Shape := ⟨2, ![480000, 8]⟩
abbrev S3000x8 : Shape := ⟨2, ![3000, 8]⟩
abbrev S3000x16 : Shape := ⟨2, ![3000, 16]⟩
abbrev S3000 : Shape := ⟨1, ![3000]⟩
abbrev S3000x1 : Shape := ⟨2, ![3000, 1]⟩
abbrev S1x128 : Shape := ⟨2, ![1, 128]⟩
abbrev S3000x256 : Shape := ⟨2, ![3000, 256]⟩
abbrev S1x256 : Shape := ⟨2, ![1, 256]⟩
abbrev S30000x8 : Shape := ⟨2, ![30000, 8]⟩
abbrev S30000x8x16 : Shape := ⟨3, ![30000, 8, 16]⟩
abbrev S30000 : Shape := ⟨1, ![30000]⟩
abbrev S30000x1 : Shape := ⟨2, ![30000, 1]⟩
abbrev S30000x256 : Shape := ⟨2, ![30000, 256]⟩
abbrev S500x128 : Shape := ⟨2, ![500, 128]⟩
abbrev S128x500 : Shape := ⟨2, ![128, 500]⟩
abbrev S30000x500 : Shape := ⟨2, ![30000, 500]⟩
abbrev S1x30000x500 : Shape := ⟨3, ![1, 30000, 500]⟩

abbrev nBuf : Space → Nat
  | .hbm => 295
  | .vmem => 30
  | .smem => 0
  | _ => 0

abbrev hbmTy0_0 (i : Nat) : BufTy := match i % 128 with
  | 0 => ⟨S30000x128, .f32⟩
  | 1 => ⟨S480000x128, .f32⟩
  | 2 => ⟨S500x300, .f32⟩
  | 3 => ⟨S480000, .i32⟩
  | 4 => ⟨S480000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x256, .f32⟩
  | 18 => ⟨S256, .f32⟩
  | 19 => ⟨S256x128, .f32⟩
  | 20 => ⟨S128, .f32⟩
  | 21 => ⟨S128x256, .f32⟩
  | 22 => ⟨S256, .f32⟩
  | 23 => ⟨S256x128, .f32⟩
  | 24 => ⟨S128, .f32⟩
  | 25 => ⟨S128, .f32⟩
  | 26 => ⟨S128, .f32⟩
  | 27 => ⟨S128, .f32⟩
  | 28 => ⟨S128, .f32⟩
  | 29 => ⟨S128x128, .f32⟩
  | 30 => ⟨S300x128, .f32⟩
  | 31 => ⟨S300x128, .f32⟩
  | 32 => ⟨S128x128, .f32⟩
  | 33 => ⟨S128, .f32⟩
  | 34 => ⟨S128, .f32⟩
  | 35 => ⟨S128, .f32⟩
  | 36 => ⟨S128, .f32⟩
  | 37 => ⟨S128x256, .f32⟩
  | 38 => ⟨S256x128, .f32⟩
  | 39 => ⟨S128x384, .f32⟩
  | 40 => ⟨S30000x384, .f32⟩
  | 41 => ⟨S30000x128, .f32⟩
  | 42 => ⟨S30000x128, .f32⟩
  | 43 => ⟨S30000x128, .f32⟩
  | 44 => ⟨S_, .i32⟩
  | 45 => ⟨S480000, .i32⟩
  | 46 => ⟨S480000, .i1⟩
  | 47 => ⟨S_, .i32⟩
  | 48 => ⟨S480000, .i32⟩
  | 49 => ⟨S480000, .i32⟩
  | 50 => ⟨S480000, .i32⟩
  | 51 => ⟨S480000x1, .i32⟩
  | 52 => ⟨S1, .i32⟩
  | 53 => ⟨S_, .i32⟩
  | 54 => ⟨S480000x1, .i32⟩
  | 55 => ⟨S480000x1, .i1⟩
  | 56 => ⟨S1x1, .i32⟩
  | 57 => ⟨S480000x1, .i32⟩
  | 58 => ⟨S480000x1, .i1⟩
  | 59 => ⟨S480000x1, .i1⟩
  | 60 => ⟨S_, .i1⟩
  | 61 => ⟨S480000, .i1⟩
  | 62 => ⟨S480000x128, .f32⟩
  | 63 => ⟨S480000x128, .i1⟩
  | 64 => ⟨S_, .f32⟩
  | 65 => ⟨S480000x128, .f32⟩
  | 66 => ⟨S480000x128, .f32⟩
  | 67 => ⟨S_, .i32⟩
  | 68 => ⟨S480000, .i32⟩
  | 69 => ⟨S480000, .i1⟩
  | 70 => ⟨S_, .i32⟩
  | 71 => ⟨S480000, .i32⟩
  | 72 => ⟨S480000, .i32⟩
  | 73 => ⟨S480000, .i32⟩
  | 74 => ⟨S480000x1, .i32⟩
  | 75 => ⟨S1, .i32⟩
  | 76 => ⟨S_, .i32⟩
  | 77 => ⟨S480000x1, .i32⟩
  | 78 => ⟨S480000x1, .i1⟩
  | 79 => ⟨S1x1, .i32⟩
  | 80 => ⟨S480000x1, .i32⟩
  | 81 => ⟨S480000x1, .i1⟩
  | 82 => ⟨S480000x1, .i1⟩
  | 83 => ⟨S_, .i1⟩
  | 84 => ⟨S480000, .i1⟩
  | 85 => ⟨S480000x128, .f32⟩
  | 86 => ⟨S480000x128, .i1⟩
  | 87 => ⟨S_, .f32⟩
  | 88 => ⟨S480000x128, .f32⟩
  | 89 => ⟨S480000x128, .f32⟩
  | 90 => ⟨S_, .i32⟩
  | 91 => ⟨S480000, .i32⟩
  | 92 => ⟨S480000, .i1⟩
  | 93 => ⟨S_, .i32⟩
  | 94 => ⟨S480000, .i32⟩
  | 95 => ⟨S480000, .i32⟩
  | 96 => ⟨S480000, .i32⟩
  | 97 => ⟨S480000x1, .i32⟩
  | 98 => ⟨S1, .i32⟩
  | 99 => ⟨S_, .i32⟩
  | 100 => ⟨S480000x1, .i32⟩
  | 101 => ⟨S480000x1, .i1⟩
  | 102 => ⟨S1x1, .i32⟩
  | 103 => ⟨S480000x1, .i32⟩
  | 104 => ⟨S480000x1, .i1⟩
  | 105 => ⟨S480000x1, .i1⟩
  | 106 => ⟨S_, .i1⟩
  | 107 => ⟨S480000, .i1⟩
  | 108 => ⟨S480000x128, .f32⟩
  | 109 => ⟨S480000x128, .i1⟩
  | 110 => ⟨S_, .f32⟩
  | 111 => ⟨S480000x128, .f32⟩
  | 112 => ⟨S480000x128, .f32⟩
  | 113 => ⟨S480000x128, .f32⟩
  | 114 => ⟨S480000x8, .f32⟩
  | 115 => ⟨S480000x128, .f32⟩
  | 116 => ⟨S_, .f32⟩
  | 117 => ⟨S30000x128, .f32⟩
  | 118 => ⟨S480000x1, .i32⟩
  | 119 => ⟨S30000x128, .f32⟩
  | 120 => ⟨S_, .f32⟩
  | 121 => ⟨S30000x8, .f32⟩
  | 122 => ⟨S480000x1, .i32⟩
  | 123 => ⟨S30000x8, .f32⟩
  | 124 => ⟨S30000x8x16, .f32⟩
  | 125 => ⟨S30000x128, .f32⟩
  | 126 => ⟨S_, .f32⟩
  | 127 => ⟨S30000x128, .f32⟩
  | _ => ⟨S30000x128, .f32⟩

abbrev hbmTy0_1 (i : Nat) : BufTy := match i % 128 with
  | 0 => ⟨S30000x128, .f32⟩
  | 1 => ⟨S30000x128, .f32⟩
  | 2 => ⟨S30000x128, .f32⟩
  | 3 => ⟨S1x128, .f32⟩
  | 4 => ⟨S30000x128, .f32⟩
  | 5 => ⟨S30000x128, .f32⟩
  | 6 => ⟨S30000x128, .f32⟩
  | 7 => ⟨S_, .f32⟩
  | 8 => ⟨S30000, .f32⟩
  | 9 => ⟨S30000x1, .f32⟩
  | 10 => ⟨S_, .f32⟩
  | 11 => ⟨S30000x1, .f32⟩
  | 12 => ⟨S30000x1, .f32⟩
  | 13 => ⟨S30000x128, .f32⟩
  | 14 => ⟨S30000x128, .f32⟩
  | 15 => ⟨S30000x128, .f32⟩
  | 16 => ⟨S_, .f32⟩
  | 17 => ⟨S30000, .f32⟩
  | 18 => ⟨S30000x1, .f32⟩
  | 19 => ⟨S_, .f32⟩
  | 20 => ⟨S30000x1, .f32⟩
  | 21 => ⟨S30000x1, .f32⟩
  | 22 => ⟨S30000x128, .f32⟩
  | 23 => ⟨S30000x128, .f32⟩
  | 24 => ⟨S_, .f32⟩
  | 25 => ⟨S30000x1, .f32⟩
  | 26 => ⟨S30000x1, .f32⟩
  | 27 => ⟨S30000x1, .f32⟩
  | 28 => ⟨S30000x128, .f32⟩
  | 29 => ⟨S30000x128, .f32⟩
  | 30 => ⟨S1x128, .f32⟩
  | 31 => ⟨S30000x128, .f32⟩
  | 32 => ⟨S30000x128, .f32⟩
  | 33 => ⟨S1x128, .f32⟩
  | 34 => ⟨S30000x128, .f32⟩
  | 35 => ⟨S30000x128, .f32⟩
  | 36 => ⟨S30000x256, .f32⟩
  | 37 => ⟨S1x256, .f32⟩
  | 38 => ⟨S30000x256, .f32⟩
  | 39 => ⟨S30000x256, .f32⟩
  | 40 => ⟨S_, .f32⟩
  | 41 => ⟨S30000x256, .f32⟩
  | 42 => ⟨S30000x256, .f32⟩
  | 43 => ⟨S30000x128, .f32⟩
  | 44 => ⟨S1x128, .f32⟩
  | 45 => ⟨S30000x128, .f32⟩
  | 46 => ⟨S30000x128, .f32⟩
  | 47 => ⟨S30000x128, .f32⟩
  | 48 => ⟨S_, .f32⟩
  | 49 => ⟨S30000, .f32⟩
  | 50 => ⟨S30000x1, .f32⟩
  | 51 => ⟨S_, .f32⟩
  | 52 => ⟨S30000x1, .f32⟩
  | 53 => ⟨S30000x1, .f32⟩
  | 54 => ⟨S30000x128, .f32⟩
  | 55 => ⟨S30000x128, .f32⟩
  | 56 => ⟨S30000x128, .f32⟩
  | 57 => ⟨S_, .f32⟩
  | 58 => ⟨S30000, .f32⟩
  | 59 => ⟨S30000x1, .f32⟩
  | 60 => ⟨S_, .f32⟩
  | 61 => ⟨S30000x1, .f32⟩
  | 62 => ⟨S30000x1, .f32⟩
  | 63 => ⟨S30000x128, .f32⟩
  | 64 => ⟨S30000x128, .f32⟩
  | 65 => ⟨S_, .f32⟩
  | 66 => ⟨S30000x1, .f32⟩
  | 67 => ⟨S30000x1, .f32⟩
  | 68 => ⟨S30000x1, .f32⟩
  | 69 => ⟨S30000x128, .f32⟩
  | 70 => ⟨S30000x128, .f32⟩
  | 71 => ⟨S1x128, .f32⟩
  | 72 => ⟨S30000x128, .f32⟩
  | 73 => ⟨S30000x128, .f32⟩
  | 74 => ⟨S1x128, .f32⟩
  | 75 => ⟨S30000x128, .f32⟩
  | 76 => ⟨S30000x128, .f32⟩
  | 77 => ⟨S30000x128, .f32⟩
  | 78 => ⟨S500x128, .f32⟩
  | 79 => ⟨S500x128, .f32⟩
  | 80 => ⟨S128x500, .f32⟩
  | 81 => ⟨S30000x500, .f32⟩
  | 82 => ⟨S_, .f32⟩
  | 83 => ⟨S30000x500, .f32⟩
  | 84 => ⟨S30000x500, .f32⟩
  | 85 => ⟨S_, .f32⟩
  | 86 => ⟨S30000, .f32⟩
  | 87 => ⟨S_, .f32⟩
  | 88 => ⟨S30000, .f32⟩
  | 89 => ⟨S30000, .f32⟩
  | 90 => ⟨S30000x1, .f32⟩
  | 91 => ⟨S30000x500, .f32⟩
  | 92 => ⟨S30000x500, .f32⟩
  | 93 => ⟨S30000x500, .f32⟩
  | 94 => ⟨S_, .f32⟩
  | 95 => ⟨S30000, .f32⟩
  | 96 => ⟨S30000x1, .f32⟩
  | 97 => ⟨S30000x500, .f32⟩
  | 98 => ⟨S30000x500, .f32⟩
  | 99 => ⟨S30000x128, .f32⟩
  | 100 => ⟨S30000x128, .f32⟩
  | 101 => ⟨S30000x128, .f32⟩
  | 102 => ⟨S_, .f32⟩
  | 103 => ⟨S30000, .f32⟩
  | 104 => ⟨S30000x1, .f32⟩
  | 105 => ⟨S_, .f32⟩
  | 106 => ⟨S30000x1, .f32⟩
  | 107 => ⟨S30000x1, .f32⟩
  | 108 => ⟨S30000x128, .f32⟩
  | 109 => ⟨S30000x128, .f32⟩
  | 110 => ⟨S30000x128, .f32⟩
  | 111 => ⟨S_, .f32⟩
  | 112 => ⟨S30000, .f32⟩
  | 113 => ⟨S30000x1, .f32⟩
  | 114 => ⟨S_, .f32⟩
  | 115 => ⟨S30000x1, .f32⟩
  | 116 => ⟨S30000x1, .f32⟩
  | 117 => ⟨S30000x128, .f32⟩
  | 118 => ⟨S30000x128, .f32⟩
  | 119 => ⟨S_, .f32⟩
  | 120 => ⟨S30000x1, .f32⟩
  | 121 => ⟨S30000x1, .f32⟩
  | 122 => ⟨S30000x1, .f32⟩
  | 123 => ⟨S30000x128, .f32⟩
  | 124 => ⟨S30000x128, .f32⟩
  | 125 => ⟨S1x128, .f32⟩
  | 126 => ⟨S30000x128, .f32⟩
  | 127 => ⟨S30000x128, .f32⟩
  | _ => ⟨S30000x128, .f32⟩

abbrev hbmTy0_2 (i : Nat) : BufTy := match i % 128 with
  | 0 => ⟨S1x128, .f32⟩
  | 1 => ⟨S30000x128, .f32⟩
  | 2 => ⟨S30000x128, .f32⟩
  | 3 => ⟨S30000x256, .f32⟩
  | 4 => ⟨S_, .f32⟩
  | 5 => ⟨S30000x256, .f32⟩
  | 6 => ⟨S30000x256, .f32⟩
  | 7 => ⟨S30000x128, .f32⟩
  | 8 => ⟨S30000x128, .f32⟩
  | 9 => ⟨S_, .f32⟩
  | 10 => ⟨S30000, .f32⟩
  | 11 => ⟨S30000x1, .f32⟩
  | 12 => ⟨S_, .f32⟩
  | 13 => ⟨S30000x1, .f32⟩
  | 14 => ⟨S30000x1, .f32⟩
  | 15 => ⟨S30000x128, .f32⟩
  | 16 => ⟨S30000x128, .f32⟩
  | 17 => ⟨S30000x128, .f32⟩
  | 18 => ⟨S_, .f32⟩
  | 19 => ⟨S30000, .f32⟩
  | 20 => ⟨S30000x1, .f32⟩
  | 21 => ⟨S_, .f32⟩
  | 22 => ⟨S30000x1, .f32⟩
  | 23 => ⟨S30000x1, .f32⟩
  | 24 => ⟨S30000x128, .f32⟩
  | 25 => ⟨S30000x128, .f32⟩
  | 26 => ⟨S_, .f32⟩
  | 27 => ⟨S30000x1, .f32⟩
  | 28 => ⟨S30000x1, .f32⟩
  | 29 => ⟨S30000x1, .f32⟩
  | 30 => ⟨S30000x128, .f32⟩
  | 31 => ⟨S30000x128, .f32⟩
  | 32 => ⟨S1x128, .f32⟩
  | 33 => ⟨S30000x128, .f32⟩
  | 34 => ⟨S30000x128, .f32⟩
  | 35 => ⟨S1x128, .f32⟩
  | 36 => ⟨S30000x128, .f32⟩
  | 37 => ⟨S30000x128, .f32⟩
  | 38 => ⟨S1x30000x500, .f32⟩
  | _ => ⟨S30000x128, .f32⟩

abbrev hbmTy (i : Nat) : BufTy := match i / 128 with
  | 0 => hbmTy0_0 i
  | 1 => hbmTy0_1 i
  | 2 => hbmTy0_2 i
  | _ => ⟨S30000x128, .f32⟩

abbrev bufTy : (tb : Table) → Fin (tcTables nBuf tb) → BufTy
  | .hbm, ⟨i, _⟩ => hbmTy i
  | .local _ .vmem, ⟨0, _⟩ => ⟨S3000x128, .f32⟩
  | .local _ .vmem, ⟨1, _⟩ => ⟨S3000x128, .f32⟩
  | .local _ .vmem, ⟨2, _⟩ => ⟨S128x384, .f32⟩
  | .local _ .vmem, ⟨3, _⟩ => ⟨S3000x384, .f32⟩
  | .local _ .vmem, ⟨4, _⟩ => ⟨S3000x384, .f32⟩
  | .local _ .vmem, ⟨5, _⟩ => ⟨S3000x128, .f32⟩
  | .local _ .vmem, ⟨6, _⟩ => ⟨S3000x128, .f32⟩
  | .local _ .vmem, ⟨7, _⟩ => ⟨S3000x128, .f32⟩
  | .local _ .vmem, ⟨8, _⟩ => ⟨S3000x128, .f32⟩
  | .local _ .vmem, ⟨9, _⟩ => ⟨S3000x128, .f32⟩
  | .local _ .vmem, ⟨10, _⟩ => ⟨S3000x128, .f32⟩
  | .local _ .vmem, ⟨11, _⟩ => ⟨S3000x128, .f32⟩
  | .local _ .vmem, ⟨12, _⟩ => ⟨S3000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S128, .f32⟩
  | .local _ .vmem, ⟨17, _⟩ => ⟨S128, .f32⟩
  | .local _ .vmem, ⟨18, _⟩ => ⟨S128x256, .f32⟩
  | .local _ .vmem, ⟨19, _⟩ => ⟨S256, .f32⟩
  | .local _ .vmem, ⟨20, _⟩ => ⟨S256x128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S3000x128, .f32⟩
  | .local _ .vmem, ⟨25, _⟩ => ⟨S3000x128, .f32⟩
  | .local _ .vmem, ⟨26, _⟩ => ⟨S3000x8, .f32⟩
  | .local _ .vmem, ⟨27, _⟩ => ⟨S3000x8, .f32⟩
  | .local _ .vmem, ⟨28, _⟩ => ⟨S3000x128, .f32⟩
  | .local _ .vmem, ⟨29, _⟩ => ⟨S3000x128, .f32⟩
  | _, _ => ⟨S30000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_call0_c : Ref sig .tc := ⟨.hbm, 44, rfl⟩
abbrev main_call0_v0 : Ref sig .tc := ⟨.hbm, 45, rfl⟩
abbrev main_call0_v1 : Ref sig .tc := ⟨.hbm, 46, rfl⟩
abbrev main_call0_c_0 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_call0_v5 : Ref sig .tc := ⟨.hbm, 51, rfl⟩
abbrev main_call0_c_1 : Ref sig .tc := ⟨.hbm, 52, rfl⟩
abbrev main_call0_c_2 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_v9 : Ref sig .tc := ⟨.hbm, 57, rfl⟩
abbrev main_call0_v10 : Ref sig .tc := ⟨.hbm, 58, rfl⟩
abbrev main_call0_v11 : Ref sig .tc := ⟨.hbm, 59, rfl⟩
abbrev main_call0_c_3 : Ref sig .tc := ⟨.hbm, 60, rfl⟩
abbrev main_call0_v12 : Ref sig .tc := ⟨.hbm, 61, rfl⟩
abbrev main_call0_v13 : Ref sig .tc := ⟨.hbm, 62, rfl⟩
abbrev main_call0_v14 : Ref sig .tc := ⟨.hbm, 63, rfl⟩
abbrev main_call0_cst : Ref sig .tc := ⟨.hbm, 64, rfl⟩
abbrev main_call0_v15 : Ref sig .tc := ⟨.hbm, 65, rfl⟩
abbrev main_v5 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v6 : Ref sig .tc := ⟨.hbm, 89, rfl⟩
abbrev main_call2_c : Ref sig .tc := ⟨.hbm, 90, rfl⟩
abbrev main_call2_v0 : Ref sig .tc := ⟨.hbm, 91, rfl⟩
abbrev main_call2_v1 : Ref sig .tc := ⟨.hbm, 92, rfl⟩
abbrev main_call2_c_0 : Ref sig .tc := ⟨.hbm, 93, rfl⟩
abbrev main_call2_v2 : Ref sig .tc := ⟨.hbm, 94, rfl⟩
abbrev main_call2_v3 : Ref sig .tc := ⟨.hbm, 95, rfl⟩
abbrev main_call2_v4 : Ref sig .tc := ⟨.hbm, 96, rfl⟩
abbrev main_call2_v5 : Ref sig .tc := ⟨.hbm, 97, rfl⟩
abbrev main_call2_c_1 : Ref sig .tc := ⟨.hbm, 98, rfl⟩
abbrev main_call2_c_2 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_c_3 : Ref sig .tc := ⟨.hbm, 106, rfl⟩
abbrev main_call2_v12 : Ref sig .tc := ⟨.hbm, 107, rfl⟩
abbrev main_call2_v13 : Ref sig .tc := ⟨.hbm, 108, rfl⟩
abbrev main_call2_v14 : Ref sig .tc := ⟨.hbm, 109, rfl⟩
abbrev main_call2_cst : Ref sig .tc := ⟨.hbm, 110, rfl⟩
abbrev main_call2_v15 : Ref sig .tc := ⟨.hbm, 111, rfl⟩
abbrev main_v7 : Ref sig .tc := ⟨.hbm, 112, rfl⟩
abbrev main_v8_0 : Ref sig .tc := ⟨.hbm, 113, rfl⟩
abbrev main_v8_1 : Ref sig .tc := ⟨.hbm, 114, rfl⟩
abbrev main_v8_2 : Ref sig .tc := ⟨.hbm, 115, rfl⟩
abbrev main_cst : Ref sig .tc := ⟨.hbm, 116, rfl⟩
abbrev main_v9 : Ref sig .tc := ⟨.hbm, 117, rfl⟩
abbrev main_v10 : Ref sig .tc := ⟨.hbm, 118, rfl⟩
abbrev main_v11 : Ref sig .tc := ⟨.hbm, 119, rfl⟩
abbrev main_cst_0 : Ref sig .tc := ⟨.hbm, 120, rfl⟩
abbrev main_v12 : Ref sig .tc := ⟨.hbm, 121, rfl⟩
abbrev main_v13 : Ref sig .tc := ⟨.hbm, 122, rfl⟩
abbrev main_v14 : Ref sig .tc := ⟨.hbm, 123, rfl⟩
abbrev main_v15 : Ref sig .tc := ⟨.hbm, 124, rfl⟩
abbrev main_v16 : Ref sig .tc := ⟨.hbm, 125, rfl⟩
abbrev main_cst_1 : Ref sig .tc := ⟨.hbm, 126, rfl⟩
abbrev main_v17 : Ref sig .tc := ⟨.hbm, 127, rfl⟩
abbrev main_v18 : Ref sig .tc := ⟨.hbm, 128, rfl⟩
abbrev main_v19 : Ref sig .tc := ⟨.hbm, 129, rfl⟩
abbrev main_v20 : Ref sig .tc := ⟨.hbm, 130, rfl⟩
abbrev main_v21 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_cst_2 : Ref sig .tc := ⟨.hbm, 135, rfl⟩
abbrev main_v25 : Ref sig .tc := ⟨.hbm, 136, rfl⟩
abbrev main_v26 : Ref sig .tc := ⟨.hbm, 137, rfl⟩
abbrev main_cst_3 : Ref sig .tc := ⟨.hbm, 138, rfl⟩
abbrev main_v27 : Ref sig .tc := ⟨.hbm, 139, rfl⟩
abbrev main_v28 : Ref sig .tc := ⟨.hbm, 140, rfl⟩
abbrev main_v29 : Ref sig .tc := ⟨.hbm, 141, rfl⟩
abbrev main_v30 : Ref sig .tc := ⟨.hbm, 142, rfl⟩
abbrev main_v31 : Ref sig .tc := ⟨.hbm, 143, rfl⟩
abbrev main_cst_4 : Ref sig .tc := ⟨.hbm, 144, rfl⟩
abbrev main_v32 : Ref sig .tc := ⟨.hbm, 145, rfl⟩
abbrev main_v33 : Ref sig .tc := ⟨.hbm, 146, rfl⟩
abbrev main_cst_5 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_cst_6 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_v46 : Ref sig .tc := ⟨.hbm, 161, rfl⟩
abbrev main_v47 : Ref sig .tc := ⟨.hbm, 162, rfl⟩
abbrev main_v48 : Ref sig .tc := ⟨.hbm, 163, rfl⟩
abbrev main_v49 : Ref sig .tc := ⟨.hbm, 164, rfl⟩
abbrev main_v50 : Ref sig .tc := ⟨.hbm, 165, rfl⟩
abbrev main_v51 : Ref sig .tc := ⟨.hbm, 166, rfl⟩
abbrev main_v52 : Ref sig .tc := ⟨.hbm, 167, rfl⟩
abbrev main_call3_cst : Ref sig .tc := ⟨.hbm, 168, rfl⟩
abbrev main_call3_v0 : Ref sig .tc := ⟨.hbm, 169, rfl⟩
abbrev main_v53 : Ref sig .tc := ⟨.hbm, 170, rfl⟩
abbrev main_v54 : Ref sig .tc := ⟨.hbm, 171, rfl⟩
abbrev main_v55 : Ref sig .tc := ⟨.hbm, 172, rfl⟩
abbrev main_v56 : Ref sig .tc := ⟨.hbm, 173, rfl⟩
abbrev main_v57 : Ref sig .tc := ⟨.hbm, 174, rfl⟩
abbrev main_v58 : Ref sig .tc := ⟨.hbm, 175, rfl⟩
abbrev main_cst_7 : Ref sig .tc := ⟨.hbm, 176, rfl⟩
abbrev main_v59 : Ref sig .tc := ⟨.hbm, 177, rfl⟩
abbrev main_v60 : Ref sig .tc := ⟨.hbm, 178, rfl⟩
abbrev main_cst_8 : Ref sig .tc := ⟨.hbm, 179, rfl⟩
abbrev main_v61 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_cst_9 : Ref sig .tc := ⟨.hbm, 185, rfl⟩
abbrev main_v66 : Ref sig .tc := ⟨.hbm, 186, rfl⟩
abbrev main_v67 : Ref sig .tc := ⟨.hbm, 187, rfl⟩
abbrev main_cst_10 : Ref sig .tc := ⟨.hbm, 188, rfl⟩
abbrev main_v68 : Ref sig .tc := ⟨.hbm, 189, rfl⟩
abbrev main_v69 : Ref sig .tc := ⟨.hbm, 190, rfl⟩
abbrev main_v70 : Ref sig .tc := ⟨.hbm, 191, rfl⟩
abbrev main_v71 : Ref sig .tc := ⟨.hbm, 192, rfl⟩
abbrev main_cst_11 : Ref sig .tc := ⟨.hbm, 193, rfl⟩
abbrev main_v72 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_v78 : Ref sig .tc := ⟨.hbm, 200, rfl⟩
abbrev main_v79 : Ref sig .tc := ⟨.hbm, 201, rfl⟩
abbrev main_v80 : Ref sig .tc := ⟨.hbm, 202, rfl⟩
abbrev main_v81 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_cst_12 : Ref sig .tc := ⟨.hbm, 210, rfl⟩
abbrev main_v88 : Ref sig .tc := ⟨.hbm, 211, rfl⟩
abbrev main_v89 : Ref sig .tc := ⟨.hbm, 212, rfl⟩
abbrev main_cst_13 : Ref sig .tc := ⟨.hbm, 213, rfl⟩
abbrev main_v90 : Ref sig .tc := ⟨.hbm, 214, rfl⟩
abbrev main_cst_14 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_cst_15 : Ref sig .tc := ⟨.hbm, 222, rfl⟩
abbrev main_v97 : Ref sig .tc := ⟨.hbm, 223, rfl⟩
abbrev main_v98 : Ref sig .tc := ⟨.hbm, 224, rfl⟩
abbrev main_v99 : Ref sig .tc := ⟨.hbm, 225, rfl⟩
abbrev main_v100 : Ref sig .tc := ⟨.hbm, 226, rfl⟩
abbrev main_v101 : Ref sig .tc := ⟨.hbm, 227, rfl⟩
abbrev main_v102 : Ref sig .tc := ⟨.hbm, 228, rfl⟩
abbrev main_v103 : Ref sig .tc := ⟨.hbm, 229, rfl⟩
abbrev main_cst_16 : Ref sig .tc := ⟨.hbm, 230, rfl⟩
abbrev main_v104 : Ref sig .tc := ⟨.hbm, 231, rfl⟩
abbrev main_v105 : Ref sig .tc := ⟨.hbm, 232, rfl⟩
abbrev main_cst_17 : Ref sig .tc := ⟨.hbm, 233, rfl⟩
abbrev main_v106 : Ref sig .tc := ⟨.hbm, 234, rfl⟩
abbrev main_v107 : Ref sig .tc := ⟨.hbm, 235, rfl⟩
abbrev main_v108 : Ref sig .tc := ⟨.hbm, 236, rfl⟩
abbrev main_v109 : Ref sig .tc := ⟨.hbm, 237, rfl⟩
abbrev main_v110 : Ref sig .tc := ⟨.hbm, 238, rfl⟩
abbrev main_cst_18 : Ref sig .tc := ⟨.hbm, 239, rfl⟩
abbrev main_v111 : Ref sig .tc := ⟨.hbm, 240, rfl⟩
abbrev main_v112 : Ref sig .tc := ⟨.hbm, 241, rfl⟩
abbrev main_cst_19 : Ref sig .tc := ⟨.hbm, 242, rfl⟩
abbrev main_v113 : Ref sig .tc := ⟨.hbm, 243, rfl⟩
abbrev main_v114 : Ref sig .tc := ⟨.hbm, 244, rfl⟩
abbrev main_v115 : Ref sig .tc := ⟨.hbm, 245, rfl⟩
abbrev main_v116 : Ref sig .tc := ⟨.hbm, 246, rfl⟩
abbrev main_cst_20 : Ref sig .tc := ⟨.hbm, 247, rfl⟩
abbrev main_v117 : Ref sig .tc := ⟨.hbm, 248, rfl⟩
abbrev main_v118 : Ref sig .tc := ⟨.hbm, 249, rfl⟩
abbrev main_v119 : Ref sig .tc := ⟨.hbm, 250, rfl⟩
abbrev main_v120 : Ref sig .tc := ⟨.hbm, 251, rfl⟩
abbrev main_v121 : Ref sig .tc := ⟨.hbm, 252, rfl⟩
abbrev main_v122 : Ref sig .tc := ⟨.hbm, 253, rfl⟩
abbrev main_v123 : Ref sig .tc := ⟨.hbm, 254, rfl⟩
abbrev main_v124 : Ref sig .tc := ⟨.hbm, 255, rfl⟩
abbrev main_v125 : Ref sig .tc := ⟨.hbm, 256, rfl⟩
abbrev main_v126 : Ref sig .tc := ⟨.hbm, 257, rfl⟩
abbrev main_v127 : Ref sig .tc := ⟨.hbm, 258, rfl⟩
abbrev main_v128 : Ref sig .tc := ⟨.hbm, 259, rfl⟩
abbrev main_call4_cst : Ref sig .tc := ⟨.hbm, 260, rfl⟩
abbrev main_call4_v0 : Ref sig .tc := ⟨.hbm, 261, rfl⟩
abbrev main_v129 : Ref sig .tc := ⟨.hbm, 262, rfl⟩
abbrev main_v130 : Ref sig .tc := ⟨.hbm, 263, rfl⟩
abbrev main_v131 : Ref sig .tc := ⟨.hbm, 264, rfl⟩
abbrev main_cst_21 : Ref sig .tc := ⟨.hbm, 265, rfl⟩
abbrev main_v132 : Ref sig .tc := ⟨.hbm, 266, rfl⟩
abbrev main_v133 : Ref sig .tc := ⟨.hbm, 267, rfl⟩
abbrev main_cst_22 : Ref sig .tc := ⟨.hbm, 268, rfl⟩
abbrev main_v134 : Ref sig .tc := ⟨.hbm, 269, rfl⟩
abbrev main_v135 : Ref sig .tc := ⟨.hbm, 270, rfl⟩
abbrev main_v136 : Ref sig .tc := ⟨.hbm, 271, rfl⟩
abbrev main_v137 : Ref sig .tc := ⟨.hbm, 272, rfl⟩
abbrev main_v138 : Ref sig .tc := ⟨.hbm, 273, rfl⟩
abbrev main_cst_23 : Ref sig .tc := ⟨.hbm, 274, rfl⟩
abbrev main_v139 : Ref sig .tc := ⟨.hbm, 275, rfl⟩
abbrev main_v140 : Ref sig .tc := ⟨.hbm, 276, rfl⟩
abbrev main_cst_24 : Ref sig .tc := ⟨.hbm, 277, rfl⟩
abbrev main_v141 : Ref sig .tc := ⟨.hbm, 278, rfl⟩
abbrev main_v142 : Ref sig .tc := ⟨.hbm, 279, rfl⟩
abbrev main_v143 : Ref sig .tc := ⟨.hbm, 280, rfl⟩
abbrev main_v144 : Ref sig .tc := ⟨.hbm, 281, rfl⟩
abbrev main_cst_25 : Ref sig .tc := ⟨.hbm, 282, rfl⟩
abbrev main_v145 : Ref sig .tc := ⟨.hbm, 283, rfl⟩
abbrev main_v146 : Ref sig .tc := ⟨.hbm, 284, rfl⟩
abbrev main_v147 : Ref sig .tc := ⟨.hbm, 285, rfl⟩
abbrev main_v148 : Ref sig .tc := ⟨.hbm, 286, rfl⟩
abbrev main_v149 : Ref sig .tc := ⟨.hbm, 287, rfl⟩
abbrev main_v150 : Ref sig .tc := ⟨.hbm, 288, rfl⟩
abbrev main_v151 : Ref sig .tc := ⟨.hbm, 289, rfl⟩
abbrev main_v152 : Ref sig .tc := ⟨.hbm, 290, rfl⟩
abbrev main_v153 : Ref sig .tc := ⟨.hbm, 291, rfl⟩
abbrev main_v154 : Ref sig .tc := ⟨.hbm, 292, rfl⟩
abbrev main_v155 : Ref sig .tc := ⟨.hbm, 293, rfl⟩
abbrev main_v156 : Ref sig .tc := ⟨.hbm, 294, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg11_0 : Ref sig .tc := ⟨.vmem, 20, rfl⟩
abbrev cc1_stg12_0 : Ref sig .tc := ⟨.vmem, 21, rfl⟩
abbrev cc1_stg13_0 : Ref sig .tc := ⟨.vmem, 22, rfl⟩
abbrev cc1_stg14_0 : Ref sig .tc := ⟨.vmem, 23, rfl⟩
abbrev cc1_stg15_0 : Ref sig .tc := ⟨.vmem, 24, rfl⟩
abbrev cc1_stg15_1 : Ref sig .tc := ⟨.vmem, 25, rfl⟩
abbrev cc1_stg16_0 : Ref sig .tc := ⟨.vmem, 26, rfl⟩
abbrev cc1_stg16_1 : Ref sig .tc := ⟨.vmem, 27, rfl⟩
abbrev cc1_stg17_0 : Ref sig .tc := ⟨.vmem, 28, rfl⟩
abbrev cc1_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem11_0 : DmaSem sig := 20
abbrev cc1_sem12_0 : DmaSem sig := 21
abbrev cc1_sem13_0 : DmaSem sig := 22
abbrev cc1_sem14_0 : DmaSem sig := 23
abbrev cc1_sem15_0 : DmaSem sig := 24
abbrev cc1_sem15_1 : DmaSem sig := 25
abbrev cc1_sem16_0 : DmaSem sig := 26
abbrev cc1_sem16_1 : DmaSem sig := 27
abbrev cc1_sem17_0 : DmaSem sig := 28
abbrev cc1_sem17_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 2 → Memref sig .tc .vmem S3000x128 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S3000x8 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S3000x128 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

class Facts₀ : Prop where
  concatenates_S128x128_S128x128_S128x128_S128x384_d1 : Shape.Concatenates [S128x128, S128x128, S128x128] S128x384 1
  inb_S3000x128_S3000x128_0_0 : ∀ a, (![0, 0] : Fin 2 → Nat) a + S3000x128.size a ≤ S3000x128.size a
  h_S3000x128 : 0 < S3000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S3000x384_S3000x384_0_0 : ∀ a, (![0, 0] : Fin 2 → Nat) a + S3000x384.size a ≤ S3000x384.size a
  h_S3000x384 : 0 < S3000x384.numel
  slices_S30000x384_S30000x128_0_0 : S30000x384.Slices ![0, 0] S30000x128
  slices_S30000x384_S30000x128_0_128 : S30000x384.Slices ![0, 128] S30000x128
  slices_S30000x384_S30000x128_0_256 : S30000x384.Slices ![0, 256] S30000x128
  bcast_S_S480000 : S_.BroadcastsInDim S480000 (![] : Fin 0 → Fin S480000.rank)
  bcast_S480000_S480000x1_0 : S480000.BroadcastsInDim S480000x1 (![0] : Fin 1 → Fin S480000x1.rank)
  bcast_S_S480000x1 : S_.BroadcastsInDim S480000x1 (![] : Fin 0 → Fin S480000x1.rank)
  bcast_S1_S1x1_1 : S1.BroadcastsInDim S1x1 (![1] : Fin 1 → Fin S1x1.rank)
  bcast_S1x1_S480000x1_0_1 : S1x1.BroadcastsInDim S480000x1 (![0, 1] : Fin 2 → Fin S480000x1.rank)
  reducesTo_S480000x1_S480000_d1 : S480000x1.ReducesTo [1] S480000
  h_S_ : 0 < S_.numel
  bcast_S480000_S480000x128_0 : S480000.BroadcastsInDim S480000x128 (![0] : Fin 1 → Fin S480000x128.rank)
  bcast_S_S480000x128 : S_.BroadcastsInDim S480000x128 (![] : Fin 0 → Fin S480000x128.rank)
  shapeCasts_S3000x128_S3000x128 : S3000x128.ShapeCasts S3000x128
  inb_S128x128_S128x128_0_0 : ∀ a, (![0, 0] : Fin 2 → Nat) a + S128x128.size a ≤ S128x128.size a
  h_S128x128 : 0 < S128x128.numel
  slices_S3000x128_o0_0_S3000x16 : S3000x128.Slices ![0, 0] S3000x16
  reduces_S3000x16_S3000 : S3000x16.Reduces [1] S3000
  shapeCasts_S3000_S3000x1 : S3000.ShapeCasts S3000x1
  slices_S3000x128_o0_16_S3000x16 : S3000x128.Slices ![0, 16] S3000x16
  slices_S3000x128_o0_32_S3000x16 : S3000x128.Slices ![0, 32] S3000x16
  slices_S3000x128_o0_48_S3000x16 : S3000x128.Slices ![0, 48] S3000x16
  slices_S3000x128_o0_64_S3000x16 : S3000x128.Slices ![0, 64] S3000x16
  slices_S3000x128_o0_80_S3000x16 : S3000x128.Slices ![0, 80] S3000x16
  slices_S3000x128_o0_96_S3000x16 : S3000x128.Slices ![0, 96] S3000x16
  slices_S3000x128_o0_112_S3000x16 : S3000x128.Slices ![0, 112] S3000x16
  concatenates_S3000x1_S3000x1_S3000x1_S3000x1_S3000x1_S3000x1_S3000x1_S3000x1_S3000x8_d1 : Shape.Concatenates [S3000x1, S3000x1, S3000x1, S3000x1, S3000x1, S3000x1, S3000x1, S3000x1] S3000x8 1
  slices_S3000x8_o0_0_S3000x1 : S3000x8.Slices ![0, 0] S3000x1
  shapeCasts_S3000x1_S3000x1 : S3000x1.ShapeCasts S3000x1
  broadcasts_S3000x1_S3000x16 : S3000x1.Broadcasts S3000x16
  slices_S3000x8_o0_1_S3000x1 : S3000x8.Slices ![0, 1] S3000x1
  slices_S3000x8_o0_2_S3000x1 : S3000x8.Slices ![0, 2] S3000x1
  slices_S3000x8_o0_3_S3000x1 : S3000x8.Slices ![0, 3] S3000x1
  slices_S3000x8_o0_4_S3000x1 : S3000x8.Slices ![0, 4] S3000x1
  slices_S3000x8_o0_5_S3000x1 : S3000x8.Slices ![0, 5] S3000x1
  slices_S3000x8_o0_6_S3000x1 : S3000x8.Slices ![0, 6] S3000x1
  slices_S3000x8_o0_7_S3000x1 : S3000x8.Slices ![0, 7] S3000x1
  concatenates_S3000x16_S3000x16_S3000x16_S3000x16_S3000x16_S3000x16_S3000x16_S3000x16_S3000x128_d1 : Shape.Concatenates [S3000x16, S3000x16, S3000x16, S3000x16, S3000x16, S3000x16, S3000x16, S3000x16] S3000x128 1
  inb_S128_S128_0 : ∀ a, (![0] : Fin 1 → Nat) a + S128.size a ≤ S128.size a
  h_S128 : 0 < S128.numel
  shapeCasts_S128_S1x128 : S128.ShapeCasts S1x128
  broadcasts_S1x128_S3000x128 : S1x128.Broadcasts S3000x128
  reduces_S3000x128_S3000 : S3000x128.Reduces [1] S3000
  broadcasts_S3000x1_S3000x128 : S3000x1.Broadcasts S3000x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S3000x256 : S1x256.Broadcasts S3000x256
  inb_S256x128_S256x128_0_0 : ∀ a, (![0, 0] : Fin 2 → Nat) a + S256x128.size a ≤ S256x128.size a
  h_S256x128 : 0 < S256x128.numel
  inb_S3000x8_S3000x8_0_0 : ∀ a, (![0, 0] : Fin 2 → Nat) a + S3000x8.size a ≤ S3000x8.size a
  h_S3000x8 : 0 < S3000x8.numel
  bcast_S_S30000x128 : S_.BroadcastsInDim S30000x128 (![] : Fin 0 → Fin S30000x128.rank)
  bcast_S_S30000x8 : S_.BroadcastsInDim S30000x8 (![] : Fin 0 → Fin S30000x8.rank)
  bcast_S30000x8_S30000x8x16_0_1 : S30000x8.BroadcastsInDim S30000x8x16 (![0, 1] : Fin 2 → Fin S30000x8x16.rank)
  shapeCasts_S30000x8x16_S30000x128 : S30000x8x16.ShapeCasts S30000x128
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  reducesTo_S30000x128_S30000_d1 : S30000x128.ReducesTo [1] S30000
  bcast_S30000_S30000x1_0 : S30000.BroadcastsInDim S30000x1 (![0] : Fin 1 → Fin S30000x1.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  transposes_S500x128_S128x500_1_0 : S500x128.Transposes [1, 0] S128x500
  bcast_S_S30000x500 : S_.BroadcastsInDim S30000x500 (![] : Fin 0 → Fin S30000x500.rank)
  reducesTo_S30000x500_S30000_d1 : S30000x500.ReducesTo [1] S30000
  bcast_S_S30000 : S_.BroadcastsInDim S30000 (![] : Fin 0 → Fin S30000.rank)
  bcast_S30000x1_S30000x500_0_1 : S30000x1.BroadcastsInDim S30000x500 (![0, 1] : Fin 2 → Fin S30000x500.rank)
  bcast_S30000x500_S1x30000x500_1_2 : S30000x500.BroadcastsInDim S1x30000x500 (![1, 2] : Fin 2 → Fin S1x30000x500.rank)
  dot_S3000x128_S128x384_S3000x384_1_0_0_1_n_n_wf : DotDims.WF S3000x128 S128x384 S3000x384 [1] [0] [0] [1] [] []
  gather_S30000x128_S480000x1_S480000x128_1_0_n_n_0_1_1128_wf : GatherDims.WF S30000x128 S480000x1 S480000x128 [1] [0] [] [0] [] 1 ![1, 128]
  dot_S3000x128_S128x128_S3000x128_1_0_0_1_n_n_wf : DotDims.WF S3000x128 S128x128 S3000x128 [1] [0] [0] [1] [] []
  dot_S3000x128_S128x256_S3000x256_1_0_0_1_n_n_wf : DotDims.WF S3000x128 S128x256 S3000x256 [1] [0] [0] [1] [] []
  dot_S3000x256_S256x128_S3000x128_1_0_0_1_n_n_wf : DotDims.WF S3000x256 S256x128 S3000x128 [1] [0] [0] [1] [] []
  scatter_S30000x128_S480000x1_S480000x128_1_0_0_1_wf : ScatterDims.WF S30000x128 S480000x1 S480000x128 [1] [0] [0] 1
  scatter_S30000x8_S480000x1_S480000x8_1_0_0_1_wf : ScatterDims.WF S30000x8 S480000x1 S480000x8 [1] [0] [0] 1
  dot_S30000x128_S128x128_S30000x128_1_0_0_1_n_n_wf : DotDims.WF S30000x128 S128x128 S30000x128 [1] [0] [0] [1] [] []
  dot_S30000x128_S128x256_S30000x256_1_0_0_1_n_n_wf : DotDims.WF S30000x128 S128x256 S30000x256 [1] [0] [0] [1] [] []
  dot_S30000x256_S256x128_S30000x128_1_0_0_1_n_n_wf : DotDims.WF S30000x256 S256x128 S30000x128 [1] [0] [0] [1] [] []
  dot_S500x300_S300x128_S500x128_1_0_0_1_n_n_wf : DotDims.WF S500x300 S300x128 S500x128 [1] [0] [0] [1] [] []
  dot_S30000x128_S128x500_S30000x500_1_0_0_1_n_n_wf : DotDims.WF S30000x128 S128x500 S30000x500 [1] [0] [0] [1] [] []
  dot_S30000x500_S500x128_S30000x128_1_0_0_1_n_n_wf : DotDims.WF S30000x500 S500x128 S30000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S30000x128.size a
  hwx0_0 : ∀ i : grid0.Coords, EltTy.bits .f32 = 32 ∨ (Rect.block (s := S30000x128) S3000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x384.size a ≤ S30000x384.size a
  hwx0_2 : ∀ i : grid0.Coords, EltTy.bits .f32 = 32 ∨ (Rect.block (s := S30000x384) S3000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S480000x128.size a
  hwx1_0 : ∀ i : grid1.Coords, EltTy.bits .f32 = 32 ∨ (Rect.block (s := S480000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x128.size a ≤ S480000x128.size a
  hwx1_1 : ∀ i : grid1.Coords, EltTy.bits .f32 = 32 ∨ (Rect.block (s := S480000x128) S3000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x128.size a ≤ S480000x128.size a
  hwx1_2 : ∀ i : grid1.Coords, EltTy.bits .f32 = 32 ∨ (Rect.block (s := S480000x128) S3000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x128.size a ≤ S480000x128.size a
  hwx1_3 : ∀ i : grid1.Coords, EltTy.bits .f32 = 32 ∨ (Rect.block (s := S480000x128) S3000x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128x256.size a ≤ S128x256.size a
  hwx1_9 : ∀ i : grid1.Coords, EltTy.bits .f32 = 32 ∨ (Rect.block (s := S128x256) S128x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x128.size a ≤ S256x128.size a
  hwx1_11 : ∀ i : grid1.Coords, EltTy.bits .f32 = 32 ∨ (Rect.block (s := S256x128) S256x128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128.size a ≤ S128.size a
  hwx1_14 : ∀ i : grid1.Coords, EltTy.bits .f32 = 32 ∨ (Rect.block (s := S128) S128.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S3000x128.size a ≤ S480000x128.size a
  hwx1_15 : ∀ i : grid1.Coords, EltTy.bits .f32 = 32 ∨ (Rect.block (s := S480000x128) S3000x128.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S3000x8.size a ≤ S480000x8.size a
  hwx1_16 : ∀ i : grid1.Coords, EltTy.bits .f32 = 32 ∨ (Rect.block (s := S480000x8) S3000x8.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S3000x128.size a ≤ S480000x128.size a
  hwx1_17 : ∀ i : grid1.Coords, EltTy.bits .f32 = 32 ∨ (Rect.block (s := S480000x128) S3000x128.size (cc1_transform_17 i) (hinb1_17 i)).WholeWords (EltTy.packing .f32)

variable [Facts₀]

def dot_S3000x128_S128x384_S3000x384_1_0_0_1_n_n : DotDims S3000x128 S128x384 S3000x384 where
  lhsContracting := [1]
  rhsContracting := [0]
  lhsNonContracting := [0]
  rhsNonContracting := [1]
  lhsBatch := []
  rhsBatch := []
  wf := dot_S3000x128_S128x384_S3000x384_1_0_0_1_n_n_wf
def gather_S30000x128_S480000x1_S480000x128_1_0_n_n_0_1_1128 : GatherDims S30000x128 S480000x1 S480000x128 where
  offsetDims := [1]
  collapsedSliceDims := [0]
  operandBatchingDims := []
  startIndicesBatchingDims := []
  startIndexMap := [0]
  indexVectorDim := 1
  sliceSizes := ![1, 128]
  wf := gather_S30000x128_S480000x1_S480000x128_1_0_n_n_0_1_1128_wf
def dot_S3000x128_S128x128_S3000x128_1_0_0_1_n_n : DotDims S3000x128 S128x128 S3000x128 where
  lhsContracting := [1]
  rhsContracting := [0]
  lhsNonContracting := [0]
  rhsNonContracting := [1]
  lhsBatch := []
  rhsBatch := []
  wf := dot_S3000x128_S128x128_S3000x128_1_0_0_1_n_n_wf
def dot_S3000x128_S128x256_S3000x256_1_0_0_1_n_n : DotDims S3000x128 S128x256 S3000x256 where
  lhsContracting := [1]
  rhsContracting := [0]
  lhsNonContracting := [0]
  rhsNonContracting := [1]
  lhsBatch := []
  rhsBatch := []
  wf := dot_S3000x128_S128x256_S3000x256_1_0_0_1_n_n_wf
def dot_S3000x256_S256x128_S3000x128_1_0_0_1_n_n : DotDims S3000x256 S256x128 S3000x128 where
  lhsContracting := [1]
  rhsContracting := [0]
  lhsNonContracting := [0]
  rhsNonContracting := [1]
  lhsBatch := []
  rhsBatch := []
  wf := dot_S3000x256_S256x128_S3000x128_1_0_0_1_n_n_wf
def scatter_S30000x128_S480000x1_S480000x128_1_0_0_1 : ScatterDims S30000x128 S480000x1 S480000x128 where
  updateWindowDims := [1]
  insertedWindowDims := [0]
  scatterDimsToOperandDims := [0]
  indexVectorDim := 1
  wf := scatter_S30000x128_S480000x1_S480000x128_1_0_0_1_wf
def scatter_S30000x8_S480000x1_S480000x8_1_0_0_1 : ScatterDims S30000x8 S480000x1 S480000x8 where
  updateWindowDims := [1]
  insertedWindowDims := [0]
  scatterDimsToOperandDims := [0]
  indexVectorDim := 1
  wf := scatter_S30000x8_S480000x1_S480000x8_1_0_0_1_wf
def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def dot_S30000x128_S128x256_S30000x256_1_0_0_1_n_n : DotDims S30000x128 S128x256 S30000x256 where
  lhsContracting := [1]
  rhsContracting := [0]
  lhsNonContracting := [0]
  rhsNonContracting := [1]
  lhsBatch := []
  rhsBatch := []
  wf := dot_S30000x128_S128x256_S30000x256_1_0_0_1_n_n_wf
def dot_S30000x256_S256x128_S30000x128_1_0_0_1_n_n : DotDims S30000x256 S256x128 S30000x128 where
  lhsContracting := [1]
  rhsContracting := [0]
  lhsNonContracting := [0]
  rhsNonContracting := [1]
  lhsBatch := []
  rhsBatch := []
  wf := dot_S30000x256_S256x128_S30000x128_1_0_0_1_n_n_wf
def dot_S500x300_S300x128_S500x128_1_0_0_1_n_n : DotDims S500x300 S300x128 S500x128 where
  lhsContracting := [1]
  rhsContracting := [0]
  lhsNonContracting := [0]
  rhsNonContracting := [1]
  lhsBatch := []
  rhsBatch := []
  wf := dot_S500x300_S300x128_S500x128_1_0_0_1_n_n_wf
def dot_S30000x128_S128x500_S30000x500_1_0_0_1_n_n : DotDims S30000x128 S128x500 S30000x500 where
  lhsContracting := [1]
  rhsContracting := [0]
  lhsNonContracting := [0]
  rhsNonContracting := [1]
  lhsBatch := []
  rhsBatch := []
  wf := dot_S30000x128_S128x500_S30000x500_1_0_0_1_n_n_wf
def dot_S30000x500_S500x128_S30000x128_1_0_0_1_n_n : DotDims S30000x500 S500x128 S30000x128 where
  lhsContracting := [1]
  rhsContracting := [0]
  lhsNonContracting := [0]
  rhsNonContracting := [1]
  lhsBatch := []
  rhsBatch := []
  wf := dot_S30000x500_S500x128_S30000x128_1_0_0_1_n_n_wf

abbrev win0_0 : Pipeline.Window sig grid0 :=
  Pipeline.Window.ofSpec (Memref.whole main_arg0) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S3000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S3000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S3000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg21) S128x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg22) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg23) S256x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg24) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg27) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg28) S128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v8_0) S3000x128.size cc1_transform_15 reads1_15 true false 2 stage1_15 sem1_15
    hrank1 hreads1_15 hinb1_15 nbuf1_15 (Memref.isWhole_whole _) hwx1_15 hstage1_15

abbrev win1_16 : Pipeline.Window sig grid1 :=
  Pipeline.Window.ofSpec (Memref.whole main_v8_1) S3000x8.size cc1_transform_16 reads1_16 true false 2 stage1_16 sem1_16
    hrank1 hreads1_16 hinb1_16 nbuf1_16 (Memref.isWhole_whole _) hwx1_16 hstage1_16

abbrev win1_17 : Pipeline.Window sig grid1 :=
  Pipeline.Window.ofSpec (Memref.whole main_v8_2) S3000x128.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

class Facts : Prop extends Facts₀ where

variable [Facts]
-- ==== ReferenceIdeal.lean ====
abbrev S30000x128 : Shape := ⟨2, ![30000, 128]⟩
abbrev S480000x128 : Shape := ⟨2, ![480000, 128]⟩
abbrev S500x300 : Shape := ⟨2, ![500, 300]⟩
abbrev S480000 : Shape := ⟨1, ![480000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S300x128 : Shape := ⟨2, ![300, 128]⟩
abbrev S30000x8x16 : Shape := ⟨3, ![30000, 8, 16]⟩
abbrev S480000x8x16 : Shape := ⟨3, ![480000, 8, 16]⟩
abbrev S_ : Shape := ⟨0, ![]⟩
abbrev S480000x1 : Shape := ⟨2, ![480000, 1]⟩
abbrev S480000x8 : Shape := ⟨2, ![480000, 8]⟩
abbrev S480000x8x1 : Shape := ⟨3, ![480000, 8, 1]⟩
abbrev S30000x8x1 : Shape := ⟨3, ![30000, 8, 1]⟩
abbrev S1x128 : Shape := ⟨2, ![1, 128]⟩
abbrev S30000 : Shape := ⟨1, ![30000]⟩
abbrev S30000x1 : Shape := ⟨2, ![30000, 1]⟩
abbrev S30000x256 : Shape := ⟨2, ![30000, 256]⟩
abbrev S1x256 : Shape := ⟨2, ![1, 256]⟩
abbrev S480000x256 : Shape := ⟨2, ![480000, 256]⟩
abbrev S500x128 : Shape := ⟨2, ![500, 128]⟩
abbrev S128x500 : Shape := ⟨2, ![128, 500]⟩
abbrev S30000x500 : Shape := ⟨2, ![30000, 500]⟩
abbrev S1x30000x500 : Shape := ⟨3, ![1, 30000, 500]⟩

abbrev nBuf : Space → Nat
  | .hbm => 348
  | .vmem => 0
  | .smem => 0
  | _ => 0

abbrev hbmTy0_0 (i : Nat) : BufTy := match i % 128 with
  | 0 => ⟨S30000x128, .f32⟩
  | 1 => ⟨S480000x128, .f32⟩
  | 2 => ⟨S500x300, .f32⟩
  | 3 => ⟨S480000, .i32⟩
  | 4 => ⟨S480000, .i32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x256, .f32⟩
  | 18 => ⟨S256, .f32⟩
  | 19 => ⟨S256x128, .f32⟩
  | 20 => ⟨S128, .f32⟩
  | 21 => ⟨S128x256, .f32⟩
  | 22 => ⟨S256, .f32⟩
  | 23 => ⟨S256x128, .f32⟩
  | 24 => ⟨S128, .f32⟩
  | 25 => ⟨S128, .f32⟩
  | 26 => ⟨S128, .f32⟩
  | 27 => ⟨S128, .f32⟩
  | 28 => ⟨S128, .f32⟩
  | 29 => ⟨S128x128, .f32⟩
  | 30 => ⟨S300x128, .f32⟩
  | 31 => ⟨S300x128, .f32⟩
  | 32 => ⟨S128x128, .f32⟩
  | 33 => ⟨S128, .f32⟩
  | 34 => ⟨S128, .f32⟩
  | 35 => ⟨S128, .f32⟩
  | 36 => ⟨S128, .f32⟩
  | 37 => ⟨S128x256, .f32⟩
  | 38 => ⟨S256x128, .f32⟩
  | 39 => ⟨S30000x128, .f32⟩
  | 40 => ⟨S30000x8x16, .f32⟩
  | 41 => ⟨S30000x128, .f32⟩
  | 42 => ⟨S30000x8x16, .f32⟩
  | 43 => ⟨S30000x128, .f32⟩
  | 44 => ⟨S30000x8x16, .f32⟩
  | 45 => ⟨S480000x128, .f32⟩
  | 46 => ⟨S480000x8x16, .f32⟩
  | 47 => ⟨S_, .i32⟩
  | 48 => ⟨S480000, .i32⟩
  | 49 => ⟨S480000, .i1⟩
  | 50 => ⟨S_, .i32⟩
  | 51 => ⟨S480000, .i32⟩
  | 52 => ⟨S480000, .i32⟩
  | 53 => ⟨S480000, .i32⟩
  | 54 => ⟨S480000x1, .i32⟩
  | 55 => ⟨S480000x8x16, .f32⟩
  | 56 => ⟨S_, .i32⟩
  | 57 => ⟨S480000, .i32⟩
  | 58 => ⟨S480000, .i1⟩
  | 59 => ⟨S_, .i32⟩
  | 60 => ⟨S480000, .i32⟩
  | 61 => ⟨S480000, .i32⟩
  | 62 => ⟨S480000, .i32⟩
  | 63 => ⟨S480000x1, .i32⟩
  | 64 => ⟨S480000x8x16, .f32⟩
  | 65 => ⟨S480000x8x16, .f32⟩
  | 66 => ⟨S_, .f32⟩
  | 67 => ⟨S480000x8x16, .f32⟩
  | 68 => ⟨S480000x8x16, .f32⟩
  | 69 => ⟨S480000x8x16, .f32⟩
  | 70 => ⟨S480000x128, .f32⟩
  | 71 => ⟨S_, .f32⟩
  | 72 => ⟨S480000x8, .f32⟩
  | 73 => ⟨S480000x8x1, .f32⟩
  | 74 => ⟨S_, .f32⟩
  | 75 => ⟨S_, .f32⟩
  | 76 => ⟨S_, .f32⟩
  | 77 => ⟨S480000x8x1, .f32⟩
  | 78 => ⟨S480000x8x1, .f32⟩
  | 79 => ⟨S_, .f32⟩
  | 80 => ⟨S480000x8x1, .f32⟩
  | 81 => ⟨S480000x8x1, .f32⟩
  | 82 => ⟨S480000x8x1, .f32⟩
  | 83 => ⟨S_, .i32⟩
  | 84 => ⟨S480000, .i32⟩
  | 85 => ⟨S480000, .i1⟩
  | 86 => ⟨S_, .i32⟩
  | 87 => ⟨S480000, .i32⟩
  | 88 => ⟨S480000, .i32⟩
  | 89 => ⟨S480000, .i32⟩
  | 90 => ⟨S480000x1, .i32⟩
  | 91 => ⟨S480000x8x16, .f32⟩
  | 92 => ⟨S480000x8x16, .f32⟩
  | 93 => ⟨S480000x8x16, .f32⟩
  | 94 => ⟨S_, .f32⟩
  | 95 => ⟨S30000x8x16, .f32⟩
  | 96 => ⟨S480000x1, .i32⟩
  | 97 => ⟨S30000x8x16, .f32⟩
  | 98 => ⟨S_, .f32⟩
  | 99 => ⟨S30000x8x1, .f32⟩
  | 100 => ⟨S480000x1, .i32⟩
  | 101 => ⟨S30000x8x1, .f32⟩
  | 102 => ⟨S_, .f32⟩
  | 103 => ⟨S30000x8x1, .f32⟩
  | 104 => ⟨S30000x8x1, .f32⟩
  | 105 => ⟨S30000x8x16, .f32⟩
  | 106 => ⟨S30000x8x16, .f32⟩
  | 107 => ⟨S30000x128, .f32⟩
  | 108 => ⟨S30000x128, .f32⟩
  | 109 => ⟨S1x128, .f32⟩
  | 110 => ⟨S30000x128, .f32⟩
  | 111 => ⟨S30000x128, .f32⟩
  | 112 => ⟨S30000x128, .f32⟩
  | 113 => ⟨S_, .f32⟩
  | 114 => ⟨S30000, .f32⟩
  | 115 => ⟨S30000x1, .f32⟩
  | 116 => ⟨S_, .f32⟩
  | 117 => ⟨S30000x1, .f32⟩
  | 118 => ⟨S30000x1, .f32⟩
  | 119 => ⟨S30000x128, .f32⟩
  | 120 => ⟨S30000x128, .f32⟩
  | 121 => ⟨S30000x128, .f32⟩
  | 122 => ⟨S_, .f32⟩
  | 123 => ⟨S30000, .f32⟩
  | 124 => ⟨S30000x1, .f32⟩
  | 125 => ⟨S_, .f32⟩
  | 126 => ⟨S30000x1, .f32⟩
  | 127 => ⟨S30000x1, .f32⟩
  | _ => ⟨S30000x128, .f32⟩

abbrev hbmTy0_1 (i : Nat) : BufTy := match i % 128 with
  | 0 => ⟨S30000x128, .f32⟩
  | 1 => ⟨S30000x128, .f32⟩
  | 2 => ⟨S_, .f32⟩
  | 3 => ⟨S30000x1, .f32⟩
  | 4 => ⟨S30000x1, .f32⟩
  | 5 => ⟨S30000x1, .f32⟩
  | 6 => ⟨S30000x128, .f32⟩
  | 7 => ⟨S30000x128, .f32⟩
  | 8 => ⟨S1x128, .f32⟩
  | 9 => ⟨S30000x128, .f32⟩
  | 10 => ⟨S30000x128, .f32⟩
  | 11 => ⟨S1x128, .f32⟩
  | 12 => ⟨S30000x128, .f32⟩
  | 13 => ⟨S30000x128, .f32⟩
  | 14 => ⟨S480000x128, .f32⟩
  | 15 => ⟨S1x128, .f32⟩
  | 16 => ⟨S480000x128, .f32⟩
  | 17 => ⟨S480000x128, .f32⟩
  | 18 => ⟨S480000x128, .f32⟩
  | 19 => ⟨S_, .f32⟩
  | 20 => ⟨S480000, .f32⟩
  | 21 => ⟨S480000x1, .f32⟩
  | 22 => ⟨S_, .f32⟩
  | 23 => ⟨S480000x1, .f32⟩
  | 24 => ⟨S480000x1, .f32⟩
  | 25 => ⟨S480000x128, .f32⟩
  | 26 => ⟨S480000x128, .f32⟩
  | 27 => ⟨S480000x128, .f32⟩
  | 28 => ⟨S_, .f32⟩
  | 29 => ⟨S480000, .f32⟩
  | 30 => ⟨S480000x1, .f32⟩
  | 31 => ⟨S_, .f32⟩
  | 32 => ⟨S480000x1, .f32⟩
  | 33 => ⟨S480000x1, .f32⟩
  | 34 => ⟨S480000x128, .f32⟩
  | 35 => ⟨S480000x128, .f32⟩
  | 36 => ⟨S_, .f32⟩
  | 37 => ⟨S480000x1, .f32⟩
  | 38 => ⟨S480000x1, .f32⟩
  | 39 => ⟨S480000x1, .f32⟩
  | 40 => ⟨S480000x128, .f32⟩
  | 41 => ⟨S480000x128, .f32⟩
  | 42 => ⟨S1x128, .f32⟩
  | 43 => ⟨S480000x128, .f32⟩
  | 44 => ⟨S480000x128, .f32⟩
  | 45 => ⟨S1x128, .f32⟩
  | 46 => ⟨S480000x128, .f32⟩
  | 47 => ⟨S480000x128, .f32⟩
  | 48 => ⟨S30000x256, .f32⟩
  | 49 => ⟨S1x256, .f32⟩
  | 50 => ⟨S30000x256, .f32⟩
  | 51 => ⟨S30000x256, .f32⟩
  | 52 => ⟨S_, .f32⟩
  | 53 => ⟨S30000x256, .f32⟩
  | 54 => ⟨S30000x256, .f32⟩
  | 55 => ⟨S30000x128, .f32⟩
  | 56 => ⟨S1x128, .f32⟩
  | 57 => ⟨S30000x128, .f32⟩
  | 58 => ⟨S30000x128, .f32⟩
  | 59 => ⟨S30000x128, .f32⟩
  | 60 => ⟨S_, .f32⟩
  | 61 => ⟨S30000, .f32⟩
  | 62 => ⟨S30000x1, .f32⟩
  | 63 => ⟨S_, .f32⟩
  | 64 => ⟨S30000x1, .f32⟩
  | 65 => ⟨S30000x1, .f32⟩
  | 66 => ⟨S30000x128, .f32⟩
  | 67 => ⟨S30000x128, .f32⟩
  | 68 => ⟨S30000x128, .f32⟩
  | 69 => ⟨S_, .f32⟩
  | 70 => ⟨S30000, .f32⟩
  | 71 => ⟨S30000x1, .f32⟩
  | 72 => ⟨S_, .f32⟩
  | 73 => ⟨S30000x1, .f32⟩
  | 74 => ⟨S30000x1, .f32⟩
  | 75 => ⟨S30000x128, .f32⟩
  | 76 => ⟨S30000x128, .f32⟩
  | 77 => ⟨S_, .f32⟩
  | 78 => ⟨S30000x1, .f32⟩
  | 79 => ⟨S30000x1, .f32⟩
  | 80 => ⟨S30000x1, .f32⟩
  | 81 => ⟨S30000x128, .f32⟩
  | 82 => ⟨S30000x128, .f32⟩
  | 83 => ⟨S1x128, .f32⟩
  | 84 => ⟨S30000x128, .f32⟩
  | 85 => ⟨S30000x128, .f32⟩
  | 86 => ⟨S1x128, .f32⟩
  | 87 => ⟨S30000x128, .f32⟩
  | 88 => ⟨S30000x128, .f32⟩
  | 89 => ⟨S480000x256, .f32⟩
  | 90 => ⟨S1x256, .f32⟩
  | 91 => ⟨S480000x256, .f32⟩
  | 92 => ⟨S480000x256, .f32⟩
  | 93 => ⟨S_, .f32⟩
  | 94 => ⟨S480000x256, .f32⟩
  | 95 => ⟨S480000x256, .f32⟩
  | 96 => ⟨S480000x128, .f32⟩
  | 97 => ⟨S1x128, .f32⟩
  | 98 => ⟨S480000x128, .f32⟩
  | 99 => ⟨S480000x128, .f32⟩
  | 100 => ⟨S480000x128, .f32⟩
  | 101 => ⟨S_, .f32⟩
  | 102 => ⟨S480000, .f32⟩
  | 103 => ⟨S480000x1, .f32⟩
  | 104 => ⟨S_, .f32⟩
  | 105 => ⟨S480000x1, .f32⟩
  | 106 => ⟨S480000x1, .f32⟩
  | 107 => ⟨S480000x128, .f32⟩
  | 108 => ⟨S480000x128, .f32⟩
  | 109 => ⟨S480000x128, .f32⟩
  | 110 => ⟨S_, .f32⟩
  | 111 => ⟨S480000, .f32⟩
  | 112 => ⟨S480000x1, .f32⟩
  | 113 => ⟨S_, .f32⟩
  | 114 => ⟨S480000x1, .f32⟩
  | 115 => ⟨S480000x1, .f32⟩
  | 116 => ⟨S480000x128, .f32⟩
  | 117 => ⟨S480000x128, .f32⟩
  | 118 => ⟨S_, .f32⟩
  | 119 => ⟨S480000x1, .f32⟩
  | 120 => ⟨S480000x1, .f32⟩
  | 121 => ⟨S480000x1, .f32⟩
  | 122 => ⟨S480000x128, .f32⟩
  | 123 => ⟨S480000x128, .f32⟩
  | 124 => ⟨S1x128, .f32⟩
  | 125 => ⟨S480000x128, .f32⟩
  | 126 => ⟨S480000x128, .f32⟩
  | 127 => ⟨S1x128, .f32⟩
  | _ => ⟨S30000x128, .f32⟩

abbrev hbmTy0_2 (i : Nat) : BufTy := match i % 128 with
  | 0 => ⟨S480000x128, .f32⟩
  | 1 => ⟨S480000x128, .f32⟩
  | 2 => ⟨S30000x128, .f32⟩
  | 3 => ⟨S500x128, .f32⟩
  | 4 => ⟨S500x128, .f32⟩
  | 5 => ⟨S128x500, .f32⟩
  | 6 => ⟨S30000x500, .f32⟩
  | 7 => ⟨S_, .f32⟩
  | 8 => ⟨S30000x500, .f32⟩
  | 9 => ⟨S30000x500, .f32⟩
  | 10 => ⟨S_, .f32⟩
  | 11 => ⟨S30000, .f32⟩
  | 12 => ⟨S_, .f32⟩
  | 13 => ⟨S30000, .f32⟩
  | 14 => ⟨S30000, .f32⟩
  | 15 => ⟨S30000x1, .f32⟩
  | 16 => ⟨S30000x500, .f32⟩
  | 17 => ⟨S30000x500, .f32⟩
  | 18 => ⟨S30000x500, .f32⟩
  | 19 => ⟨S_, .f32⟩
  | 20 => ⟨S30000, .f32⟩
  | 21 => ⟨S30000x1, .f32⟩
  | 22 => ⟨S30000x500, .f32⟩
  | 23 => ⟨S30000x500, .f32⟩
  | 24 => ⟨S30000x128, .f32⟩
  | 25 => ⟨S30000x128, .f32⟩
  | 26 => ⟨S30000x128, .f32⟩
  | 27 => ⟨S_, .f32⟩
  | 28 => ⟨S30000, .f32⟩
  | 29 => ⟨S30000x1, .f32⟩
  | 30 => ⟨S_, .f32⟩
  | 31 => ⟨S30000x1, .f32⟩
  | 32 => ⟨S30000x1, .f32⟩
  | 33 => ⟨S30000x128, .f32⟩
  | 34 => ⟨S30000x128, .f32⟩
  | 35 => ⟨S30000x128, .f32⟩
  | 36 => ⟨S_, .f32⟩
  | 37 => ⟨S30000, .f32⟩
  | 38 => ⟨S30000x1, .f32⟩
  | 39 => ⟨S_, .f32⟩
  | 40 => ⟨S30000x1, .f32⟩
  | 41 => ⟨S30000x1, .f32⟩
  | 42 => ⟨S30000x128, .f32⟩
  | 43 => ⟨S30000x128, .f32⟩
  | 44 => ⟨S_, .f32⟩
  | 45 => ⟨S30000x1, .f32⟩
  | 46 => ⟨S30000x1, .f32⟩
  | 47 => ⟨S30000x1, .f32⟩
  | 48 => ⟨S30000x128, .f32⟩
  | 49 => ⟨S30000x128, .f32⟩
  | 50 => ⟨S1x128, .f32⟩
  | 51 => ⟨S30000x128, .f32⟩
  | 52 => ⟨S30000x128, .f32⟩
  | 53 => ⟨S1x128, .f32⟩
  | 54 => ⟨S30000x128, .f32⟩
  | 55 => ⟨S30000x128, .f32⟩
  | 56 => ⟨S30000x256, .f32⟩
  | 57 => ⟨S_, .f32⟩
  | 58 => ⟨S30000x256, .f32⟩
  | 59 => ⟨S30000x256, .f32⟩
  | 60 => ⟨S30000x128, .f32⟩
  | 61 => ⟨S30000x128, .f32⟩
  | 62 => ⟨S_, .f32⟩
  | 63 => ⟨S30000, .f32⟩
  | 64 => ⟨S30000x1, .f32⟩
  | 65 => ⟨S_, .f32⟩
  | 66 => ⟨S30000x1, .f32⟩
  | 67 => ⟨S30000x1, .f32⟩
  | 68 => ⟨S30000x128, .f32⟩
  | 69 => ⟨S30000x128, .f32⟩
  | 70 => ⟨S30000x128, .f32⟩
  | 71 => ⟨S_, .f32⟩
  | 72 => ⟨S30000, .f32⟩
  | 73 => ⟨S30000x1, .f32⟩
  | 74 => ⟨S_, .f32⟩
  | 75 => ⟨S30000x1, .f32⟩
  | 76 => ⟨S30000x1, .f32⟩
  | 77 => ⟨S30000x128, .f32⟩
  | 78 => ⟨S30000x128, .f32⟩
  | 79 => ⟨S_, .f32⟩
  | 80 => ⟨S30000x1, .f32⟩
  | 81 => ⟨S30000x1, .f32⟩
  | 82 => ⟨S30000x1, .f32⟩
  | 83 => ⟨S30000x128, .f32⟩
  | 84 => ⟨S30000x128, .f32⟩
  | 85 => ⟨S1x128, .f32⟩
  | 86 => ⟨S30000x128, .f32⟩
  | 87 => ⟨S30000x128, .f32⟩
  | 88 => ⟨S1x128, .f32⟩
  | 89 => ⟨S30000x128, .f32⟩
  | 90 => ⟨S30000x128, .f32⟩
  | 91 => ⟨S1x30000x500, .f32⟩
  | _ => ⟨S30000x128, .f32⟩

abbrev hbmTy (i : Nat) : BufTy := match i / 128 with
  | 0 => hbmTy0_0 i
  | 1 => hbmTy0_1 i
  | 2 => hbmTy0_2 i
  | _ => ⟨S30000x128, .f32⟩

abbrev bufTy : (tb : Table) → Fin (tcTables nBuf tb) → BufTy
  | .hbm, ⟨i, _⟩ => hbmTy i
  | _, _ => ⟨S30000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_v0 : Ref sig .tc := ⟨.hbm, 39, rfl⟩
abbrev main_v1 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_v5 : Ref sig .tc := ⟨.hbm, 44, rfl⟩
abbrev main_v6 : Ref sig .tc := ⟨.hbm, 45, rfl⟩
abbrev main_v7 : Ref sig .tc := ⟨.hbm, 46, rfl⟩
abbrev main_c : Ref sig .tc := ⟨.hbm, 47, rfl⟩
abbrev main_v8 : Ref sig .tc := ⟨.hbm, 48, rfl⟩
abbrev main_v9 : Ref sig .tc := ⟨.hbm, 49, rfl⟩
abbrev main_c_0 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_c_1 : Ref sig .tc := ⟨.hbm, 56, rfl⟩
abbrev main_v15 : Ref sig .tc := ⟨.hbm, 57, rfl⟩
abbrev main_v16 : Ref sig .tc := ⟨.hbm, 58, rfl⟩
abbrev main_c_2 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_cst_3 : Ref sig .tc := ⟨.hbm, 71, rfl⟩
abbrev main_v27 : Ref sig .tc := ⟨.hbm, 72, rfl⟩
abbrev main_v28 : Ref sig .tc := ⟨.hbm, 73, rfl⟩
abbrev main_cst_4 : Ref sig .tc := ⟨.hbm, 74, rfl⟩
abbrev main_cst_5 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_v29 : Ref sig .tc := ⟨.hbm, 81, rfl⟩
abbrev main_v30 : Ref sig .tc := ⟨.hbm, 82, rfl⟩
abbrev main_c_6 : Ref sig .tc := ⟨.hbm, 83, rfl⟩
abbrev main_v31 : Ref sig .tc := ⟨.hbm, 84, rfl⟩
abbrev main_v32 : Ref sig .tc := ⟨.hbm, 85, rfl⟩
abbrev main_c_7 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_cst_8 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_cst_9 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_10 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_11 : Ref sig .tc := ⟨.hbm, 113, rfl⟩
abbrev main_v56 : Ref sig .tc := ⟨.hbm, 114, rfl⟩
abbrev main_v57 : Ref sig .tc := ⟨.hbm, 115, rfl⟩
abbrev main_cst_12 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_13 : Ref sig .tc := ⟨.hbm, 122, rfl⟩
abbrev main_v63 : Ref sig .tc := ⟨.hbm, 123, rfl⟩
abbrev main_v64 : Ref sig .tc := ⟨.hbm, 124, rfl⟩
abbrev main_cst_14 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_cst_15 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_cst_16 : Ref sig .tc := ⟨.hbm, 147, rfl⟩
abbrev main_v85 : Ref sig .tc := ⟨.hbm, 148, rfl⟩
abbrev main_v86 : Ref sig .tc := ⟨.hbm, 149, rfl⟩
abbrev main_cst_17 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_cst_18 : Ref sig .tc := ⟨.hbm, 156, rfl⟩
abbrev main_v92 : Ref sig .tc := ⟨.hbm, 157, rfl⟩
abbrev main_v93 : Ref sig .tc := ⟨.hbm, 158, rfl⟩
abbrev main_cst_19 : Ref sig .tc := ⟨.hbm, 159, rfl⟩
abbrev main_v94 : Ref sig .tc := ⟨.hbm, 160, rfl⟩
abbrev main_v95 : Ref sig .tc := ⟨.hbm, 161, rfl⟩
abbrev main_v96 : Ref sig .tc := ⟨.hbm, 162, rfl⟩
abbrev main_v97 : Ref sig .tc := ⟨.hbm, 163, rfl⟩
abbrev main_cst_20 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_call1_cst : Ref sig .tc := ⟨.hbm, 180, rfl⟩
abbrev main_call1_v0 : Ref sig .tc := ⟨.hbm, 181, rfl⟩
abbrev main_v113 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_cst_21 : Ref sig .tc := ⟨.hbm, 188, rfl⟩
abbrev main_v119 : Ref sig .tc := ⟨.hbm, 189, rfl⟩
abbrev main_v120 : Ref sig .tc := ⟨.hbm, 190, rfl⟩
abbrev main_cst_22 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_cst_23 : Ref sig .tc := ⟨.hbm, 197, rfl⟩
abbrev main_v126 : Ref sig .tc := ⟨.hbm, 198, rfl⟩
abbrev main_v127 : Ref sig .tc := ⟨.hbm, 199, rfl⟩
abbrev main_cst_24 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_25 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_call2_cst : Ref sig .tc := ⟨.hbm, 221, rfl⟩
abbrev main_call2_v0 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_cst_26 : Ref sig .tc := ⟨.hbm, 229, rfl⟩
abbrev main_v153 : Ref sig .tc := ⟨.hbm, 230, rfl⟩
abbrev main_v154 : Ref sig .tc := ⟨.hbm, 231, rfl⟩
abbrev main_cst_27 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_cst_28 : Ref sig .tc := ⟨.hbm, 238, rfl⟩
abbrev main_v160 : Ref sig .tc := ⟨.hbm, 239, rfl⟩
abbrev main_v161 : Ref sig .tc := ⟨.hbm, 240, rfl⟩
abbrev main_cst_29 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_cst_30 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_v176 : Ref sig .tc := ⟨.hbm, 257, rfl⟩
abbrev main_v177 : Ref sig .tc := ⟨.hbm, 258, rfl⟩
abbrev main_v178 : Ref sig .tc := ⟨.hbm, 259, rfl⟩
abbrev main_v179 : Ref sig .tc := ⟨.hbm, 260, rfl⟩
abbrev main_v180 : Ref sig .tc := ⟨.hbm, 261, rfl⟩
abbrev main_v181 : Ref sig .tc := ⟨.hbm, 262, rfl⟩
abbrev main_cst_31 : Ref sig .tc := ⟨.hbm, 263, rfl⟩
abbrev main_v182 : Ref sig .tc := ⟨.hbm, 264, rfl⟩
abbrev main_v183 : Ref sig .tc := ⟨.hbm, 265, rfl⟩
abbrev main_cst_32 : Ref sig .tc := ⟨.hbm, 266, rfl⟩
abbrev main_v184 : Ref sig .tc := ⟨.hbm, 267, rfl⟩
abbrev main_cst_33 : Ref sig .tc := ⟨.hbm, 268, rfl⟩
abbrev main_v185 : Ref sig .tc := ⟨.hbm, 269, rfl⟩
abbrev main_v186 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_cst_34 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_cst_35 : Ref sig .tc := ⟨.hbm, 283, rfl⟩
abbrev main_v198 : Ref sig .tc := ⟨.hbm, 284, rfl⟩
abbrev main_v199 : Ref sig .tc := ⟨.hbm, 285, rfl⟩
abbrev main_cst_36 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_cst_37 : Ref sig .tc := ⟨.hbm, 292, rfl⟩
abbrev main_v205 : Ref sig .tc := ⟨.hbm, 293, rfl⟩
abbrev main_v206 : Ref sig .tc := ⟨.hbm, 294, rfl⟩
abbrev main_cst_38 : Ref sig .tc := ⟨.hbm, 295, rfl⟩
abbrev main_v207 : Ref sig .tc := ⟨.hbm, 296, rfl⟩
abbrev main_v208 : Ref sig .tc := ⟨.hbm, 297, rfl⟩
abbrev main_v209 : Ref sig .tc := ⟨.hbm, 298, rfl⟩
abbrev main_v210 : Ref sig .tc := ⟨.hbm, 299, rfl⟩
abbrev main_cst_39 : Ref sig .tc := ⟨.hbm, 300, rfl⟩
abbrev main_v211 : Ref sig .tc := ⟨.hbm, 301, rfl⟩
abbrev main_v212 : Ref sig .tc := ⟨.hbm, 302, rfl⟩
abbrev main_v213 : Ref sig .tc := ⟨.hbm, 303, rfl⟩
abbrev main_v214 : Ref sig .tc := ⟨.hbm, 304, rfl⟩
abbrev main_v215 : Ref sig .tc := ⟨.hbm, 305, rfl⟩
abbrev main_v216 : Ref sig .tc := ⟨.hbm, 306, rfl⟩
abbrev main_v217 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_v222 : Ref sig .tc := ⟨.hbm, 312, rfl⟩
abbrev main_call3_cst : Ref sig .tc := ⟨.hbm, 313, rfl⟩
abbrev main_call3_v0 : Ref sig .tc := ⟨.hbm, 314, rfl⟩
abbrev main_v223 : Ref sig .tc := ⟨.hbm, 315, rfl⟩
abbrev main_v224 : Ref sig .tc := ⟨.hbm, 316, rfl⟩
abbrev main_v225 : Ref sig .tc := ⟨.hbm, 317, rfl⟩
abbrev main_cst_40 : Ref sig .tc := ⟨.hbm, 318, rfl⟩
abbrev main_v226 : Ref sig .tc := ⟨.hbm, 319, rfl⟩
abbrev main_v227 : Ref sig .tc := ⟨.hbm, 320, rfl⟩
abbrev main_cst_41 : Ref sig .tc := ⟨.hbm, 321, rfl⟩
abbrev main_v228 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_cst_42 : Ref sig .tc := ⟨.hbm, 327, rfl⟩
abbrev main_v233 : Ref sig .tc := ⟨.hbm, 328, rfl⟩
abbrev main_v234 : Ref sig .tc := ⟨.hbm, 329, rfl⟩
abbrev main_cst_43 : Ref sig .tc := ⟨.hbm, 330, rfl⟩
abbrev main_v235 : Ref sig .tc := ⟨.hbm, 331, rfl⟩
abbrev main_v236 : Ref sig .tc := ⟨.hbm, 332, rfl⟩
abbrev main_v237 : Ref sig .tc := ⟨.hbm, 333, rfl⟩
abbrev main_v238 : Ref sig .tc := ⟨.hbm, 334, rfl⟩
abbrev main_cst_44 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩
abbrev main_v244 : Ref sig .tc := ⟨.hbm, 341, rfl⟩
abbrev main_v245 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩

abbrev nD : Nat := 1
abbrev τ : Topo := Topo.v7x

variable {F : FTy → Type} [FloatOps F]

class Facts₀ : Prop where
  shapeCasts_S30000x128_S30000x8x16 : S30000x128.ShapeCasts S30000x8x16
  shapeCasts_S480000x128_S480000x8x16 : S480000x128.ShapeCasts S480000x8x16
  bcast_S_S480000 : S_.BroadcastsInDim S480000 (![] : Fin 0 → Fin S480000.rank)
  bcast_S480000_S480000x1_0 : S480000.BroadcastsInDim S480000x1 (![0] : Fin 1 → Fin S480000x1.rank)
  bcast_S_S480000x8x16 : S_.BroadcastsInDim S480000x8x16 (![] : Fin 0 → Fin S480000x8x16.rank)
  shapeCasts_S480000x8x16_S480000x128 : S480000x8x16.ShapeCasts S480000x128
  reducesTo_S480000x8x16_S480000x8_d2 : S480000x8x16.ReducesTo [2] S480000x8
  h_S_ : 0 < S_.numel
  bcast_S480000x8_S480000x8x1_0_1 : S480000x8.BroadcastsInDim S480000x8x1 (![0, 1] : Fin 2 → Fin S480000x8x1.rank)
  bcast_S_S480000x8x1 : S_.BroadcastsInDim S480000x8x1 (![] : Fin 0 → Fin S480000x8x1.rank)
  bcast_S480000x8x1_S480000x8x16_0_1_2 : S480000x8x1.BroadcastsInDim S480000x8x16 (![0, 1, 2] : Fin 3 → Fin S480000x8x16.rank)
  bcast_S_S30000x8x16 : S_.BroadcastsInDim S30000x8x16 (![] : Fin 0 → Fin S30000x8x16.rank)
  bcast_S_S30000x8x1 : S_.BroadcastsInDim S30000x8x1 (![] : Fin 0 → Fin S30000x8x1.rank)
  bcast_S30000x8x1_S30000x8x16_0_1_2 : S30000x8x1.BroadcastsInDim S30000x8x16 (![0, 1, 2] : Fin 3 → Fin S30000x8x16.rank)
  shapeCasts_S30000x8x16_S30000x128 : S30000x8x16.ShapeCasts S30000x128
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  reducesTo_S30000x128_S30000_d1 : S30000x128.ReducesTo [1] S30000
  bcast_S30000_S30000x1_0 : S30000.BroadcastsInDim S30000x1 (![0] : Fin 1 → Fin S30000x1.rank)
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  bcast_S1x128_S480000x128_0_1 : S1x128.BroadcastsInDim S480000x128 (![0, 1] : Fin 2 → Fin S480000x128.rank)
  reducesTo_S480000x128_S480000_d1 : S480000x128.ReducesTo [1] S480000
  bcast_S_S480000x1 : S_.BroadcastsInDim S480000x1 (![] : Fin 0 → Fin S480000x1.rank)
  bcast_S480000x1_S480000x128_0_1 : S480000x1.BroadcastsInDim S480000x128 (![0, 1] : Fin 2 → Fin S480000x128.rank)
  bcast_S256_S1x256_1 : S256.BroadcastsInDim S1x256 (![1] : Fin 1 → Fin S1x256.rank)
  bcast_S1x256_S30000x256_0_1 : S1x256.BroadcastsInDim S30000x256 (![0, 1] : Fin 2 → Fin S30000x256.rank)
  bcast_S_S30000x256 : S_.BroadcastsInDim S30000x256 (![] : Fin 0 → Fin S30000x256.rank)
  bcast_S1x256_S480000x256_0_1 : S1x256.BroadcastsInDim S480000x256 (![0, 1] : Fin 2 → Fin S480000x256.rank)
  bcast_S_S480000x256 : S_.BroadcastsInDim S480000x256 (![] : Fin 0 → Fin S480000x256.rank)
  transposes_S500x128_S128x500_1_0 : S500x128.Transposes [1, 0] S128x500
  bcast_S_S30000x500 : S_.BroadcastsInDim S30000x500 (![] : Fin 0 → Fin S30000x500.rank)
  reducesTo_S30000x500_S30000_d1 : S30000x500.ReducesTo [1] S30000
  bcast_S_S30000 : S_.BroadcastsInDim S30000 (![] : Fin 0 → Fin S30000.rank)
  bcast_S30000x1_S30000x500_0_1 : S30000x1.BroadcastsInDim S30000x500 (![0, 1] : Fin 2 → Fin S30000x500.rank)
  bcast_S30000x500_S1x30000x500_1_2 : S30000x500.BroadcastsInDim S1x30000x500 (![1, 2] : Fin 2 → Fin S1x30000x500.rank)
  dot_S30000x128_S128x128_S30000x128_1_0_0_1_n_n_wf : DotDims.WF S30000x128 S128x128 S30000x128 [1] [0] [0] [1] [] []
  dot_S480000x128_S128x128_S480000x128_1_0_0_1_n_n_wf : DotDims.WF S480000x128 S128x128 S480000x128 [1] [0] [0] [1] [] []
  gather_S30000x8x16_S480000x1_S480000x8x16_12_0_n_n_0_1_1816_wf : GatherDims.WF S30000x8x16 S480000x1 S480000x8x16 [1, 2] [0] [] [0] [] 1 ![1, 8, 16]
  scatter_S30000x8x16_S480000x1_S480000x8x16_12_0_0_1_wf : ScatterDims.WF S30000x8x16 S480000x1 S480000x8x16 [1, 2] [0] [0] 1
  scatter_S30000x8x1_S480000x1_S480000x8x1_12_0_0_1_wf : ScatterDims.WF S30000x8x1 S480000x1 S480000x8x1 [1, 2] [0] [0] 1
  dot_S30000x128_S128x256_S30000x256_1_0_0_1_n_n_wf : DotDims.WF S30000x128 S128x256 S30000x256 [1] [0] [0] [1] [] []
  dot_S30000x256_S256x128_S30000x128_1_0_0_1_n_n_wf : DotDims.WF S30000x256 S256x128 S30000x128 [1] [0] [0] [1] [] []
  dot_S480000x128_S128x256_S480000x256_1_0_0_1_n_n_wf : DotDims.WF S480000x128 S128x256 S480000x256 [1] [0] [0] [1] [] []
  dot_S480000x256_S256x128_S480000x128_1_0_0_1_n_n_wf : DotDims.WF S480000x256 S256x128 S480000x128 [1] [0] [0] [1] [] []
  dot_S500x300_S300x128_S500x128_1_0_0_1_n_n_wf : DotDims.WF S500x300 S300x128 S500x128 [1] [0] [0] [1] [] []
  dot_S30000x128_S128x500_S30000x500_1_0_0_1_n_n_wf : DotDims.WF S30000x128 S128x500 S30000x500 [1] [0] [0] [1] [] []
  dot_S30000x500_S500x128_S30000x128_1_0_0_1_n_n_wf : DotDims.WF S30000x500 S500x128 S30000x128 [1] [0] [0] [1] [] []

variable [Facts₀]

def dot_S30000x128_S128x128_S30000x128_1_0_0_1_n_n : DotDims S30000x128 S128x128 S30000x128 where
  lhsContracting := [1]
  rhsContracting := [0]
  lhsNonContracting := [0]
  rhsNonContracting := [1]
  lhsBatch := []
  rhsBatch := []
  wf := dot_S30000x128_S128x128_S30000x128_1_0_0_1_n_n_wf
def dot_S480000x128_S128x128_S480000x128_1_0_0_1_n_n : DotDims S480000x128 S128x128 S480000x128 where
  lhsContracting := [1]
  rhsContracting := [0]
  lhsNonContracting := [0]
  rhsNonContracting := [1]
  lhsBatch := []
  rhsBatch := []
  wf := dot_S480000x128_S128x128_S480000x128_1_0_0_1_n_n_wf
def gather_S30000x8x16_S480000x1_S480000x8x16_12_0_n_n_0_1_1816 : GatherDims S30000x8x16 S480000x1 S480000x8x16 where
  offsetDims := [1, 2]
  collapsedSliceDims := [0]
  operandBatchingDims := []
  startIndicesBatchingDims := []
  startIndexMap := [0]
  indexVectorDim := 1
  sliceSizes := ![1, 8, 16]
  wf := gather_S30000x8x16_S480000x1_S480000x8x16_12_0_n_n_0_1_1816_wf
def scatter_S30000x8x16_S480000x1_S480000x8x16_12_0_0_1 : ScatterDims S30000x8x16 S480000x1 S480000x8x16 where
  updateWindowDims := [1, 2]
  insertedWindowDims := [0]
  scatterDimsToOperandDims := [0]
  indexVectorDim := 1
  wf := scatter_S30000x8x16_S480000x1_S480000x8x16_12_0_0_1_wf
def scatter_S30000x8x1_S480000x1_S480000x8x1_12_0_0_1 : ScatterDims S30000x8x1 S480000x1 S480000x8x1 where
  updateWindowDims := [1, 2]
  insertedWindowDims := [0]
  scatterDimsToOperandDims := [0]
  indexVectorDim := 1
  wf := scatter_S30000x8x1_S480000x1_S480000x8x1_12_0_0_1_wf
def dot_S30000x128_S128x256_S30000x256_1_0_0_1_n_n : DotDims S30000x128 S128x256 S30000x256 where
  lhsContracting := [1]
  rhsContracting := [0]
  lhsNonContracting := [0]
  rhsNonContracting := [1]
  lhsBatch := []
  rhsBatch := []
  wf := dot_S30000x128_S128x256_S30000x256_1_0_0_1_n_n_wf
def dot_S30000x256_S256x128_S30000x128_1_0_0_1_n_n : DotDims S30000x256 S256x128 S30000x128 where
  lhsContracting := [1]
  rhsContracting := [0]
  lhsNonContracting := [0]
  rhsNonContracting := [1]
  lhsBatch := []
  rhsBatch := []
  wf := dot_S30000x256_S256x128_S30000x128_1_0_0_1_n_n_wf
def dot_S480000x128_S128x256_S480000x256_1_0_0_1_n_n : DotDims S480000x128 S128x256 S480000x256 where
  lhsContracting := [1]
  rhsContracting := [0]
  lhsNonContracting := [0]
  rhsNonContracting := [1]
  lhsBatch := []
  rhsBatch := []
  wf := dot_S480000x128_S128x256_S480000x256_1_0_0_1_n_n_wf
def dot_S480000x256_S256x128_S480000x128_1_0_0_1_n_n : DotDims S480000x256 S256x128 S480000x128 where
  lhsContracting := [1]
  rhsContracting := [0]
  lhsNonContracting := [0]
  rhsNonContracting := [1]
  lhsBatch := []
  rhsBatch := []
  wf := dot_S480000x256_S256x128_S480000x128_1_0_0_1_n_n_wf
def dot_S500x300_S300x128_S500x128_1_0_0_1_n_n : DotDims S500x300 S300x128 S500x128 where
  lhsContracting := [1]
  rhsContracting := [0]
  lhsNonContracting := [0]
  rhsNonContracting := [1]
  lhsBatch := []
  rhsBatch := []
  wf := dot_S500x300_S300x128_S500x128_1_0_0_1_n_n_wf
def dot_S30000x128_S128x500_S30000x500_1_0_0_1_n_n : DotDims S30000x128 S128x500 S30000x500 where
  lhsContracting := [1]
  rhsContracting := [0]
  lhsNonContracting := [0]
  rhsNonContracting := [1]
  lhsBatch := []
  rhsBatch := []
  wf := dot_S30000x128_S128x500_S30000x500_1_0_0_1_n_n_wf
def dot_S30000x500_S500x128_S30000x128_1_0_0_1_n_n : DotDims S30000x500 S500x128 S30000x128 where
  lhsContracting := [1]
  rhsContracting := [0]
  lhsNonContracting := [0]
  rhsNonContracting := [1]
  lhsBatch := []
  rhsBatch := []
  wf := dot_S30000x500_S500x128_S30000x128_1_0_0_1_n_n_wf

class Facts : Prop extends Facts₀ where

variable [Facts]
-- ==== Proof.K.Region0.lean ====
-- Node projection on one block of 3000 rows: the body stores X_t · [Wq | Wk | Wv] over its whole output block and gives its inputs back unchanged.
import proofs.«406977_j9723805958288_1_alg».proof.Proof.Gen.Kernel.Launch
import proofs.«406977_j9723805958288_1_alg».proof.Proof.Gen.Kernel.Skeleton
import proofs.«406977_j9723805958288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featRect : Rect S3000x128 := Rect.unit (s := S3000x128) ![0, 0] S3000x128.size inb_S3000x128_S3000x128_0_0
abbrev weightRect : Rect S128x384 := Rect.unit (s := S128x384) ![0, 0] S128x384.size inb_S128x384_S128x384_0_0
abbrev projRect : Rect S3000x384 := Rect.unit (s := S3000x384) ![0, 0] S3000x384.size inb_S3000x384_S3000x384_0_0

def out0_2 (x0 : Vec F S3000x128 .f32) (x1 : Vec F S128x384 .f32) : Vec F S3000x384 .f32 :=
  View.canon [⟨projRect, k0_pay1 (View.ld x0 featRect) (View.ld x1 weightRect)⟩]

theorem cover0_2 (p0 : Vec F S3000x384 .f32) (y : S3000x384.Idx) :
    ∃ pc ∈ ([⟨projRect, p0⟩] : List (View.Piece (Elt F) S3000x384 .f32)), y ∈ pc.1.set :=
  View.cover_of_tiled [⟨projRect, p0⟩] S3000x384.size (by rfl) y

set_option maxHeartbeats 1000000 in
/-- Run on three whole buffers, the body hands its two inputs back as it read them; its one store covers the third. -/
theorem sound_kernel0 (c : Dev nD) (E : Set ℕ) {i : grid0.Coords} {arg1 : Memref sig .tc .vmem S3000x128 .f32}
    {arg2 : Memref sig .tc .vmem S128x384 .f32} {arg3 : Memref sig .tc .vmem S3000x384 .f32}
    (harg1 : arg1.IsWhole) (harg2 : arg2.IsWhole) (harg3 : arg3.IsWhole)
    {x0 : Vec F S3000x128 .f32} {x1 : Vec F S128x384 .f32} {y : Vec F S3000x384 .f32} {K : PUnit → sProp 𝕄} :
    iprop(owns c arg1 fullShare x0 ∗ owns c arg2 fullShare x1 ∗ owns c arg3 fullShare y
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__node_proj_kernel i arg1 harg1 arg2 harg2 arg3 harg3) K := by
  simp only [cc0__node_proj_kernel_eq_skeleton]; unfold cc0__node_proj_kernel_skel owns
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr; swap; · iexact H2
  ipureintro; exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) :
    (dat0 V c).after 2 t = out0_2 (iblk0 V c 0 t) (iblk0 V c 1 t) := by dsimp only [dat0]

/-- Stated once over the window: in the body obligation every input's `before` becomes its `after`. -/
private theorem before_eq_after {cfg : Cfg sig Λ₀} {c : Dev nD} (dat : Dat τ (Elt F) Unit ℕ (UR sig nD τ) ℕ cfg c) (w : Fin cfg.W)
    {t : Fin cfg.N} {d : (cfg.win w).block.Idx → Elt F (cfg.win w).elt}
    (hw : (cfg.win w).isOut = false := by rfl) (hlive : ∀ i, cfg.idle w i = false := by intros; rfl)
    (hclip : ∀ i a, (cfg.win w).clip i a = none := by intros; rfl)
    (hkeep : ∀ t, (cfg.win w).cut (cfg.grid.coords t) (dat.after w t) = dat.blockOf w t := by intros; rfl) :
    dat.before w t d = dat.after w t := by
  rw [dat.before_in_eq_fetched w hw hlive (fun _ _ _ => funext fun a => (hclip _ a).trans (hclip _ a).symm) hkeep]
  unfold Dat.fetched
  rw [← hkeep, Pipeline.fill_of_clip_none w _ (hclip _) d (dat.after w t), Window.fill_cut]

/-- At every point the two inputs' buffers hold their blocks, so the body's triple applies there; the rest of the state is framed. -/
theorem body_obligation0 (c : Dev nD) : BodyObligation (dat0 (F := F) V c) (defs₀ (F := F)) Variants.none () Set.univ := fun t => by
  rw [bigSep_W0, bigSep_W0]
  simp only [before_eq_after (dat0 V c) 0, before_eq_after (dat0 V c) 1]
  dsimp only [dat0, Pipeline.Dat.owesAt, Pipeline.Dat.bound]
  sl_whnfR [defs₀, Defs.onTc]
  iintro ⟨HΦ, Ho, ⟨%_, H0⟩, ⟨%_, H1⟩, ⟨%_, H2⟩⟩
  iapply sound_kernel0 c Set.univ _ _ _
  iframe
  iintro H
  iframe

end Cert.Kernel.Hand

end
-- ==== Proof.K.Region1.lean ====
-- The per-edge step on one block of 3000 edges: three output blocks written whole as functions of the fifteen input blocks, inputs unchanged.
import proofs.«406977_j9723805958288_1_alg».proof.Proof.Gen.Kernel.Launch
import proofs.«406977_j9723805958288_1_alg».proof.Proof.Gen.Kernel.Skeleton
import proofs.«406977_j9723805958288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev edgeRows : Rect S3000x128 := Rect.unit (s := S3000x128) ![0, 0] S3000x128.size inb_S3000x128_S3000x128_0_0
abbrev headCols : Rect S3000x8 := Rect.unit (s := S3000x8) ![0, 0] S3000x8.size inb_S3000x8_S3000x8_0_0
abbrev sqWeight : Rect S128x128 := Rect.unit (s := S128x128) ![0, 0] S128x128.size inb_S128x128_S128x128_0_0
abbrev vec128 : Rect S128 := Rect.unit (s := S128) ![0] S128.size inb_S128_S128_0
abbrev upWeight : Rect S128x256 := Rect.unit (s := S128x256) ![0, 0] S128x256.size inb_S128x256_S128x256_0_0
abbrev vec256 : Rect S256 := Rect.unit (s := S256) ![0] S256.size inb_S256_S256_0
abbrev downWeight : Rect S256x128 := Rect.unit (s := S256x128) ![0, 0] S256x128.size inb_S256x128_S256x128_0_0

def out1_15 (x0 x1 x2 x3 : Vec F S3000x128 .f32) (x4 x5 : Vec F S128x128 .f32) (x6 x7 x8 : Vec F S128 .f32) (x9 : Vec F S128x256 .f32) (x10 : Vec F S256 .f32) (x11 : Vec F S256x128 .f32) (x12 x13 x14 : Vec F S128 .f32) : Vec F S3000x128 .f32 :=
  View.canon [⟨edgeRows, k1_pay13 (k1_pay2 (View.ld x3 edgeRows)) (k1_pay4 (View.ld x0 edgeRows) (View.ld x1 edgeRows) (View.ld x2 edgeRows) (View.ld x4 sqWeight)) (k1_pay5 (View.ld x0 edgeRows) (View.ld x1 edgeRows) (View.ld x2 edgeRows) (View.ld x4 sqWeight)) (k1_pay6 (View.ld x0 edgeRows) (View.ld x1 edgeRows) (View.ld x2 edgeRows) (View.ld x4 sqWeight)) (k1_pay7 (View.ld x0 edgeRows) (View.ld x1 edgeRows) (View.ld x2 edgeRows) (View.ld x4 sqWeight)) (k1_pay8 (View.ld x0 edgeRows) (View.ld x1 edgeRows) (View.ld x2 edgeRows) (View.ld x4 sqWeight)) (k1_pay9 (View.ld x0 edgeRows) (View.ld x1 edgeRows) (View.ld x2 edgeRows) (View.ld x4 sqWeight)) (k1_pay10 (View.ld x0 edgeRows) (View.ld x1 edgeRows) (View.ld x2 edgeRows) (View.ld x4 sqWeight)) (k1_pay11 (View.ld x0 edgeRows) (View.ld x1 edgeRows) (View.ld x2 edgeRows) (View.ld x4 sqWeight))⟩]

def out1_16 (x0 x1 x2 x3 : Vec F S3000x128 .f32) (x4 x5 : Vec F S128x128 .f32) (x6 x7 x8 : Vec F S128 .f32) (x9 : Vec F S128x256 .f32) (x10 : Vec F S256 .f32) (x11 : Vec F S256x128 .f32) (x12 x13 x14 : Vec F S128 .f32) : Vec F S3000x8 .f32 :=
  View.canon [⟨headCols, k1_pay12 (k1_pay4 (View.ld x0 edgeRows) (View.ld x1 edgeRows) (View.ld x2 edgeRows) (View.ld x4 sqWeight)) (k1_pay5 (View.ld x0 edgeRows) (View.ld x1 edgeRows) (View.ld x2 edgeRows) (View.ld x4 sqWeight)) (k1_pay6 (View.ld x0 edgeRows) (View.ld x1 edgeRows) (View.ld x2 edgeRows) (View.ld x4 sqWeight)) (k1_pay7 (View.ld x0 edgeRows) (View.ld x1 edgeRows) (View.ld x2 edgeRows) (View.ld x4 sqWeight)) (k1_pay8 (View.ld x0 edgeRows) (View.ld x1 edgeRows) (View.ld x2 edgeRows) (View.ld x4 sqWeight)) (k1_pay9 (View.ld x0 edgeRows) (View.ld x1 edgeRows) (View.ld x2 edgeRows) (View.ld x4 sqWeight)) (k1_pay10 (View.ld x0 edgeRows) (View.ld x1 edgeRows) (View.ld x2 edgeRows) (View.ld x4 sqWeight)) (k1_pay11 (View.ld x0 edgeRows) (View.ld x1 edgeRows) (View.ld x2 edgeRows) (View.ld x4 sqWeight))⟩]

def out1_17 (x0 x1 x2 x3 : Vec F S3000x128 .f32) (x4 x5 : Vec F S128x128 .f32) (x6 x7 x8 : Vec F S128 .f32) (x9 : Vec F S128x256 .f32) (x10 : Vec F S256 .f32) (x11 : Vec F S256x128 .f32) (x12 x13 x14 : Vec F S128 .f32) : Vec F S3000x128 .f32 :=
  View.canon [⟨edgeRows, k1_pay1 (k1_pay17 (k1_pay14 (View.ld x0 edgeRows) (k1_pay3 (View.ld x0 edgeRows) (View.ld x1 edgeRows) (View.ld x2 edgeRows) (View.ld x4 sqWeight)) (View.ld x5 sqWeight) (View.ld x6 vec128)) (k1_pay15 (View.ld x0 edgeRows) (k1_pay3 (View.ld x0 edgeRows) (View.ld x1 edgeRows) (View.ld x2 edgeRows) (View.ld x4 sqWeight)) (View.ld x5 sqWeight) (View.ld x6 vec128)) (k1_pay16 (View.ld x0 edgeRows) (k1_pay3 (View.ld x0 edgeRows) (View.ld x1 edgeRows) (View.ld x2 edgeRows) (View.ld x4 sqWeight)) (View.ld x5 sqWeight) (View.ld x6 vec128)) (Scalar.ofBits .f32 0x43000000#32) (View.ld x7 vec128) (View.ld x8 vec128) (View.ld x9 upWeight) (View.ld x10 vec256) (View.ld x11 downWeight) (View.ld x12 vec128)) (k1_pay18 (k1_pay14 (View.ld x0 edgeRows) (k1_pay3 (View.ld x0 edgeRows) (View.ld x1 edgeRows) (View.ld x2 edgeRows) (View.ld x4 sqWeight)) (View.ld x5 sqWeight) (View.ld x6 vec128)) (k1_pay15 (View.ld x0 edgeRows) (k1_pay3 (View.ld x0 edgeRows) (View.ld x1 edgeRows) (View.ld x2 edgeRows) (View.ld x4 sqWeight)) (View.ld x5 sqWeight) (View.ld x6 vec128)) (k1_pay16 (View.ld x0 edgeRows) (k1_pay3 (View.ld x0 edgeRows) (View.ld x1 edgeRows) (View.ld x2 edgeRows) (View.ld x4 sqWeight)) (View.ld x5 sqWeight) (View.ld x6 vec128)) (Scalar.ofBits .f32 0x43000000#32) (View.ld x7 vec128) (View.ld x8 vec128) (View.ld x9 upWeight) (View.ld x10 vec256) (View.ld x11 downWeight) (View.ld x12 vec128)) (k1_pay19 (k1_pay14 (View.ld x0 edgeRows) (k1_pay3 (View.ld x0 edgeRows) (View.ld x1 edgeRows) (View.ld x2 edgeRows) (View.ld x4 sqWeight)) (View.ld x5 sqWeight) (View.ld x6 vec128)) (k1_pay15 (View.ld x0 edgeRows) (k1_pay3 (View.ld x0 edgeRows) (View.ld x1 edgeRows) (View.ld x2 edgeRows) (View.ld x4 sqWeight)) (View.ld x5 sqWeight) (View.ld x6 vec128)) (k1_pay16 (View.ld x0 edgeRows) (k1_pay3 (View.ld x0 edgeRows) (View.ld x1 edgeRows) (View.ld x2 edgeRows) (View.ld x4 sqWeight)) (View.ld x5 sqWeight) (View.ld x6 vec128)) (Scalar.ofBits .f32 0x43000000#32) (View.ld x7 vec128) (View.ld x8 vec128) (View.ld x9 upWeight) (View.ld x10 vec256) (View.ld x11 downWeight) (View.ld x12 vec128)) (View.ld x13 vec128) (View.ld x14 vec128)⟩]

theorem cover1_rows (p : Vec F S3000x128 .f32) (y : S3000x128.Idx) :
    ∃ pc ∈ ([⟨edgeRows, p⟩] : List (View.Piece (Elt F) S3000x128 .f32)), y ∈ pc.1.set :=
  View.cover_of_tiled [⟨edgeRows, p⟩] S3000x128.size (by rfl) y

theorem cover1_heads (p : Vec F S3000x8 .f32) (y : S3000x8.Idx) :
    ∃ pc ∈ ([⟨headCols, p⟩] : List (View.Piece (Elt F) S3000x8 .f32)), y ∈ pc.1.set :=
  View.cover_of_tiled [⟨headCols, p⟩] S3000x8.size (by rfl) y

set_option maxHeartbeats 4000000 in
/-- Run on eighteen whole buffers, the step hands its fifteen inputs back as it read them; each output buffer gets one store, which covers it. -/
theorem sound_kernel1 (c : Dev nD) (E : Set ℕ) {i : grid1.Coords}
    {arg1 arg2 arg3 arg4 arg16 arg18 : Memref sig .tc .vmem S3000x128 .f32} {arg5 arg6 : Memref sig .tc .vmem S128x128 .f32}
    {arg7 arg8 arg9 arg13 arg14 arg15 : Memref sig .tc .vmem S128 .f32} {arg10 : Memref sig .tc .vmem S128x256 .f32}
    {arg11 : Memref sig .tc .vmem S256 .f32} {arg12 : Memref sig .tc .vmem S256x128 .f32} {arg17 : Memref sig .tc .vmem S3000x8 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
    {x0 x1 x2 x3 y15 y17 : Vec F S3000x128 .f32} {x4 x5 : Vec F S128x128 .f32} {x6 x7 x8 x12 x13 x14 : Vec F S128 .f32}
    {x9 : Vec F S128x256 .f32} {x10 : Vec F S256 .f32} {x11 : Vec F S256x128 .f32} {y16 : Vec F S3000x8 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14
        ∗ owns c arg16 fullShare y15 ∗ owns c arg17 fullShare y16 ∗ owns c arg18 fullShare y17
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14
            ∗ owns c arg16 fullShare (out1_15 x0 x1 x2 x3 x4 x5 x6 x7 x8 x9 x10 x11 x12 x13 x14) ∗ owns c arg17 fullShare (out1_16 x0 x1 x2 x3 x4 x5 x6 x7 x8 x9 x10 x11 x12 x13 x14) ∗ owns c arg18 fullShare (out1_17 x0 x1 x2 x3 x4 x5 x6 x7 x8 x9 x10 x11 x12 x13 x14)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__edge_kernel_eq_skeleton]; unfold cc1__edge_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, -, H15⟩, ⟨%f16, -, H16⟩, ⟨%f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr; swap; · iexact H15
    ipureintro; exact View.read_writes_eq_canon _ _ _ (cover1_rows _)
  isplitl [H16]
  · iexists _; isplitr; swap; · iexact H16
    ipureintro; exact View.read_writes_eq_canon _ _ _ (cover1_heads _)
  iexists _; isplitr; swap; · iexact H17
  ipureintro; exact View.read_writes_eq_canon _ _ _ (cover1_rows _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 18, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Stated once over the window: in the body obligation every input's `before` becomes its `after`. -/
private theorem before_eq_after {cfg : Cfg sig Λ₀} {c : Dev nD} (dat : Dat τ (Elt F) Unit ℕ (UR sig nD τ) ℕ cfg c) (w : Fin cfg.W)
    {t : Fin cfg.N} {d : (cfg.win w).block.Idx → Elt F (cfg.win w).elt}
    (hw : (cfg.win w).isOut = false := by rfl) (hlive : ∀ i, cfg.idle w i = false := by intros; rfl)
    (hclip : ∀ i a, (cfg.win w).clip i a = none := by intros; rfl)
    (hkeep : ∀ t, (cfg.win w).cut (cfg.grid.coords t) (dat.after w t) = dat.blockOf w t := by intros; rfl) :
    dat.before w t d = dat.after w t := by
  rw [dat.before_in_eq_fetched w hw hlive (fun _ _ _ => funext fun a => (hclip _ a).trans (hclip _ a).symm) hkeep]
  unfold Dat.fetched
  rw [← hkeep, Pipeline.fill_of_clip_none w _ (hclip _) d (dat.after w t), Window.fill_cut]

/-- At every point the fifteen inputs' buffers hold their blocks, so the step's triple applies there; the rest of the state is framed. -/
theorem body_obligation1 (c : Dev nD) : BodyObligation (dat1 (F := F) V c) (defs₀ (F := F)) Variants.none () Set.univ := fun t => by
  rw [bigSep_W1, bigSep_W1]
  simp only [before_eq_after (dat1 V c) 0, before_eq_after (dat1 V c) 1, before_eq_after (dat1 V c) 2, before_eq_after (dat1 V c) 3, before_eq_after (dat1 V c) 4, before_eq_after (dat1 V c) 5, before_eq_after (dat1 V c) 6, before_eq_after (dat1 V c) 7, before_eq_after (dat1 V c) 8, before_eq_after (dat1 V c) 9, before_eq_after (dat1 V c) 10, before_eq_after (dat1 V c) 11, before_eq_after (dat1 V c) 12, before_eq_after (dat1 V c) 13, before_eq_after (dat1 V c) 14]
  dsimp only [dat1, Pipeline.Dat.owesAt, Pipeline.Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩, ⟨%_, H16⟩, ⟨%_, H17⟩⟩
  iapply sound_kernel1 c Set.univ _ _ _ _ _ _ _ _ _ _ _ _ _ _ _ _ _ _
  iframe
  iintro H
  iframe

end Cert.Kernel.Hand

end
-- ==== Proof.K.Run.lean ====
-- @main as twelve items (ten host stretches, two kernel regions) and the contents W0 … W12 at the boundaries between them.
import proofs.«406977_j9723805958288_1_alg».proof.Proof.Gen.Kernel.Launch
import proofs.«406977_j9723805958288_1_alg».proof.Proof.Gen.Kernel.Skeleton
import proofs.«406977_j9723805958288_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«406977_j9723805958288_1_alg».proof.Proof.K.Region0
import proofs.«406977_j9723805958288_1_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev W4 : Dev nD → Valuation τ sig (Elt F) := fun c => StableHlo.after hostOps1_1 (W3 m ρ c)

abbrev W5 : Dev nD → Valuation τ sig (Elt F) := fun c => StableHlo.after hostOps1_2 (W4 m ρ c)

abbrev W6 : Dev nD → Valuation τ sig (Elt F) := fun c => StableHlo.after hostOps1_3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N

theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w

theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

abbrev W8 : Dev nD → Valuation τ sig (Elt F) := fun c => StableHlo.after hostOps2 (W7 m ρ c)

abbrev W9 : Dev nD → Valuation τ sig (Elt F) := fun c => StableHlo.after hostOps2_1 (W8 m ρ c)

abbrev W10 : Dev nD → Valuation τ sig (Elt F) := fun c => StableHlo.after hostOps2_2 (W9 m ρ c)

abbrev W11 : Dev nD → Valuation τ sig (Elt F) := fun c => StableHlo.after hostOps2_3 (W10 m ρ c)

abbrev W12 : Dev nD → Valuation τ sig (Elt F) := fun c => StableHlo.after hostOps2_4 (W11 m ρ c)

abbrev noTables : (p : Fin 2) → (pcfgs (F := F) p).Adm := fun p => (cfgs p).toPCfg_adm

def bothData : (p : Fin 2) → (c : Dev nD) → Dat τ (Elt F) Unit ℕ (UR sig nD τ) ℕ (Pipeline.pin (pcfgs (F := F)) noTables p) c
  | ⟨0, _⟩ => dat0 (V1 m ρ)
  | ⟨1, _⟩ => dat1 (V6 m ρ)

abbrev noVariants : Variants := Variants.none
abbrev noLevels : GSem nD τ sig → Finset Unit := fun _ => ∅
abbrev levelOf : GSem nD τ sig → Unit → ℕ := fun _ _ => 0

abbrev rider (c : Dev nD) : sProp 𝕄 :=
  iprop((∃ r, prngReg c r) ∗ ∃ W, owes (c : Thread nD τ) (0 : CellTallies nD τ sig Unit) W)

abbrev boundaryAt (W : Dev nD → Valuation τ sig (Elt F)) (c : Dev nD) : sProp 𝕄 :=
  iprop(StableHlo.held (c : Thread nD τ) (Pipeline.ucRefs τ sig) (W c) ∗ rider c)

abbrev stretch (ops : List (HloOp τ sig (Elt F))) (hsub : ops.Forall fun op => op.bufs ⊆ StableHlo.tcRefs τ sig)
    (W : Dev nD → Valuation τ sig (Elt F)) (hfresh : ops.Forall fun op => op.fresh = ∅ := by repeat' constructor) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op (List.forall_iff_forall_mem.mp hsub op h))
    (List.forall_iff_forall_mem.mp hfresh) W rider

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev atTc (W : Dev nD → Valuation τ sig (Elt F)) : (c : Dev nD) → (b : Ref sig .tc) → Buf (Elt F) ((c : Thread nD τ).loc b) :=
  fun c b => W c b

-- One construction for both regions: they differ only in the index p and in the constants that come with it.
set_option backward.isDefEq.respectTransparency.types false in
def region (p : Fin 2) (lf : Pipeline.LaunchFacts (nD := nD) (τ := τ) cfgs p) (W W' : Dev nD → Valuation τ sig (Elt F))
    (harr : ∀ c w, (bothData m ρ p c).arrAt w (cfgs p).N = atTc W' c (Pipeline.arrRef (cfgs p).spec w))
    (hne : ∀ c (b : Ref sig .tc), (∀ w, Pipeline.arrRef (cfgs p).spec w ≠ b) → atTc W' c b = atTc W c b)
    (hbody : ∀ c, BodyObligation (bothData m ρ p c) (defs₀ (F := F)) noVariants () Set.univ)
    (hA : ∀ c w, (bothData m ρ p c).A w = atTc W c (Pipeline.arrRef (cfgs p).spec w))
    (hΦ : ∀ c t, (bothData m ρ p c).Φ t = Pipeline.ΦA (cfgs p).spec c)
    (hq : ∀ c w, (bothData m ρ p c).q w = fullShare)
    (h0 : ∀ c t, (bothData m ρ p c).owed t = 0) (hr : ∀ c t, (bothData m ρ p c).recorded t = Set.univ) :
    Pipeline.RegionSeg (pcfgs (F := F)) noTables (bothData m ρ) () defs₀ noVariants noLevels levelOf p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels levelOf p h0
  pre := boundaryAt W
  post := boundaryAt W'
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    rw [Pipeline.ownSems0_none]
    have takeOut := Pipeline.arrays_of_unscopedBufs (p := p) (pcfgs (F := F)) noTables (bothData m ρ) lf.win lf.arr_whole c
      ((bothData m ρ p c).share_full (hq c)) (atTc W c) (hA c)
    rw [Pipeline.unscopedBufs_held] at takeOut
    iintro ⟨⟨Hbufs, Hreg, Howes⟩, -, -⟩
    ihave Hparts := takeOut $$ Hbufs
    icases Hparts with ⟨Harrs, Hrest⟩
    imodintro
    isplitl [Harrs]; · iexact Harrs
    isplitr
    · unfold Pipeline.prefHeld
      rw [show (Finset.univ : Finset (Fin 0)) = ∅ from rfl, BI.bigSep_empty]; iempintro
    isplitl [Howes]
    · unfold Pipeline.Dat.owesAt Pipeline.owesWithin Pipeline.Dat.bound; rw [h0, hr]
      icases Howes with ⟨%O, Howes⟩; iexists O
      isplitr; · ipureintro; exact fun _ _ => Or.inl trivial
      iexact Howes
    isplitl [Hreg]; · iexact Hreg
    iexact Hrest
  hin c := by
    rw [hΦ]; unfold Pipeline.ΦA
    iintro ⟨Hreg, -, Hscoped⟩
    isplitl [Hscoped]; · iexact Hscoped
    iexact Hreg
  hout c := by
    rw [Pipeline.ownSems0_none, hΦ]; unfold Pipeline.ΦA
    iintro ⟨Hscoped, Hreg⟩
    isplitl [Hreg]; · iexact Hreg
    isplitr; · iempintro
    iexact Hscoped
  hexit c := by
    have putBack := Pipeline.unscopedBufs_of_arrays (p := p) (pcfgs (F := F)) noTables (Ix := Unit) (Name := ℕ) (U := UR sig nD τ) (Lvl := ℕ)
      lf.win lf.arr_whole c (bothData m ρ) ((bothData m ρ p c).share_full (hq c))
      (atTc W c) (atTc W' c) ((bothData m ρ p c).arrAt · (cfgs p).N) (harr c)
      fun b hb => hne c b fun w e => hb (Finset.mem_image.mpr ⟨w, Finset.mem_univ _, e⟩)
    rw [Pipeline.unscopedBufs_held] at putBack
    iintro ⟨Harrs, Howes, Hreg, Hrest⟩
    imodintro
    isplitl [Harrs Hrest]
    · iapply putBack; isplitl [Harrs] <;> iassumption
    isplitl [Hreg]; · iexact Hreg
    unfold Pipeline.Dat.owesAt Pipeline.owesWithin; rw [h0]
    icases Howes with ⟨%O, -, Howes⟩; iexists O; iexact Howes

set_option backward.isDefEq.respectTransparency.types false in
abbrev items : List (Pipeline.Seg (pcfgs (F := F)) noTables (bothData m ρ) () defs₀ noVariants noLevels levelOf) :=
  [ .host (stretch hostOps0 hostOps0_sub (W0 m ρ)),
    .region (region m ρ 0 launch0 (W1 m ρ) (W2 m ρ) (fun c w => (W2_arr m ρ c w).symm) (W2_of_ne m ρ) (body_obligation0 (V1 m ρ))
      (fun _ _ => rfl) (fun _ _ => rfl) (fun _ _ => rfl) (fun _ _ => rfl) fun _ _ => rfl),
    .host (stretch hostOps1 hostOps1_sub (W2 m ρ)),
    .host (stretch hostOps1_1 hostOps1_1_sub (W3 m ρ)),
    .host (stretch hostOps1_2 hostOps1_2_sub (W4 m ρ)),
    .host (stretch hostOps1_3 hostOps1_3_sub (W5 m ρ)),
    .region (region m ρ 1 launch1 (W6 m ρ) (W7 m ρ) (fun c w => (W7_arr m ρ c w).symm) (W7_of_ne m ρ) (body_obligation1 (V6 m ρ))
      (fun _ _ => rfl) (fun _ _ => rfl) (fun _ _ => rfl) (fun _ _ => rfl) fun _ _ => rfl),
    .host (stretch hostOps2 hostOps2_sub (W7 m ρ)),
    .host (stretch hostOps2_1 hostOps2_1_sub (W8 m ρ)),
    .host (stretch hostOps2_2 hostOps2_2_sub (W9 m ρ)),
    .host (stretch hostOps2_3 hostOps2_3_sub (W10 m ρ)),
    .host (stretch hostOps2_4 hostOps2_4_sub (W11 m ρ)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c.tc : Thread nD τ)).1, b) = W12 m ρ c b) :=
  Pipeline.θ_run_regions_kit (pcfgs (F := F)) noTables (bothData m ρ) () cellOf_inj emb₁ defs₀ noVariants noLevels levelOf m ρ main (items m ρ)
    (fun c Q => by rw [(main_chain c).trans ((Pipeline.Seg.run_eq_chain (items m ρ)).trans rfl).symm])
    (by decide : [(0 : Fin 2), 1].Nodup)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := boundaryAt (W0 m ρ))
    (Tₙ := fun c => iprop(StableHlo.held (c : Thread nD τ) (Pipeline.ucRefs τ sig) (W12 m ρ c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => BI.sep_assoc'⟩)
    (hinit := by
      refine Pipeline.initEach noLevels levelOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W12 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W12 m ρ c) s')
      isplitl [Hbufs] <;> iassumption)
    (hQ := fun s h => h)

end Cert.Kernel.Hand

end
-- ==== Proof.K.Kept.lean ====
-- No operation of @main writes an argument array, so each ends as launched; the frame follows from the run.
import proofs.«406977_j9723805958288_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def arguments : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29,
   main_arg30, main_arg31, main_arg32, main_arg33, main_arg34, main_arg35, main_arg36, main_arg37, main_arg38]

theorem arguments_unscoped : ∀ b ∈ arguments, ¬ (Proc.devRef .tc b : DevRef τ sig).isScoped := by decide

theorem spares_arguments {op : HloOp τ sig (Elt F)} {y : Ref sig .tc} (hw : op.writes = {Proc.devRef .tc y})
    (hy : y ∉ arguments) : ∀ b ∈ arguments, (Proc.devRef .tc b : DevRef τ sig) ∉ op.writes := by
  intro b hb hmem
  rw [hw, Finset.mem_singleton] at hmem
  exact hy (Proc.devRef_injective _ hmem ▸ hb)

theorem stretch_keeps (ops : List (HloOp τ sig (Elt F))) (W : Valuation τ sig (Elt F)) {b : Ref sig .tc} (hb : b ∈ arguments)
    (h : ops.Forall fun op => ∀ b ∈ arguments, (Proc.devRef .tc b : DevRef τ sig) ∉ op.writes := by
      repeat' (first | exact spares_arguments rfl (by decide) | constructor)) :
    StableHlo.after ops W (Proc.devRef .tc b) = W (Proc.devRef .tc b) :=
  StableHlo.after_of_forall_not_mem ops W fun op hop => List.forall_iff_forall_mem.mp h op hop b hb

theorem region_keeps {cfg : Cfg sig Λ₀} {c : Dev nD} (D : Dat τ (Elt F) Unit ℕ (UR sig nD τ) ℕ cfg c)
    {W W' : Valuation τ sig (Elt F)} (hA : ∀ w, D.A w = W (Proc.devRef .tc (Pipeline.arrRef cfg.spec w)))
    (harr : ∀ w, W' (Proc.devRef .tc (Pipeline.arrRef cfg.spec w)) = D.arrAt w cfg.N)
    (hne : ∀ b : Ref sig .tc, (∀ w, Pipeline.arrRef cfg.spec w ≠ b) → W' (Proc.devRef .tc b) = W (Proc.devRef .tc b))
    (hin : ∀ w, Pipeline.arrRef cfg.spec w ∈ arguments → (cfg.win w).isOut = false) {b : Ref sig .tc} (hb : b ∈ arguments) :
    W' (Proc.devRef .tc b) = W (Proc.devRef .tc b) := by
  by_cases h : ∃ w, Pipeline.arrRef cfg.spec w = b
  · obtain ⟨w, rfl⟩ := h
    exact (harr w).trans ((D.arrAt_in w (hin w hb) _).trans (hA w))
  · exact hne b fun w e => h ⟨w, e⟩

theorem W12_argument (c : Dev nD) (b : Ref sig .tc) (hb : b ∈ arguments) :
    W12 m ρ c (Proc.devRef .tc b) = m ((c : Thread nD τ).loc b) :=
  (stretch_keeps hostOps2_4 _ hb).trans <| (stretch_keeps hostOps2_3 _ hb).trans <| (stretch_keeps hostOps2_2 _ hb).trans <| (stretch_keeps hostOps2_1 _ hb).trans <|
  (stretch_keeps hostOps2 _ hb).trans <| (region_keeps (dat1 (V6 m ρ) c) (A_eq1 _ c) (W7_arr m ρ c) (W7_of_ne m ρ c) (by decide) hb).trans <|
  (stretch_keeps hostOps1_3 _ hb).trans <| (stretch_keeps hostOps1_2 _ hb).trans <| (stretch_keeps hostOps1_1 _ hb).trans <| (stretch_keeps hostOps1 _ hb).trans <|
  (region_keeps (dat0 (V1 m ρ) c) (A_eq0 _ c) (W2_arr m ρ c) (W2_of_ne m ρ c) (by decide) hb).trans (stretch_keeps hostOps0 _ hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)) :=
  (θ_run defs _ _).mono (fun r h c => (List.forall_iff_forall_mem
    (p := fun b => r.2.mem ((c.tc : Thread nD τ).loc b) = m ((c.tc : Thread nD τ).loc b)) (l := arguments)).mpr fun b hb =>
      (h c _ (mem_uc b (arguments_unscoped b hb))).trans (W12_argument m ρ c b hb)) (run_all m ρ)

end Cert.Kernel.Hand

end
-- ==== Proof.KI.Region0.lean ====
-- Node projection on one block of 3000 rows: the body stores X_t · [Wq | Wk | Wv] over its whole output block and gives its inputs back unchanged.
import proofs.«406977_j9723805958288_1_alg».proof.Proof.Gen.KernelIdeal.Launch
import proofs.«406977_j9723805958288_1_alg».proof.Proof.Gen.KernelIdeal.Skeleton
import proofs.«406977_j9723805958288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev featRect : Rect S3000x128 := Rect.unit (s := S3000x128) ![0, 0] S3000x128.size inb_S3000x128_S3000x128_0_0
abbrev weightRect : Rect S128x384 := Rect.unit (s := S128x384) ![0, 0] S128x384.size inb_S128x384_S128x384_0_0
abbrev projRect : Rect S3000x384 := Rect.unit (s := S3000x384) ![0, 0] S3000x384.size inb_S3000x384_S3000x384_0_0

def out0_2 (x0 : Vec F S3000x128 .f32) (x1 : Vec F S128x384 .f32) : Vec F S3000x384 .f32 :=
  View.canon [⟨projRect, k0_pay1 (View.ld x0 featRect) (View.ld x1 weightRect)⟩]

theorem cover0_2 (p0 : Vec F S3000x384 .f32) (y : S3000x384.Idx) :
    ∃ pc ∈ ([⟨projRect, p0⟩] : List (View.Piece (Elt F) S3000x384 .f32)), y ∈ pc.1.set :=
  View.cover_of_tiled [⟨projRect, p0⟩] S3000x384.size (by rfl) y

set_option maxHeartbeats 1000000 in
/-- Run on three whole buffers, the body hands its two inputs back as it read them; its one store covers the third. -/
theorem sound_kernel0 (c : Dev nD) (E : Set ℕ) {i : grid0.Coords} {arg1 : Memref sig .tc .vmem S3000x128 .f32}
    {arg2 : Memref sig .tc .vmem S128x384 .f32} {arg3 : Memref sig .tc .vmem S3000x384 .f32}
    (harg1 : arg1.IsWhole) (harg2 : arg2.IsWhole) (harg3 : arg3.IsWhole)
    {x0 : Vec F S3000x128 .f32} {x1 : Vec F S128x384 .f32} {y : Vec F S3000x384 .f32} {K : PUnit → sProp 𝕄} :
    iprop(owns c arg1 fullShare x0 ∗ owns c arg2 fullShare x1 ∗ owns c arg3 fullShare y
        ∗ (iprop(owns c arg1 fullShare x0 ∗ owns c arg2 fullShare x1 ∗ owns c arg3 fullShare (out0_2 x0 x1)) -∗ K ⟨⟩))
      ⊢ wp frame (wpE (defs₀ (F := F)) Variants.none c none) E (cc0__node_proj_kernel i arg1 harg1 arg2 harg2 arg3 harg3) K := by
  simp only [cc0__node_proj_kernel_eq_skeleton]; unfold cc0__node_proj_kernel_skel owns
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr; swap; · iexact H2
  ipureintro; exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) :
    (dat0 V c).after 2 t = out0_2 (iblk0 V c 0 t) (iblk0 V c 1 t) := by dsimp only [dat0]

/-- Stated once over the window: in the body obligation every input's `before` becomes its `after`. -/
private theorem before_eq_after {cfg : Cfg sig Λ₀} {c : Dev nD} (dat : Dat τ (Elt F) Unit ℕ (UR sig nD τ) ℕ cfg c) (w : Fin cfg.W)
    {t : Fin cfg.N} {d : (cfg.win w).block.Idx → Elt F (cfg.win w).elt}
    (hw : (cfg.win w).isOut = false := by rfl) (hlive : ∀ i, cfg.idle w i = false := by intros; rfl)
    (hclip : ∀ i a, (cfg.win w).clip i a = none := by intros; rfl)
    (hkeep : ∀ t, (cfg.win w).cut (cfg.grid.coords t) (dat.after w t) = dat.blockOf w t := by intros; rfl) :
    dat.before w t d = dat.after w t := by
  rw [dat.before_in_eq_fetched w hw hlive (fun _ _ _ => funext fun a => (hclip _ a).trans (hclip _ a).symm) hkeep]
  unfold Dat.fetched
  rw [← hkeep, Pipeline.fill_of_clip_none w _ (hclip _) d (dat.after w t), Window.fill_cut]

/-- At every point the two inputs' buffers hold their blocks, so the body's triple applies there; the rest of the state is framed. -/
theorem body_obligation0 (c : Dev nD) : BodyObligation (dat0 (F := F) V c) (defs₀ (F := F)) Variants.none () Set.univ := fun t => by
  rw [bigSep_W0, bigSep_W0]
  simp only [before_eq_after (dat0 V c) 0, before_eq_after (dat0 V c) 1]
  dsimp only [dat0, Pipeline.Dat.owesAt, Pipeline.Dat.bound]
  sl_whnfR [defs₀, Defs.onTc]
  iintro ⟨HΦ, Ho, ⟨%_, H0⟩, ⟨%_, H1⟩, ⟨%_, H2⟩⟩
  iapply sound_kernel0 c Set.univ _ _ _
  iframe
  iintro H
  iframe

end Cert.KernelIdeal.Hand

end
-- ==== Proof.KI.Region1.lean ====
-- The per-edge step on one block of 3000 edges: three output blocks written whole as functions of the fifteen input blocks, inputs unchanged.
import proofs.«406977_j9723805958288_1_alg».proof.Proof.Gen.KernelIdeal.Launch
import proofs.«406977_j9723805958288_1_alg».proof.Proof.Gen.KernelIdeal.Skeleton
import proofs.«406977_j9723805958288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev edgeRows : Rect S3000x128 := Rect.unit (s := S3000x128) ![0, 0] S3000x128.size inb_S3000x128_S3000x128_0_0
abbrev headCols : Rect S3000x8 := Rect.unit (s := S3000x8) ![0, 0] S3000x8.size inb_S3000x8_S3000x8_0_0
abbrev sqWeight : Rect S128x128 := Rect.unit (s := S128x128) ![0, 0] S128x128.size inb_S128x128_S128x128_0_0
abbrev vec128 : Rect S128 := Rect.unit (s := S128) ![0] S128.size inb_S128_S128_0
abbrev upWeight : Rect S128x256 := Rect.unit (s := S128x256) ![0, 0] S128x256.size inb_S128x256_S128x256_0_0
abbrev vec256 : Rect S256 := Rect.unit (s := S256) ![0] S256.size inb_S256_S256_0
abbrev downWeight : Rect S256x128 := Rect.unit (s := S256x128) ![0, 0] S256x128.size inb_S256x128_S256x128_0_0

def out1_15 (x0 x1 x2 x3 : Vec F S3000x128 .f32) (x4 x5 : Vec F S128x128 .f32) (x6 x7 x8 : Vec F S128 .f32) (x9 : Vec F S128x256 .f32) (x10 : Vec F S256 .f32) (x11 : Vec F S256x128 .f32) (x12 x13 x14 : Vec F S128 .f32) : Vec F S3000x128 .f32 :=
  View.canon [⟨edgeRows, k1_pay13 (k1_pay2 (View.ld x3 edgeRows)) (k1_pay4 (View.ld x0 edgeRows) (View.ld x1 edgeRows) (View.ld x2 edgeRows) (View.ld x4 sqWeight)) (k1_pay5 (View.ld x0 edgeRows) (View.ld x1 edgeRows) (View.ld x2 edgeRows) (View.ld x4 sqWeight)) (k1_pay6 (View.ld x0 edgeRows) (View.ld x1 edgeRows) (View.ld x2 edgeRows) (View.ld x4 sqWeight)) (k1_pay7 (View.ld x0 edgeRows) (View.ld x1 edgeRows) (View.ld x2 edgeRows) (View.ld x4 sqWeight)) (k1_pay8 (View.ld x0 edgeRows) (View.ld x1 edgeRows) (View.ld x2 edgeRows) (View.ld x4 sqWeight)) (k1_pay9 (View.ld x0 edgeRows) (View.ld x1 edgeRows) (View.ld x2 edgeRows) (View.ld x4 sqWeight)) (k1_pay10 (View.ld x0 edgeRows) (View.ld x1 edgeRows) (View.ld x2 edgeRows) (View.ld x4 sqWeight)) (k1_pay11 (View.ld x0 edgeRows) (View.ld x1 edgeRows) (View.ld x2 edgeRows) (View.ld x4 sqWeight))⟩]

def out1_16 (x0 x1 x2 x3 : Vec F S3000x128 .f32) (x4 x5 : Vec F S128x128 .f32) (x6 x7 x8 : Vec F S128 .f32) (x9 : Vec F S128x256 .f32) (x10 : Vec F S256 .f32) (x11 : Vec F S256x128 .f32) (x12 x13 x14 : Vec F S128 .f32) : Vec F S3000x8 .f32 :=
  View.canon [⟨headCols, k1_pay12 (k1_pay4 (View.ld x0 edgeRows) (View.ld x1 edgeRows) (View.ld x2 edgeRows) (View.ld x4 sqWeight)) (k1_pay5 (View.ld x0 edgeRows) (View.ld x1 edgeRows) (View.ld x2 edgeRows) (View.ld x4 sqWeight)) (k1_pay6 (View.ld x0 edgeRows) (View.ld x1 edgeRows) (View.ld x2 edgeRows) (View.ld x4 sqWeight)) (k1_pay7 (View.ld x0 edgeRows) (View.ld x1 edgeRows) (View.ld x2 edgeRows) (View.ld x4 sqWeight)) (k1_pay8 (View.ld x0 edgeRows) (View.ld x1 edgeRows) (View.ld x2 edgeRows) (View.ld x4 sqWeight)) (k1_pay9 (View.ld x0 edgeRows) (View.ld x1 edgeRows) (View.ld x2 edgeRows) (View.ld x4 sqWeight)) (k1_pay10 (View.ld x0 edgeRows) (View.ld x1 edgeRows) (View.ld x2 edgeRows) (View.ld x4 sqWeight)) (k1_pay11 (View.ld x0 edgeRows) (View.ld x1 edgeRows) (View.ld x2 edgeRows) (View.ld x4 sqWeight))⟩]

def out1_17 (x0 x1 x2 x3 : Vec F S3000x128 .f32) (x4 x5 : Vec F S128x128 .f32) (x6 x7 x8 : Vec F S128 .f32) (x9 : Vec F S128x256 .f32) (x10 : Vec F S256 .f32) (x11 : Vec F S256x128 .f32) (x12 x13 x14 : Vec F S128 .f32) : Vec F S3000x128 .f32 :=
  View.canon [⟨edgeRows, k1_pay1 (k1_pay17 (k1_pay14 (View.ld x0 edgeRows) (k1_pay3 (View.ld x0 edgeRows) (View.ld x1 edgeRows) (View.ld x2 edgeRows) (View.ld x4 sqWeight)) (View.ld x5 sqWeight) (View.ld x6 vec128)) (k1_pay15 (View.ld x0 edgeRows) (k1_pay3 (View.ld x0 edgeRows) (View.ld x1 edgeRows) (View.ld x2 edgeRows) (View.ld x4 sqWeight)) (View.ld x5 sqWeight) (View.ld x6 vec128)) (k1_pay16 (View.ld x0 edgeRows) (k1_pay3 (View.ld x0 edgeRows) (View.ld x1 edgeRows) (View.ld x2 edgeRows) (View.ld x4 sqWeight)) (View.ld x5 sqWeight) (View.ld x6 vec128)) (Scalar.ofBits .f32 0x43000000#32) (View.ld x7 vec128) (View.ld x8 vec128) (View.ld x9 upWeight) (View.ld x10 vec256) (View.ld x11 downWeight) (View.ld x12 vec128)) (k1_pay18 (k1_pay14 (View.ld x0 edgeRows) (k1_pay3 (View.ld x0 edgeRows) (View.ld x1 edgeRows) (View.ld x2 edgeRows) (View.ld x4 sqWeight)) (View.ld x5 sqWeight) (View.ld x6 vec128)) (k1_pay15 (View.ld x0 edgeRows) (k1_pay3 (View.ld x0 edgeRows) (View.ld x1 edgeRows) (View.ld x2 edgeRows) (View.ld x4 sqWeight)) (View.ld x5 sqWeight) (View.ld x6 vec128)) (k1_pay16 (View.ld x0 edgeRows) (k1_pay3 (View.ld x0 edgeRows) (View.ld x1 edgeRows) (View.ld x2 edgeRows) (View.ld x4 sqWeight)) (View.ld x5 sqWeight) (View.ld x6 vec128)) (Scalar.ofBits .f32 0x43000000#32) (View.ld x7 vec128) (View.ld x8 vec128) (View.ld x9 upWeight) (View.ld x10 vec256) (View.ld x11 downWeight) (View.ld x12 vec128)) (k1_pay19 (k1_pay14 (View.ld x0 edgeRows) (k1_pay3 (View.ld x0 edgeRows) (View.ld x1 edgeRows) (View.ld x2 edgeRows) (View.ld x4 sqWeight)) (View.ld x5 sqWeight) (View.ld x6 vec128)) (k1_pay15 (View.ld x0 edgeRows) (k1_pay3 (View.ld x0 edgeRows) (View.ld x1 edgeRows) (View.ld x2 edgeRows) (View.ld x4 sqWeight)) (View.ld x5 sqWeight) (View.ld x6 vec128)) (k1_pay16 (View.ld x0 edgeRows) (k1_pay3 (View.ld x0 edgeRows) (View.ld x1 edgeRows) (View.ld x2 edgeRows) (View.ld x4 sqWeight)) (View.ld x5 sqWeight) (View.ld x6 vec128)) (Scalar.ofBits .f32 0x43000000#32) (View.ld x7 vec128) (View.ld x8 vec128) (View.ld x9 upWeight) (View.ld x10 vec256) (View.ld x11 downWeight) (View.ld x12 vec128)) (View.ld x13 vec128) (View.ld x14 vec128)⟩]

theorem cover1_rows (p : Vec F S3000x128 .f32) (y : S3000x128.Idx) :
    ∃ pc ∈ ([⟨edgeRows, p⟩] : List (View.Piece (Elt F) S3000x128 .f32)), y ∈ pc.1.set :=
  View.cover_of_tiled [⟨edgeRows, p⟩] S3000x128.size (by rfl) y

theorem cover1_heads (p : Vec F S3000x8 .f32) (y : S3000x8.Idx) :
    ∃ pc ∈ ([⟨headCols, p⟩] : List (View.Piece (Elt F) S3000x8 .f32)), y ∈ pc.1.set :=
  View.cover_of_tiled [⟨headCols, p⟩] S3000x8.size (by rfl) y

set_option maxHeartbeats 4000000 in
/-- Run on eighteen whole buffers, the step hands its fifteen inputs back as it read them; each output buffer gets one store, which covers it. -/
theorem sound_kernel1 (c : Dev nD) (E : Set ℕ) {i : grid1.Coords}
    {arg1 arg2 arg3 arg4 arg16 arg18 : Memref sig .tc .vmem S3000x128 .f32} {arg5 arg6 : Memref sig .tc .vmem S128x128 .f32}
    {arg7 arg8 arg9 arg13 arg14 arg15 : Memref sig .tc .vmem S128 .f32} {arg10 : Memref sig .tc .vmem S128x256 .f32}
    {arg11 : Memref sig .tc .vmem S256 .f32} {arg12 : Memref sig .tc .vmem S256x128 .f32} {arg17 : Memref sig .tc .vmem S3000x8 .f32}
    (harg1 : arg1.IsWhole) (harg2 : arg2.IsWhole) (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (harg16 : arg16.IsWhole) (harg17 : arg17.IsWhole) (harg18 : arg18.IsWhole)
    {x0 x1 x2 x3 y15 y17 : Vec F S3000x128 .f32} {x4 x5 : Vec F S128x128 .f32} {x6 x7 x8 x12 x13 x14 : Vec F S128 .f32}
    {x9 : Vec F S128x256 .f32} {x10 : Vec F S256 .f32} {x11 : Vec F S256x128 .f32} {y16 : Vec F S3000x8 .f32} {K : PUnit → sProp 𝕄} :
    iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14
        ∗ owns c arg16 fullShare y15 ∗ owns c arg17 fullShare y16 ∗ owns c arg18 fullShare y17
        ∗ (iprop(owns c arg1 fullShare x0 ∗ owns c arg2 fullShare x1 ∗ owns c arg3 fullShare x2 ∗ owns c arg4 fullShare x3 ∗ owns c arg5 fullShare x4 ∗ owns c arg6 fullShare x5 ∗ owns c arg7 fullShare x6 ∗ owns c arg8 fullShare x7 ∗ owns c arg9 fullShare x8 ∗ owns c arg10 fullShare x9 ∗ owns c arg11 fullShare x10 ∗ owns c arg12 fullShare x11 ∗ owns c arg13 fullShare x12 ∗ owns c arg14 fullShare x13 ∗ owns c arg15 fullShare x14
            ∗ owns c arg16 fullShare (out1_15 x0 x1 x2 x3 x4 x5 x6 x7 x8 x9 x10 x11 x12 x13 x14) ∗ owns c arg17 fullShare (out1_16 x0 x1 x2 x3 x4 x5 x6 x7 x8 x9 x10 x11 x12 x13 x14) ∗ owns c arg18 fullShare (out1_17 x0 x1 x2 x3 x4 x5 x6 x7 x8 x9 x10 x11 x12 x13 x14)) -∗ K ⟨⟩))
      ⊢ wp frame (wpE (defs₀ (F := F)) Variants.none c none) E (cc1__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc1__edge_kernel_eq_skeleton]; unfold cc1__edge_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, -, H15⟩, ⟨%f16, -, H16⟩, ⟨%f17, -, H17⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr; swap; · iexact H15
    ipureintro; exact View.read_writes_eq_canon _ _ _ (cover1_rows _)
  isplitl [H16]
  · iexists _; isplitr; swap; · iexact H16
    ipureintro; exact View.read_writes_eq_canon _ _ _ (cover1_heads _)
  iexists _; isplitr; swap; · iexact H17
  ipureintro; exact View.read_writes_eq_canon _ _ _ (cover1_rows _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨16, _⟩ => out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 18, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_15 (c : Dev nD) (t : Fin cfg1.N) : (dat1 V c).after 15 t = out1_15 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_16 (c : Dev nD) (t : Fin cfg1.N) : (dat1 V c).after 16 t = out1_16 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]
theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

/-- Stated once over the window: in the body obligation every input's `before` becomes its `after`. -/
private theorem before_eq_after {cfg : Cfg sig Λ₀} {c : Dev nD} (dat : Dat τ (Elt F) Unit ℕ (UR sig nD τ) ℕ cfg c) (w : Fin cfg.W)
    {t : Fin cfg.N} {d : (cfg.win w).block.Idx → Elt F (cfg.win w).elt}
    (hw : (cfg.win w).isOut = false := by rfl) (hlive : ∀ i, cfg.idle w i = false := by intros; rfl)
    (hclip : ∀ i a, (cfg.win w).clip i a = none := by intros; rfl)
    (hkeep : ∀ t, (cfg.win w).cut (cfg.grid.coords t) (dat.after w t) = dat.blockOf w t := by intros; rfl) :
    dat.before w t d = dat.after w t := by
  rw [dat.before_in_eq_fetched w hw hlive (fun _ _ _ => funext fun a => (hclip _ a).trans (hclip _ a).symm) hkeep]
  unfold Dat.fetched
  rw [← hkeep, Pipeline.fill_of_clip_none w _ (hclip _) d (dat.after w t), Window.fill_cut]

/-- At every point the fifteen inputs' buffers hold their blocks, so the step's triple applies there; the rest of the state is framed. -/
theorem body_obligation1 (c : Dev nD) : BodyObligation (dat1 (F := F) V c) (defs₀ (F := F)) Variants.none () Set.univ := fun t => by
  rw [bigSep_W1, bigSep_W1]
  simp only [before_eq_after (dat1 V c) 0, before_eq_after (dat1 V c) 1, before_eq_after (dat1 V c) 2, before_eq_after (dat1 V c) 3, before_eq_after (dat1 V c) 4, before_eq_after (dat1 V c) 5, before_eq_after (dat1 V c) 6, before_eq_after (dat1 V c) 7, before_eq_after (dat1 V c) 8, before_eq_after (dat1 V c) 9, before_eq_after (dat1 V c) 10, before_eq_after (dat1 V c) 11, before_eq_after (dat1 V c) 12, before_eq_after (dat1 V c) 13, before_eq_after (dat1 V c) 14]
  dsimp only [dat1, Pipeline.Dat.owesAt, Pipeline.Dat.bound]
  sl_whnfR [defs₀, Defs.onTc]
  iintro ⟨HΦ, Ho, ⟨%_, H0⟩, ⟨%_, H1⟩, ⟨%_, H2⟩, ⟨%_, H3⟩, ⟨%_, H4⟩, ⟨%_, H5⟩, ⟨%_, H6⟩, ⟨%_, H7⟩, ⟨%_, H8⟩, ⟨%_, H9⟩, ⟨%_, H10⟩, ⟨%_, H11⟩, ⟨%_, H12⟩, ⟨%_, H13⟩, ⟨%_, H14⟩, ⟨%_, H15⟩, ⟨%_, H16⟩, ⟨%_, H17⟩⟩
  iapply sound_kernel1 c Set.univ _ _ _ _ _ _ _ _ _ _ _ _ _ _ _ _ _ _
  iframe
  iintro H
  iframe

end Cert.KernelIdeal.Hand

end
-- ==== Proof.KI.Run.lean ====
-- @main as twelve items (ten host stretches, two kernel regions) and the contents W0 … W12 at the boundaries between them.
import proofs.«406977_j9723805958288_1_alg».proof.Proof.Gen.KernelIdeal.Launch
import proofs.«406977_j9723805958288_1_alg».proof.Proof.Gen.KernelIdeal.Skeleton
import proofs.«406977_j9723805958288_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«406977_j9723805958288_1_alg».proof.Proof.KI.Region0
import proofs.«406977_j9723805958288_1_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w

theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt F) := fun c => StableHlo.after hostOps1 (W2 m ρ c)

abbrev W4 : Dev nD → Valuation τ sig (Elt F) := fun c => StableHlo.after hostOps1_1 (W3 m ρ c)

abbrev W5 : Dev nD → Valuation τ sig (Elt F) := fun c => StableHlo.after hostOps1_2 (W4 m ρ c)

abbrev W6 : Dev nD → Valuation τ sig (Elt F) := fun c => StableHlo.after hostOps1_3 (W5 m ρ c)

abbrev V6 : (c : Dev nD) → (b : Ref sig .tc) → Buf (Elt F) ((c : Thread nD τ).loc b) := fun c b => W6 m ρ c b

def W7 (c : Dev nD) : Valuation τ sig (Elt F) :=
  Pipeline.withArrays spec1 c (W6 m ρ c) fun w => (dat1 (V6 m ρ) c).arrAt w cfg1.N

theorem W7_arr (c : Dev nD) (w : Fin cfg1.W) :
    W7 m ρ c (Proc.devRef .tc (Pipeline.arrRef spec1 w)) = (dat1 (V6 m ρ) c).arrAt w cfg1.N := by
  unfold W7; exact Pipeline.withArrays_arr spec1 launch1.win.arr_inj c _ _ w

theorem W7_of_ne (c : Dev nD) (b : Ref sig .tc) (hb : ∀ w, Pipeline.arrRef spec1 w ≠ b) :
    W7 m ρ c (Proc.devRef .tc b) = W6 m ρ c (Proc.devRef .tc b) := by
  unfold W7; exact Pipeline.withArrays_of_ne spec1 c _ _ b hb

abbrev W8 : Dev nD → Valuation τ sig (Elt F) := fun c => StableHlo.after hostOps2 (W7 m ρ c)

abbrev W9 : Dev nD → Valuation τ sig (Elt F) := fun c => StableHlo.after hostOps2_1 (W8 m ρ c)

abbrev W10 : Dev nD → Valuation τ sig (Elt F) := fun c => StableHlo.after hostOps2_2 (W9 m ρ c)

abbrev W11 : Dev nD → Valuation τ sig (Elt F) := fun c => StableHlo.after hostOps2_3 (W10 m ρ c)

abbrev W12 : Dev nD → Valuation τ sig (Elt F) := fun c => StableHlo.after hostOps2_4 (W11 m ρ c)

abbrev noTables : (p : Fin 2) → (pcfgs (F := F) p).Adm := fun p => (cfgs p).toPCfg_adm

def bothData : (p : Fin 2) → (c : Dev nD) → Dat τ (Elt F) Unit ℕ (UR sig nD τ) ℕ (Pipeline.pin (pcfgs (F := F)) noTables p) c
  | ⟨0, _⟩ => dat0 (V1 m ρ)
  | ⟨1, _⟩ => dat1 (V6 m ρ)

abbrev noVariants : Variants := Variants.none
abbrev noLevels : GSem nD τ sig → Finset Unit := fun _ => ∅
abbrev levelOf : GSem nD τ sig → Unit → ℕ := fun _ _ => 0

abbrev rider (c : Dev nD) : sProp 𝕄 :=
  iprop((∃ r, prngReg c r) ∗ ∃ W, owes (c : Thread nD τ) (0 : CellTallies nD τ sig Unit) W)

abbrev boundaryAt (W : Dev nD → Valuation τ sig (Elt F)) (c : Dev nD) : sProp 𝕄 :=
  iprop(StableHlo.held (c : Thread nD τ) (Pipeline.ucRefs τ sig) (W c) ∗ rider c)

abbrev stretch (ops : List (HloOp τ sig (Elt F))) (hsub : ops.Forall fun op => op.bufs ⊆ StableHlo.tcRefs τ sig)
    (W : Dev nD → Valuation τ sig (Elt F)) (hfresh : ops.Forall fun op => op.fresh = ∅ := by repeat' constructor) :
    Pipeline.HostSeg (Name := ℕ) (U := UR sig nD τ) (pcfgs (F := F)) defs₀ noVariants noLevels levelOf :=
  Pipeline.HostSeg.ofOps _ _ _ _ _ (Pipeline.ucRefs τ sig) ops
    (fun op h => Pipeline.sub_ucRefs op (List.forall_iff_forall_mem.mp hsub op h))
    (List.forall_iff_forall_mem.mp hfresh) W rider

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev atTc (W : Dev nD → Valuation τ sig (Elt F)) : (c : Dev nD) → (b : Ref sig .tc) → Buf (Elt F) ((c : Thread nD τ).loc b) :=
  fun c b => W c b

-- One construction for both regions: they differ only in the index p and in the constants that come with it.
set_option backward.isDefEq.respectTransparency.types false in
def region (p : Fin 2) (lf : Pipeline.LaunchFacts (nD := nD) (τ := τ) cfgs p) (W W' : Dev nD → Valuation τ sig (Elt F))
    (harr : ∀ c w, (bothData m ρ p c).arrAt w (cfgs p).N = atTc W' c (Pipeline.arrRef (cfgs p).spec w))
    (hne : ∀ c (b : Ref sig .tc), (∀ w, Pipeline.arrRef (cfgs p).spec w ≠ b) → atTc W' c b = atTc W c b)
    (hbody : ∀ c, BodyObligation (bothData m ρ p c) (defs₀ (F := F)) noVariants () Set.univ)
    (hA : ∀ c w, (bothData m ρ p c).A w = atTc W c (Pipeline.arrRef (cfgs p).spec w))
    (hΦ : ∀ c t, (bothData m ρ p c).Φ t = Pipeline.ΦA (cfgs p).spec c)
    (hq : ∀ c w, (bothData m ρ p c).q w = fullShare)
    (h0 : ∀ c t, (bothData m ρ p c).owed t = 0) (hr : ∀ c t, (bothData m ρ p c).recorded t = Set.univ) :
    Pipeline.RegionSeg (pcfgs (F := F)) noTables (bothData m ρ) () defs₀ noVariants noLevels levelOf p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLevels levelOf p h0
  pre := boundaryAt W
  post := boundaryAt W'
  X c := iprop(∃ r, prngReg c r)
  Y c := iprop(∃ r, prngReg c r)
  Z c := Pipeline.unscopedRest (Ix := Unit) (Name := ℕ) (U := UR sig nD τ) (Lvl := ℕ) (cfgs p).spec c (atTc W c)
  hentry c := by
    rw [Pipeline.ownSems0_none]
    have takeOut := Pipeline.arrays_of_unscopedBufs (p := p) (pcfgs (F := F)) noTables (bothData m ρ) lf.win lf.arr_whole c
      ((bothData m ρ p c).share_full (hq c)) (atTc W c) (hA c)
    rw [Pipeline.unscopedBufs_held] at takeOut
    iintro ⟨⟨Hbufs, Hreg, Howes⟩, -, -⟩
    ihave Hparts := takeOut $$ Hbufs
    icases Hparts with ⟨Harrs, Hrest⟩
    imodintro
    isplitl [Harrs]; · iexact Harrs
    isplitr
    · unfold Pipeline.prefHeld
      rw [show (Finset.univ : Finset (Fin 0)) = ∅ from rfl, BI.bigSep_empty]; iempintro
    isplitl [Howes]
    · unfold Pipeline.Dat.owesAt Pipeline.owesWithin Pipeline.Dat.bound; rw [h0, hr]
      icases Howes with ⟨%O, Howes⟩; iexists O
      isplitr; · ipureintro; exact fun _ _ => Or.inl trivial
      iexact Howes
    isplitl [Hreg]; · iexact Hreg
    iexact Hrest
  hin c := by
    rw [hΦ]; unfold Pipeline.ΦA
    iintro ⟨Hreg, -, Hscoped⟩
    isplitl [Hscoped]; · iexact Hscoped
    iexact Hreg
  hout c := by
    rw [Pipeline.ownSems0_none, hΦ]; unfold Pipeline.ΦA
    iintro ⟨Hscoped, Hreg⟩
    isplitl [Hreg]; · iexact Hreg
    isplitr; · iempintro
    iexact Hscoped
  hexit c := by
    have putBack := Pipeline.unscopedBufs_of_arrays (p := p) (pcfgs (F := F)) noTables (Ix := Unit) (Name := ℕ) (U := UR sig nD τ) (Lvl := ℕ)
      lf.win lf.arr_whole c (bothData m ρ) ((bothData m ρ p c).share_full (hq c))
      (atTc W c) (atTc W' c) ((bothData m ρ p c).arrAt · (cfgs p).N) (harr c)
      fun b hb => hne c b fun w e => hb (Finset.mem_image.mpr ⟨w, Finset.mem_univ _, e⟩)
    rw [Pipeline.unscopedBufs_held] at putBack
    iintro ⟨Harrs, Howes, Hreg, Hrest⟩
    imodintro
    isplitl [Harrs Hrest]
    · iapply putBack; isplitl [Harrs] <;> iassumption
    isplitl [Hreg]; · iexact Hreg
    unfold Pipeline.Dat.owesAt Pipeline.owesWithin; rw [h0]
    icases Howes with ⟨%O, -, Howes⟩; iexists O; iexact Howes

set_option backward.isDefEq.respectTransparency.types false in
abbrev items : List (Pipeline.Seg (pcfgs (F := F)) noTables (bothData m ρ) () defs₀ noVariants noLevels levelOf) :=
  [ .host (stretch hostOps0 hostOps0_sub (W0 m ρ)),
    .region (region m ρ 0 launch0 (W1 m ρ) (W2 m ρ) (fun c w => (W2_arr m ρ c w).symm) (W2_of_ne m ρ) (body_obligation0 (V1 m ρ))
      (fun _ _ => rfl) (fun _ _ => rfl) (fun _ _ => rfl) (fun _ _ => rfl) fun _ _ => rfl),
    .host (stretch hostOps1 hostOps1_sub (W2 m ρ)),
    .host (stretch hostOps1_1 hostOps1_1_sub (W3 m ρ)),
    .host (stretch hostOps1_2 hostOps1_2_sub (W4 m ρ)),
    .host (stretch hostOps1_3 hostOps1_3_sub (W5 m ρ)),
    .region (region m ρ 1 launch1 (W6 m ρ) (W7 m ρ) (fun c w => (W7_arr m ρ c w).symm) (W7_of_ne m ρ) (body_obligation1 (V6 m ρ))
      (fun _ _ => rfl) (fun _ _ => rfl) (fun _ _ => rfl) (fun _ _ => rfl) fun _ _ => rfl),
    .host (stretch hostOps2 hostOps2_sub (W7 m ρ)),
    .host (stretch hostOps2_1 hostOps2_1_sub (W8 m ρ)),
    .host (stretch hostOps2_2 hostOps2_2_sub (W9 m ρ)),
    .host (stretch hostOps2_3 hostOps2_3_sub (W10 m ρ)),
    .host (stretch hostOps2_4 hostOps2_4_sub (W11 m ρ)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem (((c.tc : Thread nD τ)).1, b) = W12 m ρ c b) :=
  Pipeline.θ_run_regions_kit (pcfgs (F := F)) noTables (bothData m ρ) () cellOf_inj emb₁ defs₀ noVariants noLevels levelOf m ρ main (items m ρ)
    (fun c Q => by rw [(main_chain c).trans ((Pipeline.Seg.run_eq_chain (items m ρ)).trans rfl).symm])
    (by decide : [(0 : Fin 2), 1].Nodup)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := boundaryAt (W0 m ρ))
    (Tₙ := fun c => iprop(StableHlo.held (c : Thread nD τ) (Pipeline.ucRefs τ sig) (W12 m ρ c) ∗ ∃ r, prngReg c r))
    (hch := ⟨fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => BI.sep_assoc'⟩)
    (hinit := by
      refine Pipeline.initEach noLevels levelOf fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W12 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W12 m ρ c) s')
      isplitl [Hbufs] <;> iassumption)
    (hQ := fun s h => h)

end Cert.KernelIdeal.Hand

end
-- ==== Proof.KI.Kept.lean ====
-- No operation of @main writes an argument array, so each ends as launched; the frame follows from the run.
import proofs.«406977_j9723805958288_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def arguments : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19,
   main_arg20, main_arg21, main_arg22, main_arg23, main_arg24, main_arg25, main_arg26, main_arg27, main_arg28, main_arg29,
   main_arg30, main_arg31, main_arg32, main_arg33, main_arg34, main_arg35, main_arg36, main_arg37, main_arg38]

theorem arguments_unscoped : ∀ b ∈ arguments, ¬ (Proc.devRef .tc b : DevRef τ sig).isScoped := by decide

theorem spares_arguments {op : HloOp τ sig (Elt F)} {y : Ref sig .tc} (hw : op.writes = {Proc.devRef .tc y})
    (hy : y ∉ arguments) : ∀ b ∈ arguments, (Proc.devRef .tc b : DevRef τ sig) ∉ op.writes := by
  intro b hb hmem
  rw [hw, Finset.mem_singleton] at hmem
  exact hy (Proc.devRef_injective _ hmem ▸ hb)

theorem stretch_keeps (ops : List (HloOp τ sig (Elt F))) (W : Valuation τ sig (Elt F)) {b : Ref sig .tc} (hb : b ∈ arguments)
    (h : ops.Forall fun op => ∀ b ∈ arguments, (Proc.devRef .tc b : DevRef τ sig) ∉ op.writes := by
      repeat' (first | exact spares_arguments rfl (by decide) | constructor)) :
    StableHlo.after ops W (Proc.devRef .tc b) = W (Proc.devRef .tc b) :=
  StableHlo.after_of_forall_not_mem ops W fun op hop => List.forall_iff_forall_mem.mp h op hop b hb

theorem region_keeps {cfg : Cfg sig Λ₀} {c : Dev nD} (D : Dat τ (Elt F) Unit ℕ (UR sig nD τ) ℕ cfg c)
    {W W' : Valuation τ sig (Elt F)} (hA : ∀ w, D.A w = W (Proc.devRef .tc (Pipeline.arrRef cfg.spec w)))
    (harr : ∀ w, W' (Proc.devRef .tc (Pipeline.arrRef cfg.spec w)) = D.arrAt w cfg.N)
    (hne : ∀ b : Ref sig .tc, (∀ w, Pipeline.arrRef cfg.spec w ≠ b) → W' (Proc.devRef .tc b) = W (Proc.devRef .tc b))
    (hin : ∀ w, Pipeline.arrRef cfg.spec w ∈ arguments → (cfg.win w).isOut = false) {b : Ref sig .tc} (hb : b ∈ arguments) :
    W' (Proc.devRef .tc b) = W (Proc.devRef .tc b) := by
  by_cases h : ∃ w, Pipeline.arrRef cfg.spec w = b
  · obtain ⟨w, rfl⟩ := h
    exact (harr w).trans ((D.arrAt_in w (hin w hb) _).trans (hA w))
  · exact hne b fun w e => h ⟨w, e⟩

theorem W12_argument (c : Dev nD) (b : Ref sig .tc) (hb : b ∈ arguments) :
    W12 m ρ c (Proc.devRef .tc b) = m ((c : Thread nD τ).loc b) :=
  (stretch_keeps hostOps2_4 _ hb).trans <| (stretch_keeps hostOps2_3 _ hb).trans <| (stretch_keeps hostOps2_2 _ hb).trans <| (stretch_keeps hostOps2_1 _ hb).trans <|
  (stretch_keeps hostOps2 _ hb).trans <| (region_keeps (dat1 (V6 m ρ) c) (A_eq1 _ c) (W7_arr m ρ c) (W7_of_ne m ρ c) (by decide) hb).trans <|
  (stretch_keeps hostOps1_3 _ hb).trans <| (stretch_keeps hostOps1_2 _ hb).trans <| (stretch_keeps hostOps1_1 _ hb).trans <| (stretch_keeps hostOps1 _ hb).trans <|
  (region_keeps (dat0 (V1 m ρ) c) (A_eq0 _ c) (W2_arr m ρ c) (W2_of_ne m ρ c) (by decide) hb).trans (stretch_keeps hostOps0 _ hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)) :=
  (θ_run defs _ _).mono (fun r h c => (List.forall_iff_forall_mem
    (p := fun b => r.2.mem ((c.tc : Thread nD τ).loc b) = m ((c.tc : Thread nD τ).loc b)) (l := arguments)).mpr fun b hb =>
      (h c _ (mem_uc b (arguments_unscoped b hb))).trans (W12_argument m ρ c b hb)) (run_all m ρ)

end Cert.KernelIdeal.Hand

end
-- ==== Proof.LibStraightLine.lean ====
-- In a line of host operations where each buffer is written once, after its operands, the end state satisfies every operation's equation.
import Idealize.ShloMosaic.Lib.StableHlo.Run

noncomputable section

namespace Cert.LibStraightLine

open Idealize.ShloMosaic Idealize.ShloMosaic.StableHlo

variable {τ : Topo} {sig : RefSig} {Val : EltTy → Type}

def Untouched (l : List (HloOp τ sig Val)) (k : Nat) (r : Ref sig .tc) : Prop :=
  ∀ op ∈ l.drop k, Proc.devRef (τ := τ) .tc r ∉ op.writes

theorem Untouched.kept {l : List (HloOp τ sig Val)} {r : Ref sig .tc} (h : Untouched l 0 r) (V : Valuation τ sig Val) :
    after l V (Proc.devRef .tc r) = V (Proc.devRef .tc r) :=
  after_of_forall_not_mem l V h

theorem around : ∀ {l : List (HloOp τ sig Val)} (k : Nat) {op : HloOp τ sig Val}, l[k]? = some op →
    ∀ V : Valuation τ sig Val, ∃ W : Valuation τ sig Val,
      (∀ r : Ref sig .tc, Untouched l k r → after l V (Proc.devRef .tc r) = W (Proc.devRef .tc r)) ∧
      (∀ r : Ref sig .tc, Untouched l (k + 1) r → after l V (Proc.devRef .tc r) = op.result W (Proc.devRef .tc r))
  | [], _, _, h, _ => by simp at h
  | o :: t, 0, op, h, V => by
    have e : o = op := by simpa using h
    subst e
    exact ⟨V, fun r hr => after_of_forall_not_mem _ V hr, fun r hr => after_of_forall_not_mem t (o.result V) hr⟩
  | o :: t, k + 1, op, h, V => by
    have h' : t[k]? = some op := by simpa using h
    obtain ⟨W, h1, h2⟩ := around k h' (o.result V)
    exact ⟨W, fun r hr => h1 r hr, fun r hr => h2 r hr⟩

section Equations

variable {l : List (HloOp τ sig Val)} (V : Valuation τ sig Val) (k : Nat)

theorem after_nullary {y : Ref sig .tc} {v : y.ty.Contents Val} {hy}
    (hk : l[k]? = some (nullary y v hy)) (uy : Untouched l (k + 1) y) :
    after l V (Proc.devRef .tc y) = v := by
  obtain ⟨W, _, h2⟩ := around k hk V
  rw [h2 y uy, nullary_result]

theorem after_unary {x y : Ref sig .tc} {f : x.ty.Contents Val → y.ty.Contents Val} {hx hy}
    (hk : l[k]? = some (unary x y f hx hy)) (uy : Untouched l (k + 1) y) (ux : Untouched l k x) :
    after l V (Proc.devRef .tc y) = f (after l V (Proc.devRef .tc x)) := by
  obtain ⟨W, h1, h2⟩ := around k hk V
  rw [h2 y uy, unary_result, h1 x ux]

theorem after_binary {a b y : Ref sig .tc} {f : a.ty.Contents Val → b.ty.Contents Val → y.ty.Contents Val} {ha hb hy}
    (hk : l[k]? = some (binary a b y f ha hb hy)) (uy : Untouched l (k + 1) y)
    (ua : Untouched l k a) (ub : Untouched l k b) :
    after l V (Proc.devRef .tc y) = f (after l V (Proc.devRef .tc a)) (after l V (Proc.devRef .tc b)) := by
  obtain ⟨W, h1, h2⟩ := around k hk V
  rw [h2 y uy, binary_result, h1 a ua, h1 b ub]

theorem after_ternary {c a b y : Ref sig .tc}
    {f : c.ty.Contents Val → a.ty.Contents Val → b.ty.Contents Val → y.ty.Contents Val} {hc ha hb hy}
    (hk : l[k]? = some (ternary c a b y f hc ha hb hy)) (uy : Untouched l (k + 1) y)
    (uc : Untouched l k c) (ua : Untouched l k a) (ub : Untouched l k b) :
    after l V (Proc.devRef .tc y)
      = f (after l V (Proc.devRef .tc c)) (after l V (Proc.devRef .tc a)) (after l V (Proc.devRef .tc b)) := by
  obtain ⟨W, h1, h2⟩ := around k hk V
  rw [h2 y uy, ternary_result, h1 c uc, h1 a ua, h1 b ub]

theorem after_reshape {x y : Ref sig .tc} {he : x.ty.elt = y.ty.elt} {hs : x.ty.shape.ShapeCasts y.ty.shape} {hx hy}
    (hk : l[k]? = some (reshape x y he hs hx hy)) (uy : Untouched l (k + 1) y) (ux : Untouched l k x)
    {vx : x.ty.Contents Val} (hvx : after l V (Proc.devRef .tc x) = vx) :
    after l V (Proc.devRef .tc y) = fun i => he ▸ shapeCast y.ty.shape vx hs i := by
  obtain ⟨W, h1, h2⟩ := around k hk V
  rw [h2 y uy, reshape_result, ← hvx, h1 x ux]

end Equations

def WritesAt (op : HloOp τ sig Val) (n : Nat) : Prop :=
  ∃ y : Ref sig .tc, op.writes = {Proc.devRef .tc y} ∧ y.idx.val = n

def Numbered : Nat → List (HloOp τ sig Val) → Prop
  | _, [] => True
  | n, op :: l => WritesAt op n ∧ Numbered (n + 1) l

theorem Numbered.nil (n : Nat) : Numbered n ([] : List (HloOp τ sig Val)) := trivial

theorem Numbered.cons {n : Nat} {op : HloOp τ sig Val} {l : List (HloOp τ sig Val)}
    (h : WritesAt op n) (t : Numbered (n + 1) l) : Numbered n (op :: l) := ⟨h, t⟩

theorem WritesAt.not_mem {op : HloOp τ sig Val} {n : Nat} (h : WritesAt op n) {r : Ref sig .tc}
    (hr : r.idx.val ≠ n) : Proc.devRef (τ := τ) .tc r ∉ op.writes := by
  obtain ⟨y, hy, hn⟩ := h
  rw [hy, Finset.mem_singleton]
  intro e
  exact hr ((congrArg (fun x : Ref sig .tc => x.idx.val) (Proc.devRef_injective _ e)).trans hn)

theorem Numbered.not_mem : ∀ {l : List (HloOp τ sig Val)} {n : Nat}, Numbered n l →
    ∀ {r : Ref sig .tc}, r.idx.val < n → ∀ op ∈ l, Proc.devRef (τ := τ) .tc r ∉ op.writes
  | [], _, _, _, _, _, h => nomatch h
  | _ :: _, _, ⟨ho, ht⟩, _, hr, op, hop => by
    rcases List.mem_cons.mp hop with rfl | hop
    · exact ho.not_mem (Nat.ne_of_lt hr)
    · exact Numbered.not_mem ht (Nat.lt_succ_of_lt hr) op hop

theorem Numbered.drop : ∀ {l : List (HloOp τ sig Val)} {n : Nat}, Numbered n l → ∀ k : Nat, Numbered (n + k) (l.drop k)
  | _, _, h, 0 => h
  | [], _, _, _ + 1 => trivial
  | _ :: t, n, ⟨_, ht⟩, k + 1 => by
    have e : n + (k + 1) = n + 1 + k := by omega
    rw [e]
    exact Numbered.drop ht k

theorem Numbered.untouched {l : List (HloOp τ sig Val)} {n : Nat} (h : Numbered n l) {k : Nat} {r : Ref sig .tc}
    (hr : r.idx.val < n + k) : Untouched l k r :=
  (h.drop k).not_mem hr

theorem Numbered.kept {l : List (HloOp τ sig Val)} {n : Nat} (h : Numbered n l) (V : Valuation τ sig Val)
    {r : Ref sig .tc} (hr : r.idx.val < n) : after l V (Proc.devRef .tc r) = V (Proc.devRef .tc r) :=
  after_of_forall_not_mem l V (h.not_mem hr)

section NumberedEquations

variable {l : List (HloOp τ sig Val)} {n : Nat} (hN : Numbered n l) (V : Valuation τ sig Val)
include hN

theorem Numbered.after_nullary {y : Ref sig .tc} {v : y.ty.Contents Val} {hy}
    (hk : l[y.idx.val - n]? = some (nullary y v hy)) (hn : n ≤ y.idx.val) :
    after l V (Proc.devRef .tc y) = v :=
  LibStraightLine.after_nullary V _ hk (hN.untouched (by omega))

theorem Numbered.after_unary {x y : Ref sig .tc} {f : x.ty.Contents Val → y.ty.Contents Val} {hx hy}
    (hk : l[y.idx.val - n]? = some (unary x y f hx hy)) (hn : n ≤ y.idx.val) (hix : x.idx.val < y.idx.val) :
    after l V (Proc.devRef .tc y) = f (after l V (Proc.devRef .tc x)) :=
  LibStraightLine.after_unary V _ hk (hN.untouched (by omega)) (hN.untouched (by omega))

theorem Numbered.after_binary {a b y : Ref sig .tc} {f : a.ty.Contents Val → b.ty.Contents Val → y.ty.Contents Val}
    {ha hb hy} (hk : l[y.idx.val - n]? = some (binary a b y f ha hb hy)) (hn : n ≤ y.idx.val)
    (hia : a.idx.val < y.idx.val) (hib : b.idx.val < y.idx.val) :
    after l V (Proc.devRef .tc y) = f (after l V (Proc.devRef .tc a)) (after l V (Proc.devRef .tc b)) :=
  LibStraightLine.after_binary V _ hk (hN.untouched (by omega)) (hN.untouched (by omega)) (hN.untouched (by omega))

theorem Numbered.after_ternary {c a b y : Ref sig .tc}
    {f : c.ty.Contents Val → a.ty.Contents Val → b.ty.Contents Val → y.ty.Contents Val} {hc ha hb hy}
    (hk : l[y.idx.val - n]? = some (ternary c a b y f hc ha hb hy)) (hn : n ≤ y.idx.val)
    (hic : c.idx.val < y.idx.val) (hia : a.idx.val < y.idx.val) (hib : b.idx.val < y.idx.val) :
    after l V (Proc.devRef .tc y)
      = f (after l V (Proc.devRef .tc c)) (after l V (Proc.devRef .tc a)) (after l V (Proc.devRef .tc b)) :=
  LibStraightLine.after_ternary V _ hk (hN.untouched (by omega)) (hN.untouched (by omega)) (hN.untouched (by omega))
    (hN.untouched (by omega))

theorem Numbered.after_reshape {x y : Ref sig .tc} {he : x.ty.elt = y.ty.elt} {hs : x.ty.shape.ShapeCasts y.ty.shape}
    {hx hy} (hk : l[y.idx.val - n]? = some (reshape x y he hs hx hy)) (hn : n ≤ y.idx.val)
    (hix : x.idx.val < y.idx.val) {vx : x.ty.Contents Val} (hvx : after l V (Proc.devRef .tc x) = vx) :
    after l V (Proc.devRef .tc y) = fun i => he ▸ shapeCast y.ty.shape vx hs i :=
  LibStraightLine.after_reshape V _ hk (hN.untouched (by omega)) (hN.untouched (by omega)) hvx

end NumberedEquations

def Writes : List (HloOp τ sig Val) → List (Ref sig .tc) → Prop
  | [], [] => True
  | op :: l, y :: wr => op.writes = {Proc.devRef .tc y} ∧ Writes l wr
  | _, _ => False

theorem Writes.nil : Writes ([] : List (HloOp τ sig Val)) [] := trivial

theorem Writes.cons {op : HloOp τ sig Val} {l : List (HloOp τ sig Val)} {y : Ref sig .tc} {wr : List (Ref sig .tc)}
    (h : op.writes = {Proc.devRef .tc y}) (t : Writes l wr) : Writes (op :: l) (y :: wr) := ⟨h, t⟩

theorem Writes.not_mem : ∀ {l : List (HloOp τ sig Val)} {wr : List (Ref sig .tc)}, Writes l wr →
    ∀ {r : Ref sig .tc}, r ∉ wr → ∀ op ∈ l, Proc.devRef (τ := τ) .tc r ∉ op.writes
  | [], [], _, _, _, _, h => nomatch h
  | _ :: _, _ :: _, ⟨ho, ht⟩, r, hr, op, hop => by
    rcases List.mem_cons.mp hop with rfl | hop
    · rw [ho, Finset.mem_singleton]
      exact fun e => hr (Proc.devRef_injective _ e ▸ List.mem_cons_self)
    · exact Writes.not_mem ht (fun h => hr (List.mem_cons_of_mem _ h)) op hop

theorem Writes.drop : ∀ {l : List (HloOp τ sig Val)} {wr : List (Ref sig .tc)}, Writes l wr →
    ∀ k : Nat, Writes (l.drop k) (wr.drop k)
  | _, _, h, 0 => h
  | [], [], _, _ + 1 => trivial
  | _ :: _, _ :: _, ⟨_, ht⟩, k + 1 => Writes.drop ht k

theorem Writes.untouched {l : List (HloOp τ sig Val)} {wr : List (Ref sig .tc)} (h : Writes l wr) {k : Nat}
    {r : Ref sig .tc} (hr : r ∉ wr.drop k) : Untouched l k r :=
  (h.drop k).not_mem hr

theorem Writes.kept {l : List (HloOp τ sig Val)} {wr : List (Ref sig .tc)} (h : Writes l wr) (V : Valuation τ sig Val)
    {r : Ref sig .tc} (hr : r ∉ wr) : after l V (Proc.devRef .tc r) = V (Proc.devRef .tc r) :=
  after_of_forall_not_mem l V (h.not_mem hr)

end Cert.LibStraightLine

end
-- ==== Proof.Ref.Frame.lean ====
-- The reference's k-th operation writes buffer 39 + k, so no argument (0 … 38) is written and each ends as launched.
import proofs.«406977_j9723805958288_1_alg».proof.Proof.Ref.Run
import proofs.«406977_j9723805958288_1_alg».proof.Proof.LibStraightLine
import proofs.«406977_j9723805958288_1_alg».proof.Proof.Gen.Pre_finite_inputs
import proofs.«406977_j9723805958288_1_alg».proof.Defs

noncomputable section

namespace Cert.ReferenceIdeal.RefFrame

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

set_option maxRecDepth 16384 in
set_option maxHeartbeats 8000000 in

theorem ops_numbered : Numbered 39 (RefRun.ops (F := F)) := by
  repeat' (first | exact Numbered.nil _ | refine Numbered.cons ⟨_, rfl, rfl⟩ ?_)

theorem arg_kept (V : Valuation τ sig (Elt F)) {r : Ref sig .tc} (hr : r.idx.val < 39) :
    after RefRun.ops V (Proc.devRef .tc r) = V (Proc.devRef .tc r) :=
  ops_numbered.kept V hr

theorem frame_ri : Cert.frame_ReferenceIdeal := fun m ρ _ =>
  (θ_run Cert.ReferenceIdeal.defs _ _).mono
    (fun r h c => ⟨(h c main_arg0).trans (arg_kept _ (by decide)),
      (h c main_arg1).trans (arg_kept _ (by decide)),
      (h c main_arg2).trans (arg_kept _ (by decide)),
      (h c main_arg3).trans (arg_kept _ (by decide)),
      (h c main_arg4).trans (arg_kept _ (by decide)),
      (h c main_arg5).trans (arg_kept _ (by decide)),
      (h c main_arg6).trans (arg_kept _ (by decide)),
      (h c main_arg7).trans (arg_kept _ (by decide)),
      (h c main_arg8).trans (arg_kept _ (by decide)),
      (h c main_arg9).trans (arg_kept _ (by decide)),
      (h c main_arg10).trans (arg_kept _ (by decide)),
      (h c main_arg11).trans (arg_kept _ (by decide)),
      (h c main_arg12).trans (arg_kept _ (by decide)),
      (h c main_arg13).trans (arg_kept _ (by decide)),
      (h c main_arg14).trans (arg_kept _ (by decide)),
      (h c main_arg15).trans (arg_kept _ (by decide)),
      (h c main_arg16).trans (arg_kept _ (by decide)),
      (h c main_arg17).trans (arg_kept _ (by decide)),
      (h c main_arg18).trans (arg_kept _ (by decide)),
      (h c main_arg19).trans (arg_kept _ (by decide)),
      (h c main_arg20).trans (arg_kept _ (by decide)),
      (h c main_arg21).trans (arg_kept _ (by decide)),
      (h c main_arg22).trans (arg_kept _ (by decide)),
      (h c main_arg23).trans (arg_kept _ (by decide)),
      (h c main_arg24).trans (arg_kept _ (by decide)),
      (h c main_arg25).trans (arg_kept _ (by decide)),
      (h c main_arg26).trans (arg_kept _ (by decide)),
      (h c main_arg27).trans (arg_kept _ (by decide)),
      (h c main_arg28).trans (arg_kept _ (by decide)),
      (h c main_arg29).trans (arg_kept _ (by decide)),
      (h c main_arg30).trans (arg_kept _ (by decide)),
      (h c main_arg31).trans (arg_kept _ (by decide)),
      (h c main_arg32).trans (arg_kept _ (by decide)),
      (h c main_arg33).trans (arg_kept _ (by decide)),
      (h c main_arg34).trans (arg_kept _ (by decide)),
      (h c main_arg35).trans (arg_kept _ (by decide)),
      (h c main_arg36).trans (arg_kept _ (by decide)),
      (h c main_arg37).trans (arg_kept _ (by decide)),
      (h c main_arg38).trans (arg_kept _ (by decide))⟩)
    (RefRun.run (F := Ideal) m ρ)

end Cert.ReferenceIdeal.RefFrame

end
-- ==== Proof.Val.Results.lean ====
-- The three results named: the reference's result stages at the kernel program's launch arguments.
import proofs.«406977_j9723805958288_1_alg».proof.Defs
import proofs.«406977_j9723805958288_1_alg».proof.Proof.Gen.Pre_finite_inputs
import proofs.«406977_j9723805958288_1_alg».proof.Proof.KI.Run
import proofs.«406977_j9723805958288_1_alg».proof.Proof.Ref.Read

noncomputable section

namespace Cert.Algebraic

open Idealize.ShloMosaic Idealize.ShloMosaic.TcCoe Idealize.SL.Sem
open Cert.ReferenceIdeal

variable (m : (ℓ : Loc Cert.KernelIdeal.nD Cert.KernelIdeal.τ Cert.KernelIdeal.sig) → Buf (Elt Ideal) ℓ)

def logitsOf (c : Dev Cert.KernelIdeal.nD) : Buf (Elt Ideal) ((c.tc : Thread Cert.KernelIdeal.nD Cert.KernelIdeal.τ).loc Cert.KernelIdeal.main_v156) :=
  RefRead.val_main_v250 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))

def nodeOf (c : Dev Cert.KernelIdeal.nD) : Buf (Elt Ideal) ((c.tc : Thread Cert.KernelIdeal.nD Cert.KernelIdeal.τ).loc Cert.KernelIdeal.main_v155) :=
  RefRead.val_main_v249 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36)) (m ((c.tc : Thread Cert.KernelIdeal.nD Cert.KernelIdeal.τ).loc Cert.KernelIdeal.main_arg37)) (m ((c.tc : Thread Cert.KernelIdeal.nD Cert.KernelIdeal.τ).loc Cert.KernelIdeal.main_arg38))

def edgeOf (c : Dev Cert.KernelIdeal.nD) : Buf (Elt Ideal) ((c.tc : Thread Cert.KernelIdeal.nD Cert.KernelIdeal.τ).loc Cert.KernelIdeal.main_v8_2) :=
  RefRead.val_main_v176 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))

def KernelResults : Prop :=
  ∀ (m : (ℓ : Loc Cert.KernelIdeal.nD Cert.KernelIdeal.τ Cert.KernelIdeal.sig) → Buf (Elt Ideal) ℓ) (g : Dev Cert.KernelIdeal.nD → PrngReg), Cert.Pre_KernelIdeal m →
    ∀ c : Dev Cert.KernelIdeal.nD,
      Cert.KernelIdeal.Hand.W12 m g c (Proc.devRef .tc Cert.KernelIdeal.main_v156) = logitsOf m c
      ∧ Cert.KernelIdeal.Hand.W12 m g c (Proc.devRef .tc Cert.KernelIdeal.main_v155) = nodeOf m c
      ∧ Cert.KernelIdeal.Hand.W12 m g c (Proc.devRef .tc Cert.KernelIdeal.main_v8_2) = edgeOf m c

end Cert.Algebraic

end
-- ==== Proof.Ref.StageTactic.lean ====
-- The end state of the reference's line satisfies each operation's equation; a stage fact follows from its operands' stage facts.
import proofs.«406977_j9723805958288_1_alg».proof.Proof.Ref.Frame
import proofs.«406977_j9723805958288_1_alg».proof.Proof.Ref.Read

noncomputable section

namespace Cert.ReferenceIdeal.RefStages

open Cert.ReferenceIdeal Cert.ReferenceIdeal.Gen Idealize.ShloMosaic Idealize.ShloMosaic.TcCoe Idealize.SL.Sem Idealize.ShloMosaic.StableHlo
open Cert.LibStraightLine

variable {F : FTy → Type} [FloatOps F]

def final (m : (ℓ : Loc nD τ sig) → Buf (Elt F) ℓ) (c : Dev nD) : Valuation τ sig (Elt F) :=
  after RefRun.ops (launchContents m c)

abbrev arg (m : (ℓ : Loc nD τ sig) → Buf (Elt F) ℓ) (c : Dev nD) (r : Ref sig .tc) :
    Buf (Elt F) ((c.tc : Thread nD τ).loc r) :=
  m ((c.tc : Thread nD τ).loc r)

variable {m : (ℓ : Loc nD τ sig) → Buf (Elt F) ℓ} {c : Dev nD}

theorem final_arg {r : Ref sig .tc} (hr : r.idx.val < 39) :
    final m c (Proc.devRef .tc r) = arg m c r :=
  RefFrame.arg_kept _ hr

theorem final_nullary {y : Ref sig .tc} {v : y.ty.Contents (Elt F)} {hy}
    (hk : (RefRun.ops (F := F))[y.idx.val - 39]? = some (nullary y v hy)) (hn : 39 ≤ y.idx.val) :
    final m c (Proc.devRef .tc y) = v :=
  RefFrame.ops_numbered.after_nullary _ hk hn

theorem final_unary {x y : Ref sig .tc} {f : x.ty.Contents (Elt F) → y.ty.Contents (Elt F)} {hx hy}
    (hk : (RefRun.ops (F := F))[y.idx.val - 39]? = some (unary x y f hx hy)) (hn : 39 ≤ y.idx.val)
    (hix : x.idx.val < y.idx.val) :
    final m c (Proc.devRef .tc y) = f (final m c (Proc.devRef .tc x)) :=
  RefFrame.ops_numbered.after_unary _ hk hn hix

theorem final_binary {a b y : Ref sig .tc}
    {f : a.ty.Contents (Elt F) → b.ty.Contents (Elt F) → y.ty.Contents (Elt F)} {ha hb hy}
    (hk : (RefRun.ops (F := F))[y.idx.val - 39]? = some (binary a b y f ha hb hy)) (hn : 39 ≤ y.idx.val)
    (hia : a.idx.val < y.idx.val) (hib : b.idx.val < y.idx.val) :
    final m c (Proc.devRef .tc y) = f (final m c (Proc.devRef .tc a)) (final m c (Proc.devRef .tc b)) :=
  RefFrame.ops_numbered.after_binary _ hk hn hia hib

theorem final_ternary {p a b y : Ref sig .tc}
    {f : p.ty.Contents (Elt F) → a.ty.Contents (Elt F) → b.ty.Contents (Elt F) → y.ty.Contents (Elt F)} {hp ha hb hy}
    (hk : (RefRun.ops (F := F))[y.idx.val - 39]? = some (ternary p a b y f hp ha hb hy)) (hn : 39 ≤ y.idx.val)
    (hip : p.idx.val < y.idx.val) (hia : a.idx.val < y.idx.val) (hib : b.idx.val < y.idx.val) :
    final m c (Proc.devRef .tc y)
      = f (final m c (Proc.devRef .tc p)) (final m c (Proc.devRef .tc a)) (final m c (Proc.devRef .tc b)) :=
  RefFrame.ops_numbered.after_ternary _ hk hn hip hia hib

def reshaped (x y : Ref sig .tc) (he : x.ty.elt = y.ty.elt) (hs : x.ty.shape.ShapeCasts y.ty.shape)
    (v : x.ty.Contents (Elt F)) : y.ty.Contents (Elt F) :=
  fun i => he ▸ shapeCast y.ty.shape v hs i

theorem final_reshape {x y : Ref sig .tc} {he : x.ty.elt = y.ty.elt} {hs : x.ty.shape.ShapeCasts y.ty.shape} {hx hy}
    (hk : (RefRun.ops (F := F))[y.idx.val - 39]? = some (reshape x y he hs hx hy)) (hn : 39 ≤ y.idx.val)
    (hix : x.idx.val < y.idx.val) :
    final m c (Proc.devRef .tc y) = reshaped x y he hs (final m c (Proc.devRef .tc x)) :=
  RefFrame.ops_numbered.after_reshape _ hk hn hix rfl

macro "stage_nullary" : tactic =>
  `(tactic| (refine Eq.trans (final_nullary (by exact rfl) (by decide)) ?_; rfl))

macro "stage_unary" "[" hs:term,* "]" : tactic =>
  `(tactic| (refine Eq.trans (final_unary (by exact rfl) (by decide) (by decide)) ?_
             rw [$[$hs:term],*]
             rfl))

macro "stage_binary" "[" hs:term,* "]" : tactic =>
  `(tactic| (refine Eq.trans (final_binary (by exact rfl) (by decide) (by decide) (by decide)) ?_
             rw [$[$hs:term],*]
             rfl))

macro "stage_ternary" "[" hs:term,* "]" : tactic =>
  `(tactic| (refine Eq.trans (final_ternary (by exact rfl) (by decide) (by decide) (by decide) (by decide)) ?_
             rw [$[$hs:term],*]
             rfl))

macro "stage_reshape" "[" hs:term,* "]" : tactic =>
  `(tactic| (refine Eq.trans (final_reshape (by exact rfl) (by decide) (by decide)) ?_
             rw [$[$hs:term],*]
             rfl))

end Cert.ReferenceIdeal.RefStages

end
-- ==== Proof.Ref.StageTable.lean ====
import proofs.«406977_j9723805958288_1_alg».proof.Proof.Ref.StageTactic

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F] {m : (ℓ : Loc nD τ sig) → Buf (Elt F) ℓ} {c : Dev nD}

/-! ## The 39 arguments end as launched -/

theorem s_main_arg0 : final m c (Proc.devRef .tc main_arg0) = arg m c main_arg0 := final_arg (by decide)
theorem s_main_arg1 : final m c (Proc.devRef .tc main_arg1) = arg m c main_arg1 := final_arg (by decide)
theorem s_main_arg2 : final m c (Proc.devRef .tc main_arg2) = arg m c main_arg2 := final_arg (by decide)
theorem s_main_arg3 : final m c (Proc.devRef .tc main_arg3) = arg m c main_arg3 := final_arg (by decide)
theorem s_main_arg4 : final m c (Proc.devRef .tc main_arg4) = arg m c main_arg4 := final_arg (by decide)
theorem s_main_arg5 : final m c (Proc.devRef .tc main_arg5) = arg m c main_arg5 := final_arg (by decide)
theorem s_main_arg6 : final m c (Proc.devRef .tc main_arg6) = arg m c main_arg6 := final_arg (by decide)
theorem s_main_arg7 : final m c (Proc.devRef .tc main_arg7) = arg m c main_arg7 := final_arg (by decide)
theorem s_main_arg8 : final m c (Proc.devRef .tc main_arg8) = arg m c main_arg8 := final_arg (by decide)
theorem s_main_arg9 : final m c (Proc.devRef .tc main_arg9) = arg m c main_arg9 := final_arg (by decide)
theorem s_main_arg10 : final m c (Proc.devRef .tc main_arg10) = arg m c main_arg10 := final_arg (by decide)
theorem s_main_arg11 : final m c (Proc.devRef .tc main_arg11) = arg m c main_arg11 := final_arg (by decide)
theorem s_main_arg12 : final m c (Proc.devRef .tc main_arg12) = arg m c main_arg12 := final_arg (by decide)
theorem s_main_arg13 : final m c (Proc.devRef .tc main_arg13) = arg m c main_arg13 := final_arg (by decide)
theorem s_main_arg14 : final m c (Proc.devRef .tc main_arg14) = arg m c main_arg14 := final_arg (by decide)
theorem s_main_arg15 : final m c (Proc.devRef .tc main_arg15) = arg m c main_arg15 := final_arg (by decide)
theorem s_main_arg16 : final m c (Proc.devRef .tc main_arg16) = arg m c main_arg16 := final_arg (by decide)
theorem s_main_arg17 : final m c (Proc.devRef .tc main_arg17) = arg m c main_arg17 := final_arg (by decide)
theorem s_main_arg18 : final m c (Proc.devRef .tc main_arg18) = arg m c main_arg18 := final_arg (by decide)
theorem s_main_arg19 : final m c (Proc.devRef .tc main_arg19) = arg m c main_arg19 := final_arg (by decide)
theorem s_main_arg20 : final m c (Proc.devRef .tc main_arg20) = arg m c main_arg20 := final_arg (by decide)
theorem s_main_arg21 : final m c (Proc.devRef .tc main_arg21) = arg m c main_arg21 := final_arg (by decide)
theorem s_main_arg22 : final m c (Proc.devRef .tc main_arg22) = arg m c main_arg22 := final_arg (by decide)
theorem s_main_arg23 : final m c (Proc.devRef .tc main_arg23) = arg m c main_arg23 := final_arg (by decide)
theorem s_main_arg24 : final m c (Proc.devRef .tc main_arg24) = arg m c main_arg24 := final_arg (by decide)
theorem s_main_arg25 : final m c (Proc.devRef .tc main_arg25) = arg m c main_arg25 := final_arg (by decide)
theorem s_main_arg26 : final m c (Proc.devRef .tc main_arg26) = arg m c main_arg26 := final_arg (by decide)
theorem s_main_arg27 : final m c (Proc.devRef .tc main_arg27) = arg m c main_arg27 := final_arg (by decide)
theorem s_main_arg28 : final m c (Proc.devRef .tc main_arg28) = arg m c main_arg28 := final_arg (by decide)
theorem s_main_arg29 : final m c (Proc.devRef .tc main_arg29) = arg m c main_arg29 := final_arg (by decide)
theorem s_main_arg30 : final m c (Proc.devRef .tc main_arg30) = arg m c main_arg30 := final_arg (by decide)
theorem s_main_arg31 : final m c (Proc.devRef .tc main_arg31) = arg m c main_arg31 := final_arg (by decide)
theorem s_main_arg32 : final m c (Proc.devRef .tc main_arg32) = arg m c main_arg32 := final_arg (by decide)
theorem s_main_arg33 : final m c (Proc.devRef .tc main_arg33) = arg m c main_arg33 := final_arg (by decide)
theorem s_main_arg34 : final m c (Proc.devRef .tc main_arg34) = arg m c main_arg34 := final_arg (by decide)
theorem s_main_arg35 : final m c (Proc.devRef .tc main_arg35) = arg m c main_arg35 := final_arg (by decide)
theorem s_main_arg36 : final m c (Proc.devRef .tc main_arg36) = arg m c main_arg36 := final_arg (by decide)
theorem s_main_arg37 : final m c (Proc.devRef .tc main_arg37) = arg m c main_arg37 := final_arg (by decide)
theorem s_main_arg38 : final m c (Proc.devRef .tc main_arg38) = arg m c main_arg38 := final_arg (by decide)

/-! ## The 309 operations, in program order: the end of the line at each result buffer is that buffer's stage of the launch arguments -/

set_option maxRecDepth 16384
set_option maxHeartbeats 1000000

theorem s_main_v0 : final m c (Proc.devRef .tc main_v0) = RefRead.val_main_v0 (F := F) (arg m c main_arg0) (arg m c main_arg5) := by stage_binary [s_main_arg0, s_main_arg5]
theorem s_main_v1 : final m c (Proc.devRef .tc main_v1) = RefRead.val_main_v1 (F := F) (arg m c main_arg0) (arg m c main_arg5) := by stage_reshape [s_main_v0]
theorem s_main_v2 : final m c (Proc.devRef .tc main_v2) = RefRead.val_main_v2 (F := F) (arg m c main_arg0) (arg m c main_arg6) := by stage_binary [s_main_arg0, s_main_arg6]
theorem s_main_v3 : final m c (Proc.devRef .tc main_v3) = RefRead.val_main_v3 (F := F) (arg m c main_arg0) (arg m c main_arg6) := by stage_reshape [s_main_v2]
theorem s_main_v4 : final m c (Proc.devRef .tc main_v4) = RefRead.val_main_v4 (F := F) (arg m c main_arg0) (arg m c main_arg7) := by stage_binary [s_main_arg0, s_main_arg7]
theorem s_main_v5 : final m c (Proc.devRef .tc main_v5) = RefRead.val_main_v5 (F := F) (arg m c main_arg0) (arg m c main_arg7) := by stage_reshape [s_main_v4]
theorem s_main_v6 : final m c (Proc.devRef .tc main_v6) = RefRead.val_main_v6 (F := F) (arg m c main_arg1) (arg m c main_arg8) := by stage_binary [s_main_arg1, s_main_arg8]
theorem s_main_v7 : final m c (Proc.devRef .tc main_v7) = RefRead.val_main_v7 (F := F) (arg m c main_arg1) (arg m c main_arg8) := by stage_reshape [s_main_v6]
theorem s_main_c : final m c (Proc.devRef .tc main_c) = RefRead.val_main_c (F := F) := by stage_nullary
theorem s_main_v8 : final m c (Proc.devRef .tc main_v8) = RefRead.val_main_v8 (F := F) := by stage_unary [s_main_c]
theorem s_main_v9 : final m c (Proc.devRef .tc main_v9) = RefRead.val_main_v9 (F := F) (arg m c main_arg3) := by stage_binary [s_main_arg3, s_main_v8]
theorem s_main_c_0 : final m c (Proc.devRef .tc main_c_0) = RefRead.val_main_c_0 (F := F) := by stage_nullary
theorem s_main_v10 : final m c (Proc.devRef .tc main_v10) = RefRead.val_main_v10 (F := F) := by stage_unary [s_main_c_0]
theorem s_main_v11 : final m c (Proc.devRef .tc main_v11) = RefRead.val_main_v11 (F := F) (arg m c main_arg3) := by stage_binary [s_main_arg3, s_main_v10]
theorem s_main_v12 : final m c (Proc.devRef .tc main_v12) = RefRead.val_main_v12 (F := F) (arg m c main_arg3) := by stage_ternary [s_main_v9, s_main_v11, s_main_arg3]
theorem s_main_v13 : final m c (Proc.devRef .tc main_v13) = RefRead.val_main_v13 (F := F) (arg m c main_arg3) := by stage_unary [s_main_v12]
theorem s_main_v14 : final m c (Proc.devRef .tc main_v14) = RefRead.val_main_v14 (F := F) (arg m c main_arg0) (arg m c main_arg3) (arg m c main_arg6) := by stage_binary [s_main_v3, s_main_v13]
theorem s_main_c_1 : final m c (Proc.devRef .tc main_c_1) = RefRead.val_main_c_1 (F := F) := by stage_nullary
theorem s_main_v15 : final m c (Proc.devRef .tc main_v15) = RefRead.val_main_v15 (F := F) := by stage_unary [s_main_c_1]
theorem s_main_v16 : final m c (Proc.devRef .tc main_v16) = RefRead.val_main_v16 (F := F) (arg m c main_arg4) := by stage_binary [s_main_arg4, s_main_v15]
theorem s_main_c_2 : final m c (Proc.devRef .tc main_c_2) = RefRead.val_main_c_2 (F := F) := by stage_nullary
theorem s_main_v17 : final m c (Proc.devRef .tc main_v17) = RefRead.val_main_v17 (F := F) := by stage_unary [s_main_c_2]
theorem s_main_v18 : final m c (Proc.devRef .tc main_v18) = RefRead.val_main_v18 (F := F) (arg m c main_arg4) := by stage_binary [s_main_arg4, s_main_v17]
theorem s_main_v19 : final m c (Proc.devRef .tc main_v19) = RefRead.val_main_v19 (F := F) (arg m c main_arg4) := by stage_ternary [s_main_v16, s_main_v18, s_main_arg4]
theorem s_main_v20 : final m c (Proc.devRef .tc main_v20) = RefRead.val_main_v20 (F := F) (arg m c main_arg4) := by stage_unary [s_main_v19]
theorem s_main_v21 : final m c (Proc.devRef .tc main_v21) = RefRead.val_main_v21 (F := F) (arg m c main_arg0) (arg m c main_arg4) (arg m c main_arg5) := by stage_binary [s_main_v1, s_main_v20]
theorem s_main_v22 : final m c (Proc.devRef .tc main_v22) = RefRead.val_main_v22 (F := F) (arg m c main_arg0) (arg m c main_arg3) (arg m c main_arg4) (arg m c main_arg5) (arg m c main_arg6) := by stage_binary [s_main_v14, s_main_v21]
theorem s_main_cst : final m c (Proc.devRef .tc main_cst) = RefRead.val_main_cst (F := F) := by stage_nullary
theorem s_main_v23 : final m c (Proc.devRef .tc main_v23) = RefRead.val_main_v23 (F := F) := by stage_unary [s_main_cst]
theorem s_main_v24 : final m c (Proc.devRef .tc main_v24) = RefRead.val_main_v24 (F := F) (arg m c main_arg0) (arg m c main_arg3) (arg m c main_arg4) (arg m c main_arg5) (arg m c main_arg6) := by stage_binary [s_main_v22, s_main_v23]
theorem s_main_v25 : final m c (Proc.devRef .tc main_v25) = RefRead.val_main_v25 (F := F) (arg m c main_arg0) (arg m c main_arg1) (arg m c main_arg3) (arg m c main_arg4) (arg m c main_arg5) (arg m c main_arg6) (arg m c main_arg8) := by stage_binary [s_main_v24, s_main_v7]
theorem s_main_v26 : final m c (Proc.devRef .tc main_v26) = RefRead.val_main_v26 (F := F) (arg m c main_arg0) (arg m c main_arg1) (arg m c main_arg3) (arg m c main_arg4) (arg m c main_arg5) (arg m c main_arg6) (arg m c main_arg8) := by stage_reshape [s_main_v25]
theorem s_main_cst_3 : final m c (Proc.devRef .tc main_cst_3) = RefRead.val_main_cst_3 (F := F) := by stage_nullary
theorem s_main_v27 : final m c (Proc.devRef .tc main_v27) = RefRead.val_main_v27 (F := F) (arg m c main_arg0) (arg m c main_arg1) (arg m c main_arg3) (arg m c main_arg4) (arg m c main_arg5) (arg m c main_arg6) (arg m c main_arg8) := by stage_binary [s_main_v25, s_main_cst_3]
theorem s_main_v28 : final m c (Proc.devRef .tc main_v28) = RefRead.val_main_v28 (F := F) (arg m c main_arg0) (arg m c main_arg1) (arg m c main_arg3) (arg m c main_arg4) (arg m c main_arg5) (arg m c main_arg6) (arg m c main_arg8) := by stage_unary [s_main_v27]
theorem s_main_cst_4 : final m c (Proc.devRef .tc main_cst_4) = RefRead.val_main_cst_4 (F := F) := by stage_nullary
theorem s_main_cst_5 : final m c (Proc.devRef .tc main_cst_5) = RefRead.val_main_cst_5 (F := F) := by stage_nullary
theorem s_main_call0_v0 : final m c (Proc.devRef .tc main_call0_v0) = RefRead.val_main_call0_v0 (F := F) := by stage_unary [s_main_cst_4]
theorem s_main_call0_v1 : final m c (Proc.devRef .tc main_call0_v1) = RefRead.val_main_call0_v1 (F := F) := by stage_unary [s_main_call0_v0]
theorem s_main_call0_v2 : final m c (Proc.devRef .tc main_call0_v2) = RefRead.val_main_call0_v2 (F := F) (arg m c main_arg0) (arg m c main_arg1) (arg m c main_arg3) (arg m c main_arg4) (arg m c main_arg5) (arg m c main_arg6) (arg m c main_arg8) := by stage_binary [s_main_call0_v1, s_main_v28]
theorem s_main_call0_v3 : final m c (Proc.devRef .tc main_call0_v3) = RefRead.val_main_call0_v3 (F := F) := by stage_unary [s_main_cst_5]
theorem s_main_call0_v4 : final m c (Proc.devRef .tc main_call0_v4) = RefRead.val_main_call0_v4 (F := F) := by stage_unary [s_main_call0_v3]
theorem s_main_v29 : final m c (Proc.devRef .tc main_v29) = RefRead.val_main_v29 (F := F) (arg m c main_arg0) (arg m c main_arg1) (arg m c main_arg3) (arg m c main_arg4) (arg m c main_arg5) (arg m c main_arg6) (arg m c main_arg8) := by stage_binary [s_main_call0_v4, s_main_call0_v2]
theorem s_main_v30 : final m c (Proc.devRef .tc main_v30) = RefRead.val_main_v30 (F := F) (arg m c main_arg0) (arg m c main_arg1) (arg m c main_arg3) (arg m c main_arg4) (arg m c main_arg5) (arg m c main_arg6) (arg m c main_arg8) := by stage_unary [s_main_v29]
theorem s_main_c_6 : final m c (Proc.devRef .tc main_c_6) = RefRead.val_main_c_6 (F := F) := by stage_nullary
theorem s_main_v31 : final m c (Proc.devRef .tc main_v31) = RefRead.val_main_v31 (F := F) := by stage_unary [s_main_c_6]
theorem s_main_v32 : final m c (Proc.devRef .tc main_v32) = RefRead.val_main_v32 (F := F) (arg m c main_arg3) := by stage_binary [s_main_arg3, s_main_v31]
theorem s_main_c_7 : final m c (Proc.devRef .tc main_c_7) = RefRead.val_main_c_7 (F := F) := by stage_nullary
theorem s_main_v33 : final m c (Proc.devRef .tc main_v33) = RefRead.val_main_v33 (F := F) := by stage_unary [s_main_c_7]
theorem s_main_v34 : final m c (Proc.devRef .tc main_v34) = RefRead.val_main_v34 (F := F) (arg m c main_arg3) := by stage_binary [s_main_arg3, s_main_v33]
theorem s_main_v35 : final m c (Proc.devRef .tc main_v35) = RefRead.val_main_v35 (F := F) (arg m c main_arg3) := by stage_ternary [s_main_v32, s_main_v34, s_main_arg3]
theorem s_main_v36 : final m c (Proc.devRef .tc main_v36) = RefRead.val_main_v36 (F := F) (arg m c main_arg3) := by stage_unary [s_main_v35]
theorem s_main_v37 : final m c (Proc.devRef .tc main_v37) = RefRead.val_main_v37 (F := F) (arg m c main_arg0) (arg m c main_arg3) (arg m c main_arg7) := by stage_binary [s_main_v5, s_main_v36]
theorem s_main_v38 : final m c (Proc.devRef .tc main_v38) = RefRead.val_main_v38 (F := F) (arg m c main_arg0) (arg m c main_arg1) (arg m c main_arg3) (arg m c main_arg4) (arg m c main_arg5) (arg m c main_arg6) (arg m c main_arg8) := by stage_unary [s_main_v30]
theorem s_main_v39 : final m c (Proc.devRef .tc main_v39) = RefRead.val_main_v39 (F := F) (arg m c main_arg0) (arg m c main_arg1) (arg m c main_arg3) (arg m c main_arg4) (arg m c main_arg5) (arg m c main_arg6) (arg m c main_arg7) (arg m c main_arg8) := by stage_binary [s_main_v37, s_main_v38]
theorem s_main_cst_8 : final m c (Proc.devRef .tc main_cst_8) = RefRead.val_main_cst_8 (F := F) := by stage_nullary
theorem s_main_v40 : final m c (Proc.devRef .tc main_v40) = RefRead.val_main_v40 (F := F) := by stage_unary [s_main_cst_8]
theorem s_main_v41 : final m c (Proc.devRef .tc main_v41) = RefRead.val_main_v41 (F := F) (arg m c main_arg4) := by stage_unary [s_main_arg4]
theorem s_main_v42 : final m c (Proc.devRef .tc main_v42) = RefRead.val_main_v42 (F := F) (arg m c main_arg0) (arg m c main_arg1) (arg m c main_arg3) (arg m c main_arg4) (arg m c main_arg5) (arg m c main_arg6) (arg m c main_arg7) (arg m c main_arg8) := by stage_ternary [s_main_v40, s_main_v41, s_main_v39]
theorem s_main_cst_9 : final m c (Proc.devRef .tc main_cst_9) = RefRead.val_main_cst_9 (F := F) := by stage_nullary
theorem s_main_v43 : final m c (Proc.devRef .tc main_v43) = RefRead.val_main_v43 (F := F) := by stage_unary [s_main_cst_9]
theorem s_main_v44 : final m c (Proc.devRef .tc main_v44) = RefRead.val_main_v44 (F := F) (arg m c main_arg4) := by stage_unary [s_main_arg4]
theorem s_main_v45 : final m c (Proc.devRef .tc main_v45) = RefRead.val_main_v45 (F := F) (arg m c main_arg0) (arg m c main_arg1) (arg m c main_arg3) (arg m c main_arg4) (arg m c main_arg5) (arg m c main_arg6) (arg m c main_arg8) := by stage_ternary [s_main_v43, s_main_v44, s_main_v30]
theorem s_main_cst_10 : final m c (Proc.devRef .tc main_cst_10) = RefRead.val_main_cst_10 (F := F) := by stage_nullary
theorem s_main_v46 : final m c (Proc.devRef .tc main_v46) = RefRead.val_main_v46 (F := F) := by stage_unary [s_main_cst_10]
theorem s_main_v47 : final m c (Proc.devRef .tc main_v47) = RefRead.val_main_v47 (F := F) (arg m c main_arg0) (arg m c main_arg1) (arg m c main_arg3) (arg m c main_arg4) (arg m c main_arg5) (arg m c main_arg6) (arg m c main_arg8) := by stage_binary [s_main_v45, s_main_v46]
theorem s_main_v48 : final m c (Proc.devRef .tc main_v48) = RefRead.val_main_v48 (F := F) (arg m c main_arg0) (arg m c main_arg1) (arg m c main_arg3) (arg m c main_arg4) (arg m c main_arg5) (arg m c main_arg6) (arg m c main_arg8) := by stage_unary [s_main_v47]
theorem s_main_v49 : final m c (Proc.devRef .tc main_v49) = RefRead.val_main_v49 (F := F) (arg m c main_arg0) (arg m c main_arg1) (arg m c main_arg3) (arg m c main_arg4) (arg m c main_arg5) (arg m c main_arg6) (arg m c main_arg7) (arg m c main_arg8) := by stage_binary [s_main_v42, s_main_v48]
theorem s_main_v50 : final m c (Proc.devRef .tc main_v50) = RefRead.val_main_v50 (F := F) (arg m c main_arg0) (arg m c main_arg1) (arg m c main_arg3) (arg m c main_arg4) (arg m c main_arg5) (arg m c main_arg6) (arg m c main_arg7) (arg m c main_arg8) := by stage_reshape [s_main_v49]
theorem s_main_v51 : final m c (Proc.devRef .tc main_v51) = RefRead.val_main_v51 (F := F) (arg m c main_arg0) (arg m c main_arg1) (arg m c main_arg3) (arg m c main_arg4) (arg m c main_arg5) (arg m c main_arg6) (arg m c main_arg7) (arg m c main_arg8) (arg m c main_arg9) := by stage_binary [s_main_v50, s_main_arg9]
theorem s_main_v52 : final m c (Proc.devRef .tc main_v52) = RefRead.val_main_v52 (F := F) (arg m c main_arg10) := by stage_unary [s_main_arg10]
theorem s_main_v53 : final m c (Proc.devRef .tc main_v53) = RefRead.val_main_v53 (F := F) (arg m c main_arg10) := by stage_unary [s_main_v52]
theorem s_main_v54 : final m c (Proc.devRef .tc main_v54) = RefRead.val_main_v54 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v51, s_main_v53]
theorem s_main_v55 : final m c (Proc.devRef .tc main_v55) = RefRead.val_main_v55 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_arg0, s_main_v54]
theorem s_main_cst_11 : final m c (Proc.devRef .tc main_cst_11) = RefRead.val_main_cst_11 (F := F) := by stage_nullary
theorem s_main_v56 : final m c (Proc.devRef .tc main_v56) = RefRead.val_main_v56 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v55, s_main_cst_11]
theorem s_main_v57 : final m c (Proc.devRef .tc main_v57) = RefRead.val_main_v57 (F := F) (arg m c main_arg0) (arg m c main_arg1) (arg m c main_arg3) (arg m c main_arg4) (arg m c main_arg5) (arg m c main_arg6) (arg m c main_arg7) (arg m c main_arg8) (arg m c main_arg9) (arg m c main_arg10) := by stage_unary [s_main_v56]
theorem s_main_cst_12 : final m c (Proc.devRef .tc main_cst_12) = RefRead.val_main_cst_12 (F := F) := by stage_nullary
theorem s_main_v58 : final m c (Proc.devRef .tc main_v58) = RefRead.val_main_v58 (F := F) := by stage_unary [s_main_cst_12]
theorem s_main_v59 : final m c (Proc.devRef .tc main_v59) = RefRead.val_main_v59 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v57, s_main_v58]
theorem s_main_v60 : final m c (Proc.devRef .tc main_v60) = RefRead.val_main_v60 (F := F) (arg m c main_arg0) (arg m c main_arg1) (arg m c main_arg3) (arg m c main_arg4) (arg m c main_arg5) (arg m c main_arg6) (arg m c main_arg7) (arg m c main_arg8) (arg m c main_arg9) (arg m c main_arg10) := by stage_unary [s_main_v59]
theorem s_main_v61 : final m c (Proc.devRef .tc main_v61) = RefRead.val_main_v61 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v55, s_main_v60]
theorem s_main_v62 : final m c (Proc.devRef .tc main_v62) = RefRead.val_main_v62 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v61]
theorem s_main_cst_13 : final m c (Proc.devRef .tc main_cst_13) = RefRead.val_main_cst_13 (F := F) := by stage_nullary
theorem s_main_v63 : final m c (Proc.devRef .tc main_v63) = RefRead.val_main_v63 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v62, s_main_cst_13]
theorem s_main_v64 : final m c (Proc.devRef .tc main_v64) = RefRead.val_main_v64 (F := F) (arg m c main_arg0) (arg m c main_arg1) (arg m c main_arg3) (arg m c main_arg4) (arg m c main_arg5) (arg m c main_arg6) (arg m c main_arg7) (arg m c main_arg8) (arg m c main_arg9) (arg m c main_arg10) := by stage_unary [s_main_v63]
theorem s_main_cst_14 : final m c (Proc.devRef .tc main_cst_14) = RefRead.val_main_cst_14 (F := F) := by stage_nullary
theorem s_main_v65 : final m c (Proc.devRef .tc main_v65) = RefRead.val_main_v65 (F := F) := by stage_unary [s_main_cst_14]
theorem s_main_v66 : final m c (Proc.devRef .tc main_v66) = RefRead.val_main_v66 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v64, s_main_v65]
theorem s_main_v67 : final m c (Proc.devRef .tc main_v67) = RefRead.val_main_v67 (F := F) (arg m c main_arg0) (arg m c main_arg1) (arg m c main_arg3) (arg m c main_arg4) (arg m c main_arg5) (arg m c main_arg6) (arg m c main_arg7) (arg m c main_arg8) (arg m c main_arg9) (arg m c main_arg10) := by stage_unary [s_main_v59]
theorem s_main_v68 : final m c (Proc.devRef .tc main_v68) = RefRead.val_main_v68 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v55, s_main_v67]
theorem s_main_cst_15 : final m c (Proc.devRef .tc main_cst_15) = RefRead.val_main_cst_15 (F := F) := by stage_nullary
theorem s_main_v69 : final m c (Proc.devRef .tc main_v69) = RefRead.val_main_v69 (F := F) := by stage_unary [s_main_cst_15]
theorem s_main_v70 : final m c (Proc.devRef .tc main_v70) = RefRead.val_main_v70 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v66, s_main_v69]
theorem s_main_v71 : final m c (Proc.devRef .tc main_v71) = RefRead.val_main_v71 (F := F) (arg m c main_arg0) (arg m c main_arg1) (arg m c main_arg3) (arg m c main_arg4) (arg m c main_arg5) (arg m c main_arg6) (arg m c main_arg7) (arg m c main_arg8) (arg m c main_arg9) (arg m c main_arg10) := by stage_unary [s_main_v70]
theorem s_main_v72 : final m c (Proc.devRef .tc main_v72) = RefRead.val_main_v72 (F := F) (arg m c main_arg0) (arg m c main_arg1) (arg m c main_arg3) (arg m c main_arg4) (arg m c main_arg5) (arg m c main_arg6) (arg m c main_arg7) (arg m c main_arg8) (arg m c main_arg9) (arg m c main_arg10) := by stage_unary [s_main_v71]
theorem s_main_v73 : final m c (Proc.devRef .tc main_v73) = RefRead.val_main_v73 (F := F) (arg m c main_arg0) (arg m c main_arg1) (arg m c main_arg3) (arg m c main_arg4) (arg m c main_arg5) (arg m c main_arg6) (arg m c main_arg7) (arg m c main_arg8) (arg m c main_arg9) (arg m c main_arg10) := by stage_binary [s_main_v68, s_main_v72]
theorem s_main_v74 : final m c (Proc.devRef .tc main_v74) = RefRead.val_main_v74 (F := F) (arg m c main_arg13) := by stage_unary [s_main_arg13]
theorem s_main_v75 : final m c (Proc.devRef .tc main_v75) = RefRead.val_main_v75 (F := F) (arg m c main_arg13) := by stage_unary [s_main_v74]
theorem s_main_v76 : final m c (Proc.devRef .tc main_v76) = RefRead.val_main_v76 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) := by stage_binary [s_main_v73, s_main_v75]
theorem s_main_v77 : final m c (Proc.devRef .tc main_v77) = RefRead.val_main_v77 (F := F) (arg m c main_arg14) := by stage_unary [s_main_arg14]
theorem s_main_v78 : final m c (Proc.devRef .tc main_v78) = RefRead.val_main_v78 (F := F) (arg m c main_arg14) := by stage_unary [s_main_v77]
theorem s_main_v79 : final m c (Proc.devRef .tc main_v79) = RefRead.val_main_v79 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) := by stage_binary [s_main_v76, s_main_v78]
theorem s_main_v80 : final m c (Proc.devRef .tc main_v80) = RefRead.val_main_v80 (F := F) (arg m c main_arg0) (arg m c main_arg1) (arg m c main_arg3) (arg m c main_arg4) (arg m c main_arg5) (arg m c main_arg6) (arg m c main_arg8) (arg m c main_arg11) := by stage_binary [s_main_v26, s_main_arg11]
theorem s_main_v81 : final m c (Proc.devRef .tc main_v81) = RefRead.val_main_v81 (F := F) (arg m c main_arg12) := by stage_unary [s_main_arg12]
theorem s_main_v82 : final m c (Proc.devRef .tc main_v82) = RefRead.val_main_v82 (F := F) (arg m c main_arg12) := by stage_unary [s_main_v81]
theorem s_main_v83 : final m c (Proc.devRef .tc main_v83) = RefRead.val_main_v83 (F := F) (arg m c main_arg0) (arg m c main_arg1) (arg m c main_arg3) (arg m c main_arg4) (arg m c main_arg5) (arg m c main_arg6) (arg m c main_arg8) (arg m c main_arg11) (arg m c main_arg12) := by stage_binary [s_main_v80, s_main_v82]
theorem s_main_v84 : final m c (Proc.devRef .tc main_v84) = RefRead.val_main_v84 (F := F) (arg m c main_arg0) (arg m c main_arg1) (arg m c main_arg3) (arg m c main_arg4) (arg m c main_arg5) (arg m c main_arg6) (arg m c main_arg8) (arg m c main_arg11) (arg m c main_arg12) := by stage_binary [s_main_arg1, s_main_v83]
theorem s_main_cst_16 : final m c (Proc.devRef .tc main_cst_16) = RefRead.val_main_cst_16 (F := F) := by stage_nullary
theorem s_main_v85 : final m c (Proc.devRef .tc main_v85) = RefRead.val_main_v85 (F := F) (arg m c main_arg0) (arg m c main_arg1) (arg m c main_arg3) (arg m c main_arg4) (arg m c main_arg5) (arg m c main_arg6) (arg m c main_arg8) (arg m c main_arg11) (arg m c main_arg12) := by stage_binary [s_main_v84, s_main_cst_16]
theorem s_main_v86 : final m c (Proc.devRef .tc main_v86) = RefRead.val_main_v86 (F := F) (arg m c main_arg0) (arg m c main_arg1) (arg m c main_arg3) (arg m c main_arg4) (arg m c main_arg5) (arg m c main_arg6) (arg m c main_arg8) (arg m c main_arg11) (arg m c main_arg12) := by stage_unary [s_main_v85]
theorem s_main_cst_17 : final m c (Proc.devRef .tc main_cst_17) = RefRead.val_main_cst_17 (F := F) := by stage_nullary
theorem s_main_v87 : final m c (Proc.devRef .tc main_v87) = RefRead.val_main_v87 (F := F) := by stage_unary [s_main_cst_17]
theorem s_main_v88 : final m c (Proc.devRef .tc main_v88) = RefRead.val_main_v88 (F := F) (arg m c main_arg0) (arg m c main_arg1) (arg m c main_arg3) (arg m c main_arg4) (arg m c main_arg5) (arg m c main_arg6) (arg m c main_arg8) (arg m c main_arg11) (arg m c main_arg12) := by stage_binary [s_main_v86, s_main_v87]
theorem s_main_v89 : final m c (Proc.devRef .tc main_v89) = RefRead.val_main_v89 (F := F) (arg m c main_arg0) (arg m c main_arg1) (arg m c main_arg3) (arg m c main_arg4) (arg m c main_arg5) (arg m c main_arg6) (arg m c main_arg8) (arg m c main_arg11) (arg m c main_arg12) := by stage_unary [s_main_v88]
theorem s_main_v90 : final m c (Proc.devRef .tc main_v90) = RefRead.val_main_v90 (F := F) (arg m c main_arg0) (arg m c main_arg1) (arg m c main_arg3) (arg m c main_arg4) (arg m c main_arg5) (arg m c main_arg6) (arg m c main_arg8) (arg m c main_arg11) (arg m c main_arg12) := by stage_binary [s_main_v84, s_main_v89]
theorem s_main_v91 : final m c (Proc.devRef .tc main_v91) = RefRead.val_main_v91 (F := F) (arg m c main_arg0) (arg m c main_arg1) (arg m c main_arg3) (arg m c main_arg4) (arg m c main_arg5) (arg m c main_arg6) (arg m c main_arg8) (arg m c main_arg11) (arg m c main_arg12) := by stage_binary [s_main_v90]
theorem s_main_cst_18 : final m c (Proc.devRef .tc main_cst_18) = RefRead.val_main_cst_18 (F := F) := by stage_nullary
theorem s_main_v92 : final m c (Proc.devRef .tc main_v92) = RefRead.val_main_v92 (F := F) (arg m c main_arg0) (arg m c main_arg1) (arg m c main_arg3) (arg m c main_arg4) (arg m c main_arg5) (arg m c main_arg6) (arg m c main_arg8) (arg m c main_arg11) (arg m c main_arg12) := by stage_binary [s_main_v91, s_main_cst_18]
theorem s_main_v93 : final m c (Proc.devRef .tc main_v93) = RefRead.val_main_v93 (F := F) (arg m c main_arg0) (arg m c main_arg1) (arg m c main_arg3) (arg m c main_arg4) (arg m c main_arg5) (arg m c main_arg6) (arg m c main_arg8) (arg m c main_arg11) (arg m c main_arg12) := by stage_unary [s_main_v92]
theorem s_main_cst_19 : final m c (Proc.devRef .tc main_cst_19) = RefRead.val_main_cst_19 (F := F) := by stage_nullary
theorem s_main_v94 : final m c (Proc.devRef .tc main_v94) = RefRead.val_main_v94 (F := F) := by stage_unary [s_main_cst_19]
theorem s_main_v95 : final m c (Proc.devRef .tc main_v95) = RefRead.val_main_v95 (F := F) (arg m c main_arg0) (arg m c main_arg1) (arg m c main_arg3) (arg m c main_arg4) (arg m c main_arg5) (arg m c main_arg6) (arg m c main_arg8) (arg m c main_arg11) (arg m c main_arg12) := by stage_binary [s_main_v93, s_main_v94]
theorem s_main_v96 : final m c (Proc.devRef .tc main_v96) = RefRead.val_main_v96 (F := F) (arg m c main_arg0) (arg m c main_arg1) (arg m c main_arg3) (arg m c main_arg4) (arg m c main_arg5) (arg m c main_arg6) (arg m c main_arg8) (arg m c main_arg11) (arg m c main_arg12) := by stage_unary [s_main_v88]
theorem s_main_v97 : final m c (Proc.devRef .tc main_v97) = RefRead.val_main_v97 (F := F) (arg m c main_arg0) (arg m c main_arg1) (arg m c main_arg3) (arg m c main_arg4) (arg m c main_arg5) (arg m c main_arg6) (arg m c main_arg8) (arg m c main_arg11) (arg m c main_arg12) := by stage_binary [s_main_v84, s_main_v96]
theorem s_main_cst_20 : final m c (Proc.devRef .tc main_cst_20) = RefRead.val_main_cst_20 (F := F) := by stage_nullary
theorem s_main_v98 : final m c (Proc.devRef .tc main_v98) = RefRead.val_main_v98 (F := F) := by stage_unary [s_main_cst_20]
theorem s_main_v99 : final m c (Proc.devRef .tc main_v99) = RefRead.val_main_v99 (F := F) (arg m c main_arg0) (arg m c main_arg1) (arg m c main_arg3) (arg m c main_arg4) (arg m c main_arg5) (arg m c main_arg6) (arg m c main_arg8) (arg m c main_arg11) (arg m c main_arg12) := by stage_binary [s_main_v95, s_main_v98]
theorem s_main_v100 : final m c (Proc.devRef .tc main_v100) = RefRead.val_main_v100 (F := F) (arg m c main_arg0) (arg m c main_arg1) (arg m c main_arg3) (arg m c main_arg4) (arg m c main_arg5) (arg m c main_arg6) (arg m c main_arg8) (arg m c main_arg11) (arg m c main_arg12) := by stage_unary [s_main_v99]
theorem s_main_v101 : final m c (Proc.devRef .tc main_v101) = RefRead.val_main_v101 (F := F) (arg m c main_arg0) (arg m c main_arg1) (arg m c main_arg3) (arg m c main_arg4) (arg m c main_arg5) (arg m c main_arg6) (arg m c main_arg8) (arg m c main_arg11) (arg m c main_arg12) := by stage_unary [s_main_v100]
theorem s_main_v102 : final m c (Proc.devRef .tc main_v102) = RefRead.val_main_v102 (F := F) (arg m c main_arg0) (arg m c main_arg1) (arg m c main_arg3) (arg m c main_arg4) (arg m c main_arg5) (arg m c main_arg6) (arg m c main_arg8) (arg m c main_arg11) (arg m c main_arg12) := by stage_binary [s_main_v97, s_main_v101]
theorem s_main_v103 : final m c (Proc.devRef .tc main_v103) = RefRead.val_main_v103 (F := F) (arg m c main_arg15) := by stage_unary [s_main_arg15]
theorem s_main_v104 : final m c (Proc.devRef .tc main_v104) = RefRead.val_main_v104 (F := F) (arg m c main_arg15) := by stage_unary [s_main_v103]
theorem s_main_v105 : final m c (Proc.devRef .tc main_v105) = RefRead.val_main_v105 (F := F) (arg m c main_arg0) (arg m c main_arg1) (arg m c main_arg3) (arg m c main_arg4) (arg m c main_arg5) (arg m c main_arg6) (arg m c main_arg8) (arg m c main_arg11) (arg m c main_arg12) (arg m c main_arg15) := by stage_binary [s_main_v102, s_main_v104]
theorem s_main_v106 : final m c (Proc.devRef .tc main_v106) = RefRead.val_main_v106 (F := F) (arg m c main_arg16) := by stage_unary [s_main_arg16]
theorem s_main_v107 : final m c (Proc.devRef .tc main_v107) = RefRead.val_main_v107 (F := F) (arg m c main_arg16) := by stage_unary [s_main_v106]
theorem s_main_v108 : final m c (Proc.devRef .tc main_v108) = RefRead.val_main_v108 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) := by stage_binary [s_main_v105, s_main_v107]
theorem s_main_v109 : final m c (Proc.devRef .tc main_v109) = RefRead.val_main_v109 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) := by stage_binary [s_main_v79, s_main_arg17]
theorem s_main_v110 : final m c (Proc.devRef .tc main_v110) = RefRead.val_main_v110 (F := F) (arg m c main_arg18) := by stage_unary [s_main_arg18]
theorem s_main_v111 : final m c (Proc.devRef .tc main_v111) = RefRead.val_main_v111 (F := F) (arg m c main_arg18) := by stage_unary [s_main_v110]
theorem s_main_v112 : final m c (Proc.devRef .tc main_v112) = RefRead.val_main_v112 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) := by stage_binary [s_main_v109, s_main_v111]
theorem s_main_call1_cst : final m c (Proc.devRef .tc main_call1_cst) = RefRead.val_main_call1_cst (F := F) := by stage_nullary
theorem s_main_call1_v0 : final m c (Proc.devRef .tc main_call1_v0) = RefRead.val_main_call1_v0 (F := F) := by stage_unary [s_main_call1_cst]
theorem s_main_v113 : final m c (Proc.devRef .tc main_v113) = RefRead.val_main_v113 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) := by stage_binary [s_main_v112, s_main_call1_v0]
theorem s_main_v114 : final m c (Proc.devRef .tc main_v114) = RefRead.val_main_v114 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) := by stage_binary [s_main_v113, s_main_arg19]
theorem s_main_v115 : final m c (Proc.devRef .tc main_v115) = RefRead.val_main_v115 (F := F) (arg m c main_arg20) := by stage_unary [s_main_arg20]
theorem s_main_v116 : final m c (Proc.devRef .tc main_v116) = RefRead.val_main_v116 (F := F) (arg m c main_arg20) := by stage_unary [s_main_v115]
theorem s_main_v117 : final m c (Proc.devRef .tc main_v117) = RefRead.val_main_v117 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v114, s_main_v116]
theorem s_main_v118 : final m c (Proc.devRef .tc main_v118) = RefRead.val_main_v118 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v79, s_main_v117]
theorem s_main_cst_21 : final m c (Proc.devRef .tc main_cst_21) = RefRead.val_main_cst_21 (F := F) := by stage_nullary
theorem s_main_v119 : final m c (Proc.devRef .tc main_v119) = RefRead.val_main_v119 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v118, s_main_cst_21]
theorem s_main_v120 : final m c (Proc.devRef .tc main_v120) = RefRead.val_main_v120 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_unary [s_main_v119]
theorem s_main_cst_22 : final m c (Proc.devRef .tc main_cst_22) = RefRead.val_main_cst_22 (F := F) := by stage_nullary
theorem s_main_v121 : final m c (Proc.devRef .tc main_v121) = RefRead.val_main_v121 (F := F) := by stage_unary [s_main_cst_22]
theorem s_main_v122 : final m c (Proc.devRef .tc main_v122) = RefRead.val_main_v122 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v120, s_main_v121]
theorem s_main_v123 : final m c (Proc.devRef .tc main_v123) = RefRead.val_main_v123 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_unary [s_main_v122]
theorem s_main_v124 : final m c (Proc.devRef .tc main_v124) = RefRead.val_main_v124 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v118, s_main_v123]
theorem s_main_v125 : final m c (Proc.devRef .tc main_v125) = RefRead.val_main_v125 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v124]
theorem s_main_cst_23 : final m c (Proc.devRef .tc main_cst_23) = RefRead.val_main_cst_23 (F := F) := by stage_nullary
theorem s_main_v126 : final m c (Proc.devRef .tc main_v126) = RefRead.val_main_v126 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v125, s_main_cst_23]
theorem s_main_v127 : final m c (Proc.devRef .tc main_v127) = RefRead.val_main_v127 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_unary [s_main_v126]
theorem s_main_cst_24 : final m c (Proc.devRef .tc main_cst_24) = RefRead.val_main_cst_24 (F := F) := by stage_nullary
theorem s_main_v128 : final m c (Proc.devRef .tc main_v128) = RefRead.val_main_v128 (F := F) := by stage_unary [s_main_cst_24]
theorem s_main_v129 : final m c (Proc.devRef .tc main_v129) = RefRead.val_main_v129 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v127, s_main_v128]
theorem s_main_v130 : final m c (Proc.devRef .tc main_v130) = RefRead.val_main_v130 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_unary [s_main_v122]
theorem s_main_v131 : final m c (Proc.devRef .tc main_v131) = RefRead.val_main_v131 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v118, s_main_v130]
theorem s_main_cst_25 : final m c (Proc.devRef .tc main_cst_25) = RefRead.val_main_cst_25 (F := F) := by stage_nullary
theorem s_main_v132 : final m c (Proc.devRef .tc main_v132) = RefRead.val_main_v132 (F := F) := by stage_unary [s_main_cst_25]
theorem s_main_v133 : final m c (Proc.devRef .tc main_v133) = RefRead.val_main_v133 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v129, s_main_v132]
theorem s_main_v134 : final m c (Proc.devRef .tc main_v134) = RefRead.val_main_v134 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_unary [s_main_v133]
theorem s_main_v135 : final m c (Proc.devRef .tc main_v135) = RefRead.val_main_v135 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_unary [s_main_v134]
theorem s_main_v136 : final m c (Proc.devRef .tc main_v136) = RefRead.val_main_v136 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) := by stage_binary [s_main_v131, s_main_v135]
theorem s_main_v137 : final m c (Proc.devRef .tc main_v137) = RefRead.val_main_v137 (F := F) (arg m c main_arg25) := by stage_unary [s_main_arg25]
theorem s_main_v138 : final m c (Proc.devRef .tc main_v138) = RefRead.val_main_v138 (F := F) (arg m c main_arg25) := by stage_unary [s_main_v137]
theorem s_main_v139 : final m c (Proc.devRef .tc main_v139) = RefRead.val_main_v139 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) := by stage_binary [s_main_v136, s_main_v138]
theorem s_main_v140 : final m c (Proc.devRef .tc main_v140) = RefRead.val_main_v140 (F := F) (arg m c main_arg26) := by stage_unary [s_main_arg26]
theorem s_main_v141 : final m c (Proc.devRef .tc main_v141) = RefRead.val_main_v141 (F := F) (arg m c main_arg26) := by stage_unary [s_main_v140]
theorem s_main_v142 : final m c (Proc.devRef .tc main_v142) = RefRead.val_main_v142 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) := by stage_binary [s_main_v139, s_main_v141]
theorem s_main_v143 : final m c (Proc.devRef .tc main_v143) = RefRead.val_main_v143 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) := by stage_binary [s_main_v108, s_main_arg21]
theorem s_main_v144 : final m c (Proc.devRef .tc main_v144) = RefRead.val_main_v144 (F := F) (arg m c main_arg22) := by stage_unary [s_main_arg22]
theorem s_main_v145 : final m c (Proc.devRef .tc main_v145) = RefRead.val_main_v145 (F := F) (arg m c main_arg22) := by stage_unary [s_main_v144]
theorem s_main_v146 : final m c (Proc.devRef .tc main_v146) = RefRead.val_main_v146 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) := by stage_binary [s_main_v143, s_main_v145]
theorem s_main_call2_cst : final m c (Proc.devRef .tc main_call2_cst) = RefRead.val_main_call2_cst (F := F) := by stage_nullary
theorem s_main_call2_v0 : final m c (Proc.devRef .tc main_call2_v0) = RefRead.val_main_call2_v0 (F := F) := by stage_unary [s_main_call2_cst]
theorem s_main_v147 : final m c (Proc.devRef .tc main_v147) = RefRead.val_main_v147 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) := by stage_binary [s_main_v146, s_main_call2_v0]
theorem s_main_v148 : final m c (Proc.devRef .tc main_v148) = RefRead.val_main_v148 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) := by stage_binary [s_main_v147, s_main_arg23]
theorem s_main_v149 : final m c (Proc.devRef .tc main_v149) = RefRead.val_main_v149 (F := F) (arg m c main_arg24) := by stage_unary [s_main_arg24]
theorem s_main_v150 : final m c (Proc.devRef .tc main_v150) = RefRead.val_main_v150 (F := F) (arg m c main_arg24) := by stage_unary [s_main_v149]
theorem s_main_v151 : final m c (Proc.devRef .tc main_v151) = RefRead.val_main_v151 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v148, s_main_v150]
theorem s_main_v152 : final m c (Proc.devRef .tc main_v152) = RefRead.val_main_v152 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v108, s_main_v151]
theorem s_main_cst_26 : final m c (Proc.devRef .tc main_cst_26) = RefRead.val_main_cst_26 (F := F) := by stage_nullary
theorem s_main_v153 : final m c (Proc.devRef .tc main_v153) = RefRead.val_main_v153 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v152, s_main_cst_26]
theorem s_main_v154 : final m c (Proc.devRef .tc main_v154) = RefRead.val_main_v154 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_unary [s_main_v153]
theorem s_main_cst_27 : final m c (Proc.devRef .tc main_cst_27) = RefRead.val_main_cst_27 (F := F) := by stage_nullary
theorem s_main_v155 : final m c (Proc.devRef .tc main_v155) = RefRead.val_main_v155 (F := F) := by stage_unary [s_main_cst_27]
theorem s_main_v156 : final m c (Proc.devRef .tc main_v156) = RefRead.val_main_v156 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v154, s_main_v155]
theorem s_main_v157 : final m c (Proc.devRef .tc main_v157) = RefRead.val_main_v157 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_unary [s_main_v156]
theorem s_main_v158 : final m c (Proc.devRef .tc main_v158) = RefRead.val_main_v158 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v152, s_main_v157]
theorem s_main_v159 : final m c (Proc.devRef .tc main_v159) = RefRead.val_main_v159 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v158]
theorem s_main_cst_28 : final m c (Proc.devRef .tc main_cst_28) = RefRead.val_main_cst_28 (F := F) := by stage_nullary
theorem s_main_v160 : final m c (Proc.devRef .tc main_v160) = RefRead.val_main_v160 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v159, s_main_cst_28]
theorem s_main_v161 : final m c (Proc.devRef .tc main_v161) = RefRead.val_main_v161 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_unary [s_main_v160]
theorem s_main_cst_29 : final m c (Proc.devRef .tc main_cst_29) = RefRead.val_main_cst_29 (F := F) := by stage_nullary
theorem s_main_v162 : final m c (Proc.devRef .tc main_v162) = RefRead.val_main_v162 (F := F) := by stage_unary [s_main_cst_29]
theorem s_main_v163 : final m c (Proc.devRef .tc main_v163) = RefRead.val_main_v163 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v161, s_main_v162]
theorem s_main_v164 : final m c (Proc.devRef .tc main_v164) = RefRead.val_main_v164 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_unary [s_main_v156]
theorem s_main_v165 : final m c (Proc.devRef .tc main_v165) = RefRead.val_main_v165 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v152, s_main_v164]
theorem s_main_cst_30 : final m c (Proc.devRef .tc main_cst_30) = RefRead.val_main_cst_30 (F := F) := by stage_nullary
theorem s_main_v166 : final m c (Proc.devRef .tc main_v166) = RefRead.val_main_v166 (F := F) := by stage_unary [s_main_cst_30]
theorem s_main_v167 : final m c (Proc.devRef .tc main_v167) = RefRead.val_main_v167 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v163, s_main_v166]
theorem s_main_v168 : final m c (Proc.devRef .tc main_v168) = RefRead.val_main_v168 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_unary [s_main_v167]
theorem s_main_v169 : final m c (Proc.devRef .tc main_v169) = RefRead.val_main_v169 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_unary [s_main_v168]
theorem s_main_v170 : final m c (Proc.devRef .tc main_v170) = RefRead.val_main_v170 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) := by stage_binary [s_main_v165, s_main_v169]
theorem s_main_v171 : final m c (Proc.devRef .tc main_v171) = RefRead.val_main_v171 (F := F) (arg m c main_arg27) := by stage_unary [s_main_arg27]
theorem s_main_v172 : final m c (Proc.devRef .tc main_v172) = RefRead.val_main_v172 (F := F) (arg m c main_arg27) := by stage_unary [s_main_v171]
theorem s_main_v173 : final m c (Proc.devRef .tc main_v173) = RefRead.val_main_v173 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) (arg m c main_arg27) := by stage_binary [s_main_v170, s_main_v172]
theorem s_main_v174 : final m c (Proc.devRef .tc main_v174) = RefRead.val_main_v174 (F := F) (arg m c main_arg28) := by stage_unary [s_main_arg28]
theorem s_main_v175 : final m c (Proc.devRef .tc main_v175) = RefRead.val_main_v175 (F := F) (arg m c main_arg28) := by stage_unary [s_main_v174]
theorem s_main_v176 : final m c (Proc.devRef .tc main_v176) = RefRead.val_main_v176 (F := F) (arg m c main_arg0) (arg m c main_arg1) (arg m c main_arg3) (arg m c main_arg4) (arg m c main_arg5) (arg m c main_arg6) (arg m c main_arg8) (arg m c main_arg11) (arg m c main_arg12) (arg m c main_arg15) (arg m c main_arg16) (arg m c main_arg21) (arg m c main_arg22) (arg m c main_arg23) (arg m c main_arg24) (arg m c main_arg27) (arg m c main_arg28) := by stage_binary [s_main_v173, s_main_v175]
theorem s_main_v177 : final m c (Proc.devRef .tc main_v177) = RefRead.val_main_v177 (F := F) (arg m c main_arg0) (arg m c main_arg1) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) := by stage_binary [s_main_v142, s_main_arg29]
theorem s_main_v178 : final m c (Proc.devRef .tc main_v178) = RefRead.val_main_v178 (F := F) (arg m c main_arg2) (arg m c main_arg30) := by stage_binary [s_main_arg2, s_main_arg30]
theorem s_main_v179 : final m c (Proc.devRef .tc main_v179) = RefRead.val_main_v179 (F := F) (arg m c main_arg2) (arg m c main_arg31) := by stage_binary [s_main_arg2, s_main_arg31]
theorem s_main_v180 : final m c (Proc.devRef .tc main_v180) = RefRead.val_main_v180 (F := F) (arg m c main_arg2) (arg m c main_arg30) := by stage_unary [s_main_v178]
theorem s_main_v181 : final m c (Proc.devRef .tc main_v181) = RefRead.val_main_v181 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v177, s_main_v180]
theorem s_main_cst_31 : final m c (Proc.devRef .tc main_cst_31) = RefRead.val_main_cst_31 (F := F) := by stage_nullary
theorem s_main_v182 : final m c (Proc.devRef .tc main_v182) = RefRead.val_main_v182 (F := F) := by stage_unary [s_main_cst_31]
theorem s_main_v183 : final m c (Proc.devRef .tc main_v183) = RefRead.val_main_v183 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v181, s_main_v182]
theorem s_main_cst_32 : final m c (Proc.devRef .tc main_cst_32) = RefRead.val_main_cst_32 (F := F) := by stage_nullary
theorem s_main_v184 : final m c (Proc.devRef .tc main_v184) = RefRead.val_main_v184 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v183, s_main_cst_32]
theorem s_main_cst_33 : final m c (Proc.devRef .tc main_cst_33) = RefRead.val_main_cst_33 (F := F) := by stage_nullary
theorem s_main_v185 : final m c (Proc.devRef .tc main_v185) = RefRead.val_main_v185 (F := F) := by stage_unary [s_main_cst_33]
theorem s_main_v186 : final m c (Proc.devRef .tc main_v186) = RefRead.val_main_v186 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v185, s_main_v184]
theorem s_main_v187 : final m c (Proc.devRef .tc main_v187) = RefRead.val_main_v187 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_unary [s_main_v186]
theorem s_main_v188 : final m c (Proc.devRef .tc main_v188) = RefRead.val_main_v188 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_unary [s_main_v187]
theorem s_main_v189 : final m c (Proc.devRef .tc main_v189) = RefRead.val_main_v189 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v183, s_main_v188]
theorem s_main_v190 : final m c (Proc.devRef .tc main_v190) = RefRead.val_main_v190 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_unary [s_main_v189]
theorem s_main_cst_34 : final m c (Proc.devRef .tc main_cst_34) = RefRead.val_main_cst_34 (F := F) := by stage_nullary
theorem s_main_v191 : final m c (Proc.devRef .tc main_v191) = RefRead.val_main_v191 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v190, s_main_cst_34]
theorem s_main_v192 : final m c (Proc.devRef .tc main_v192) = RefRead.val_main_v192 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_unary [s_main_v191]
theorem s_main_v193 : final m c (Proc.devRef .tc main_v193) = RefRead.val_main_v193 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_unary [s_main_v192]
theorem s_main_v194 : final m c (Proc.devRef .tc main_v194) = RefRead.val_main_v194 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_binary [s_main_v190, s_main_v193]
theorem s_main_v195 : final m c (Proc.devRef .tc main_v195) = RefRead.val_main_v195 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) := by stage_binary [s_main_v194, s_main_v179]
theorem s_main_v196 : final m c (Proc.devRef .tc main_v196) = RefRead.val_main_v196 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v195, s_main_arg32]
theorem s_main_v197 : final m c (Proc.devRef .tc main_v197) = RefRead.val_main_v197 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v142, s_main_v196]
theorem s_main_cst_35 : final m c (Proc.devRef .tc main_cst_35) = RefRead.val_main_cst_35 (F := F) := by stage_nullary
theorem s_main_v198 : final m c (Proc.devRef .tc main_v198) = RefRead.val_main_v198 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v197, s_main_cst_35]
theorem s_main_v199 : final m c (Proc.devRef .tc main_v199) = RefRead.val_main_v199 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_unary [s_main_v198]
theorem s_main_cst_36 : final m c (Proc.devRef .tc main_cst_36) = RefRead.val_main_cst_36 (F := F) := by stage_nullary
theorem s_main_v200 : final m c (Proc.devRef .tc main_v200) = RefRead.val_main_v200 (F := F) := by stage_unary [s_main_cst_36]
theorem s_main_v201 : final m c (Proc.devRef .tc main_v201) = RefRead.val_main_v201 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v199, s_main_v200]
theorem s_main_v202 : final m c (Proc.devRef .tc main_v202) = RefRead.val_main_v202 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_unary [s_main_v201]
theorem s_main_v203 : final m c (Proc.devRef .tc main_v203) = RefRead.val_main_v203 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v197, s_main_v202]
theorem s_main_v204 : final m c (Proc.devRef .tc main_v204) = RefRead.val_main_v204 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v203]
theorem s_main_cst_37 : final m c (Proc.devRef .tc main_cst_37) = RefRead.val_main_cst_37 (F := F) := by stage_nullary
theorem s_main_v205 : final m c (Proc.devRef .tc main_v205) = RefRead.val_main_v205 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v204, s_main_cst_37]
theorem s_main_v206 : final m c (Proc.devRef .tc main_v206) = RefRead.val_main_v206 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_unary [s_main_v205]
theorem s_main_cst_38 : final m c (Proc.devRef .tc main_cst_38) = RefRead.val_main_cst_38 (F := F) := by stage_nullary
theorem s_main_v207 : final m c (Proc.devRef .tc main_v207) = RefRead.val_main_v207 (F := F) := by stage_unary [s_main_cst_38]
theorem s_main_v208 : final m c (Proc.devRef .tc main_v208) = RefRead.val_main_v208 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v206, s_main_v207]
theorem s_main_v209 : final m c (Proc.devRef .tc main_v209) = RefRead.val_main_v209 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_unary [s_main_v201]
theorem s_main_v210 : final m c (Proc.devRef .tc main_v210) = RefRead.val_main_v210 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v197, s_main_v209]
theorem s_main_cst_39 : final m c (Proc.devRef .tc main_cst_39) = RefRead.val_main_cst_39 (F := F) := by stage_nullary
theorem s_main_v211 : final m c (Proc.devRef .tc main_v211) = RefRead.val_main_v211 (F := F) := by stage_unary [s_main_cst_39]
theorem s_main_v212 : final m c (Proc.devRef .tc main_v212) = RefRead.val_main_v212 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v208, s_main_v211]
theorem s_main_v213 : final m c (Proc.devRef .tc main_v213) = RefRead.val_main_v213 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_unary [s_main_v212]
theorem s_main_v214 : final m c (Proc.devRef .tc main_v214) = RefRead.val_main_v214 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_unary [s_main_v213]
theorem s_main_v215 : final m c (Proc.devRef .tc main_v215) = RefRead.val_main_v215 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) := by stage_binary [s_main_v210, s_main_v214]
theorem s_main_v216 : final m c (Proc.devRef .tc main_v216) = RefRead.val_main_v216 (F := F) (arg m c main_arg33) := by stage_unary [s_main_arg33]
theorem s_main_v217 : final m c (Proc.devRef .tc main_v217) = RefRead.val_main_v217 (F := F) (arg m c main_arg33) := by stage_unary [s_main_v216]
theorem s_main_v218 : final m c (Proc.devRef .tc main_v218) = RefRead.val_main_v218 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) := by stage_binary [s_main_v215, s_main_v217]
theorem s_main_v219 : final m c (Proc.devRef .tc main_v219) = RefRead.val_main_v219 (F := F) (arg m c main_arg34) := by stage_unary [s_main_arg34]
theorem s_main_v220 : final m c (Proc.devRef .tc main_v220) = RefRead.val_main_v220 (F := F) (arg m c main_arg34) := by stage_unary [s_main_v219]
theorem s_main_v221 : final m c (Proc.devRef .tc main_v221) = RefRead.val_main_v221 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) := by stage_binary [s_main_v218, s_main_v220]
theorem s_main_v222 : final m c (Proc.devRef .tc main_v222) = RefRead.val_main_v222 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) := by stage_binary [s_main_v221, s_main_arg37]
theorem s_main_call3_cst : final m c (Proc.devRef .tc main_call3_cst) = RefRead.val_main_call3_cst (F := F) := by stage_nullary
theorem s_main_call3_v0 : final m c (Proc.devRef .tc main_call3_v0) = RefRead.val_main_call3_v0 (F := F) := by stage_unary [s_main_call3_cst]
theorem s_main_v223 : final m c (Proc.devRef .tc main_v223) = RefRead.val_main_v223 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) := by stage_binary [s_main_v222, s_main_call3_v0]
theorem s_main_v224 : final m c (Proc.devRef .tc main_v224) = RefRead.val_main_v224 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v223, s_main_arg38]
theorem s_main_v225 : final m c (Proc.devRef .tc main_v225) = RefRead.val_main_v225 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v221, s_main_v224]
theorem s_main_cst_40 : final m c (Proc.devRef .tc main_cst_40) = RefRead.val_main_cst_40 (F := F) := by stage_nullary
theorem s_main_v226 : final m c (Proc.devRef .tc main_v226) = RefRead.val_main_v226 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v225, s_main_cst_40]
theorem s_main_v227 : final m c (Proc.devRef .tc main_v227) = RefRead.val_main_v227 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_unary [s_main_v226]
theorem s_main_cst_41 : final m c (Proc.devRef .tc main_cst_41) = RefRead.val_main_cst_41 (F := F) := by stage_nullary
theorem s_main_v228 : final m c (Proc.devRef .tc main_v228) = RefRead.val_main_v228 (F := F) := by stage_unary [s_main_cst_41]
theorem s_main_v229 : final m c (Proc.devRef .tc main_v229) = RefRead.val_main_v229 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v227, s_main_v228]
theorem s_main_v230 : final m c (Proc.devRef .tc main_v230) = RefRead.val_main_v230 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_unary [s_main_v229]
theorem s_main_v231 : final m c (Proc.devRef .tc main_v231) = RefRead.val_main_v231 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v225, s_main_v230]
theorem s_main_v232 : final m c (Proc.devRef .tc main_v232) = RefRead.val_main_v232 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v231]
theorem s_main_cst_42 : final m c (Proc.devRef .tc main_cst_42) = RefRead.val_main_cst_42 (F := F) := by stage_nullary
theorem s_main_v233 : final m c (Proc.devRef .tc main_v233) = RefRead.val_main_v233 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v232, s_main_cst_42]
theorem s_main_v234 : final m c (Proc.devRef .tc main_v234) = RefRead.val_main_v234 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_unary [s_main_v233]
theorem s_main_cst_43 : final m c (Proc.devRef .tc main_cst_43) = RefRead.val_main_cst_43 (F := F) := by stage_nullary
theorem s_main_v235 : final m c (Proc.devRef .tc main_v235) = RefRead.val_main_v235 (F := F) := by stage_unary [s_main_cst_43]
theorem s_main_v236 : final m c (Proc.devRef .tc main_v236) = RefRead.val_main_v236 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v234, s_main_v235]
theorem s_main_v237 : final m c (Proc.devRef .tc main_v237) = RefRead.val_main_v237 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_unary [s_main_v229]
theorem s_main_v238 : final m c (Proc.devRef .tc main_v238) = RefRead.val_main_v238 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v225, s_main_v237]
theorem s_main_cst_44 : final m c (Proc.devRef .tc main_cst_44) = RefRead.val_main_cst_44 (F := F) := by stage_nullary
theorem s_main_v239 : final m c (Proc.devRef .tc main_v239) = RefRead.val_main_v239 (F := F) := by stage_unary [s_main_cst_44]
theorem s_main_v240 : final m c (Proc.devRef .tc main_v240) = RefRead.val_main_v240 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v236, s_main_v239]
theorem s_main_v241 : final m c (Proc.devRef .tc main_v241) = RefRead.val_main_v241 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_unary [s_main_v240]
theorem s_main_v242 : final m c (Proc.devRef .tc main_v242) = RefRead.val_main_v242 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_unary [s_main_v241]
theorem s_main_v243 : final m c (Proc.devRef .tc main_v243) = RefRead.val_main_v243 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg37) (arg m c main_arg38) := by stage_binary [s_main_v238, s_main_v242]
theorem s_main_v244 : final m c (Proc.devRef .tc main_v244) = RefRead.val_main_v244 (F := F) (arg m c main_arg35) := by stage_unary [s_main_arg35]
theorem s_main_v245 : final m c (Proc.devRef .tc main_v245) = RefRead.val_main_v245 (F := F) (arg m c main_arg35) := by stage_unary [s_main_v244]
theorem s_main_v246 : final m c (Proc.devRef .tc main_v246) = RefRead.val_main_v246 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg35) (arg m c main_arg37) (arg m c main_arg38) := by stage_binary [s_main_v243, s_main_v245]
theorem s_main_v247 : final m c (Proc.devRef .tc main_v247) = RefRead.val_main_v247 (F := F) (arg m c main_arg36) := by stage_unary [s_main_arg36]
theorem s_main_v248 : final m c (Proc.devRef .tc main_v248) = RefRead.val_main_v248 (F := F) (arg m c main_arg36) := by stage_unary [s_main_v247]
theorem s_main_v249 : final m c (Proc.devRef .tc main_v249) = RefRead.val_main_v249 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) (arg m c main_arg31) (arg m c main_arg32) (arg m c main_arg33) (arg m c main_arg34) (arg m c main_arg35) (arg m c main_arg36) (arg m c main_arg37) (arg m c main_arg38) := by stage_binary [s_main_v246, s_main_v248]
theorem s_main_v250 : final m c (Proc.devRef .tc main_v250) = RefRead.val_main_v250 (F := F) (arg m c main_arg0) (arg m c main_arg1) (arg m c main_arg2) (arg m c main_arg3) (arg m c main_arg4) (arg m c main_arg5) (arg m c main_arg6) (arg m c main_arg7) (arg m c main_arg8) (arg m c main_arg9) (arg m c main_arg10) (arg m c main_arg13) (arg m c main_arg14) (arg m c main_arg17) (arg m c main_arg18) (arg m c main_arg19) (arg m c main_arg20) (arg m c main_arg25) (arg m c main_arg26) (arg m c main_arg29) (arg m c main_arg30) := by stage_unary [s_main_v194]

end Cert.ReferenceIdeal.RefStages

end
-- ==== Proof.Ref.Stages.lean ====
-- The reference's three result buffers end at their stages of the launch arguments.
import proofs.«406977_j9723805958288_1_alg».proof.Proof.Ref.StageTable

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

theorem after_main_v176 :
    after RefRun.ops (launchContents m c) (Proc.devRef .tc main_v176)
      = RefRead.val_main_v176 (F := F)
        (m ((c.tc : Thread nD τ).loc main_arg0))
        (m ((c.tc : Thread nD τ).loc main_arg1))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg8))
        (m ((c.tc : Thread nD τ).loc main_arg11))
        (m ((c.tc : Thread nD τ).loc main_arg12))
        (m ((c.tc : Thread nD τ).loc main_arg15))
        (m ((c.tc : Thread nD τ).loc main_arg16))
        (m ((c.tc : Thread nD τ).loc main_arg21))
        (m ((c.tc : Thread nD τ).loc main_arg22))
        (m ((c.tc : Thread nD τ).loc main_arg23))
        (m ((c.tc : Thread nD τ).loc main_arg24))
        (m ((c.tc : Thread nD τ).loc main_arg27))
        (m ((c.tc : Thread nD τ).loc main_arg28)) :=
  s_main_v176

theorem after_main_v249 :
    after RefRun.ops (launchContents m c) (Proc.devRef .tc main_v249)
      = RefRead.val_main_v249 (F := F)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg13))
        (m ((c.tc : Thread nD τ).loc main_arg14))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg25))
        (m ((c.tc : Thread nD τ).loc main_arg26))
        (m ((c.tc : Thread nD τ).loc main_arg29))
        (m ((c.tc : Thread nD τ).loc main_arg30))
        (m ((c.tc : Thread nD τ).loc main_arg31))
        (m ((c.tc : Thread nD τ).loc main_arg32))
        (m ((c.tc : Thread nD τ).loc main_arg33))
        (m ((c.tc : Thread nD τ).loc main_arg34))
        (m ((c.tc : Thread nD τ).loc main_arg35))
        (m ((c.tc : Thread nD τ).loc main_arg36))
        (m ((c.tc : Thread nD τ).loc main_arg37))
        (m ((c.tc : Thread nD τ).loc main_arg38)) :=
  s_main_v249

theorem after_main_v250 :
    after RefRun.ops (launchContents m c) (Proc.devRef .tc main_v250)
      = RefRead.val_main_v250 (F := F)
        (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg13))
        (m ((c.tc : Thread nD τ).loc main_arg14))
        (m ((c.tc : Thread nD τ).loc main_arg17))
        (m ((c.tc : Thread nD τ).loc main_arg18))
        (m ((c.tc : Thread nD τ).loc main_arg19))
        (m ((c.tc : Thread nD τ).loc main_arg20))
        (m ((c.tc : Thread nD τ).loc main_arg25))
        (m ((c.tc : Thread nD τ).loc main_arg26))
        (m ((c.tc : Thread nD τ).loc main_arg29))
        (m ((c.tc : Thread nD τ).loc main_arg30)) :=
  s_main_v250

end Cert.ReferenceIdeal.RefStages

end
-- ==== Proof.Val.Algebraic.lean ====
-- Both idealized runs end with the same three arrays: the reference's result stages at launch arguments on which the two memories agree.
import proofs.«406977_j9723805958288_1_alg».proof.Defs
import proofs.«406977_j9723805958288_1_alg».proof.Proof.Gen.KernelIdeal
import proofs.«406977_j9723805958288_1_alg».proof.Proof.Gen.ReferenceIdeal
import proofs.«406977_j9723805958288_1_alg».proof.Proof.Gen.Pre_finite_inputs
import proofs.«406977_j9723805958288_1_alg».proof.Proof.Val.Results
import proofs.«406977_j9723805958288_1_alg».proof.Proof.KI.Kept
import proofs.«406977_j9723805958288_1_alg».proof.Proof.Ref.Frame
import proofs.«406977_j9723805958288_1_alg».proof.Proof.Ref.Stages

set_option maxRecDepth 16384

noncomputable section

namespace Cert.Algebraic

open Idealize.ShloMosaic Idealize.ShloMosaic.TcCoe Idealize.SL.Sem Idealize.ShloMosaic.StableHlo
open Cert.ReferenceIdeal

theorem run_and {nD : Nat} {τ : Topo} {sig : RefSig} {Val : EltTy → Type} {Λ : Labels}
    (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) :=
  have hm : MeshRun defs (fun m' => Q (⟨⟩, m')) (load p s) := h
  have hm' : MeshRun defs (fun m' => Q' (⟨⟩, m')) (load p s) := h'
  show MeshRun defs (fun m' => Q (⟨⟩, m') ∧ Q' (⟨⟩, m')) (load p s) from
    ⟨fun t ht hf => ⟨hm.post t ht hf, hm'.post t ht hf⟩, hm.progress, hm.fair⟩

def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)
      ∧ m' ((c.tc : Thread Cert.ReferenceIdeal.nD Cert.ReferenceIdeal.τ).loc Cert.ReferenceIdeal.main_arg37) = m ((c.tc : Thread Cert.KernelIdeal.nD Cert.KernelIdeal.τ).loc Cert.KernelIdeal.main_arg37)
      ∧ m' ((c.tc : Thread Cert.ReferenceIdeal.nD Cert.ReferenceIdeal.τ).loc Cert.ReferenceIdeal.main_arg38) = m ((c.tc : Thread Cert.KernelIdeal.nD Cert.KernelIdeal.τ).loc Cert.KernelIdeal.main_arg38)

theorem kernel_half (hresults : KernelResults) (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v156) = logitsOf m c
        ∧ r.2.mem ((c.tc : Thread Cert.KernelIdeal.nD Cert.KernelIdeal.τ).loc Cert.KernelIdeal.main_v155) = nodeOf m c
        ∧ r.2.mem ((c.tc : Thread Cert.KernelIdeal.nD Cert.KernelIdeal.τ).loc Cert.KernelIdeal.main_v8_2) = edgeOf m c)) :=
  (θ_run (Cert.KernelIdeal.defs (F := Ideal)) _ _).mono (fun r h c => by
      obtain ⟨h0, h1, h2⟩ := hresults m g hpre c
      exact ⟨(h c _ (Cert.KernelIdeal.Hand.mem_uc Cert.KernelIdeal.main_v156 (by decide))).trans h0,
        (h c _ (Cert.KernelIdeal.Hand.mem_uc Cert.KernelIdeal.main_v155 (by decide))).trans h1,
        (h c _ (Cert.KernelIdeal.Hand.mem_uc Cert.KernelIdeal.main_v8_2 (by decide))).trans h2⟩)
    (Cert.KernelIdeal.Hand.run_all m g)

theorem pre_transfer (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (hagree : Agree m m') : Cert.Pre_ReferenceIdeal m' := fun c => by
  have h := hpre c
  have ha := hagree c
  simp only [ha]
  exact h

theorem reference_half (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (g' : Dev Cert.ReferenceIdeal.nD → PrngReg)
    (hagree : Agree m m') :
    θ_run (Cert.ReferenceIdeal.defs (F := Ideal)) (onTc (τ := Cert.ReferenceIdeal.τ) (Cert.ReferenceIdeal.main (F := Ideal))) ⟨m', fun _ => 0, g'⟩ (fun r =>
      (∀ c : Dev Cert.ReferenceIdeal.nD,
        r.2.mem ((c.tc : Thread Cert.ReferenceIdeal.nD Cert.ReferenceIdeal.τ).loc Cert.ReferenceIdeal.main_v250) = logitsOf m c
        ∧ r.2.mem ((c.tc : Thread Cert.ReferenceIdeal.nD Cert.ReferenceIdeal.τ).loc Cert.ReferenceIdeal.main_v249) = nodeOf m c
        ∧ r.2.mem ((c.tc : Thread Cert.ReferenceIdeal.nD Cert.ReferenceIdeal.τ).loc Cert.ReferenceIdeal.main_v176) = edgeOf m c)) :=
  (θ_run (Cert.ReferenceIdeal.defs (F := Ideal)) _ _).mono (fun r h c => by
      have ha := hagree c
      refine ⟨(h c Cert.ReferenceIdeal.main_v250).trans ((RefStages.after_main_v250 m' c).trans ?_),
        (h c Cert.ReferenceIdeal.main_v249).trans ((RefStages.after_main_v249 m' c).trans ?_),
        (h c Cert.ReferenceIdeal.main_v176).trans ((RefStages.after_main_v176 m' c).trans ?_)⟩
      · simp only [ha]; rfl
      · simp only [ha]; rfl
      · simp only [ha]; rfl)
    (RefRun.run (F := Ideal) m' g')

theorem algebraic_of (hresults : KernelResults) : Cert.algebraic_KernelIdeal_ReferenceIdeal := by
  intro m g m' g' hpre hagree
  refine ⟨logitsOf m, nodeOf m, edgeOf m, ?_, ?_⟩
  · exact (θ_run (Cert.KernelIdeal.defs (F := Ideal)) _ _).mono
      (fun r h c => ⟨(h.1 c).1, (h.1 c).2.1, (h.1 c).2.2, h.2 c⟩)
      (run_and _ _ _ (kernel_half hresults m g hpre) (Cert.KernelIdeal.Hand.frame m g))
  · exact (θ_run (Cert.ReferenceIdeal.defs (F := Ideal)) _ _).mono
      (fun r h c => ⟨(h.1 c).1, (h.1 c).2.1, (h.1 c).2.2, h.2 c⟩)
      (run_and _ _ _ (reference_half m m' g' hagree) (RefFrame.frame_ri m' g' (pre_transfer m m' hpre hagree)))

end Cert.Algebraic

end
-- ==== Proof.Val.EdgeRow.lean ====
-- One edge's update as a function of its four input rows and the weights, over the extended reals: the specification both programs meet.
import Idealize.ShloMosaic.PureOps.Ideal
import Idealize.ShloMosaic.Lib.ValueIdx

noncomputable section

namespace Cert.EdgeRow

open Idealize.ShloMosaic
open scoped BigOperators

abbrev quarter : EReal := Ideal.ofBits .f32 0x3E800000#32

abbrev clipLo : EReal := Ideal.ofBits .f32 0xC0A00000#32
abbrev clipHi : EReal := Ideal.ofBits .f32 0x40A00000#32

abbrev rowLen : EReal := Ideal.ofBits .f32 0x43000000#32

abbrev lnEps : EReal := Ideal.ofBits .f32 0x3727C5AC#32

abbrev floor0 : EReal := Ideal.ofBits .f32 0x00000000#32

structure Weights where
  We : Fin 128 → Fin 128 → EReal
  Oew : Fin 128 → Fin 128 → EReal
  Oeb : Fin 128 → EReal
  g1 : Fin 128 → EReal
  b1 : Fin 128 → EReal
  F1w : Fin 128 → Fin 256 → EReal
  F1b : Fin 256 → EReal
  F2w : Fin 256 → Fin 128 → EReal
  F2b : Fin 128 → EReal
  g2 : Fin 128 → EReal
  b2 : Fin 128 → EReal

variable (w : Weights) (ef kg qg vg : Fin 128 → EReal)

def headCol (h : Fin 8) (d : Fin 16) : Fin 128 := ⟨16 * h.val + d.val, by omega⟩

def headOf (j : Fin 128) : Fin 8 := ⟨j.val / 16, by omega⟩

def proj (j : Fin 128) : EReal := ∑ k : Fin 128, ef k * w.We k j

def score (j : Fin 128) : EReal := ((kg j * qg j) * proj w ef j) * quarter

def headSum (h : Fin 8) : EReal := ∑ d : Fin 16, score w ef kg qg (headCol h d)

def attn (h : Fin 8) : EReal := Ideal.exp (min clipHi (max clipLo (headSum w ef kg qg h)))

def weighted (j : Fin 128) : EReal := vg j * attn w ef kg qg (headOf j)

def mean (x : Fin 128 → EReal) : EReal := Ideal.div (∑ j : Fin 128, x j) rowLen

def var (x : Fin 128 → EReal) : EReal := mean fun j => (x j - mean x) * (x j - mean x)

def layerNorm (x g b : Fin 128 → EReal) (j : Fin 128) : EReal :=
  ((x j - mean x) * Ideal.rsqrt (var x + lnEps)) * g j + b j

def res1 (j : Fin 128) : EReal := ef j + ((∑ k : Fin 128, score w ef kg qg k * w.Oew k j) + w.Oeb j)

def norm1 (j : Fin 128) : EReal := layerNorm (res1 w ef kg qg) w.g1 w.b1 j

def hidden (k : Fin 256) : EReal := max ((∑ j : Fin 128, norm1 w ef kg qg j * w.F1w j k) + w.F1b k) floor0

def res2 (j : Fin 128) : EReal := norm1 w ef kg qg j + ((∑ k : Fin 256, hidden w ef kg qg k * w.F2w k j) + w.F2b j)

def edgeOut (j : Fin 128) : EReal := layerNorm (res2 w ef kg qg) w.g2 w.b2 j

def rowOf {n k : Nat} (x : (⟨2, ![n, k]⟩ : Shape).Idx → EReal) (p : Fin n) : Fin k → EReal := fun j => x (ValueIdx.ix2 p j)

def vecOf {k : Nat} (x : (⟨1, ![k]⟩ : Shape).Idx → EReal) : Fin k → EReal := fun j => x (ValueIdx.ix1 j)

def matOf {a b : Nat} (x : (⟨2, ![a, b]⟩ : Shape).Idx → EReal) : Fin a → Fin b → EReal := fun i j => x (ValueIdx.ix2 i j)

def weightsOf (We Oew : (⟨2, ![128, 128]⟩ : Shape).Idx → EReal) (Oeb g1 b1 : (⟨1, ![128]⟩ : Shape).Idx → EReal)
    (F1w : (⟨2, ![128, 256]⟩ : Shape).Idx → EReal) (F1b : (⟨1, ![256]⟩ : Shape).Idx → EReal)
    (F2w : (⟨2, ![256, 128]⟩ : Shape).Idx → EReal) (F2b g2 b2 : (⟨1, ![128]⟩ : Shape).Idx → EReal) : Weights where
  We := matOf We
  Oew := matOf Oew
  Oeb := vecOf Oeb
  g1 := vecOf g1
  b1 := vecOf b1
  F1w := matOf F1w
  F1b := vecOf F1b
  F2w := matOf F2w
  F2b := vecOf F2b
  g2 := vecOf g2
  b2 := vecOf b2

def InRange {e : Nat} (n : Nat) (idx : (⟨1, ![e]⟩ : Shape).Idx → BitVec 32) : Prop :=
  ∀ i, 0 ≤ (idx i).toInt ∧ (idx i).toInt < (n : Int)

def rowIdx {e n : Nat} (idx : (⟨1, ![e]⟩ : Shape).Idx → BitVec 32) (h : InRange n idx) (i : Fin e) : Fin n :=
  ⟨((idx (ValueIdx.ix1 i)).toInt).toNat, by have := h (ValueIdx.ix1 i); omega⟩

end Cert.EdgeRow

end
-- ==== Proof.Val.PreFacts.lean ====
-- The precondition's forty-one tests read at the extended reals: every float entry is real and every edge endpoint lies in [0, 30000).
import proofs.«406977_j9723805958288_1_alg».proof.Pre_finite_inputs
import proofs.«406977_j9723805958288_1_alg».proof.Proof.Gen.Pre_finite_inputs
import proofs.«406977_j9723805958288_1_alg».proof.Proof.Val.EdgeRow
import Idealize.ShloMosaic.Lib.ReduceAll
import Idealize.ShloMosaic.Lib.StableHlo.Predicate

noncomputable section

namespace Cert.PreFacts

open Idealize.ShloMosaic
open Cert.Pre_finite_inputs Cert.Pre_finite_inputs.Facts

local instance : Subsingleton (⟨0, ![]⟩ : Shape).Idx := ⟨fun a b => funext fun d => d.elim0⟩

theorem posInf_f32 : Ideal.ofBits .f32 0x7F800000#32 = (⊤ : EReal) := by
  simp [Ideal.ofBits, Ideal.ieee]

theorem real_of_abs_lt_top (x : EReal) (h : max x (-x) < ⊤) : ∃ r : ℝ, x = (r : EReal) := by
  induction x using EReal.rec with
  | bot => simp at h
  | coe r => exact ⟨r, rfl⟩
  | top => simp at h

theorem real_of_all_finite {s : Shape} {axes : List (Fin s.rank)}
    (hb : (⟨0, ![]⟩ : Shape).BroadcastsInDim s (![] : Fin 0 → Fin s.rank)) (hr : s.ReducesTo axes ⟨0, ![]⟩)
    (h0 : 0 < (⟨0, ![]⟩ : Shape).numel) (a : FVec Ideal s .f32) (init : IVec ⟨0, ![]⟩ 1) (j : (⟨0, ![]⟩ : Shape).Idx)
    (e : Host.reduce IntOp.andi
        (cmpf .olt (Host.absf a) (broadcastInDim s ![] hb (constant (F := Ideal) ⟨0, ![]⟩ .f32 0x7F800000#32)))
        init hr h0 j = 1#1) :
    ∀ i, ∃ r : ℝ, a i = (r : EReal) := by
  intro i
  have hi := Host.reduce_andi_all _ init hr h0 j e i
  have hi' : BitVec.ofBool (decide (max (a i) (-(a i)) < Ideal.ofBits .f32 0x7F800000#32)) = 1#1 := hi
  rw [posInf_f32, StableHlo.Predicate.ofBool_eq_one_iff] at hi'
  exact real_of_abs_lt_top _ (of_decide_eq_true hi')

theorem inRange_of_all {e : Nat} {axes : List (Fin (⟨1, ![e]⟩ : Shape).rank)}
    (hb : (⟨0, ![]⟩ : Shape).BroadcastsInDim ⟨1, ![e]⟩ (![] : Fin 0 → Fin (⟨1, ![e]⟩ : Shape).rank))
    (hr : (⟨1, ![e]⟩ : Shape).ReducesTo axes ⟨0, ![]⟩) (h0 : 0 < (⟨0, ![]⟩ : Shape).numel)
    (v : IVec ⟨1, ![e]⟩ 32) (init₁ init₂ : IVec ⟨0, ![]⟩ 1) (j : (⟨0, ![]⟩ : Shape).Idx)
    (hge : Host.reduce IntOp.andi
        (cmpi .sge v (broadcastInDim (⟨1, ![e]⟩ : Shape) ![] hb (constantI ⟨0, ![]⟩ 32 0#32))) init₁ hr h0 j = 1#1)
    (hlt : Host.reduce IntOp.andi
        (cmpi .slt v (broadcastInDim (⟨1, ![e]⟩ : Shape) ![] hb (constantI ⟨0, ![]⟩ 32 30000#32))) init₂ hr h0 j = 1#1) :
    Cert.EdgeRow.InRange 30000 v := by
  intro i
  have h1 : IntOp.cmpi .sge (v i) 0#32 = 1#1 := Host.reduce_andi_all _ init₁ hr h0 j hge i
  have h2 : IntOp.cmpi .slt (v i) 30000#32 = 1#1 := Host.reduce_andi_all _ init₂ hr h0 j hlt i
  rw [IntOp.cmpi_sge] at h1
  rw [IntOp.cmpi_slt] at h2
  have z : (0#32 : BitVec 32).toInt = 0 := by decide
  have n : (30000#32 : BitVec 32).toInt = 30000 := by decide
  rw [z] at h1
  rw [n] at h2
  exact ⟨h1, by exact_mod_cast h2⟩

structure Decoded
    (a0 : FVec Ideal S30000x128 .f32) (a1 : FVec Ideal S480000x128 .f32) (a2 : FVec Ideal S500x300 .f32) (a3 : IVec S480000 32)
    (a4 : IVec S480000 32) (a5 : FVec Ideal S128x128 .f32) (a6 : FVec Ideal S128x128 .f32) (a7 : FVec Ideal S128x128 .f32)
    (a8 : FVec Ideal S128x128 .f32) (a9 : FVec Ideal S128x128 .f32) (a10 : FVec Ideal S128 .f32) (a11 : FVec Ideal S128x128 .f32)
    (a12 : FVec Ideal S128 .f32) (a13 : FVec Ideal S128 .f32) (a14 : FVec Ideal S128 .f32) (a15 : FVec Ideal S128 .f32)
    (a16 : FVec Ideal S128 .f32) (a17 : FVec Ideal S128x256 .f32) (a18 : FVec Ideal S256 .f32) (a19 : FVec Ideal S256x128 .f32)
    (a20 : FVec Ideal S128 .f32) (a21 : FVec Ideal S128x256 .f32) (a22 : FVec Ideal S256 .f32) (a23 : FVec Ideal S256x128 .f32)
    (a24 : FVec Ideal S128 .f32) (a25 : FVec Ideal S128 .f32) (a26 : FVec Ideal S128 .f32) (a27 : FVec Ideal S128 .f32)
    (a28 : FVec Ideal S128 .f32) (a29 : FVec Ideal S128x128 .f32) (a30 : FVec Ideal S300x128 .f32) (a31 : FVec Ideal S300x128 .f32)
    (a32 : FVec Ideal S128x128 .f32) (a33 : FVec Ideal S128 .f32) (a34 : FVec Ideal S128 .f32) (a35 : FVec Ideal S128 .f32)
    (a36 : FVec Ideal S128 .f32) (a37 : FVec Ideal S128x256 .f32) (a38 : FVec Ideal S256x128 .f32) : Prop where
  real_arg0 : ∀ i, ∃ r : ℝ, a0 i = (r : EReal)
  real_arg1 : ∀ i, ∃ r : ℝ, a1 i = (r : EReal)
  real_arg2 : ∀ i, ∃ r : ℝ, a2 i = (r : EReal)
  real_arg5 : ∀ i, ∃ r : ℝ, a5 i = (r : EReal)
  real_arg6 : ∀ i, ∃ r : ℝ, a6 i = (r : EReal)
  real_arg7 : ∀ i, ∃ r : ℝ, a7 i = (r : EReal)
  real_arg8 : ∀ i, ∃ r : ℝ, a8 i = (r : EReal)
  real_arg9 : ∀ i, ∃ r : ℝ, a9 i = (r : EReal)
  real_arg10 : ∀ i, ∃ r : ℝ, a10 i = (r : EReal)
  real_arg11 : ∀ i, ∃ r : ℝ, a11 i = (r : EReal)
  real_arg12 : ∀ i, ∃ r : ℝ, a12 i = (r : EReal)
  real_arg13 : ∀ i, ∃ r : ℝ, a13 i = (r : EReal)
  real_arg14 : ∀ i, ∃ r : ℝ, a14 i = (r : EReal)
  real_arg15 : ∀ i, ∃ r : ℝ, a15 i = (r : EReal)
  real_arg16 : ∀ i, ∃ r : ℝ, a16 i = (r : EReal)
  real_arg17 : ∀ i, ∃ r : ℝ, a17 i = (r : EReal)
  real_arg18 : ∀ i, ∃ r : ℝ, a18 i = (r : EReal)
  real_arg19 : ∀ i, ∃ r : ℝ, a19 i = (r : EReal)
  real_arg20 : ∀ i, ∃ r : ℝ, a20 i = (r : EReal)
  real_arg21 : ∀ i, ∃ r : ℝ, a21 i = (r : EReal)
  real_arg22 : ∀ i, ∃ r : ℝ, a22 i = (r : EReal)
  real_arg23 : ∀ i, ∃ r : ℝ, a23 i = (r : EReal)
  real_arg24 : ∀ i, ∃ r : ℝ, a24 i = (r : EReal)
  real_arg25 : ∀ i, ∃ r : ℝ, a25 i = (r : EReal)
  real_arg26 : ∀ i, ∃ r : ℝ, a26 i = (r : EReal)
  real_arg27 : ∀ i, ∃ r : ℝ, a27 i = (r : EReal)
  real_arg28 : ∀ i, ∃ r : ℝ, a28 i = (r : EReal)
  real_arg29 : ∀ i, ∃ r : ℝ, a29 i = (r : EReal)
  real_arg30 : ∀ i, ∃ r : ℝ, a30 i = (r : EReal)
  real_arg31 : ∀ i, ∃ r : ℝ, a31 i = (r : EReal)
  real_arg32 : ∀ i, ∃ r : ℝ, a32 i = (r : EReal)
  real_arg33 : ∀ i, ∃ r : ℝ, a33 i = (r : EReal)
  real_arg34 : ∀ i, ∃ r : ℝ, a34 i = (r : EReal)
  real_arg35 : ∀ i, ∃ r : ℝ, a35 i = (r : EReal)
  real_arg36 : ∀ i, ∃ r : ℝ, a36 i = (r : EReal)
  real_arg37 : ∀ i, ∃ r : ℝ, a37 i = (r : EReal)
  real_arg38 : ∀ i, ∃ r : ℝ, a38 i = (r : EReal)
  src_inRange : Cert.EdgeRow.InRange 30000 a3
  dst_inRange : Cert.EdgeRow.InRange 30000 a4

variable
  {a0 : FVec Ideal S30000x128 .f32} {a1 : FVec Ideal S480000x128 .f32} {a2 : FVec Ideal S500x300 .f32} {a3 : IVec S480000 32}
  {a4 : IVec S480000 32} {a5 : FVec Ideal S128x128 .f32} {a6 : FVec Ideal S128x128 .f32} {a7 : FVec Ideal S128x128 .f32}
  {a8 : FVec Ideal S128x128 .f32} {a9 : FVec Ideal S128x128 .f32} {a10 : FVec Ideal S128 .f32} {a11 : FVec Ideal S128x128 .f32}
  {a12 : FVec Ideal S128 .f32} {a13 : FVec Ideal S128 .f32} {a14 : FVec Ideal S128 .f32} {a15 : FVec Ideal S128 .f32}
  {a16 : FVec Ideal S128 .f32} {a17 : FVec Ideal S128x256 .f32} {a18 : FVec Ideal S256 .f32} {a19 : FVec Ideal S256x128 .f32}
  {a20 : FVec Ideal S128 .f32} {a21 : FVec Ideal S128x256 .f32} {a22 : FVec Ideal S256 .f32} {a23 : FVec Ideal S256x128 .f32}
  {a24 : FVec Ideal S128 .f32} {a25 : FVec Ideal S128 .f32} {a26 : FVec Ideal S128 .f32} {a27 : FVec Ideal S128 .f32}
  {a28 : FVec Ideal S128 .f32} {a29 : FVec Ideal S128x128 .f32} {a30 : FVec Ideal S300x128 .f32} {a31 : FVec Ideal S300x128 .f32}
  {a32 : FVec Ideal S128x128 .f32} {a33 : FVec Ideal S128 .f32} {a34 : FVec Ideal S128 .f32} {a35 : FVec Ideal S128 .f32}
  {a36 : FVec Ideal S128 .f32} {a37 : FVec Ideal S128x256 .f32} {a38 : FVec Ideal S256x128 .f32}

theorem decode (h : fn (F := Ideal) a0 a1 a2 a3 a4 a5 a6 a7 a8 a9 a10 a11 a12 a13 a14 a15 a16 a17 a18 a19 a20 a21 a22 a23 a24 a25 a26 a27 a28 a29 a30 a31 a32 a33 a34 a35 a36 a37 a38 = fun _ => 1#1) :
    Decoded a0 a1 a2 a3 a4 a5 a6 a7 a8 a9 a10 a11 a12 a13 a14 a15 a16 a17 a18 a19 a20 a21 a22 a23 a24 a25 a26 a27 a28 a29 a30 a31 a32 a33 a34 a35 a36 a37 a38 := by
  have h1 := congrFun h ValueIdx.ix0
  dsimp only [fn, fn_part1, fn_part2, fn_part3, fn_part4, fn_part5, fn_part6, fn_part7, fn_part8, fn_part9,
    fn_part10, fn_part11, andi] at h1
  simp only [IntOp.andi_eq_one, and_assoc] at h1
  obtain ⟨f0, f1, f2, f5, f6, f7, f8, f9, f10, f11, f12, f13, f14, f15, f16, f17, f18, f19, f20, f21, f22, f23, f24, f25, f26, f27, f28, f29, f30, f31, f32, f33, f34, f35, f36, f37, f38, s0, s1, d0, d1⟩ := h1
  exact ⟨
    real_of_all_finite _ _ _ a0 _ _ f0, real_of_all_finite _ _ _ a1 _ _ f1, real_of_all_finite _ _ _ a2 _ _ f2,
    real_of_all_finite _ _ _ a5 _ _ f5, real_of_all_finite _ _ _ a6 _ _ f6, real_of_all_finite _ _ _ a7 _ _ f7,
    real_of_all_finite _ _ _ a8 _ _ f8, real_of_all_finite _ _ _ a9 _ _ f9, real_of_all_finite _ _ _ a10 _ _ f10,
    real_of_all_finite _ _ _ a11 _ _ f11, real_of_all_finite _ _ _ a12 _ _ f12, real_of_all_finite _ _ _ a13 _ _ f13,
    real_of_all_finite _ _ _ a14 _ _ f14, real_of_all_finite _ _ _ a15 _ _ f15, real_of_all_finite _ _ _ a16 _ _ f16,
    real_of_all_finite _ _ _ a17 _ _ f17, real_of_all_finite _ _ _ a18 _ _ f18, real_of_all_finite _ _ _ a19 _ _ f19,
    real_of_all_finite _ _ _ a20 _ _ f20, real_of_all_finite _ _ _ a21 _ _ f21, real_of_all_finite _ _ _ a22 _ _ f22,
    real_of_all_finite _ _ _ a23 _ _ f23, real_of_all_finite _ _ _ a24 _ _ f24, real_of_all_finite _ _ _ a25 _ _ f25,
    real_of_all_finite _ _ _ a26 _ _ f26, real_of_all_finite _ _ _ a27 _ _ f27, real_of_all_finite _ _ _ a28 _ _ f28,
    real_of_all_finite _ _ _ a29 _ _ f29, real_of_all_finite _ _ _ a30 _ _ f30, real_of_all_finite _ _ _ a31 _ _ f31,
    real_of_all_finite _ _ _ a32 _ _ f32, real_of_all_finite _ _ _ a33 _ _ f33, real_of_all_finite _ _ _ a34 _ _ f34,
    real_of_all_finite _ _ _ a35 _ _ f35, real_of_all_finite _ _ _ a36 _ _ f36, real_of_all_finite _ _ _ a37 _ _ f37,
    real_of_all_finite _ _ _ a38 _ _ f38,
    inRange_of_all _ _ _ a3 _ _ _ s0 s1, inRange_of_all _ _ _ a4 _ _ _ d0 d1⟩

end Cert.PreFacts

end
-- ==== Proof.Val.KeptAt.lean ====
-- A host stretch keeps every buffer it does not write, a region every array not behind an output window: what the boundaries W1 … W12 keep.
import proofs.«406977_j9723805958288_1_alg».proof.Proof.KI.Run
import proofs.«406977_j9723805958288_1_alg».proof.Proof.LibStraightLine

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Cert.LibStraightLine

variable {F : FTy → Type} [FloatOps F]

abbrev refs_concat : List (Ref sig .tc) := [
    main_v0 ]

abbrev refs_slices : List (Ref sig .tc) := [
    main_v2, main_v3, main_v4 ]

abbrev refs_gatherK : List (Ref sig .tc) := [
    main_call0_c, main_call0_v0, main_call0_v1, main_call0_c_0, main_call0_v2, main_call0_v3, main_call0_v4, main_call0_v5,
    main_call0_c_1, main_call0_c_2, main_call0_v6, main_call0_v7, main_call0_v8, main_call0_v9, main_call0_v10, main_call0_v11,
    main_call0_c_3, main_call0_v12, main_call0_v13, main_call0_v14, main_call0_cst, main_call0_v15, main_v5 ]

abbrev refs_gatherQ : List (Ref sig .tc) := [
    main_call1_c, main_call1_v0, main_call1_v1, main_call1_c_0, main_call1_v2, main_call1_v3, main_call1_v4, main_call1_v5,
    main_call1_c_1, main_call1_c_2, main_call1_v6, main_call1_v7, main_call1_v8, main_call1_v9, main_call1_v10, main_call1_v11,
    main_call1_c_3, main_call1_v12, main_call1_v13, main_call1_v14, main_call1_cst, main_call1_v15, main_v6 ]

abbrev refs_gatherV : List (Ref sig .tc) := [
    main_call2_c, main_call2_v0, main_call2_v1, main_call2_c_0, main_call2_v2, main_call2_v3, main_call2_v4, main_call2_v5,
    main_call2_c_1, main_call2_c_2, main_call2_v6, main_call2_v7, main_call2_v8, main_call2_v9, main_call2_v10, main_call2_v11,
    main_call2_c_3, main_call2_v12, main_call2_v13, main_call2_v14, main_call2_cst, main_call2_v15, main_v7 ]

abbrev refs_tail0 : List (Ref sig .tc) := [
    main_cst, main_v9, main_v10, main_v11, main_cst_0, main_v12, main_v13, main_v14,
    main_v15, main_v16, main_cst_1, main_v17, main_v18, main_v19, main_v20, main_v21,
    main_v22, main_v23, main_v24, main_cst_2, main_v25, main_v26, main_cst_3, main_v27,
    main_v28, main_v29, main_v30, main_v31, main_cst_4, main_v32, main_v33, main_cst_5,
    main_v34, main_v35, main_v36, main_v37, main_cst_6, main_v38, main_v39, main_v40,
    main_v41, main_v42, main_v43, main_v44, main_v45, main_v46, main_v47, main_v48,
    main_v49, main_v50, main_v51, main_v52 ]

abbrev refs_tail1 : List (Ref sig .tc) := [
    main_call3_cst, main_call3_v0, main_v53 ]

abbrev refs_tail2 : List (Ref sig .tc) := [
    main_v54, main_v55, main_v56, main_v57, main_v58, main_cst_7, main_v59, main_v60,
    main_cst_8, main_v61, main_v62, main_v63, main_v64, main_v65, main_cst_9, main_v66,
    main_v67, main_cst_10, main_v68, main_v69, main_v70, main_v71, main_cst_11, main_v72,
    main_v73, main_v74, main_v75, main_v76, main_v77, main_v78, main_v79, main_v80,
    main_v81, main_v82, main_v83, main_v84, main_v85, main_v86, main_v87, main_cst_12,
    main_v88, main_v89, main_cst_13, main_v90, main_cst_14, main_v91, main_v92, main_v93,
    main_v94, main_v95, main_v96, main_cst_15, main_v97, main_v98, main_v99, main_v100,
    main_v101, main_v102, main_v103, main_cst_16, main_v104, main_v105, main_cst_17, main_v106,
    main_v107, main_v108, main_v109, main_v110, main_cst_18, main_v111, main_v112, main_cst_19,
    main_v113, main_v114, main_v115, main_v116, main_cst_20, main_v117, main_v118, main_v119,
    main_v120, main_v121, main_v122, main_v123, main_v124, main_v125, main_v126, main_v127,
    main_v128 ]

abbrev refs_tail3 : List (Ref sig .tc) := [
    main_call4_cst, main_call4_v0, main_v129 ]

abbrev refs_tail4 : List (Ref sig .tc) := [
    main_v130, main_v131, main_cst_21, main_v132, main_v133, main_cst_22, main_v134, main_v135,
    main_v136, main_v137, main_v138, main_cst_23, main_v139, main_v140, main_cst_24, main_v141,
    main_v142, main_v143, main_v144, main_cst_25, main_v145, main_v146, main_v147, main_v148,
    main_v149, main_v150, main_v151, main_v152, main_v153, main_v154, main_v155, main_v156 ]

theorem writes_concat : Writes (hostOps0 : List (HloOp τ sig (Elt F))) refs_concat := by
  repeat (first | exact Writes.nil | refine Writes.cons rfl ?_)
theorem writes_slices : Writes (hostOps1 : List (HloOp τ sig (Elt F))) refs_slices := by
  repeat (first | exact Writes.nil | refine Writes.cons rfl ?_)
theorem writes_gatherK : Writes (hostOps1_1 : List (HloOp τ sig (Elt F))) refs_gatherK := by
  repeat (first | exact Writes.nil | refine Writes.cons rfl ?_)
theorem writes_gatherQ : Writes (hostOps1_2 : List (HloOp τ sig (Elt F))) refs_gatherQ := by
  repeat (first | exact Writes.nil | refine Writes.cons rfl ?_)
theorem writes_gatherV : Writes (hostOps1_3 : List (HloOp τ sig (Elt F))) refs_gatherV := by
  repeat (first | exact Writes.nil | refine Writes.cons rfl ?_)
theorem writes_tail0 : Writes (hostOps2 : List (HloOp τ sig (Elt F))) refs_tail0 := by
  repeat (first | exact Writes.nil | refine Writes.cons rfl ?_)
theorem writes_tail1 : Writes (hostOps2_1 : List (HloOp τ sig (Elt F))) refs_tail1 := by
  repeat (first | exact Writes.nil | refine Writes.cons rfl ?_)
theorem writes_tail2 : Writes (hostOps2_2 : List (HloOp τ sig (Elt F))) refs_tail2 := by
  repeat (first | exact Writes.nil | refine Writes.cons rfl ?_)
theorem writes_tail3 : Writes (hostOps2_3 : List (HloOp τ sig (Elt F))) refs_tail3 := by
  repeat (first | exact Writes.nil | refine Writes.cons rfl ?_)
theorem writes_tail4 : Writes (hostOps2_4 : List (HloOp τ sig (Elt F))) refs_tail4 := by
  repeat (first | exact Writes.nil | refine Writes.cons rfl ?_)

abbrev IsArg (r : Ref sig .tc) : Prop := r.space = Space.hbm ∧ r.idx.val < 39

abbrev OffArgs (wr : List (Ref sig .tc)) : Prop := ∀ y ∈ wr, y.space = Space.hbm → 39 ≤ y.idx.val

theorem not_mem_of_isArg {wr : List (Ref sig .tc)} (hwr : OffArgs wr) {r : Ref sig .tc} (hr : IsArg r) : r ∉ wr :=
  fun h => absurd (hwr r h hr.1) (Nat.not_le.mpr hr.2)

theorem refs_concat_off_args : OffArgs refs_concat := by decide
theorem refs_slices_off_args : OffArgs refs_slices := by decide
theorem refs_gatherK_off_args : OffArgs refs_gatherK := by decide
theorem refs_gatherQ_off_args : OffArgs refs_gatherQ := by decide
theorem refs_gatherV_off_args : OffArgs refs_gatherV := by decide
theorem refs_tail0_off_args : OffArgs refs_tail0 := by decide
theorem refs_tail1_off_args : OffArgs refs_tail1 := by decide
theorem stretch_keeps_arg {l : List (HloOp τ sig (Elt F))} {wr : List (Ref sig .tc)} (h : Writes l wr) (hwr : OffArgs wr)
    (V : Valuation τ sig (Elt F)) {r : Ref sig .tc} (hr : IsArg r) :
    StableHlo.after l V (Proc.devRef .tc r) = V (Proc.devRef .tc r) :=
  h.kept V (not_mem_of_isArg hwr hr)

variable (m : (ℓ : Loc nD τ sig) → Buf (Elt F) ℓ) (ρ : Dev nD → PrngReg)

theorem W2_keeps (c : Dev nD) (r : Ref sig .tc) (hr : ∀ w, Pipeline.arrRef spec0 w = r → (cfg0.win w).isOut = false) :
    W2 m ρ c (Proc.devRef .tc r) = W1 m ρ c (Proc.devRef .tc r) := by
  by_cases h : ∃ w, Pipeline.arrRef spec0 w = r
  · obtain ⟨w, rfl⟩ := h
    exact (W2_arr m ρ c w).trans (((dat0 (V1 m ρ) c).arrAt_in w (hr w rfl) _).trans (A_eq0 (V1 m ρ) c w))
  · exact W2_of_ne m ρ c r fun w e => h ⟨w, e⟩

theorem W7_keeps (c : Dev nD) (r : Ref sig .tc) (hr : ∀ w, Pipeline.arrRef spec1 w = r → (cfg1.win w).isOut = false) :
    W7 m ρ c (Proc.devRef .tc r) = W6 m ρ c (Proc.devRef .tc r) := by
  by_cases h : ∃ w, Pipeline.arrRef spec1 w = r
  · obtain ⟨w, rfl⟩ := h
    exact (W7_arr m ρ c w).trans (((dat1 (V6 m ρ) c).arrAt_in w (hr w rfl) _).trans (A_eq1 (V6 m ρ) c w))
  · exact W7_of_ne m ρ c r fun w e => h ⟨w, e⟩

theorem proj_outputs_off_args : ∀ w : Fin cfg0.W, (cfg0.win w).isOut = true → ¬ IsArg (Pipeline.arrRef spec0 w) := by decide
theorem edge_outputs_off_args : ∀ w : Fin cfg1.W, (cfg1.win w).isOut = true → ¬ IsArg (Pipeline.arrRef spec1 w) := by decide

section Arguments
variable (c : Dev nD) {r : Ref sig .tc} (hr : IsArg r)
include hr

theorem W1_arg : W1 m ρ c (Proc.devRef .tc r) = m ((c : Thread nD τ).loc r) :=
  stretch_keeps_arg writes_concat refs_concat_off_args _ hr
theorem W2_arg : W2 m ρ c (Proc.devRef .tc r) = m ((c : Thread nD τ).loc r) :=
  (W2_keeps m ρ c r fun w e => by
    cases hw : (cfg0.win w).isOut
    · rfl
    · exact absurd (e ▸ hr) (proj_outputs_off_args w hw)).trans (W1_arg m ρ c hr)
theorem W3_arg : W3 m ρ c (Proc.devRef .tc r) = m ((c : Thread nD τ).loc r) :=
  (stretch_keeps_arg writes_slices refs_slices_off_args _ hr).trans (W2_arg m ρ c hr)
theorem W4_arg : W4 m ρ c (Proc.devRef .tc r) = m ((c : Thread nD τ).loc r) :=
  (stretch_keeps_arg writes_gatherK refs_gatherK_off_args _ hr).trans (W3_arg m ρ c hr)
theorem W5_arg : W5 m ρ c (Proc.devRef .tc r) = m ((c : Thread nD τ).loc r) :=
  (stretch_keeps_arg writes_gatherQ refs_gatherQ_off_args _ hr).trans (W4_arg m ρ c hr)
theorem W6_arg : W6 m ρ c (Proc.devRef .tc r) = m ((c : Thread nD τ).loc r) :=
  (stretch_keeps_arg writes_gatherV refs_gatherV_off_args _ hr).trans (W5_arg m ρ c hr)
theorem W7_arg : W7 m ρ c (Proc.devRef .tc r) = m ((c : Thread nD τ).loc r) :=
  (W7_keeps m ρ c r fun w e => by
    cases hw : (cfg1.win w).isOut
    · rfl
    · exact absurd (e ▸ hr) (edge_outputs_off_args w hw)).trans (W6_arg m ρ c hr)
theorem W8_arg : W8 m ρ c (Proc.devRef .tc r) = m ((c : Thread nD τ).loc r) :=
  (stretch_keeps_arg writes_tail0 refs_tail0_off_args _ hr).trans (W7_arg m ρ c hr)
theorem W9_arg : W9 m ρ c (Proc.devRef .tc r) = m ((c : Thread nD τ).loc r) :=
  (stretch_keeps_arg writes_tail1 refs_tail1_off_args _ hr).trans (W8_arg m ρ c hr)
end Arguments

theorem W12_main_v8_2 (c : Dev nD) : W12 m ρ c (Proc.devRef .tc main_v8_2) = W7 m ρ c (Proc.devRef .tc main_v8_2) :=
  (writes_tail4.kept _ (by decide)).trans <| (writes_tail3.kept _ (by decide)).trans <|
    (writes_tail2.kept _ (by decide)).trans <| (writes_tail1.kept _ (by decide)).trans (writes_tail0.kept _ (by decide))

end Cert.KernelIdeal.Hand

end
-- ==== Proof.Val.Region0Value.lean ====
-- After its ten blocks the node projection's array holds ∑ k, X (r, k) · W (k, j) at every (r, j).
import proofs.«406977_j9723805958288_1_alg».proof.Proof.KI.Region0
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix2 eq_ix2 idx2_lt0 idx2_lt1)

theorem zeroOffsets : (![0, 0] : Fin 2 → Nat) = fun _ => 0 :=
  funext fun a => match a with | ⟨0, _⟩ => rfl | ⟨1, _⟩ => rfl

theorem lhs_row (y : S3000x384.Idx) (q : dot_S3000x128_S128x384_S3000x384_1_0_0_1_n_n.contr.Idx) :
    (dot_S3000x128_S128x384_S3000x384_1_0_0_1_n_n.lhsIdx y q 0).val = (y 0).val := by
  unfold DotDims.lhsIdx
  rw [dif_neg (show ¬(0 : Fin S3000x128.rank) ∈ dot_S3000x128_S128x384_S3000x384_1_0_0_1_n_n.lhsBatch by decide),
    dif_pos (show (0 : Fin S3000x128.rank) ∈ dot_S3000x128_S128x384_S3000x384_1_0_0_1_n_n.lhsNonContracting by decide)]
  rfl

theorem lhs_contr (y : S3000x384.Idx) (q : dot_S3000x128_S128x384_S3000x384_1_0_0_1_n_n.contr.Idx) :
    (dot_S3000x128_S128x384_S3000x384_1_0_0_1_n_n.lhsIdx y q 1).val = (q ⟨0, by decide⟩).val :=
  dot_S3000x128_S128x384_S3000x384_1_0_0_1_n_n.lhsIdx_val_of_single rfl y q

theorem rhs_contr (y : S3000x384.Idx) (q : dot_S3000x128_S128x384_S3000x384_1_0_0_1_n_n.contr.Idx) :
    (dot_S3000x128_S128x384_S3000x384_1_0_0_1_n_n.rhsIdx y q 0).val = (q ⟨0, by decide⟩).val :=
  dot_S3000x128_S128x384_S3000x384_1_0_0_1_n_n.rhsIdx_val_of_single rfl y q

theorem rhs_col (y : S3000x384.Idx) (q : dot_S3000x128_S128x384_S3000x384_1_0_0_1_n_n.contr.Idx) :
    (dot_S3000x128_S128x384_S3000x384_1_0_0_1_n_n.rhsIdx y q 1).val = (y 1).val := by
  unfold DotDims.rhsIdx
  rw [dif_neg (show ¬(1 : Fin S128x384.rank) ∈ dot_S3000x128_S128x384_S3000x384_1_0_0_1_n_n.rhsBatch by decide),
    dif_pos (show (1 : Fin S128x384.rank) ∈ dot_S3000x128_S128x384_S3000x384_1_0_0_1_n_n.rhsNonContracting by decide)]
  rfl

abbrev featAt (y : S3000x384.Idx) (k : Fin 128) : S3000x128.Idx := ix2 (⟨(y 0).val, idx2_lt0 y⟩ : Fin 3000) k
abbrev weightAt (y : S3000x384.Idx) (k : Fin 128) : S128x384.Idx := ix2 k (⟨(y 1).val, idx2_lt1 y⟩ : Fin 384)

theorem pay_apply (x0 : Vec Ideal S3000x128 .f32) (x1 : Vec Ideal S128x384 .f32) (y : S3000x384.Idx) :
    k0_pay1 (F := Ideal) x0 x1 y = ∑ k : Fin 128, (x0 (featAt y k) : EReal) * (x1 (weightAt y k) : EReal) := by
  unfold k0_pay1
  refine (Ideal.matmul_constant_zero_apply dot_S3000x128_S128x384_S3000x384_1_0_0_1_n_n none _ _ y).trans ?_
  rw [← Equiv.sum_comp (ValueIdx.contrEquiv1 dot_S3000x128_S128x384_S3000x384_1_0_0_1_n_n 128 rfl rfl).symm]
  refine Finset.sum_congr rfl fun k _ => ?_
  have hk := ValueIdx.contrEquiv1_symm_val dot_S3000x128_S128x384_S3000x384_1_0_0_1_n_n 128 rfl rfl k
  have el : dot_S3000x128_S128x384_S3000x384_1_0_0_1_n_n.lhsIdx y ((ValueIdx.contrEquiv1 dot_S3000x128_S128x384_S3000x384_1_0_0_1_n_n 128 rfl rfl).symm k) = featAt y k :=
    funext fun a => Fin.ext (by
      match a with
      | ⟨0, _⟩ => exact lhs_row _ _
      | ⟨1, _⟩ => exact (lhs_contr _ _).trans hk)
  have er : dot_S3000x128_S128x384_S3000x384_1_0_0_1_n_n.rhsIdx y ((ValueIdx.contrEquiv1 dot_S3000x128_S128x384_S3000x384_1_0_0_1_n_n 128 rfl rfl).symm k) = weightAt y k :=
    funext fun a => Fin.ext (by
      match a with
      | ⟨0, _⟩ => exact (rhs_contr _ _).trans hk
      | ⟨1, _⟩ => exact rhs_col _ _)
  rw [el, er]
  show (x0 (featAt y k) : EReal) * (shapeCast S128x384 x1 shapeCasts_S128x384_S128x384 (weightAt y k) : EReal) = _
  rw [shapeCast_self]

def nodeProj (X : Vec Ideal S30000x128 .f32) (W : Vec Ideal S128x384 .f32) : Vec Ideal S30000x384 .f32 :=
  fun i => ∑ k : Fin 128, (X (ix2 (⟨(i 0).val, idx2_lt0 i⟩ : Fin 30000) k) : EReal) * (W (ix2 k (⟨(i 1).val, idx2_lt1 i⟩ : Fin 384)) : EReal)

theorem pay_eq_nodeProj (x0 : Vec Ideal S3000x128 .f32) (x1 : Vec Ideal S128x384 .f32)
    (X : Vec Ideal S30000x128 .f32) (W : Vec Ideal S128x384 .f32) (n : Nat)
    (hx0 : ∀ (x : S3000x128.Idx) (i : S30000x128.Idx), (i 0).val = 3000 * n + (x 0).val → (i 1).val = (x 1).val → x0 x = X i)
    (hx1 : x1 = W) (y : S3000x384.Idx) (i : S30000x384.Idx)
    (hi0 : (i 0).val = 3000 * n + (y 0).val) (hi1 : (i 1).val = (y 1).val) :
    k0_pay1 (F := Ideal) x0 x1 y = nodeProj X W i := by
  subst hx1
  rw [pay_apply]
  unfold nodeProj
  refine Finset.sum_congr rfl fun k _ => ?_
  rw [hx0 (featAt y k) (ix2 (⟨(i 0).val, idx2_lt0 i⟩ : Fin 30000) k) hi0 rfl]
  have hcol : (⟨(y 1).val, idx2_lt1 y⟩ : Fin 384) = ⟨(i 1).val, idx2_lt1 i⟩ := Fin.ext hi1.symm
  show _ * (x1 (ix2 k (⟨(y 1).val, idx2_lt1 y⟩ : Fin 384)) : EReal) = _
  rw [hcol]

variable (V : (c : Dev nD) → (b : Ref sig .tc) → Buf (Elt Ideal) ((c : Thread nD τ).loc b))

theorem blockIndex_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem featBlk_apply (c : Dev nD) (t : Fin cfg0.N) (x : S3000x128.Idx) (i : S30000x128.Idx)
    (h0 : (i 0).val = 3000 * t.val + (x 0).val) (h1 : (i 1).val = (x 1).val) :
    (iblk0 V c 0 t : Vec Ideal S3000x128 .f32) x = (V c (Pipeline.arrRef spec0 0) : Vec Ideal S30000x128 .f32) i := by
  obtain ⟨e00, e01, -⟩ := blockIndex_facts t
  unfold iblk0
  show V c (Pipeline.arrRef spec0 0) (((cfg0.win 0).blk t).view.emb x) = V c (Pipeline.arrRef spec0 0) i
  refine congrArg _ (funext fun a => Fin.ext ?_)
  match a with
  | ⟨0, _⟩ => show win0_0.index t (0 : Fin 2) * 3000 + 1 * (x 0).val = (i 0).val; rw [e00, h0]; omega
  | ⟨1, _⟩ => show win0_0.index t (1 : Fin 2) * 128 + 1 * (x 1).val = (i 1).val; rw [e01, h1]; omega

theorem weightBlk_eq (c : Dev nD) (t : Fin cfg0.N) :
    (iblk0 V c 1 t : Vec Ideal S128x384 .f32) = (V c (Pipeline.arrRef spec0 1) : Vec Ideal S128x384 .f32) := by
  obtain ⟨-, -, e10, e11, -⟩ := blockIndex_facts t
  unfold iblk0
  funext x
  show V c (Pipeline.arrRef spec0 1) (((cfg0.win 1).blk t).view.emb x) = V c (Pipeline.arrRef spec0 1) x
  refine congrArg _ (funext fun a => Fin.ext ?_)
  match a with
  | ⟨0, _⟩ => show win0_1.index t (0 : Fin 2) * 128 + 1 * (x 0).val = (x 0).val; rw [e10]; omega
  | ⟨1, _⟩ => show win0_1.index t (1 : Fin 2) * 384 + 1 * (x 1).val = (x 1).val; rw [e11]; omega

theorem flushed_eq (c : Dev nD) (t : Fin cfg0.N) :
    (dat0 (F := Ideal) V c).flushed 2 t
      = ((cfg0.win 2).blk t).view.read (Elt Ideal) (nodeProj (V c (Pipeline.arrRef spec0 0)) (V c (Pipeline.arrRef spec0 1))) := by
  obtain ⟨-, -, -, -, e20, e21⟩ := blockIndex_facts t
  show (cfg0.win 2).cut (grid0.coords t) ((dat0 V c).after 2 t) = _
  rw [after0_2]
  unfold out0_2
  rw [View.canon_unit_zero zeroOffsets]
  simp only [View.ld_unit_zero (S := S3000x128) zeroOffsets, View.ld_unit_zero (S := S128x384) zeroOffsets]
  funext y
  exact pay_eq_nodeProj (iblk0 V c 0 t) (iblk0 V c 1 t) (V c (Pipeline.arrRef spec0 0)) (V c (Pipeline.arrRef spec0 1)) t.val
    (fun x i h0 h1 => featBlk_apply V c t x i h0 h1) (weightBlk_eq V c t) y (((cfg0.win 2).blk t).view.emb y)
    (by show win0_2.index t (0 : Fin 2) * 3000 + 1 * (y 0).val = 3000 * t.val + (y 0).val; rw [e20]; omega)
    (by show win0_2.index t (1 : Fin 2) * 384 + 1 * (y 1).val = (y 1).val; rw [e21]; omega)

theorem covered (c : Dev nD) (i : S30000x384.Idx) :
    ∃ t : Fin cfg0.N, (cfg0.win 2).flush t = true ∧ i ∈ ((cfg0.win 2).blk t).view.set := by
  have hi0 : (i 0).val < 30000 := idx2_lt0 i
  have hi1 : (i 1).val < 384 := idx2_lt1 i
  have hN : cfg0.N = 10 := N_0
  obtain ⟨t, ht⟩ : ∃ t : Fin cfg0.N, t.val = (i 0).val / 3000 := ⟨⟨(i 0).val / 3000, by rw [hN]; omega⟩, rfl⟩
  obtain ⟨-, -, -, -, e20, e21⟩ := blockIndex_facts t
  refine ⟨t, flush0_2 t, ?_⟩
  show i ∈ ((View.whole main_v1).slice (win0_2.rect t)).set
  rw [View.set_slice_whole, Rect.mem_set_unit]
  intro a
  match a with
  | ⟨0, _⟩ =>
    show win0_2.index t (0 : Fin 2) * 3000 ≤ (i 0).val ∧ (i 0).val < win0_2.index t (0 : Fin 2) * 3000 + 3000
    rw [e20, ht]; omega
  | ⟨1, _⟩ =>
    show win0_2.index t (1 : Fin 2) * 384 ≤ (i 1).val ∧ (i 1).val < win0_2.index t (1 : Fin 2) * 384 + 384
    rw [e21]; omega

abbrev featArr (c : Dev nD) : S30000x128.Idx → EReal := V c (Pipeline.arrRef spec0 0)
abbrev weightArr (c : Dev nD) : S128x384.Idx → EReal := V c (Pipeline.arrRef spec0 1)

theorem proj_array (c : Dev nD) :
    (dat0 (F := Ideal) V c).arrAt 2 cfg0.N = nodeProj (featArr V c) (weightArr V c) :=
  (dat0 (F := Ideal) V c).arrAt_eq_of_cover 2 _ (fun t _ => flushed_eq V c t) (covered c)

theorem region0_value (c : Dev nD) (r : Fin 30000) (j : Fin 384) :
    @Eq EReal ((dat0 (F := Ideal) V c).arrAt 2 cfg0.N (ix2 r j))
      (∑ k : Fin 128, featArr V c (ix2 r k) * weightArr V c (ix2 k j)) :=
  congrFun (proj_array V c) (ix2 r j)

end Cert.KernelIdeal.HandValue

end
-- ==== Proof.Val.Gathers.lean ====
-- A guarded row take whose indices all lie in [0, 30000) reads row index(e) of its table; the three slices and three takes between the regions.
import proofs.«406977_j9723805958288_1_alg».proof.Proof.Gen.KernelIdeal.Launch
import proofs.«406977_j9723805958288_1_alg».proof.Proof.LibStraightLine
import proofs.«406977_j9723805958288_1_alg».proof.Proof.Val.EdgeRow
import Idealize.ShloMosaic.PureOps.Reduce
import Idealize.ShloMosaic.Lib.ValueIdx
import Idealize.ShloMosaic.Lib.StableHlo.Run
import Idealize.ShloMosaic.Lib.Pipeline.Value

noncomputable section

namespace Cert.KernelIdeal.HandValue

open Idealize.ShloMosaic Idealize.ShloMosaic.ValueIdx Idealize.ShloMosaic.StableHlo
open Cert.KernelIdeal Cert.KernelIdeal.Gen Cert.LibStraightLine Cert.EdgeRow
open scoped BigOperators

theorem getElem_of_eq_singleton {β : Type} (l : List β) (b : β) (hl : l = [b]) (k : Nat) (hk : k < l.length) :
    l[k] = b := by
  subst hl
  have h0 : k = 0 := by simpa using hk
  subst h0; rfl

theorem one_not_mem_zero : (1 : Fin 2) ∉ [(0 : Fin 2)] := by decide

theorem fin2_cases {P : Fin 2 → Prop} (h0 : P 0) (h1 : P 1) (a : Fin 2) : P a := by
  rcases a with ⟨v, hv⟩
  match v, hv with
  | 0, _ => exact h0
  | 1, _ => exact h1

theorem gather_rows_apply {α : Type} {N C n w : Nat}
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p 0)).toInt.toNat (N - 1), by omega⟩ q) := by
  unfold Host.gather
  congr 1
  funext a
  apply Fin.ext
  have hb : ∀ a : Fin 2, a ∉ d.operandBatchingDims := fun a => by rw [hob]; exact List.not_mem_nil
  revert a
  refine fin2_cases ?_ ?_
  ·
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    simp only [GatherDims.operandIdx, GatherDims.batchCoord_eq_zero _ _ _ (hb 0), GatherDims.offCoord_eq_zero _ _ _ hk,
      Nat.add_zero, GatherDims.start, dif_pos hm]
    show min (idx _).toInt.toNat (N - d.sliceSizes 0) = min (idx (ix2 p 0)).toInt.toNat (N - 1)
    rw [hsl]
    congr 3
    congr 1
    funext b
    revert b
    refine fin2_cases ?_ ?_
    ·
      unfold GatherDims.siIdx
      rw [dif_neg (by rw [hivd]; exact Nat.zero_ne_one)]
      unfold GatherDims.siCoord
      apply Fin.ext
      simp only [Fin.val_cast]
      have hX : d.batchDims[List.idxOf (0 : Fin 2) d.siKept]'(by
            have hp : List.idxOf (0 : Fin 2) d.siKept < d.siKept.length :=
              List.idxOf_lt_length_iff.2 (List.mem_filter.2 ⟨List.mem_finRange _, by rw [hivd]; simp⟩)
            rw [d.batch_length]; exact hp) = (0 : Fin 2) :=
        getElem_of_eq_singleton _ 0 (by show Shape.kept _ d.offsetDims = [0]; rw [hoff]; rfl) _ _
      exact (congrArg (fun a => (ix2 p q a).val) hX).trans rfl
    ·
      unfold GatherDims.siIdx
      rw [dif_pos (by rw [hivd]; rfl)]
      apply Fin.ext
      show List.idxOf (0 : Fin 2) d.startIndexMap = 0
      rw [hsim]; simp
  ·
    have hk : (1 : Fin 2) ∈ d.sKept := by rw [GatherDims.mem_sKept, hcoll]; exact ⟨one_not_mem_zero, hb 1⟩
    have hm : (1 : Fin 2) ∉ d.startIndexMap := by rw [hsim]; exact one_not_mem_zero
    simp only [GatherDims.operandIdx, GatherDims.batchCoord_eq_zero _ _ _ (hb 1), GatherDims.start, dif_neg hm,
      Nat.zero_add, Nat.add_zero]
    unfold GatherDims.offCoord
    rw [dif_pos hk]
    have hY : d.offsetDims[List.idxOf (1 : Fin 2) d.sKept]'(by
          rw [d.offset_length]; exact List.idxOf_lt_length_iff.2 hk) = (1 : Fin 2) :=
      getElem_of_eq_singleton _ 1 hoff _ _
    exact (congrArg (fun a => (ix2 p q a).val) hY).trans rfl

theorem bcast_rows_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  have ha : a = 0 := Subsingleton.elim _ _
  subst ha
  apply Fin.ext
  have hp := p.isLt
  split
  · next h1 => change n = 1 at h1; show (0 : Nat) = p.val; omega
  · rfl

theorem reduce_andi_ones {s t u : Shape} {axes : List (Fin s.rank)} (x : IVec s 1) (init : IVec u 1)
    (h : s.ReducesTo axes t) (hu : 0 < u.numel) (hx : ∀ i, x i = 1#1) (hi : ∀ i, init i = 1#1) (j : t.Idx) :
    Host.reduce IntOp.andi x init h hu j = 1#1 := by
  rw [Host.reduce_eq_foldl, hi]
  generalize List.filter (fun i => decide (h.drop i = j)) (List.map (⇑s.rowMajor.symm) (List.finRange s.numel)) = L
  induction L with
  | nil => rfl
  | cons a L ih => rw [List.foldl_cons, hx]; exact ih

theorem toInt_zero32 : (0#32 : BitVec 32).toInt = 0 := by decide

theorem slt_zero_of_nonneg {i : BitVec 32} (h0 : 0 ≤ i.toInt) : IntOp.cmpi .slt i 0#32 = 0#1 := by
  simp only [IntOp.cmpi, BitVec.slt, toInt_zero32]
  rw [decide_eq_false (by omega)]; rfl

theorem sge_zero_of_nonneg {i : BitVec 32} (h0 : 0 ≤ i.toInt) : IntOp.cmpi .sge i 0#32 = 1#1 := by
  simp only [IntOp.cmpi, BitVec.sle, toInt_zero32]
  rw [decide_eq_true (by omega)]; rfl

theorem sle_last_of_lt {i : BitVec 32} (h1 : i.toInt < 30000) : IntOp.cmpi .sle i 29999#32 = 1#1 := by
  have e : (29999#32 : BitVec 32).toInt = 29999 := by decide
  simp only [IntOp.cmpi, BitVec.sle, e]
  rw [decide_eq_true (by omega)]; rfl

def wrapIdx (i : IVec S480000 32) : IVec S480000 32 :=
  select (cmpi .slt i (broadcastInDim S480000 ![] bcast_S_S480000 (constantI S_ 32 0#32)))
    (addi i (broadcastInDim S480000 ![] bcast_S_S480000 (constantI S_ 32 30000#32))) i

def idxCol (i : IVec S480000 32) : IVec S480000x1 32 :=
  broadcastInDim S480000x1 ![0] bcast_S480000_S480000x1_0 (wrapIdx i)

def inTable (i : IVec S480000 32) : IVec S480000 1 :=
  Host.reduce IntOp.andi
    (andi (cmpi .sge (idxCol i) (broadcastInDim S480000x1 ![] bcast_S_S480000x1 (constantI S_ 32 0#32)))
      (cmpi .sle (idxCol i) (broadcastInDim S480000x1 ![0, 1] bcast_S1x1_S480000x1_0_1
        (broadcastInDim S1x1 ![1] bcast_S1_S1x1_1 (constantI S1 32 29999#32)))))
    (constantI S_ 1 1#1) reducesTo_S480000x1_S480000_d1 h_S_

def takeOf (x : FVec Ideal S30000x128 .f32) (i : IVec S480000 32) : FVec Ideal S480000x128 .f32 :=
  select (broadcastInDim S480000x128 ![0] bcast_S480000_S480000x128_0 (inTable i))
    (Host.gather gather_S30000x128_S480000x1_S480000x128_1_0_n_n_0_1_1128 x (idxCol i))
    (broadcastInDim S480000x128 ![] bcast_S_S480000x128 (constant (F := Ideal) S_ .f32 0x7FC00000#32))

section InRange

variable (i : IVec S480000 32) (h : InRange 30000 i)
include h

theorem wrapIdx_of_inRange (p : Fin 480000) : wrapIdx i (ix1 p) = i (ix1 p) := by
  have hp := h (ix1 p)
  show Scalar.select (IntOp.cmpi .slt (i (ix1 p)) 0#32) _ (i (ix1 p)) = i (ix1 p)
  rw [slt_zero_of_nonneg hp.1]
  exact select_zero _ _

theorem idxCol_of_inRange (p : Fin 480000) (c : Fin 1) : idxCol i (ix2 p c) = i (ix1 p) :=
  (bcast_rows_apply _ _ p c).trans (wrapIdx_of_inRange i h p)

theorem inTable_of_inRange (j : S480000.Idx) : inTable i j = 1#1 := by
  refine reduce_andi_ones _ _ _ _ (fun k => ?_) (fun _ => rfl) j
  obtain ⟨p, c, rfl⟩ : ∃ (p : Fin 480000) (c : Fin 1), k = ix2 p c := ⟨k 0, k 1, eq_ix2 k⟩
  have hp := h (ix1 p)
  show IntOp.andi (IntOp.cmpi .sge (idxCol i (ix2 p c)) 0#32) (IntOp.cmpi .sle (idxCol i (ix2 p c)) 29999#32) = 1#1
  rw [idxCol_of_inRange i h, sge_zero_of_nonneg hp.1, sle_last_of_lt (by have := hp.2; omega)]
  rfl

theorem takeOf_row (x : FVec Ideal S30000x128 .f32) (e : Fin 480000) (j : Fin 128) :
    takeOf x i (ix2 e j) = x (ix2 (rowIdx i h e) j) := by
  have hp := h (ix1 e)
  have h1 : broadcastInDim S480000x128 ![0] bcast_S480000_S480000x128_0 (inTable i) (ix2 e j) = 1#1 :=
    (bcast_rows_apply _ _ e j).trans (inTable_of_inRange i h _)
  have h2 : Host.gather gather_S30000x128_S480000x1_S480000x128_1_0_n_n_0_1_1128 x (idxCol i) (ix2 e j)
      = x (ix2 (rowIdx i h e) j) := by
    refine (gather_rows_apply gather_S30000x128_S480000x1_S480000x128_1_0_n_n_0_1_1128 rfl rfl rfl rfl rfl x
      (idxCol i) e j (by decide)).trans ?_
    refine congrArg (fun r => x (ix2 r j)) (Fin.ext ?_)
    show min (idxCol i (ix2 e 0)).toInt.toNat (30000 - 1) = ((i (ix1 e)).toInt).toNat
    rw [idxCol_of_inRange i h]
    have := hp.2
    omega
  unfold takeOf
  rw [select_apply, h1, h2]
  exact select_one _ _

end InRange

section Stretches

attribute [local irreducible] Host.reduce Host.gather

theorem numbered1_1 : Numbered 44 (hostOps1_1 (F := Ideal)) := by
  repeat' (first | exact Numbered.nil _ | refine Numbered.cons ⟨_, rfl, rfl⟩ ?_)

theorem take_stretch1 (V : Valuation τ sig (Elt Ideal)) :
    after (hostOps1_1 (F := Ideal)) V (Proc.devRef .tc main_v5)
      = takeOf (V (Proc.devRef .tc main_v3)) (V (Proc.devRef .tc main_arg3)) := by
  have N := numbered1_1
  have hWrap : after (hostOps1_1 (F := Ideal)) V (Proc.devRef .tc main_call0_v4) = wrapIdx (V (Proc.devRef .tc main_arg3)) := by
    rw [N.after_ternary V (y := main_call0_v4) (by exact rfl) (by decide) (by decide) (by decide) (by decide),
      N.after_binary V (y := main_call0_v3) (by exact rfl) (by decide) (by decide) (by decide),
      N.after_unary V (y := main_call0_v2) (by exact rfl) (by decide) (by decide),
      N.after_nullary V (y := main_call0_c_0) (by exact rfl) (by decide),
      N.after_binary V (y := main_call0_v1) (by exact rfl) (by decide) (by decide) (by decide),
      N.after_unary V (y := main_call0_v0) (by exact rfl) (by decide) (by decide),
      N.after_nullary V (y := main_call0_c) (by exact rfl) (by decide),
      N.kept V (r := main_arg3) (by decide)]
    rfl
  have hCol : after (hostOps1_1 (F := Ideal)) V (Proc.devRef .tc main_call0_v5) = idxCol (V (Proc.devRef .tc main_arg3)) := by
    rw [N.after_unary V (y := main_call0_v5) (by exact rfl) (by decide) (by decide), hWrap]; rfl
  have hIn : after (hostOps1_1 (F := Ideal)) V (Proc.devRef .tc main_call0_v12) = inTable (V (Proc.devRef .tc main_arg3)) := by
    rw [N.after_binary V (y := main_call0_v12) (by exact rfl) (by decide) (by decide) (by decide),
      N.after_nullary V (y := main_call0_c_3) (by exact rfl) (by decide),
      N.after_binary V (y := main_call0_v11) (by exact rfl) (by decide) (by decide) (by decide),
      N.after_binary V (y := main_call0_v10) (by exact rfl) (by decide) (by decide) (by decide),
      N.after_unary V (y := main_call0_v9) (by exact rfl) (by decide) (by decide),
      N.after_unary V (y := main_call0_v8) (by exact rfl) (by decide) (by decide),
      N.after_binary V (y := main_call0_v7) (by exact rfl) (by decide) (by decide) (by decide),
      N.after_unary V (y := main_call0_v6) (by exact rfl) (by decide) (by decide),
      N.after_nullary V (y := main_call0_c_2) (by exact rfl) (by decide),
      N.after_nullary V (y := main_call0_c_1) (by exact rfl) (by decide),
      hCol]
    rfl
  rw [N.after_ternary V (y := main_v5) (by exact rfl) (by decide) (by decide) (by decide) (by decide),
      N.after_unary V (y := main_call0_v15) (by exact rfl) (by decide) (by decide),
      N.after_nullary V (y := main_call0_cst) (by exact rfl) (by decide),
      N.after_unary V (y := main_call0_v14) (by exact rfl) (by decide) (by decide),
      N.after_binary V (y := main_call0_v13) (by exact rfl) (by decide) (by decide) (by decide),
      hIn,
      hCol,
      N.kept V (r := main_v3) (by decide)]
  rfl

theorem numbered1_2 : Numbered 67 (hostOps1_2 (F := Ideal)) := by
  repeat' (first | exact Numbered.nil _ | refine Numbered.cons ⟨_, rfl, rfl⟩ ?_)

theorem take_stretch2 (V : Valuation τ sig (Elt Ideal)) :
    after (hostOps1_2 (F := Ideal)) V (Proc.devRef .tc main_v6)
      = takeOf (V (Proc.devRef .tc main_v2)) (V (Proc.devRef .tc main_arg4)) := by
  have N := numbered1_2
  have hWrap : after (hostOps1_2 (F := Ideal)) V (Proc.devRef .tc main_call1_v4) = wrapIdx (V (Proc.devRef .tc main_arg4)) := by
    rw [N.after_ternary V (y := main_call1_v4) (by exact rfl) (by decide) (by decide) (by decide) (by decide),
      N.after_binary V (y := main_call1_v3) (by exact rfl) (by decide) (by decide) (by decide),
      N.after_unary V (y := main_call1_v2) (by exact rfl) (by decide) (by decide),
      N.after_nullary V (y := main_call1_c_0) (by exact rfl) (by decide),
      N.after_binary V (y := main_call1_v1) (by exact rfl) (by decide) (by decide) (by decide),
      N.after_unary V (y := main_call1_v0) (by exact rfl) (by decide) (by decide),
      N.after_nullary V (y := main_call1_c) (by exact rfl) (by decide),
      N.kept V (r := main_arg4) (by decide)]
    rfl
  have hCol : after (hostOps1_2 (F := Ideal)) V (Proc.devRef .tc main_call1_v5) = idxCol (V (Proc.devRef .tc main_arg4)) := by
    rw [N.after_unary V (y := main_call1_v5) (by exact rfl) (by decide) (by decide), hWrap]; rfl
  have hIn : after (hostOps1_2 (F := Ideal)) V (Proc.devRef .tc main_call1_v12) = inTable (V (Proc.devRef .tc main_arg4)) := by
    rw [N.after_binary V (y := main_call1_v12) (by exact rfl) (by decide) (by decide) (by decide),
      N.after_nullary V (y := main_call1_c_3) (by exact rfl) (by decide),
      N.after_binary V (y := main_call1_v11) (by exact rfl) (by decide) (by decide) (by decide),
      N.after_binary V (y := main_call1_v10) (by exact rfl) (by decide) (by decide) (by decide),
      N.after_unary V (y := main_call1_v9) (by exact rfl) (by decide) (by decide),
      N.after_unary V (y := main_call1_v8) (by exact rfl) (by decide) (by decide),
      N.after_binary V (y := main_call1_v7) (by exact rfl) (by decide) (by decide) (by decide),
      N.after_unary V (y := main_call1_v6) (by exact rfl) (by decide) (by decide),
      N.after_nullary V (y := main_call1_c_2) (by exact rfl) (by decide),
      N.after_nullary V (y := main_call1_c_1) (by exact rfl) (by decide),
      hCol]
    rfl
  rw [N.after_ternary V (y := main_v6) (by exact rfl) (by decide) (by decide) (by decide) (by decide),
      N.after_unary V (y := main_call1_v15) (by exact rfl) (by decide) (by decide),
      N.after_nullary V (y := main_call1_cst) (by exact rfl) (by decide),
      N.after_unary V (y := main_call1_v14) (by exact rfl) (by decide) (by decide),
      N.after_binary V (y := main_call1_v13) (by exact rfl) (by decide) (by decide) (by decide),
      hIn,
      hCol,
      N.kept V (r := main_v2) (by decide)]
  rfl

theorem numbered1_3 : Numbered 90 (hostOps1_3 (F := Ideal)) := by
  repeat' (first | exact Numbered.nil _ | refine Numbered.cons ⟨_, rfl, rfl⟩ ?_)

theorem take_stretch3 (V : Valuation τ sig (Elt Ideal)) :
    after (hostOps1_3 (F := Ideal)) V (Proc.devRef .tc main_v7)
      = takeOf (V (Proc.devRef .tc main_v4)) (V (Proc.devRef .tc main_arg3)) := by
  have N := numbered1_3
  have hWrap : after (hostOps1_3 (F := Ideal)) V (Proc.devRef .tc main_call2_v4) = wrapIdx (V (Proc.devRef .tc main_arg3)) := by
    rw [N.after_ternary V (y := main_call2_v4) (by exact rfl) (by decide) (by decide) (by decide) (by decide),
      N.after_binary V (y := main_call2_v3) (by exact rfl) (by decide) (by decide) (by decide),
      N.after_unary V (y := main_call2_v2) (by exact rfl) (by decide) (by decide),
      N.after_nullary V (y := main_call2_c_0) (by exact rfl) (by decide),
      N.after_binary V (y := main_call2_v1) (by exact rfl) (by decide) (by decide) (by decide),
      N.after_unary V (y := main_call2_v0) (by exact rfl) (by decide) (by decide),
      N.after_nullary V (y := main_call2_c) (by exact rfl) (by decide),
      N.kept V (r := main_arg3) (by decide)]
    rfl
  have hCol : after (hostOps1_3 (F := Ideal)) V (Proc.devRef .tc main_call2_v5) = idxCol (V (Proc.devRef .tc main_arg3)) := by
    rw [N.after_unary V (y := main_call2_v5) (by exact rfl) (by decide) (by decide), hWrap]; rfl
  have hIn : after (hostOps1_3 (F := Ideal)) V (Proc.devRef .tc main_call2_v12) = inTable (V (Proc.devRef .tc main_arg3)) := by
    rw [N.after_binary V (y := main_call2_v12) (by exact rfl) (by decide) (by decide) (by decide),
      N.after_nullary V (y := main_call2_c_3) (by exact rfl) (by decide),
      N.after_binary V (y := main_call2_v11) (by exact rfl) (by decide) (by decide) (by decide),
      N.after_binary V (y := main_call2_v10) (by exact rfl) (by decide) (by decide) (by decide),
      N.after_unary V (y := main_call2_v9) (by exact rfl) (by decide) (by decide),
      N.after_unary V (y := main_call2_v8) (by exact rfl) (by decide) (by decide),
      N.after_binary V (y := main_call2_v7) (by exact rfl) (by decide) (by decide) (by decide),
      N.after_unary V (y := main_call2_v6) (by exact rfl) (by decide) (by decide),
      N.after_nullary V (y := main_call2_c_2) (by exact rfl) (by decide),
      N.after_nullary V (y := main_call2_c_1) (by exact rfl) (by decide),
      hCol]
    rfl
  rw [N.after_ternary V (y := main_v7) (by exact rfl) (by decide) (by decide) (by decide) (by decide),
      N.after_unary V (y := main_call2_v15) (by exact rfl) (by decide) (by decide),
      N.after_nullary V (y := main_call2_cst) (by exact rfl) (by decide),
      N.after_unary V (y := main_call2_v14) (by exact rfl) (by decide) (by decide),
      N.after_binary V (y := main_call2_v13) (by exact rfl) (by decide) (by decide) (by decide),
      hIn,
      hCol,
      N.kept V (r := main_v4) (by decide)]
  rfl

end Stretches

theorem numbered1 : Numbered 41 (hostOps1 (F := Ideal)) := by
  repeat' (first | exact Numbered.nil _ | refine Numbered.cons ⟨_, rfl, rfl⟩ ?_)

section Slices

variable (W : Valuation τ sig (Elt Ideal))

theorem slice_query (r : Fin 30000) (j : Fin 128) :
    after (hostOps1 (F := Ideal)) W (Proc.devRef .tc main_v2) (ix2 r j)
      = W (Proc.devRef .tc main_v1) (ix2 r ⟨j.val, by omega⟩) := by
  rw [numbered1.after_unary W (y := main_v2) (by exact rfl) (by decide) (by decide), numbered1.kept W (r := main_v1) (by decide)]
  exact extractStridedSlice_apply _ _ _ _ _ (fin2_cases (Nat.zero_add _).symm (Nat.zero_add _).symm)

theorem slice_key (r : Fin 30000) (j : Fin 128) :
    after (hostOps1 (F := Ideal)) W (Proc.devRef .tc main_v3) (ix2 r j)
      = W (Proc.devRef .tc main_v1) (ix2 r ⟨128 + j.val, by omega⟩) := by
  rw [numbered1.after_unary W (y := main_v3) (by exact rfl) (by decide) (by decide), numbered1.kept W (r := main_v1) (by decide)]
  exact extractStridedSlice_apply _ _ _ _ _ (fin2_cases (Nat.zero_add _).symm rfl)

theorem slice_value (r : Fin 30000) (j : Fin 128) :
    after (hostOps1 (F := Ideal)) W (Proc.devRef .tc main_v4) (ix2 r j)
      = W (Proc.devRef .tc main_v1) (ix2 r ⟨256 + j.val, by omega⟩) := by
  rw [numbered1.after_unary W (y := main_v4) (by exact rfl) (by decide) (by decide), numbered1.kept W (r := main_v1) (by decide)]
  exact extractStridedSlice_apply _ _ _ _ _ (fin2_cases (Nat.zero_add _).symm rfl)

end Slices

abbrev gathered (W : Valuation τ sig (Elt Ideal)) : Valuation τ sig (Elt Ideal) :=
  after (hostOps1_3 (F := Ideal)) (after (hostOps1_2 (F := Ideal)) (after (hostOps1_1 (F := Ideal))
    (after (hostOps1 (F := Ideal)) W)))

section Gathered

variable (W : Valuation τ sig (Elt Ideal)) (X : FVec Ideal S30000x128 .f32) (C : FVec Ideal S128x384 .f32)
  (hP : ∀ (r : Fin 30000) (c : Fin 384), W (Proc.devRef .tc main_v1) (ix2 r c) = ∑ k : Fin 128, X (ix2 r k) * C (ix2 k c))
include hP

theorem gathered_key (src : IVec S480000 32) (hs : W (Proc.devRef .tc main_arg3) = src) (hsrc : InRange 30000 src)
    (e : Fin 480000) (j : Fin 128) :
    gathered W (Proc.devRef .tc main_v5) (ix2 e j)
      = ∑ k : Fin 128, X (ix2 (rowIdx src hsrc e) k) * C (ix2 k ⟨128 + j.val, by omega⟩) := by
  have h0 : gathered W (Proc.devRef .tc main_v5)
      = after (hostOps1_1 (F := Ideal)) (after (hostOps1 (F := Ideal)) W) (Proc.devRef .tc main_v5) :=
    (numbered1_3.kept _ (by decide)).trans (numbered1_2.kept _ (by decide))
  have hi : after (hostOps1 (F := Ideal)) W (Proc.devRef .tc main_arg3) = src :=
    (numbered1.kept W (by decide)).trans hs
  rw [h0, take_stretch1, hi, takeOf_row src hsrc, slice_key, hP]

theorem gathered_query (dst : IVec S480000 32) (hd : W (Proc.devRef .tc main_arg4) = dst) (hdst : InRange 30000 dst)
    (e : Fin 480000) (j : Fin 128) :
    gathered W (Proc.devRef .tc main_v6) (ix2 e j)
      = ∑ k : Fin 128, X (ix2 (rowIdx dst hdst e) k) * C (ix2 k ⟨j.val, by omega⟩) := by
  have h0 : gathered W (Proc.devRef .tc main_v6)
      = after (hostOps1_2 (F := Ideal)) (after (hostOps1_1 (F := Ideal)) (after (hostOps1 (F := Ideal)) W))
          (Proc.devRef .tc main_v6) :=
    numbered1_3.kept _ (by decide)
  have ht : after (hostOps1_1 (F := Ideal)) (after (hostOps1 (F := Ideal)) W) (Proc.devRef .tc main_v2)
      = after (hostOps1 (F := Ideal)) W (Proc.devRef .tc main_v2) := numbered1_1.kept _ (by decide)
  have hi : after (hostOps1_1 (F := Ideal)) (after (hostOps1 (F := Ideal)) W) (Proc.devRef .tc main_arg4) = dst :=
    (numbered1_1.kept _ (by decide)).trans ((numbered1.kept W (by decide)).trans hd)
  rw [h0, take_stretch2, hi, ht, takeOf_row dst hdst, slice_query, hP]

theorem gathered_value (src : IVec S480000 32) (hs : W (Proc.devRef .tc main_arg3) = src) (hsrc : InRange 30000 src)
    (e : Fin 480000) (j : Fin 128) :
    gathered W (Proc.devRef .tc main_v7) (ix2 e j)
      = ∑ k : Fin 128, X (ix2 (rowIdx src hsrc e) k) * C (ix2 k ⟨256 + j.val, by omega⟩) := by
  have ht : after (hostOps1_2 (F := Ideal)) (after (hostOps1_1 (F := Ideal)) (after (hostOps1 (F := Ideal)) W))
        (Proc.devRef .tc main_v4)
      = after (hostOps1 (F := Ideal)) W (Proc.devRef .tc main_v4) :=
    (numbered1_2.kept _ (by decide)).trans (numbered1_1.kept _ (by decide))
  have hi : after (hostOps1_2 (F := Ideal)) (after (hostOps1_1 (F := Ideal)) (after (hostOps1 (F := Ideal)) W))
        (Proc.devRef .tc main_arg3) = src :=
    (numbered1_2.kept _ (by decide)).trans ((numbered1_1.kept _ (by decide)).trans
      ((numbered1.kept W (by decide)).trans hs))
  show after (hostOps1_3 (F := Ideal)) _ (Proc.devRef .tc main_v7) (ix2 e j) = _
  rw [take_stretch3, hi, ht, takeOf_row src hsrc, slice_value, hP]

end Gathered

end Cert.KernelIdeal.HandValue

end
-- ==== Proof.Val.Gathers2.lean ====
-- Column bands 0, 128, 256 of X · [Wq | Wk | Wv] are X · Wq, X · Wk, X · Wv.
import proofs.«406977_j9723805958288_1_alg».proof.Proof.Gen.KernelIdeal.Launch
import proofs.«406977_j9723805958288_1_alg».proof.Proof.Ref.Read
import proofs.«406977_j9723805958288_1_alg».proof.Proof.LibStraightLine
import Idealize.ShloMosaic.Lib.Pipeline.Value
import Idealize.ShloMosaic.Lib.ValueIdx

noncomputable section

namespace Cert.KernelIdeal.HandValue

open Cert.KernelIdeal Cert.KernelIdeal.Gen
open Idealize.ShloMosaic Idealize.ShloMosaic.TcCoe Idealize.SL.Sem
open Idealize.ShloMosaic.ValueIdx (ix2)

theorem concat3_apply {α : Type} (v0 v1 v2 : S128x128.Idx → α)
    (hc : Shape.Concatenates [S128x128, S128x128, S128x128] S128x384 1) (k j : Fin 128) :
    concatenate S128x384 1 [⟨S128x128, v0⟩, ⟨S128x128, v1⟩, ⟨S128x128, v2⟩] hc (ix2 k (⟨j.val, by omega⟩ : Fin 384)) = v0 (ix2 k j)
    ∧ concatenate S128x384 1 [⟨S128x128, v0⟩, ⟨S128x128, v1⟩, ⟨S128x128, v2⟩] hc (ix2 k (⟨128 + j.val, by omega⟩ : Fin 384)) = v1 (ix2 k j)
    ∧ concatenate S128x384 1 [⟨S128x128, v0⟩, ⟨S128x128, v1⟩, ⟨S128x128, v2⟩] hc (ix2 k (⟨256 + j.val, by omega⟩ : Fin 384)) = v2 (ix2 k j) := by

  have piece : ∀ (n : Nat) (hn : n < ([⟨S128x128, v0⟩, ⟨S128x128, v1⟩, ⟨S128x128, v2⟩] : List ((s : Shape) × (s.Idx → α))).length)
      (vn : S128x128.Idx → α) (hxn : ([⟨S128x128, v0⟩, ⟨S128x128, v1⟩, ⟨S128x128, v2⟩] : List ((s : Shape) × (s.Idx → α)))[n] = ⟨S128x128, vn⟩)
      (pre : Nat)
      (hpre : (((([⟨S128x128, v0⟩, ⟨S128x128, v1⟩, ⟨S128x128, v2⟩] : List ((s : Shape) × (s.Idx → α))).take n).map (·.1)).map fun s : Shape =>
          if h : s.rank = S128x384.rank then s.size ((1 : Fin S128x384.rank).cast h.symm) else 0).sum = pre)
      (c : Fin 384) (hcol : pre + j.val = c.val),
      concatenate S128x384 1 [⟨S128x128, v0⟩, ⟨S128x128, v1⟩, ⟨S128x128, v2⟩] hc (ix2 k c) = vn (ix2 k j) :=
    fun n hn vn hxn pre hpre c hcol =>
      concatenate_apply_piece (t := S128x384) 1 [⟨S128x128, v0⟩, ⟨S128x128, v1⟩, ⟨S128x128, v2⟩] hc (ix2 k c) n hn S128x128 vn hxn rfl pre hpre (ix2 k j)
        (fun b hb => match b, hb with
          | ⟨0, _⟩, _ => rfl
          | ⟨1, _⟩, hb => absurd rfl hb)
        (by show pre + j.val = c.val; exact hcol)
  refine ⟨piece 0 (by show (0 : Nat) < 3; omega) v0 rfl 0 rfl _ (by show 0 + j.val = j.val; omega),
    piece 1 (by show (1 : Nat) < 3; omega) v1 rfl 128 rfl _ rfl,
    piece 2 (by show (2 : Nat) < 3; omega) v2 rfl 256 rfl _ rfl⟩

variable (W0 : Valuation τ sig (Elt Ideal))

abbrev catW : S128x384.Idx → EReal := StableHlo.after (hostOps0 (F := Ideal)) W0 (Proc.devRef .tc main_v0)

theorem catW_eq (Aq Ak Av : S128x128.Idx → EReal)
    (hq : W0 (Proc.devRef .tc main_arg5) = Aq) (hk : W0 (Proc.devRef .tc main_arg6) = Ak) (hv : W0 (Proc.devRef .tc main_arg7) = Av) :
    catW W0 = concatenate S128x384 1 [⟨S128x128, Aq⟩, ⟨S128x128, Ak⟩, ⟨S128x128, Av⟩] concatenates_S128x128_S128x128_S128x128_S128x384_d1 := by
  subst hq hk hv
  exact StableHlo.nary_result (τ := τ) (Val := Elt Ideal) ![main_arg5, main_arg6, main_arg7] main_v0
    (fun u => concatenate S128x384 1 [⟨S128x128, u 0⟩, ⟨S128x128, u 1⟩, ⟨S128x128, u 2⟩]
      concatenates_S128x128_S128x128_S128x128_S128x384_d1)
    (by decide) (by exact ⟨by decide, rfl⟩) W0

section Columns
variable (Aq Ak Av : S128x128.Idx → EReal)
  (hq : W0 (Proc.devRef .tc main_arg5) = Aq) (hk : W0 (Proc.devRef .tc main_arg6) = Ak) (hv : W0 (Proc.devRef .tc main_arg7) = Av)
  (k j : Fin 128)
include hq hk hv

theorem catW_query : catW W0 (ix2 k (⟨j.val, by omega⟩ : Fin 384)) = Aq (ix2 k j) := by
  rw [catW_eq W0 Aq Ak Av hq hk hv]; exact (concat3_apply Aq Ak Av _ k j).1

theorem catW_key : catW W0 (ix2 k (⟨128 + j.val, by omega⟩ : Fin 384)) = Ak (ix2 k j) := by
  rw [catW_eq W0 Aq Ak Av hq hk hv]; exact (concat3_apply Aq Ak Av _ k j).2.1

theorem catW_value : catW W0 (ix2 k (⟨256 + j.val, by omega⟩ : Fin 384)) = Av (ix2 k j) := by
  rw [catW_eq W0 Aq Ak Av hq hk hv]; exact (concat3_apply Aq Ak Av _ k j).2.2

end Columns

section Join
variable (X : S30000x128.Idx → EReal) (C : S128x384.Idx → EReal) (r : Fin 30000) (j : Fin 128)

theorem query_join (Aq : S128x128.Idx → EReal)
    (hCq : ∀ k j : Fin 128, C (ix2 k (⟨j.val, by omega⟩ : Fin 384)) = Aq (ix2 k j)) :
    ∑ k : Fin 128, X (ix2 r k) * C (ix2 k (⟨j.val, by omega⟩ : Fin 384))
      = Cert.ReferenceIdeal.RefRead.val_main_v0 (F := Ideal) X Aq (ix2 r j) := by
  rw [Cert.ReferenceIdeal.RefRead.val_main_v0_apply]
  refine Finset.sum_congr rfl fun k _ => ?_
  rw [hCq k j]
  have el : Cert.ReferenceIdeal.RefRead.lidx_main_v0 (ix2 r j) k = ix2 r k := funext fun a => match a with | ⟨0, _⟩ => rfl | ⟨1, _⟩ => rfl
  have er : Cert.ReferenceIdeal.RefRead.ridx_main_v0 (ix2 r j) k = ix2 k j := funext fun a => match a with | ⟨0, _⟩ => rfl | ⟨1, _⟩ => rfl
  rw [el, er]

theorem key_join (Ak : S128x128.Idx → EReal)
    (hCk : ∀ k j : Fin 128, C (ix2 k (⟨128 + j.val, by omega⟩ : Fin 384)) = Ak (ix2 k j)) :
    ∑ k : Fin 128, X (ix2 r k) * C (ix2 k (⟨128 + j.val, by omega⟩ : Fin 384))
      = Cert.ReferenceIdeal.RefRead.val_main_v2 (F := Ideal) X Ak (ix2 r j) := by
  rw [Cert.ReferenceIdeal.RefRead.val_main_v2_apply]
  refine Finset.sum_congr rfl fun k _ => ?_
  rw [hCk k j]
  have el : Cert.ReferenceIdeal.RefRead.lidx_main_v2 (ix2 r j) k = ix2 r k := funext fun a => match a with | ⟨0, _⟩ => rfl | ⟨1, _⟩ => rfl
  have er : Cert.ReferenceIdeal.RefRead.ridx_main_v2 (ix2 r j) k = ix2 k j := funext fun a => match a with | ⟨0, _⟩ => rfl | ⟨1, _⟩ => rfl
  rw [el, er]

theorem value_join (Av : S128x128.Idx → EReal)
    (hCv : ∀ k j : Fin 128, C (ix2 k (⟨256 + j.val, by omega⟩ : Fin 384)) = Av (ix2 k j)) :
    ∑ k : Fin 128, X (ix2 r k) * C (ix2 k (⟨256 + j.val, by omega⟩ : Fin 384))
      = Cert.ReferenceIdeal.RefRead.val_main_v4 (F := Ideal) X Av (ix2 r j) := by
  rw [Cert.ReferenceIdeal.RefRead.val_main_v4_apply]
  refine Finset.sum_congr rfl fun k _ => ?_
  rw [hCv k j]
  have el : Cert.ReferenceIdeal.RefRead.lidx_main_v4 (ix2 r j) k = ix2 r k := funext fun a => match a with | ⟨0, _⟩ => rfl | ⟨1, _⟩ => rfl
  have er : Cert.ReferenceIdeal.RefRead.ridx_main_v4 (ix2 r j) k = ix2 k j := funext fun a => match a with | ⟨0, _⟩ => rfl | ⟨1, _⟩ => rfl
  rw [el, er]

end Join

end Cert.KernelIdeal.HandValue

end
-- ==== Proof.Val.RefAttn.lean ====
-- The reference's attention stages at edge e are the row specification: entry (h, d) of a slab is column 16 h + d, and a quotient by 4 is a product with 1/4.
import proofs.«406977_j9723805958288_1_alg».proof.Proof.Ref.Read
import proofs.«406977_j9723805958288_1_alg».proof.Proof.Val.EdgeRow
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRead
open Idealize.ShloMosaic Idealize.ShloMosaic.ValueIdx
open Cert.EdgeRow
open scoped BigOperators

theorem four_val : Ideal.ofBits .f32 0x40800000#32 = ((4 : ℝ) : EReal) := by
  simp [Ideal.ofBits, Ideal.ieee, -EReal.coe_mul]; norm_num

theorem quarter_val : quarter = ((1 / 4 : ℝ) : EReal) := by
  simp [Ideal.ofBits, Ideal.ieee, -EReal.coe_mul]; norm_num

abbrev slabDims : GatherDims S30000x8x16 S480000x1 S480000x8x16 :=
  gather_S30000x8x16_S480000x1_S480000x8x16_12_0_n_n_0_1_1816

theorem gather_slab_apply {α : Type} (P : S30000x8x16.Idx → α) (idx : IVec S480000x1 32)
    (e : Fin 480000) (h : Fin 8) (d : Fin 16) :
    Host.gather slabDims P idx (ix3 e h d)
      = P (ix3 (⟨min (idx (ix2 e (0 : Fin 1))).toInt.toNat 29999, by omega⟩ : Fin 30000) h d) := by
  unfold Host.gather
  congr 1
  funext a
  refine Fin.ext ?_
  match a with
  | ⟨0, _⟩ =>
    show min (idx (slabDims.siIdx (ix3 e h d) _)).toInt.toNat 29999 = _
    exact congrArg (fun k => min (idx k).toInt.toNat 29999) (eq_ix2 _)
  | ⟨1, _⟩ => show 0 + 0 + h.val = h.val; omega
  | ⟨2, _⟩ => show 0 + 0 + d.val = d.val; omega

theorem select_nonneg (a b : BitVec 32) (h : 0 ≤ a.toInt) :
    Scalar.select (IntOp.cmpi .slt a 0#32) b a = a := by
  have hs : a.slt 0#32 = false := by
    rw [BitVec.slt, BitVec.toInt_zero]; exact decide_eq_false (not_lt.mpr h)
  have hc : IntOp.cmpi .slt a 0#32 = 0#1 := by
    show BitVec.ofBool (a.slt 0#32) = 0#1
    rw [hs]; rfl
  rw [hc]; exact select_zero _ _

section Indices
variable (x3 x4 : (⟨S480000, .i32⟩ : BufTy).Contents (Elt Ideal))

theorem keyIndex_eq (hsrc : InRange 30000 x3) (e : Fin 480000) :
    val_main_v13 (F := Ideal) x3 (ix2 e (0 : Fin 1)) = x3 (ix1 e) := by
  have hi : idx_main_v13 (ix2 e (0 : Fin 1)) = ix1 e := eq_ix1 _
  rw [val_main_v13_apply, hi, val_main_v12_apply, val_main_v9_apply, val_main_v8_apply, val_main_c_apply]
  exact select_nonneg _ _ (hsrc (ix1 e)).1

end Indices

theorem slab_flat (r : Fin 30000) (h : Fin 8) (d : Fin 16) :
    idx_main_v1 (ix3 r h d) = ix2 r (headCol h d) := funext fun a => Fin.ext (by
  match a with
  | ⟨0, _⟩ => show ((r.val * 8 + h.val) * 16 + d.val) / 128 = r.val; omega
  | ⟨1, _⟩ => show ((r.val * 8 + h.val) * 16 + d.val) % 128 = 16 * h.val + d.val; omega)

theorem edgeSlab_flat (e : Fin 480000) (h : Fin 8) (d : Fin 16) :
    idx_main_v7 (ix3 e h d) = ix2 e (headCol h d) := funext fun a => Fin.ext (by
  match a with
  | ⟨0, _⟩ => show ((e.val * 8 + h.val) * 16 + d.val) / 128 = e.val; omega
  | ⟨1, _⟩ => show ((e.val * 8 + h.val) * 16 + d.val) % 128 = 16 * h.val + d.val; omega)

theorem headCol_headOf (j : Fin 128) : headCol (headOf j) ⟨j.val % 16, Nat.mod_lt _ (by decide)⟩ = j :=
  Fin.ext (by show 16 * (j.val / 16) + j.val % 16 = j.val; omega)

theorem headOf_headCol (h : Fin 8) (d : Fin 16) : headOf (headCol h d) = h :=
  Fin.ext (by show (16 * h.val + d.val) / 16 = h.val; omega)

-- A gathered slab entry at an in-range index is the named row of the flat array the slabs were cut from.
theorem gather_row {P : S30000x8x16.Idx → EReal} {Q : S30000x128.Idx → EReal} (hPQ : ∀ i, P i = Q (idx_main_v1 i))
    {I : IVec S480000x1 32} {x : (⟨1, ![480000]⟩ : Shape).Idx → BitVec 32} (hin : InRange 30000 x) (e : Fin 480000)
    (hI : I (ix2 e (0 : Fin 1)) = x (ix1 e)) (h : Fin 8) (d : Fin 16) :
    Host.gather slabDims P I (ix3 e h d) = rowOf Q (rowIdx x hin e) (headCol h d) := by
  have hr : (⟨min (I (ix2 e (0 : Fin 1))).toInt.toNat 29999, by omega⟩ : Fin 30000) = rowIdx x hin e :=
    Fin.ext ((congrArg (fun b : BitVec 32 => min b.toInt.toNat 29999) hI).trans (by
      have := hin (ix1 e)
      show min (x (ix1 e)).toInt.toNat 29999 = (x (ix1 e)).toInt.toNat
      omega))
  rw [gather_slab_apply, hPQ, hr]
  exact congrArg Q (slab_flat _ h d)

section Stages
variable (x0 : (⟨S30000x128, .f32⟩ : BufTy).Contents (Elt Ideal)) (x1 : (⟨S480000x128, .f32⟩ : BufTy).Contents (Elt Ideal))
  (x3 x4 : (⟨S480000, .i32⟩ : BufTy).Contents (Elt Ideal)) (x5 x6 x7 x8 : (⟨S128x128, .f32⟩ : BufTy).Contents (Elt Ideal))

theorem keySlab_eq (hsrc : InRange 30000 x3) (e : Fin 480000) (h : Fin 8) (d : Fin 16) :
    val_main_v14 (F := Ideal) x0 x3 x6 (ix3 e h d)
      = rowOf (val_main_v2 (F := Ideal) x0 x6) (rowIdx x3 hsrc e) (headCol h d) :=
  gather_row (val_main_v3_apply x0 x6) hsrc e (keyIndex_eq x3 hsrc e) h d

theorem querySlab_eq (hdst : InRange 30000 x4) (e : Fin 480000) (h : Fin 8) (d : Fin 16) :
    val_main_v21 (F := Ideal) x0 x4 x5 (ix3 e h d)
      = rowOf (val_main_v0 (F := Ideal) x0 x5) (rowIdx x4 hdst e) (headCol h d) :=
  gather_row (val_main_v1_apply x0 x5) hdst e (keyIndex_eq x4 hdst e) h d

theorem valueSlab_eq (hsrc : InRange 30000 x3) (e : Fin 480000) (h : Fin 8) (d : Fin 16) :
    val_main_v37 (F := Ideal) x0 x3 x7 (ix3 e h d)
      = rowOf (val_main_v4 (F := Ideal) x0 x7) (rowIdx x3 hsrc e) (headCol h d) :=
  gather_row (val_main_v5_apply x0 x7) hsrc e (keyIndex_eq x3 hsrc e) h d

theorem edgeProj_eq (w : Weights) (hw : w.We = matOf x8) (e : Fin 480000) (h : Fin 8) (d : Fin 16) :
    val_main_v7 (F := Ideal) x1 x8 (ix3 e h d) = proj w (rowOf x1 e) (headCol h d) := by
  rw [val_main_v7_apply, edgeSlab_flat, val_main_v6_apply]
  unfold proj
  rw [hw]
  refine Finset.sum_congr rfl fun k _ => ?_
  have hl : lidx_main_v6 (ix2 e (headCol h d)) k = ix2 e k := eq_ix2 _
  have hr : ridx_main_v6 (ix2 e (headCol h d)) k = ix2 k (headCol h d) := eq_ix2 _
  rw [hl, hr]
  rfl

theorem score3_eq (hsrc : InRange 30000 x3) (hdst : InRange 30000 x4) (w : Weights) (hw : w.We = matOf x8)
    (e : Fin 480000) (h : Fin 8) (d : Fin 16) :
    val_main_v25 (F := Ideal) x0 x1 x3 x4 x5 x6 x8 (ix3 e h d)
      = score w (rowOf x1 e) (rowOf (val_main_v2 (F := Ideal) x0 x6) (rowIdx x3 hsrc e))
          (rowOf (val_main_v0 (F := Ideal) x0 x5) (rowIdx x4 hdst e)) (headCol h d) := by
  rw [val_main_v25_apply, val_main_v24_apply, val_main_v22_apply, val_main_v23_apply, val_main_cst_apply,
    keySlab_eq x0 x3 x6 hsrc, querySlab_eq x0 x4 x5 hdst, edgeProj_eq x1 x8 w hw]
  simp only [Ideal.mulf_def, Ideal.hostDivf_def, Ideal.ofBits_def]
  rw [four_val, Ideal.div_coe (by norm_num)]
  unfold score
  rw [quarter_val]
  exact mul_right_comm _ _ _

theorem scoreFlat_eq (hsrc : InRange 30000 x3) (hdst : InRange 30000 x4) (w : Weights) (hw : w.We = matOf x8)
    (e : Fin 480000) (j : Fin 128) :
    val_main_v26 (F := Ideal) x0 x1 x3 x4 x5 x6 x8 (ix2 e j)
      = score w (rowOf x1 e) (rowOf (val_main_v2 (F := Ideal) x0 x6) (rowIdx x3 hsrc e))
          (rowOf (val_main_v0 (F := Ideal) x0 x5) (rowIdx x4 hdst e)) j := by
  have hi : idx_main_v26 (ix2 e j) = ix3 e (headOf j) (⟨j.val % 16, Nat.mod_lt _ (by decide)⟩ : Fin 16) :=
    funext fun a => Fin.ext (by
      match a with
      | ⟨0, _⟩ => show (e.val * 128 + j.val) / 128 = e.val; have := j.isLt; omega
      | ⟨1, _⟩ => show (e.val * 128 + j.val) / 16 % 8 = j.val / 16; have := j.isLt; omega
      | ⟨2, _⟩ => show (e.val * 128 + j.val) % 16 = j.val % 16; omega)
  rw [val_main_v26_apply, hi, score3_eq x0 x1 x3 x4 x5 x6 x8 hsrc hdst w hw, headCol_headOf]

theorem attn_eq (hsrc : InRange 30000 x3) (hdst : InRange 30000 x4) (w : Weights) (hw : w.We = matOf x8)
    (e : Fin 480000) (h : Fin 8) :
    val_main_v30 (F := Ideal) x0 x1 x3 x4 x5 x6 x8 (ix3 e h (0 : Fin 1))
      = attn w (rowOf x1 e) (rowOf (val_main_v2 (F := Ideal) x0 x6) (rowIdx x3 hsrc e))
          (rowOf (val_main_v0 (F := Ideal) x0 x5) (rowIdx x4 hdst e)) h := by
  have hi : idx_main_v28 (ix3 e h (0 : Fin 1)) = ix2 e h := eq_ix2 _
  have hk : ∀ k : Fin 16, idx_main_v27 (ix2 e h) k = ix3 e h k := fun k => eq_ix3 _
  rw [val_main_v30_apply, val_main_v29_apply, val_main_call0_v4_apply, val_main_call0_v3_apply, val_main_cst_5_apply,
    val_main_call0_v2_apply, val_main_call0_v1_apply, val_main_call0_v0_apply, val_main_cst_4_apply,
    val_main_v28_apply, hi, val_main_v27_apply, val_main_cst_3_apply]
  simp only [Ideal.hostUnary_exp_def, Ideal.minimumf_def, Ideal.maximumf_def, Ideal.ofBits_def, hk,
    score3_eq x0 x1 x3 x4 x5 x6 x8 hsrc hdst w hw]
  rw [Ideal.ofBits_zero_f32, zero_add]
  rfl

theorem weighted_eq (hsrc : InRange 30000 x3) (hdst : InRange 30000 x4) (w : Weights) (hw : w.We = matOf x8)
    (e : Fin 480000) (h : Fin 8) (d : Fin 16) :
    val_main_v39 (F := Ideal) x0 x1 x3 x4 x5 x6 x7 x8 (ix3 e h d)
      = weighted w (rowOf x1 e) (rowOf (val_main_v2 (F := Ideal) x0 x6) (rowIdx x3 hsrc e))
          (rowOf (val_main_v0 (F := Ideal) x0 x5) (rowIdx x4 hdst e))
          (rowOf (val_main_v4 (F := Ideal) x0 x7) (rowIdx x3 hsrc e)) (headCol h d) := by
  have hi : idx_main_v38 (ix3 e h d) = ix3 e h (0 : Fin 1) := eq_ix3 _
  rw [val_main_v39_apply, val_main_v38_apply, hi, valueSlab_eq x0 x3 x7 hsrc,
    attn_eq x0 x1 x3 x4 x5 x6 x8 hsrc hdst w hw]
  unfold weighted
  rw [headOf_headCol]
  rfl

theorem real_mul {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

theorem real_sum {ι : Type} (s : Finset ι) (f : ι → EReal) (hf : ∀ k ∈ s, ∃ r : ℝ, f k = (r : EReal)) :
    ∃ r : ℝ, ∑ k ∈ s, f k = (r : EReal) :=
  Finset.sum_induction f (fun x => ∃ r : ℝ, x = (r : EReal))
    (fun _ _ ⟨a, ha⟩ ⟨b, hb⟩ => ⟨a + b, by rw [ha, hb, EReal.coe_add]⟩) ⟨0, rfl⟩ hf

theorem queryProj_real (hx0 : ∀ i, ∃ r : ℝ, x0 i = (r : EReal)) (hx5 : ∀ i, ∃ r : ℝ, x5 i = (r : EReal))
    (i : S30000x128.Idx) : ∃ r : ℝ, val_main_v0 (F := Ideal) x0 x5 i = (r : EReal) := by
  rw [val_main_v0_apply]
  exact real_sum _ _ fun k _ => real_mul (hx0 _) (hx5 _)

theorem score_real (hx0 : ∀ i, ∃ r : ℝ, x0 i = (r : EReal)) (hx1 : ∀ i, ∃ r : ℝ, x1 i = (r : EReal))
    (hx5 : ∀ i, ∃ r : ℝ, x5 i = (r : EReal)) (hx6 : ∀ i, ∃ r : ℝ, x6 i = (r : EReal))
    (hx8 : ∀ i, ∃ r : ℝ, x8 i = (r : EReal))
    (hsrc : InRange 30000 x3) (hdst : InRange 30000 x4) (w : Weights) (hw : w.We = matOf x8) (e : Fin 480000) :
    ∀ j : Fin 128, ∃ r : ℝ, score w (rowOf x1 e) (rowOf (val_main_v2 (F := Ideal) x0 x6) (rowIdx x3 hsrc e))
        (rowOf (val_main_v0 (F := Ideal) x0 x5) (rowIdx x4 hdst e)) j = (r : EReal) := by
  intro j
  unfold score
  exact real_mul (real_mul (real_mul (queryProj_real x0 x6 hx0 hx6 _) (queryProj_real x0 x5 hx0 hx5 _))
    (by unfold proj; rw [hw]; exact real_sum _ _ fun k _ => real_mul (hx1 _) (hx8 _))) ⟨1 / 4, quarter_val⟩

end Stages

end Cert.ReferenceIdeal.RefValue

end
-- ==== Proof.Val.RefEdge.lean ====
-- The reference's edge output at (e, j) depends on row e alone and is the row specification; x / sqrt v = x · rsqrt v for real x and positive real v.
import proofs.«406977_j9723805958288_1_alg».proof.Proof.Ref.Read
import proofs.«406977_j9723805958288_1_alg».proof.Proof.Val.EdgeRow
import Idealize.ShloMosaic.PureOps.Ideal
import Idealize.ShloMosaic.Lib.ValueIdx

noncomputable section

namespace Cert.ReferenceIdeal.RefValue

open Cert.ReferenceIdeal Cert.ReferenceIdeal.Gen Cert.ReferenceIdeal.RefRead
open Idealize.ShloMosaic Idealize.ShloMosaic.StableHlo Cert.EdgeRow ValueIdx
open scoped BigOperators

def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type} (s : Finset ι) (f : ι → EReal) (h : ∀ i ∈ s, IsReal (f i)) :
    IsReal (∑ i ∈ s, f i) :=
  Finset.sum_induction f IsReal (fun _ _ => IsReal.add) ⟨0, rfl⟩ h

theorem coe_sum {ι : Type} (s : Finset ι) (f : ι → ℝ) :
    ∑ i ∈ s, ((f i : ℝ) : EReal) = ((∑ i ∈ s, f i : ℝ) : EReal) :=
  (map_sum (⟨⟨Real.toEReal, EReal.coe_zero⟩, EReal.coe_add⟩ : ℝ →+ EReal) f s).symm

theorem rowLen_eq : rowLen = ((128 : ℝ) : EReal) := by
  show Ideal.ieee 8 23 (0x43000000#32) = _
  unfold Ideal.ieee
  have h1 : ((0x43000000#32).extractLsb' (8 + 23) 1 == 1#1) = false := by decide
  have h2 : ((0x43000000#32).extractLsb' 23 8).toNat = 134 := by decide
  have h3 : ((0x43000000#32).extractLsb' 0 23).toNat = 0 := by decide
  simp only [h1, h2, h3]
  norm_num

theorem lnEps_pos : ∃ r : ℝ, 0 < r ∧ lnEps = (r : EReal) := by
  have h1 : ((0x3727C5AC#32).extractLsb' (8 + 23) 1 == 1#1) = false := by decide
  have h2 : ((0x3727C5AC#32).extractLsb' 23 8).toNat = 110 := by decide
  have h3 : ((0x3727C5AC#32).extractLsb' 0 23).toNat = 2606508 := by decide
  refine ⟨(1 : ℝ) * ((2 ^ 23 + 2606508 : Nat) : ℝ) * (2 : ℝ) ^ ((110 : Int) - (2 ^ (8 - 1) - 1) - (23 : Nat)), by positivity, ?_⟩
  show Ideal.ieee 8 23 (0x3727C5AC#32) = _
  unfold Ideal.ieee
  simp only [h1, h2, h3]
  norm_num

theorem div_sqrt_eq_mul_rsqrt (a y : ℝ) (hy : 0 < y) :
    Ideal.div (a : EReal) (Ideal.sqrt (y : EReal)) = (a : EReal) * Ideal.rsqrt (y : EReal) := by
  rw [Ideal.sqrt_coe, Ideal.rsqrt_coe, if_neg (not_lt.2 hy.le), if_neg (not_lt.2 hy.le), if_neg hy.ne']
  have hs : Real.sqrt y ≠ 0 := (Real.sqrt_pos.2 hy).ne'
  rw [Ideal.div_coe hs, one_div]

def refMean (x : Fin 128 → EReal) : EReal := Ideal.div (floor0 + ∑ k : Fin 128, x k) rowLen

def refNorm (x g b : Fin 128 → EReal) (j : Fin 128) : EReal :=
  Ideal.div (x j - refMean x)
    (Ideal.sqrt (refMean (fun k => (x k - refMean x) * (x k - refMean x)) + lnEps)) * g j + b j

theorem refMean_eq (x : Fin 128 → EReal) : refMean x = mean x := by
  unfold refMean mean floor0
  rw [Ideal.ofBits_zero_f32, zero_add]

theorem mean_coe (f : Fin 128 → ℝ) :
    mean (fun k => (f k : EReal)) = (((∑ k, f k) * (1 / 128) : ℝ) : EReal) := by
  show Ideal.div (∑ k : Fin 128, ((f k : ℝ) : EReal)) rowLen = _
  rw [coe_sum, rowLen_eq, Ideal.div_coe (by norm_num : (128 : ℝ) ≠ 0), ← EReal.coe_mul]

theorem var_coe (f : Fin 128 → ℝ) :
    var (fun k => (f k : EReal)) =
      (((∑ k, (f k - (∑ k, f k) * (1 / 128)) * (f k - (∑ k, f k) * (1 / 128))) * (1 / 128) : ℝ) : EReal) := by
  unfold var
  rw [mean_coe f]
  simp only [← EReal.coe_sub, ← EReal.coe_mul]
  exact mean_coe _

theorem var_coe_nonneg (f : Fin 128 → ℝ) :
    0 ≤ (∑ k, (f k - (∑ k, f k) * (1 / 128)) * (f k - (∑ k, f k) * (1 / 128))) * (1 / 128 : ℝ) :=
  mul_nonneg (Finset.sum_nonneg fun k _ => mul_self_nonneg _) (by norm_num)

theorem refNorm_eq (x g b : Fin 128 → EReal) (hx : ∀ k, IsReal (x k)) (j : Fin 128) :
    refNorm x g b j = layerNorm x g b j := by
  choose f hf using hx
  obtain rfl : x = fun k => (f k : EReal) := funext hf
  obtain ⟨ε, hε, heps⟩ := lnEps_pos
  unfold refNorm layerNorm
  rw [funext refMean_eq]
  show Ideal.div _ (Ideal.sqrt (var _ + _)) * _ + _ = _
  rw [var_coe, mean_coe, heps, ← EReal.coe_sub, ← EReal.coe_add,
    div_sqrt_eq_mul_rsqrt _ _ (add_pos_of_nonneg_of_pos (var_coe_nonneg f) hε)]

theorem layerNorm_real (x g b : Fin 128 → EReal) (hx : ∀ k, IsReal (x k)) (hg : ∀ k, IsReal (g k))
    (hb : ∀ k, IsReal (b k)) (j : Fin 128) : IsReal (layerNorm x g b j) := by
  choose f hf using hx
  obtain rfl : x = fun k => (f k : EReal) := funext hf
  obtain ⟨ε, hε, heps⟩ := lnEps_pos
  unfold layerNorm
  rw [var_coe, mean_coe, heps, ← EReal.coe_sub, ← EReal.coe_add]
  have hpos := add_pos_of_nonneg_of_pos (var_coe_nonneg f) hε
  rw [Ideal.rsqrt_coe, if_neg (not_lt.2 hpos.le), if_neg hpos.ne']
  exact ((IsReal.coe _).mul (IsReal.coe _)).mul (hg j) |>.add (hb j)

section Stages

variable (x0 : (⟨S30000x128, .f32⟩ : BufTy).Contents (Elt Ideal)) (x1 : (⟨S480000x128, .f32⟩ : BufTy).Contents (Elt Ideal))
  (x3 x4 : (⟨S480000, .i32⟩ : BufTy).Contents (Elt Ideal)) (x5 x6 x8 x11 : (⟨S128x128, .f32⟩ : BufTy).Contents (Elt Ideal))
  (x12 x15 x16 : (⟨S128, .f32⟩ : BufTy).Contents (Elt Ideal)) (x21 : (⟨S128x256, .f32⟩ : BufTy).Contents (Elt Ideal))
  (x22 : (⟨S256, .f32⟩ : BufTy).Contents (Elt Ideal)) (x23 : (⟨S256x128, .f32⟩ : BufTy).Contents (Elt Ideal))
  (x24 x27 x28 : (⟨S128, .f32⟩ : BufTy).Contents (Elt Ideal))
  (e : Fin 480000)

variable {x0 x1 x3 x4 x5 x6 x8 x11 x12 x15 x16 x21 x22 x23 x24 x27 x28 e}

-- A contraction over the row plus a bias broadcast down the rows: entry (e, j) reads row e of the operand only.
theorem v84_row {s : Fin 128 → EReal} (h : ∀ k, val_main_v26 (F := Ideal) x0 x1 x3 x4 x5 x6 x8 (ix2 e k) = s k) (j : Fin 128) :
    val_main_v84 (F := Ideal) x0 x1 x3 x4 x5 x6 x8 x11 x12 (ix2 e j)
      = rowOf x1 e j + ((∑ k : Fin 128, s k * matOf x11 k j) + vecOf x12 j) := by
  have hl : ∀ k : Fin 128, lidx_main_v80 (ix2 e j) k = ix2 e k := fun _ => eq_ix2 _
  have hr : ∀ k : Fin 128, ridx_main_v80 (ix2 e j) k = ix2 k j := fun _ => eq_ix2 _
  have hb : idx_main_v81 (idx_main_v82 (ix2 e j)) = ix1 j := eq_ix1 _
  rw [← funext h, val_main_v84_apply, val_main_v83_apply, val_main_v80_apply, val_main_v82_apply, val_main_v81_apply]
  simp only [hl, hr, hb]
  rfl

-- Every stage of the normalisation works inside one row; on a real row dividing by the root is multiplying by its inverse.
theorem v108_row {r : Fin 128 → EReal} (h : ∀ k, val_main_v84 (F := Ideal) x0 x1 x3 x4 x5 x6 x8 x11 x12 (ix2 e k) = r k)
    (hr : ∀ k, IsReal (r k)) (j : Fin 128) :
    val_main_v108 (F := Ideal) x0 x1 x3 x4 x5 x6 x8 x11 x12 x15 x16 (ix2 e j) = layerNorm r (vecOf x15) (vecOf x16) j := by
  have i1 : ∀ (c : Fin 1) (k : Fin 128), idx_main_v85 (idx_main_v86 (ix2 e c)) k = ix2 e k := fun _ _ => eq_ix2 _
  have i2 : ∀ (c : Fin 1) (k : Fin 128), idx_main_v92 (idx_main_v93 (ix2 e c)) k = ix2 e k := fun _ _ => eq_ix2 _
  have i3 : ∀ k : Fin 128, idx_main_v89 (ix2 e k) = ix2 e (0 : Fin 1) := fun _ => eq_ix2 _
  have i4 : idx_main_v96 (ix2 e j) = ix2 e (0 : Fin 1) := eq_ix2 _
  have i5 : idx_main_v101 (ix2 e j) = ix2 e (0 : Fin 1) := eq_ix2 _
  have i6 : idx_main_v103 (idx_main_v104 (ix2 e j)) = ix1 j := eq_ix1 _
  have i7 : idx_main_v106 (idx_main_v107 (ix2 e j)) = ix1 j := eq_ix1 _
  rw [← refNorm_eq _ _ _ hr, ← funext h]
  simp only [val_main_v108_apply, val_main_v105_apply, val_main_v102_apply, val_main_v97_apply, val_main_v96_apply,
    val_main_v88_apply, val_main_v86_apply, val_main_v85_apply, val_main_v87_apply, val_main_v101_apply,
    val_main_v100_apply, val_main_v99_apply, val_main_v95_apply, val_main_v93_apply, val_main_v92_apply,
    val_main_v91_apply, val_main_v90_apply, val_main_v89_apply, val_main_v94_apply, val_main_v98_apply,
    val_main_v104_apply, val_main_v103_apply, val_main_v107_apply, val_main_v106_apply, val_main_cst_16_apply,
    val_main_cst_17_apply, val_main_cst_18_apply, val_main_cst_19_apply, val_main_cst_20_apply, i1, i2, i3, i4, i5,
    i6, i7]
  rfl

-- The feed-forward block on row e: two contractions, the rectifier between them, added to the row.
theorem v152_row {n : Fin 128 → EReal} (h : ∀ k, val_main_v108 (F := Ideal) x0 x1 x3 x4 x5 x6 x8 x11 x12 x15 x16 (ix2 e k) = n k) (j : Fin 128) :
    val_main_v152 (F := Ideal) x0 x1 x3 x4 x5 x6 x8 x11 x12 x15 x16 x21 x22 x23 x24 (ix2 e j)
      = n j + ((∑ k : Fin 256, max ((∑ i : Fin 128, n i * matOf x21 i k) + vecOf x22 k) floor0 * matOf x23 k j)
          + vecOf x24 j) := by
  have hl : ∀ k : Fin 256, lidx_main_v148 (ix2 e j) k = ix2 e k := fun _ => eq_ix2 _
  have hr : ∀ k : Fin 256, ridx_main_v148 (ix2 e j) k = ix2 k j := fun _ => eq_ix2 _
  have hb : idx_main_v149 (idx_main_v150 (ix2 e j)) = ix1 j := eq_ix1 _
  have hl' : ∀ (k : Fin 256) (i : Fin 128), lidx_main_v143 (ix2 e k) i = ix2 e i := fun _ _ => eq_ix2 _
  have hr' : ∀ (k : Fin 256) (i : Fin 128), ridx_main_v143 (ix2 e k) i = ix2 i k := fun _ _ => eq_ix2 _
  have hb' : ∀ k : Fin 256, idx_main_v144 (idx_main_v145 (ix2 e k)) = ix1 k := fun _ => eq_ix1 _
  rw [← funext h]
  simp only [val_main_v152_apply, val_main_v151_apply, val_main_v148_apply, val_main_v150_apply, val_main_v149_apply,
    val_main_v147_apply, val_main_v146_apply, val_main_v143_apply, val_main_v145_apply, val_main_v144_apply,
    val_main_call2_v0_apply, val_main_call2_cst_apply, hl, hr, hb, hl', hr', hb']
  rfl

theorem v176_row {r : Fin 128 → EReal}
    (h : ∀ k, val_main_v152 (F := Ideal) x0 x1 x3 x4 x5 x6 x8 x11 x12 x15 x16 x21 x22 x23 x24 (ix2 e k) = r k)
    (hr : ∀ k, IsReal (r k)) (j : Fin 128) :
    val_main_v176 (F := Ideal) x0 x1 x3 x4 x5 x6 x8 x11 x12 x15 x16 x21 x22 x23 x24 x27 x28 (ix2 e j)
      = layerNorm r (vecOf x27) (vecOf x28) j := by
  have i1 : ∀ (c : Fin 1) (k : Fin 128), idx_main_v153 (idx_main_v154 (ix2 e c)) k = ix2 e k := fun _ _ => eq_ix2 _
  have i2 : ∀ (c : Fin 1) (k : Fin 128), idx_main_v160 (idx_main_v161 (ix2 e c)) k = ix2 e k := fun _ _ => eq_ix2 _
  have i3 : ∀ k : Fin 128, idx_main_v157 (ix2 e k) = ix2 e (0 : Fin 1) := fun _ => eq_ix2 _
  have i4 : idx_main_v164 (ix2 e j) = ix2 e (0 : Fin 1) := eq_ix2 _
  have i5 : idx_main_v169 (ix2 e j) = ix2 e (0 : Fin 1) := eq_ix2 _
  have i6 : idx_main_v171 (idx_main_v172 (ix2 e j)) = ix1 j := eq_ix1 _
  have i7 : idx_main_v174 (idx_main_v175 (ix2 e j)) = ix1 j := eq_ix1 _
  rw [← refNorm_eq _ _ _ hr, ← funext h]
  simp only [val_main_v176_apply, val_main_v173_apply, val_main_v170_apply, val_main_v165_apply, val_main_v164_apply,
    val_main_v156_apply, val_main_v154_apply, val_main_v153_apply, val_main_v155_apply, val_main_v169_apply,
    val_main_v168_apply, val_main_v167_apply, val_main_v163_apply, val_main_v161_apply, val_main_v160_apply,
    val_main_v159_apply, val_main_v158_apply, val_main_v157_apply, val_main_v162_apply, val_main_v166_apply,
    val_main_v172_apply, val_main_v171_apply, val_main_v175_apply, val_main_v174_apply, val_main_cst_26_apply,
    val_main_cst_27_apply, val_main_cst_28_apply, val_main_cst_29_apply, val_main_cst_30_apply, i1, i2, i3, i4, i5,
    i6, i7]
  rfl

variable (x0 x1 x3 x4 x5 x6 x8 x11 x12 x15 x16 x21 x22 x23 x24 x27 x28 e)

section Final

variable (kg qg : Fin 128 → EReal)
  (hscore : ∀ j, val_main_v26 (F := Ideal) x0 x1 x3 x4 x5 x6 x8 (ix2 e j)
    = score (weightsOf x8 x11 x12 x15 x16 x21 x22 x23 x24 x27 x28) (rowOf x1 e) kg qg j)
  (h1 : ∀ i, ∃ r : ℝ, x1 i = (r : EReal)) (h11 : ∀ i, ∃ r : ℝ, x11 i = (r : EReal))
  (h12 : ∀ i, ∃ r : ℝ, x12 i = (r : EReal)) (h15 : ∀ i, ∃ r : ℝ, x15 i = (r : EReal))
  (h16 : ∀ i, ∃ r : ℝ, x16 i = (r : EReal)) (h21 : ∀ i, ∃ r : ℝ, x21 i = (r : EReal))
  (h22 : ∀ i, ∃ r : ℝ, x22 i = (r : EReal)) (h23 : ∀ i, ∃ r : ℝ, x23 i = (r : EReal))
  (h24 : ∀ i, ∃ r : ℝ, x24 i = (r : EReal)) (h27 : ∀ i, ∃ r : ℝ, x27 i = (r : EReal))
  (h28 : ∀ i, ∃ r : ℝ, x28 i = (r : EReal))
  (hsreal : ∀ j, ∃ r : ℝ, score (weightsOf x8 x11 x12 x15 x16 x21 x22 x23 x24 x27 x28) (rowOf x1 e) kg qg j = (r : EReal))

include hscore h1 h11 h12 h15 h16 h21 h22 h23 h24 h27 h28 hsreal in

theorem edgeOut_eq (j : Fin 128) :
    val_main_v176 (F := Ideal) x0 x1 x3 x4 x5 x6 x8 x11 x12 x15 x16 x21 x22 x23 x24 x27 x28 (ix2 e j) = edgeOut (weightsOf x8 x11 x12 x15 x16 x21 x22 x23 x24 x27 x28) (rowOf x1 e) kg qg j := by
  have r1 : ∀ j, IsReal (res1 (weightsOf x8 x11 x12 x15 x16 x21 x22 x23 x24 x27 x28) (rowOf x1 e) kg qg j) := fun j =>
    IsReal.add (h1 _) (IsReal.add (IsReal.sum _ _ fun k _ => IsReal.mul (hsreal k) (h11 _)) (h12 _))
  have n1 : ∀ j, IsReal (layerNorm _ (vecOf x15) (vecOf x16) j) :=
    layerNorm_real _ _ _ r1 (fun _ => h15 _) (fun _ => h16 _)
  have e2 := v108_row (x15 := x15) (x16 := x16) (v84_row hscore) r1
  exact v176_row (v152_row e2) (fun j => IsReal.add (n1 j) (IsReal.add (IsReal.sum _ _ fun k _ => IsReal.mul
    (IsReal.max (IsReal.add (IsReal.sum _ _ fun i _ => IsReal.mul (n1 i) (h21 _)) (h22 _)) ⟨0, Ideal.ofBits_zero_f32⟩)
    (h23 _)) (h24 _))) j

end Final

end Stages

end Cert.ReferenceIdeal.RefValue
end
-- ==== Proof.Val.Bridge.lean ====
-- When the entry arrays hold, row by row, the rows the reference gathers, the row specification at them is the reference's stage.
import proofs.«406977_j9723805958288_1_alg».proof.Proof.Val.RefAttn
import proofs.«406977_j9723805958288_1_alg».proof.Proof.Val.RefEdge
import proofs.«406977_j9723805958288_1_alg».proof.Proof.Val.EdgeRow
import proofs.«406977_j9723805958288_1_alg».proof.Proof.Val.PreFacts

noncomputable section

namespace Cert.ReferenceIdeal.RefValue

open Cert.ReferenceIdeal Cert.ReferenceIdeal.Gen Cert.ReferenceIdeal.RefRead
open Idealize.ShloMosaic Idealize.ShloMosaic.ValueIdx
open Cert.EdgeRow

section Bridge

variable
  {a0 : FVec Ideal S30000x128 .f32} {a1 : FVec Ideal S480000x128 .f32} {a2 : FVec Ideal S500x300 .f32} {a3 : IVec S480000 32}
  {a4 : IVec S480000 32} {a5 : FVec Ideal S128x128 .f32} {a6 : FVec Ideal S128x128 .f32} {a7 : FVec Ideal S128x128 .f32}
  {a8 : FVec Ideal S128x128 .f32} {a9 : FVec Ideal S128x128 .f32} {a10 : FVec Ideal S128 .f32} {a11 : FVec Ideal S128x128 .f32}
  {a12 : FVec Ideal S128 .f32} {a13 : FVec Ideal S128 .f32} {a14 : FVec Ideal S128 .f32} {a15 : FVec Ideal S128 .f32}
  {a16 : FVec Ideal S128 .f32} {a17 : FVec Ideal S128x256 .f32} {a18 : FVec Ideal S256 .f32} {a19 : FVec Ideal S256x128 .f32}
  {a20 : FVec Ideal S128 .f32} {a21 : FVec Ideal S128x256 .f32} {a22 : FVec Ideal S256 .f32} {a23 : FVec Ideal S256x128 .f32}
  {a24 : FVec Ideal S128 .f32} {a25 : FVec Ideal S128 .f32} {a26 : FVec Ideal S128 .f32} {a27 : FVec Ideal S128 .f32}
  {a28 : FVec Ideal S128 .f32} {a29 : FVec Ideal S128x128 .f32} {a30 : FVec Ideal S300x128 .f32} {a31 : FVec Ideal S300x128 .f32}
  {a32 : FVec Ideal S128x128 .f32} {a33 : FVec Ideal S128 .f32} {a34 : FVec Ideal S128 .f32} {a35 : FVec Ideal S128 .f32}
  {a36 : FVec Ideal S128 .f32} {a37 : FVec Ideal S128x256 .f32} {a38 : FVec Ideal S256x128 .f32}
  (D : Cert.PreFacts.Decoded a0 a1 a2 a3 a4 a5 a6 a7 a8 a9 a10 a11 a12 a13 a14 a15 a16 a17 a18 a19 a20 a21 a22 a23 a24 a25 a26
    a27 a28 a29 a30 a31 a32 a33 a34 a35 a36 a37 a38)
  (X0 X1 X2 X3 : (⟨2, ![480000, 128]⟩ : Shape).Idx → EReal)
  (hX0 : X0 = a1)
  (hK : ∀ (e : Fin 480000) (j : Fin 128),
    X1 (ix2 e j) = val_main_v2 (F := Ideal) a0 a6 (ix2 (rowIdx a3 D.src_inRange e) j))
  (hQ : ∀ (e : Fin 480000) (j : Fin 128),
    X2 (ix2 e j) = val_main_v0 (F := Ideal) a0 a5 (ix2 (rowIdx a4 D.dst_inRange e) j))
  (hV : ∀ (e : Fin 480000) (j : Fin 128),
    X3 (ix2 e j) = val_main_v4 (F := Ideal) a0 a7 (ix2 (rowIdx a3 D.src_inRange e) j))

include hX0 in

theorem featRow_eq (e : Fin 480000) : rowOf X0 e = rowOf a1 e := by rw [hX0]

include hK in

theorem keyRow_eq (e : Fin 480000) :
    rowOf X1 e = rowOf (val_main_v2 (F := Ideal) a0 a6) (rowIdx a3 D.src_inRange e) := funext fun j => hK e j

include hQ in

theorem queryRow_eq (e : Fin 480000) :
    rowOf X2 e = rowOf (val_main_v0 (F := Ideal) a0 a5) (rowIdx a4 D.dst_inRange e) := funext fun j => hQ e j

include hV in

theorem valueRow_eq (e : Fin 480000) :
    rowOf X3 e = rowOf (val_main_v4 (F := Ideal) a0 a7) (rowIdx a3 D.src_inRange e) := funext fun j => hV e j

include hX0 hK hQ in

theorem edge_bridge (e : Fin 480000) (q : Fin 128) :
    edgeOut (weightsOf a8 a11 a12 a15 a16 a21 a22 a23 a24 a27 a28) (rowOf X0 e) (rowOf X1 e) (rowOf X2 e) q
      = val_main_v176 (F := Ideal) a0 a1 a3 a4 a5 a6 a8 a11 a12 a15 a16 a21 a22 a23 a24 a27 a28 (ix2 e q) := by
  rw [featRow_eq X0 hX0 e, keyRow_eq D X1 hK e, queryRow_eq D X2 hQ e]
  exact (edgeOut_eq a0 a1 a3 a4 a5 a6 a8 a11 a12 a15 a16 a21 a22 a23 a24 a27 a28 e _ _
    (fun j => scoreFlat_eq a0 a1 a3 a4 a5 a6 a8 D.src_inRange D.dst_inRange _ rfl e j)
    D.real_arg1 D.real_arg11 D.real_arg12 D.real_arg15 D.real_arg16 D.real_arg21 D.real_arg22 D.real_arg23
    D.real_arg24 D.real_arg27 D.real_arg28
    (score_real a0 a1 a3 a4 a5 a6 a8 D.real_arg0 D.real_arg1 D.real_arg5 D.real_arg6 D.real_arg8
      D.src_inRange D.dst_inRange _ rfl e) q).symm

include hX0 hK hQ hV in

theorem weighted_bridge (e : Fin 480000) (h : Fin 8) (d : Fin 16) :
    weighted (weightsOf a8 a11 a12 a15 a16 a21 a22 a23 a24 a27 a28) (rowOf X0 e) (rowOf X1 e) (rowOf X2 e) (rowOf X3 e)
        (headCol h d)
      = val_main_v39 (F := Ideal) a0 a1 a3 a4 a5 a6 a7 a8 (ix3 e h d) := by
  rw [featRow_eq X0 hX0 e, keyRow_eq D X1 hK e, queryRow_eq D X2 hQ e, valueRow_eq D X3 hV e]
  exact (weighted_eq a0 a1 a3 a4 a5 a6 a7 a8 D.src_inRange D.dst_inRange _ rfl e h d).symm

include hX0 hK hQ in

theorem attn_bridge (e : Fin 480000) (h : Fin 8) :
    attn (weightsOf a8 a11 a12 a15 a16 a21 a22 a23 a24 a27 a28) (rowOf X0 e) (rowOf X1 e) (rowOf X2 e) h
      = val_main_v30 (F := Ideal) a0 a1 a3 a4 a5 a6 a8 (ix3 e h (0 : Fin 1)) := by
  rw [featRow_eq X0 hX0 e, keyRow_eq D X1 hK e, queryRow_eq D X2 hQ e]
  exact (attn_eq a0 a1 a3 a4 a5 a6 a8 D.src_inRange D.dst_inRange _ rfl e h).symm

end Bridge

end Cert.ReferenceIdeal.RefValue

end
-- ==== Proof.Val.Region1Edge.lean ====
-- Entry (p, q) of the edge-feature output block is the specification's edge row of row p of the input blocks.
import proofs.«406977_j9723805958288_1_alg».proof.Proof.KI.Region1
import proofs.«406977_j9723805958288_1_alg».proof.Proof.Val.EdgeRow
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue.Edge

open Cert.KernelIdeal Cert.KernelIdeal.Gen Cert.KernelIdeal.Hand
open Idealize.ShloMosaic Idealize.ShloMosaic.ValueIdx
open Cert.EdgeRow
open scoped BigOperators

section Layout
variable {α : Type}

-- a vector stood up as a column keeps its entries
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    rw [Shape.rowMajor_val_two, Shape.rowMajor_val_one]
    show p.val = p.val * 1 + u.val
    omega)

-- a column repeated across the columns is the same number at every column
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) :=
  broadcastTo_apply v h (ix2 p c) (ix2 p (0 : Fin 1)) fun ax => match ax with
    | ⟨0, _⟩ => by
      show p.val = if a = 1 then 0 else p.val
      split
      · omega
      · rfl
    | ⟨1, _⟩ => rfl

end Layout

-- a rows-by-columns product into zeros: at (p, q), the sum over k of left (p, k) times right (k, q)
theorem dot_apply {M K N : ℕ} {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (p : Fin M) (q : Fin N) :
    matmul D none lhs rhs (constant (F := Ideal) ⟨2, ![M, N]⟩ .f32 0x00000000#32) (ix2 p q) = ∑ k : Fin K, lhs (ix2 p k) * rhs (ix2 k q) := by
  subst hD
  refine (Ideal.matmul_constant_zero_apply _ none lhs rhs _).trans ?_
  refine (Equiv.sum_comp (contrEquiv1 (DotDims.plain M K N) K rfl rfl).symm _).symm.trans (Finset.sum_congr rfl fun k _ => ?_)
  have hk := contrEquiv1_symm_val (DotDims.plain M K N) K rfl rfl k
  exact congrArg₂ (· * ·) (congrArg lhs (Shape.idx_ext₂ rfl hk)) (congrArg rhs (Shape.idx_ext₂ hk rfl))

-- a block summed along each row: at row p, the sum of the row's entries
theorem laneSum_apply (src : FVec Ideal S3000x128 .f32) (p : Fin 3000) :
    multiReduction .add [1] S3000 src 0x00000000#32 reduces_S3000x128_S3000 (.inl rfl) rfl (ix1 p) = ∑ k : Fin 128, src (ix2 p k) :=
  (Ideal.multiReduction_add_single src _ reduces_S3000x128_S3000 _ _ (ix1 p)).trans
    (Finset.sum_congr rfl fun k _ => congrArg src (Shape.idx_ext₂ rfl rfl))

section Norm
variable (Y : FVec Ideal S3000x128 .f32) (p : Fin 3000)

-- the column of row means of a block, and the column of the rows' squared deviations from it, as the step forms them
abbrev meanCol : FVec Ideal S3000x1 .f32 :=
  divf (shapeCast S3000x1 (multiReduction .add [1] S3000 Y 0x00000000#32 reduces_S3000x128_S3000 (.inl rfl) rfl) shapeCasts_S3000_S3000x1)
    (broadcast S3000x1 rowLen)
abbrev sqDevCol : FVec Ideal S3000x1 .f32 :=
  shapeCast S3000x1 (multiReduction .add [1] S3000
    (mulf (subf Y (broadcastTo S3000x128 (meanCol Y) broadcasts_S3000x1_S3000x128)) (subf Y (broadcastTo S3000x128 (meanCol Y) broadcasts_S3000x1_S3000x128)))
    0x00000000#32 reduces_S3000x128_S3000 (.inl rfl) rfl) shapeCasts_S3000_S3000x1

theorem meanCol_apply (u : Fin 1) : meanCol Y (ix2 p u) = mean (rowOf Y p) :=
  congrArg (Ideal.div · rowLen) ((shapeCast_a_a1_apply _ _ p u).trans (laneSum_apply Y p))

theorem sqDevCol_apply (u : Fin 1) :
    sqDevCol Y (ix2 p u) = ∑ j : Fin 128, (rowOf Y p j - mean (rowOf Y p)) * (rowOf Y p j - mean (rowOf Y p)) := by
  refine (shapeCast_a_a1_apply _ _ p u).trans ((laneSum_apply _ p).trans (Finset.sum_congr rfl fun j _ => ?_))
  show (Y (ix2 p j) - broadcastTo S3000x128 (meanCol Y) _ (ix2 p j)) * (Y (ix2 p j) - broadcastTo S3000x128 (meanCol Y) _ (ix2 p j)) = _
  rw [broadcastTo_a1_ab_apply, meanCol_apply]
  rfl

-- a row centred by the column M, scaled by the reciprocal root of SS over c plus epsilon, then gain and bias
def normRow (M SS : FVec Ideal S3000x1 .f32) (c : EReal) (g b : Fin 128 → EReal) (j : Fin 128) : EReal :=
  ((Y (ix2 p j) - M (ix2 p (0 : Fin 1))) * Ideal.rsqrt (Ideal.div (SS (ix2 p (0 : Fin 1))) c + lnEps)) * g j + b j

-- with the block's own two columns that is the row's layer normalisation: the variance is the mean squared deviation
theorem normRow_eq_layerNorm (g b : Fin 128 → EReal) :
    normRow Y p (meanCol Y) (sqDevCol Y) rowLen g b = layerNorm (rowOf Y p) g b := by
  funext j
  unfold normRow layerNorm var
  rw [meanCol_apply, sqDevCol_apply]
  rfl

end Norm

section Rows
variable (x0 x1 x2 : FVec Ideal S3000x128 .f32) (x4 x5 : FVec Ideal S128x128 .f32) (x6 x7 x8 : FVec Ideal S128 .f32)
  (x9 : FVec Ideal S128x256 .f32) (x10 : FVec Ideal S256 .f32) (x11 : FVec Ideal S256x128 .f32) (x12 x13 x14 : FVec Ideal S128 .f32)
  (p : Fin 3000)

-- the first and the second residual block of the step, over its own score block and its own mean and deviation columns
abbrev res1Blk : FVec Ideal S3000x128 .f32 := k1_pay14 (F := Ideal) x0 (k1_pay3 (F := Ideal) x0 x1 x2 x4) x5 x6
abbrev res2Blk : FVec Ideal S3000x128 .f32 :=
  k1_pay17 (F := Ideal) (res1Blk x0 x1 x2 x4 x5 x6) (meanCol (res1Blk x0 x1 x2 x4 x5 x6)) (sqDevCol (res1Blk x0 x1 x2 x4 x5 x6)) rowLen
    x7 x8 x9 x10 x11 x12

theorem scoreRow :
    rowOf (k1_pay3 (F := Ideal) x0 x1 x2 x4) p
      = score (weightsOf x4 x5 x6 x7 x8 x9 x10 x11 x12 x13 x14) (rowOf x0 p) (rowOf x1 p) (rowOf x2 p) := by
  funext q
  show k1_pay3 (F := Ideal) x0 x1 x2 x4 (ix2 p q) = _
  unfold k1_pay3
  simp only [mulf_apply, shapeCast_self, dot_apply dot_S3000x128_S128x128_S3000x128_1_0_0_1_n_n rfl, truncf_apply, broadcast_apply]
  rfl

theorem res1Row :
    rowOf (res1Blk x0 x1 x2 x4 x5 x6) p
      = res1 (weightsOf x4 x5 x6 x7 x8 x9 x10 x11 x12 x13 x14) (rowOf x0 p) (rowOf x1 p) (rowOf x2 p) := by
  funext q
  show k1_pay14 (F := Ideal) x0 _ x5 x6 (ix2 p q) = _
  unfold k1_pay14 res1
  rw [← scoreRow x0 x1 x2 x4 x5 x6 x7 x8 x9 x10 x11 x12 x13 x14 p]
  simp only [addf_apply, dot_apply dot_S3000x128_S128x128_S3000x128_1_0_0_1_n_n rfl, truncf_apply, broadcastTo_1b_ab_apply, shapeCast_a_1a_apply]
  rfl

theorem res2Row :
    rowOf (res2Blk x0 x1 x2 x4 x5 x6 x7 x8 x9 x10 x11 x12) p
      = res2 (weightsOf x4 x5 x6 x7 x8 x9 x10 x11 x12 x13 x14) (rowOf x0 p) (rowOf x1 p) (rowOf x2 p) := by
  funext q
  show k1_pay17 (F := Ideal) _ _ _ _ x7 x8 x9 x10 x11 x12 (ix2 p q) = _
  unfold k1_pay17 res2 EdgeRow.hidden norm1
  rw [← res1Row x0 x1 x2 x4 x5 x6 x7 x8 x9 x10 x11 x12 x13 x14 p, ← normRow_eq_layerNorm]
  simp only [addf_apply, mulf_apply, subf_apply, divf_apply, maximumf_apply, truncf_apply, broadcast_apply,
    dot_apply dot_S3000x256_S256x128_S3000x128_1_0_0_1_n_n rfl, dot_apply dot_S3000x128_S128x256_S3000x256_1_0_0_1_n_n rfl,
    broadcastTo_1b_ab_apply, shapeCast_a_1a_apply, broadcastTo_a1_ab_apply]
  rfl

theorem edgeRowAt (q : Fin 128) :
    k1_pay1 (F := Ideal) (res2Blk x0 x1 x2 x4 x5 x6 x7 x8 x9 x10 x11 x12) (meanCol (res2Blk x0 x1 x2 x4 x5 x6 x7 x8 x9 x10 x11 x12))
        (sqDevCol (res2Blk x0 x1 x2 x4 x5 x6 x7 x8 x9 x10 x11 x12)) x13 x14 (ix2 p q)
      = edgeOut (weightsOf x4 x5 x6 x7 x8 x9 x10 x11 x12 x13 x14) (rowOf x0 p) (rowOf x1 p) (rowOf x2 p) q := by
  unfold edgeOut
  rw [← res2Row x0 x1 x2 x4 x5 x6 x7 x8 x9 x10 x11 x12 x13 x14 p, ← normRow_eq_layerNorm]
  unfold k1_pay1
  simp only [addf_apply, mulf_apply, subf_apply, divf_apply, broadcast_apply, broadcastTo_1b_ab_apply, shapeCast_a_1a_apply,
    broadcastTo_a1_ab_apply]
  rfl

end Rows

end Cert.KernelIdeal.HandValue.Edge

namespace Cert.KernelIdeal.HandValue

open Cert.KernelIdeal Cert.KernelIdeal.Gen Cert.KernelIdeal.Hand
open Idealize.ShloMosaic Idealize.ShloMosaic.ValueIdx
open Cert.EdgeRow

-- entry (p, q) of the new edge-feature block is column q of the edge row of row p of the input blocks
theorem edgeOut_apply (x0 x1 x2 x3 : Vec Ideal S3000x128 .f32) (x4 x5 : Vec Ideal S128x128 .f32) (x6 x7 x8 : Vec Ideal S128 .f32)
    (x9 : Vec Ideal S128x256 .f32) (x10 : Vec Ideal S256 .f32) (x11 : Vec Ideal S256x128 .f32) (x12 x13 x14 : Vec Ideal S128 .f32)
    (p : Fin 3000) (q : Fin 128) :
    out1_17 (F := Ideal) x0 x1 x2 x3 x4 x5 x6 x7 x8 x9 x10 x11 x12 x13 x14 (ix2 p q)
      = edgeOut (weightsOf x4 x5 x6 x7 x8 x9 x10 x11 x12 x13 x14) (rowOf x0 p) (rowOf x1 p) (rowOf x2 p) q := by
  have hz2 : (![0, 0] : Fin 2 → Nat) = fun _ => 0 := funext fun a => match a with | ⟨0, _⟩ => rfl | ⟨1, _⟩ => rfl
  have hz1 : (![0] : Fin 1 → Nat) = fun _ => 0 := funext fun a => match a with | ⟨0, _⟩ => rfl
  unfold out1_17
  rw [View.canon_unit_zero (S := S3000x128) hz2]
  simp only [View.ld_unit_zero (S := S3000x128) hz2, View.ld_unit_zero (S := S128x128) hz2, View.ld_unit_zero (S := S128) hz1,
    View.ld_unit_zero (S := S128x256) hz2, View.ld_unit_zero (S := S256) hz1, View.ld_unit_zero (S := S256x128) hz2]
  exact Edge.edgeRowAt x0 x1 x2 x4 x5 x6 x7 x8 x9 x10 x11 x12 x13 x14 p q

end Cert.KernelIdeal.HandValue

end
-- ==== Proof.Val.Region1EdgeArray.lean ====
-- Block t of an edge-indexed window is rows 3000 t … 3000 t + 2999 of its array, a weight's block is the weight, and the 160 output blocks cover their arrays.
import proofs.«406977_j9723805958288_1_alg».proof.Proof.KI.Region1
import proofs.«406977_j9723805958288_1_alg».proof.Proof.Val.Region1Edge
import proofs.«406977_j9723805958288_1_alg».proof.Proof.Val.EdgeRow
import Idealize.ShloMosaic.Lib.Pipeline.Value
import Idealize.ShloMosaic.Lib.ValueIdx

noncomputable section

namespace Cert.KernelIdeal.HandValue.EdgeBlocks

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2 eq_ix1 eq_ix2 idx2_lt0 idx2_lt1)
open Cert.EdgeRow

variable (V : (c : Dev nD) → (b : Ref sig .tc) → Buf (Elt Ideal) ((c : Thread nD τ).loc b))

theorem rowsIndex : ∀ t : Fin cfg1.N, ∀ w ∈ ([0, 1, 2, 3, 15, 16, 17] : List (Fin cfg1.W)), ∀ a,
    (cfg1.win w).index t a = if a.val = 0 then t.val else 0 :=
  (by decide +kernel : ∀ t : Fin grid1.N, _)

theorem wholeIndex : ∀ t : Fin cfg1.N, ∀ w ∈ ([4, 5, 6, 7, 8, 9, 10, 11, 12, 13, 14] : List (Fin cfg1.W)), ∀ a,
    (cfg1.win w).index t a = 0 :=
  (by decide +kernel : ∀ t : Fin grid1.N, _)

abbrev edgeFeatArr (c : Dev nD) : S480000x128.Idx → EReal := V c (Pipeline.arrRef spec1 0)
abbrev keyArr (c : Dev nD) : S480000x128.Idx → EReal := V c (Pipeline.arrRef spec1 1)
abbrev queryArr (c : Dev nD) : S480000x128.Idx → EReal := V c (Pipeline.arrRef spec1 2)
abbrev valueArr (c : Dev nD) : S480000x128.Idx → EReal := V c (Pipeline.arrRef spec1 3)
abbrev weArr (c : Dev nD) : S128x128.Idx → EReal := V c (Pipeline.arrRef spec1 4)
abbrev oewArr (c : Dev nD) : S128x128.Idx → EReal := V c (Pipeline.arrRef spec1 5)
abbrev oebArr (c : Dev nD) : S128.Idx → EReal := V c (Pipeline.arrRef spec1 6)
abbrev g1Arr (c : Dev nD) : S128.Idx → EReal := V c (Pipeline.arrRef spec1 7)
abbrev b1Arr (c : Dev nD) : S128.Idx → EReal := V c (Pipeline.arrRef spec1 8)
abbrev f1wArr (c : Dev nD) : S128x256.Idx → EReal := V c (Pipeline.arrRef spec1 9)
abbrev f1bArr (c : Dev nD) : S256.Idx → EReal := V c (Pipeline.arrRef spec1 10)
abbrev f2wArr (c : Dev nD) : S256x128.Idx → EReal := V c (Pipeline.arrRef spec1 11)
abbrev f2bArr (c : Dev nD) : S128.Idx → EReal := V c (Pipeline.arrRef spec1 12)
abbrev g2Arr (c : Dev nD) : S128.Idx → EReal := V c (Pipeline.arrRef spec1 13)
abbrev b2Arr (c : Dev nD) : S128.Idx → EReal := V c (Pipeline.arrRef spec1 14)
abbrev edgeWeights (c : Dev nD) : Weights :=
  weightsOf (weArr V c) (oewArr V c) (oebArr V c) (g1Arr V c) (b1Arr V c) (f1wArr V c) (f1bArr V c) (f2wArr V c) (f2bArr V c)
    (g2Arr V c) (b2Arr V c)

-- an entry of a block of 3000 rows at block (t, 0) sits 3000 t rows down its array, in its own column
theorem rows_pos {C t : ℕ} {e idx : Fin 2 → ℕ} (y : (⟨2, ![3000, C]⟩ : Shape).Idx) (he : ∀ a, e a = idx a * ![3000, C] a + y a)
    (hi : ∀ a, idx a = if a.val = 0 then t else 0) : e 0 = 3000 * t + y 0 ∧ e 1 = y 1 := by
  rw [he 0, he 1, hi 0, hi 1]
  show (if (0 : ℕ) = 0 then t else 0) * 3000 + _ = _ ∧ (if (1 : ℕ) = 0 then t else 0) * C + _ = _
  rw [if_pos rfl, if_neg Nat.one_ne_zero]
  omega

-- so row p of the block is row 3000 t + p of the array
theorem rows_read {α : Type} {C t : ℕ} (A : (⟨2, ![480000, C]⟩ : Shape).Idx → α)
    {e : (⟨2, ![3000, C]⟩ : Shape).Idx → (⟨2, ![480000, C]⟩ : Shape).Idx}
    (he : ∀ y, (e y 0).val = 3000 * t + (y 0).val ∧ (e y 1).val = (y 1).val) (p : Fin 3000) (r : Fin 480000)
    (hr : r.val = 3000 * t + p.val) (j : Fin C) : A (e (ix2 p j)) = A (ix2 r j) :=
  congrArg A (Shape.idx_ext₂ ((he _).1.trans hr.symm) (he _).2)

-- a block at index 0 on every axis that fills its array is the array
theorem whole_read {S : Shape} {α : Type} (A : S.Idx → α) {e : S.Idx → S.Idx} (he : ∀ x a, (e x a : ℕ) = x a) (x : S.Idx) :
    A (e x) = A x :=
  congrArg A (funext fun a => Fin.ext (he x a))

theorem edgeFeatBlk_row (c : Dev nD) (t : Fin cfg1.N) (p : Fin 3000) (r : Fin 480000) (hr : r.val = 3000 * t.val + p.val) :
    rowOf (iblk1 V c 0 t : Vec Ideal S3000x128 .f32) p = rowOf (edgeFeatArr V c) r :=
  funext (rows_read (edgeFeatArr V c) (fun y => rows_pos y (win1_0.rect_emb_val t y) (rowsIndex t 0 (by decide))) p r hr)
theorem keyBlk_row (c : Dev nD) (t : Fin cfg1.N) (p : Fin 3000) (r : Fin 480000) (hr : r.val = 3000 * t.val + p.val) :
    rowOf (iblk1 V c 1 t : Vec Ideal S3000x128 .f32) p = rowOf (keyArr V c) r :=
  funext (rows_read (keyArr V c) (fun y => rows_pos y (win1_1.rect_emb_val t y) (rowsIndex t 1 (by decide))) p r hr)
theorem queryBlk_row (c : Dev nD) (t : Fin cfg1.N) (p : Fin 3000) (r : Fin 480000) (hr : r.val = 3000 * t.val + p.val) :
    rowOf (iblk1 V c 2 t : Vec Ideal S3000x128 .f32) p = rowOf (queryArr V c) r :=
  funext (rows_read (queryArr V c) (fun y => rows_pos y (win1_2.rect_emb_val t y) (rowsIndex t 2 (by decide))) p r hr)
theorem valueBlk_row (c : Dev nD) (t : Fin cfg1.N) (p : Fin 3000) (r : Fin 480000) (hr : r.val = 3000 * t.val + p.val) :
    rowOf (iblk1 V c 3 t : Vec Ideal S3000x128 .f32) p = rowOf (valueArr V c) r :=
  funext (rows_read (valueArr V c) (fun y => rows_pos y (win1_3.rect_emb_val t y) (rowsIndex t 3 (by decide))) p r hr)

theorem weBlk_eq (c : Dev nD) (t : Fin cfg1.N) : (iblk1 V c 4 t : Vec Ideal S128x128 .f32) = weArr V c :=
  funext (whole_read (weArr V c) fun x a => win1_4.rect_emb_val_of_index_zero t a (wholeIndex t 4 (by decide) a) x)
theorem oewBlk_eq (c : Dev nD) (t : Fin cfg1.N) : (iblk1 V c 5 t : Vec Ideal S128x128 .f32) = oewArr V c :=
  funext (whole_read (oewArr V c) fun x a => win1_5.rect_emb_val_of_index_zero t a (wholeIndex t 5 (by decide) a) x)
theorem oebBlk_eq (c : Dev nD) (t : Fin cfg1.N) : (iblk1 V c 6 t : Vec Ideal S128 .f32) = oebArr V c :=
  funext (whole_read (oebArr V c) fun x a => win1_6.rect_emb_val_of_index_zero t a (wholeIndex t 6 (by decide) a) x)
theorem g1Blk_eq (c : Dev nD) (t : Fin cfg1.N) : (iblk1 V c 7 t : Vec Ideal S128 .f32) = g1Arr V c :=
  funext (whole_read (g1Arr V c) fun x a => win1_7.rect_emb_val_of_index_zero t a (wholeIndex t 7 (by decide) a) x)
theorem b1Blk_eq (c : Dev nD) (t : Fin cfg1.N) : (iblk1 V c 8 t : Vec Ideal S128 .f32) = b1Arr V c :=
  funext (whole_read (b1Arr V c) fun x a => win1_8.rect_emb_val_of_index_zero t a (wholeIndex t 8 (by decide) a) x)
theorem f1wBlk_eq (c : Dev nD) (t : Fin cfg1.N) : (iblk1 V c 9 t : Vec Ideal S128x256 .f32) = f1wArr V c :=
  funext (whole_read (f1wArr V c) fun x a => win1_9.rect_emb_val_of_index_zero t a (wholeIndex t 9 (by decide) a) x)
theorem f1bBlk_eq (c : Dev nD) (t : Fin cfg1.N) : (iblk1 V c 10 t : Vec Ideal S256 .f32) = f1bArr V c :=
  funext (whole_read (f1bArr V c) fun x a => win1_10.rect_emb_val_of_index_zero t a (wholeIndex t 10 (by decide) a) x)
theorem f2wBlk_eq (c : Dev nD) (t : Fin cfg1.N) : (iblk1 V c 11 t : Vec Ideal S256x128 .f32) = f2wArr V c :=
  funext (whole_read (f2wArr V c) fun x a => win1_11.rect_emb_val_of_index_zero t a (wholeIndex t 11 (by decide) a) x)
theorem f2bBlk_eq (c : Dev nD) (t : Fin cfg1.N) : (iblk1 V c 12 t : Vec Ideal S128 .f32) = f2bArr V c :=
  funext (whole_read (f2bArr V c) fun x a => win1_12.rect_emb_val_of_index_zero t a (wholeIndex t 12 (by decide) a) x)
theorem g2Blk_eq (c : Dev nD) (t : Fin cfg1.N) : (iblk1 V c 13 t : Vec Ideal S128 .f32) = g2Arr V c :=
  funext (whole_read (g2Arr V c) fun x a => win1_13.rect_emb_val_of_index_zero t a (wholeIndex t 13 (by decide) a) x)
theorem b2Blk_eq (c : Dev nD) (t : Fin cfg1.N) : (iblk1 V c 14 t : Vec Ideal S128 .f32) = b2Arr V c :=
  funext (whole_read (b2Arr V c) fun x a => win1_14.rect_emb_val_of_index_zero t a (wholeIndex t 14 (by decide) a) x)

-- row r of an output array lies in the block of point r / 3000
theorem rows_covered {C : ℕ} (idx : Fin cfg1.N → Fin 2 → ℕ) (hi : ∀ t a, idx t a = if a.val = 0 then t.val else 0)
    (i : (⟨2, ![480000, C]⟩ : Shape).Idx) :
    ∃ t : Fin cfg1.N, ∀ a : Fin 2, idx t a * ![3000, C] a ≤ (i a).val ∧ (i a).val < idx t a * ![3000, C] a + ![3000, C] a := by
  obtain ⟨r, q, rfl⟩ : ∃ (r : Fin 480000) (q : Fin C), i = ix2 r q := ⟨i 0, i 1, eq_ix2 i⟩
  have hr := r.isLt
  have hq := q.isLt
  refine ⟨⟨r.val / 3000, by rw [show cfg1.N = 160 from N_1]; omega⟩, fun a => ?_⟩
  rw [hi]
  match a with
  | ⟨0, _⟩ => show (if (0 : ℕ) = 0 then r.val / 3000 else 0) * 3000 ≤ r.val ∧ r.val < _ * 3000 + 3000; rw [if_pos rfl]; omega
  | ⟨1, _⟩ => show (if (1 : ℕ) = 0 then r.val / 3000 else 0) * C ≤ q.val ∧ q.val < _ * C + C; rw [if_neg Nat.one_ne_zero]; omega

theorem weightedBlk_emb (t : Fin cfg1.N) (y : S3000x128.Idx) :
    ((((cfg1.win 15).blk t).view.emb y : S480000x128.Idx) 0).val = 3000 * t.val + (y 0).val
    ∧ ((((cfg1.win 15).blk t).view.emb y : S480000x128.Idx) 1).val = (y 1).val :=
  rows_pos y (win1_15.rect_emb_val t y) (rowsIndex t 15 (by decide))

theorem weighted_covered (i : S480000x128.Idx) :
    ∃ t : Fin cfg1.N, (cfg1.win 15).flush t = true ∧ i ∈ ((cfg1.win 15).blk t).view.set :=
  (rows_covered win1_15.index (fun t => rowsIndex t 15 (by decide)) i).imp fun t ht =>
    ⟨flush1_15 t, (Finset.ext_iff.1 (View.set_slice_whole main_v8_0 (win1_15.rect t)) i).2 (Rect.mem_set_unit.2 ht)⟩

theorem attnBlk_emb (t : Fin cfg1.N) (y : S3000x8.Idx) :
    ((((cfg1.win 16).blk t).view.emb y : S480000x8.Idx) 0).val = 3000 * t.val + (y 0).val
    ∧ ((((cfg1.win 16).blk t).view.emb y : S480000x8.Idx) 1).val = (y 1).val :=
  rows_pos y (win1_16.rect_emb_val t y) (rowsIndex t 16 (by decide))

theorem attn_covered (i : S480000x8.Idx) :
    ∃ t : Fin cfg1.N, (cfg1.win 16).flush t = true ∧ i ∈ ((cfg1.win 16).blk t).view.set :=
  (rows_covered win1_16.index (fun t => rowsIndex t 16 (by decide)) i).imp fun t ht =>
    ⟨flush1_16 t, (Finset.ext_iff.1 (View.set_slice_whole main_v8_1 (win1_16.rect t)) i).2 (Rect.mem_set_unit.2 ht)⟩

theorem edgeOutBlk_emb (t : Fin cfg1.N) (y : S3000x128.Idx) :
    ((((cfg1.win 17).blk t).view.emb y : S480000x128.Idx) 0).val = 3000 * t.val + (y 0).val
    ∧ ((((cfg1.win 17).blk t).view.emb y : S480000x128.Idx) 1).val = (y 1).val :=
  rows_pos y (win1_17.rect_emb_val t y) (rowsIndex t 17 (by decide))

theorem edgeOut_covered (i : S480000x128.Idx) :
    ∃ t : Fin cfg1.N, (cfg1.win 17).flush t = true ∧ i ∈ ((cfg1.win 17).blk t).view.set :=
  (rows_covered win1_17.index (fun t => rowsIndex t 17 (by decide)) i).imp fun t ht =>
    ⟨flush1_17 t, (Finset.ext_iff.1 (View.set_slice_whole main_v8_2 (win1_17.rect t)) i).2 (Rect.mem_set_unit.2 ht)⟩

end Cert.KernelIdeal.HandValue.EdgeBlocks

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx (ix1 ix2 eq_ix1 eq_ix2 idx2_lt0 idx2_lt1)
open Cert.EdgeRow
open Cert.KernelIdeal.HandValue.EdgeBlocks

variable (V : (c : Dev nD) → (b : Ref sig .tc) → Buf (Elt Ideal) ((c : Thread nD τ).loc b))

-- the edge row of every edge, laid as an array: at (e, q), column q of the edge row of edge e
def edgeArrayFn (c : Dev nD) : Vec Ideal S480000x128 .f32 := fun i =>
  edgeOut (edgeWeights V c) (rowOf (edgeFeatArr V c) (i 0)) (rowOf (keyArr V c) (i 0)) (rowOf (queryArr V c) (i 0)) (i 1)

-- point t's output block is block t of that array: its rows of the inputs are the arrays' rows, its weights the weights
theorem edgeOut_flushed (c : Dev nD) (t : Fin cfg1.N) :
    (dat1 (F := Ideal) V c).flushed 17 t = ((cfg1.win 17).blk t).view.read (Elt Ideal) (edgeArrayFn V c) := by
  show (cfg1.win 17).cut (grid1.coords t) ((dat1 V c).after 17 t) = _
  rw [after1_17]
  funext y
  obtain ⟨p, q, rfl⟩ : ∃ (p : Fin 3000) (q : Fin 128), y = ix2 p q := ⟨y 0, y 1, eq_ix2 y⟩
  obtain ⟨h0, h1⟩ := edgeOutBlk_emb t (ix2 p q)
  refine (edgeOut_apply _ _ _ _ _ _ _ _ _ _ _ _ _ _ _ p q).trans ?_
  rw [edgeFeatBlk_row V c t p _ h0, keyBlk_row V c t p _ h0, queryBlk_row V c t p _ h0, weBlk_eq V c t, oewBlk_eq V c t, oebBlk_eq V c t,
    g1Blk_eq V c t, b1Blk_eq V c t, f1wBlk_eq V c t, f1bBlk_eq V c t, f2wBlk_eq V c t, f2bBlk_eq V c t, g2Blk_eq V c t, b2Blk_eq V c t]
  exact congrArg _ (Fin.ext h1.symm)

theorem edge_array (c : Dev nD) (e : Fin 480000) (q : Fin 128) :
    @Eq EReal ((dat1 (F := Ideal) V c).arrAt 17 cfg1.N (ix2 e q))
      (edgeOut (edgeWeights V c) (rowOf (edgeFeatArr V c) e) (rowOf (keyArr V c) e) (rowOf (queryArr V c) e) q) :=
  congrFun ((dat1 (F := Ideal) V c).arrAt_eq_of_cover 17 (edgeArrayFn V c) (fun t _ => edgeOut_flushed V c t) edgeOut_covered) (ix2 e q)

end Cert.KernelIdeal.HandValue

end
-- ==== Proof.Val.KernelEdge.lean ====
-- The edge region's three output arrays are the reference's edge output, weighted values and attention weights at the launch arguments.
import proofs.«406977_j9723805958288_1_alg».proof.Proof.KI.Run
import proofs.«406977_j9723805958288_1_alg».proof.Proof.KI.Region1
import proofs.«406977_j9723805958288_1_alg».proof.Proof.Val.Bridge
import proofs.«406977_j9723805958288_1_alg».proof.Proof.Val.PreFacts
import proofs.«406977_j9723805958288_1_alg».proof.Proof.Val.EdgeRow
import proofs.«406977_j9723805958288_1_alg».proof.Proof.Ref.Read
import proofs.«406977_j9723805958288_1_alg».proof.Proof.Val.KeptAt
import proofs.«406977_j9723805958288_1_alg».proof.Proof.Val.Region1EdgeArray
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx (ix1 ix2 ix3 eq_ix2)
open Cert.EdgeRow
open Cert.KernelIdeal.HandValue.EdgeBlocks
open Cert.ReferenceIdeal (RefRead.val_main_v0 RefRead.val_main_v2 RefRead.val_main_v4 RefRead.val_main_v30
  RefRead.val_main_v39 RefRead.val_main_v176)

variable (m : (ℓ : Loc nD τ sig) → Buf (Elt Ideal) ℓ) (ρ : Dev nD → PrngReg) (c : Dev nD)

abbrev arg0 : (⟨2, ![30000, 128]⟩ : Shape).Idx → EReal := m ((c : Thread nD τ).loc main_arg0)
abbrev arg1 : (⟨2, ![480000, 128]⟩ : Shape).Idx → EReal := m ((c : Thread nD τ).loc main_arg1)
abbrev arg2 : (⟨2, ![500, 300]⟩ : Shape).Idx → EReal := m ((c : Thread nD τ).loc main_arg2)
abbrev arg3 : (⟨1, ![480000]⟩ : Shape).Idx → BitVec 32 := m ((c : Thread nD τ).loc main_arg3)
abbrev arg4 : (⟨1, ![480000]⟩ : Shape).Idx → BitVec 32 := m ((c : Thread nD τ).loc main_arg4)
abbrev arg5 : (⟨2, ![128, 128]⟩ : Shape).Idx → EReal := m ((c : Thread nD τ).loc main_arg5)
abbrev arg6 : (⟨2, ![128, 128]⟩ : Shape).Idx → EReal := m ((c : Thread nD τ).loc main_arg6)
abbrev arg7 : (⟨2, ![128, 128]⟩ : Shape).Idx → EReal := m ((c : Thread nD τ).loc main_arg7)
abbrev arg8 : (⟨2, ![128, 128]⟩ : Shape).Idx → EReal := m ((c : Thread nD τ).loc main_arg8)
abbrev arg9 : (⟨2, ![128, 128]⟩ : Shape).Idx → EReal := m ((c : Thread nD τ).loc main_arg9)
abbrev arg10 : (⟨1, ![128]⟩ : Shape).Idx → EReal := m ((c : Thread nD τ).loc main_arg10)
abbrev arg11 : (⟨2, ![128, 128]⟩ : Shape).Idx → EReal := m ((c : Thread nD τ).loc main_arg11)
abbrev arg12 : (⟨1, ![128]⟩ : Shape).Idx → EReal := m ((c : Thread nD τ).loc main_arg12)
abbrev arg13 : (⟨1, ![128]⟩ : Shape).Idx → EReal := m ((c : Thread nD τ).loc main_arg13)
abbrev arg14 : (⟨1, ![128]⟩ : Shape).Idx → EReal := m ((c : Thread nD τ).loc main_arg14)
abbrev arg15 : (⟨1, ![128]⟩ : Shape).Idx → EReal := m ((c : Thread nD τ).loc main_arg15)
abbrev arg16 : (⟨1, ![128]⟩ : Shape).Idx → EReal := m ((c : Thread nD τ).loc main_arg16)
abbrev arg17 : (⟨2, ![128, 256]⟩ : Shape).Idx → EReal := m ((c : Thread nD τ).loc main_arg17)
abbrev arg18 : (⟨1, ![256]⟩ : Shape).Idx → EReal := m ((c : Thread nD τ).loc main_arg18)
abbrev arg19 : (⟨2, ![256, 128]⟩ : Shape).Idx → EReal := m ((c : Thread nD τ).loc main_arg19)
abbrev arg20 : (⟨1, ![128]⟩ : Shape).Idx → EReal := m ((c : Thread nD τ).loc main_arg20)
abbrev arg21 : (⟨2, ![128, 256]⟩ : Shape).Idx → EReal := m ((c : Thread nD τ).loc main_arg21)
abbrev arg22 : (⟨1, ![256]⟩ : Shape).Idx → EReal := m ((c : Thread nD τ).loc main_arg22)
abbrev arg23 : (⟨2, ![256, 128]⟩ : Shape).Idx → EReal := m ((c : Thread nD τ).loc main_arg23)
abbrev arg24 : (⟨1, ![128]⟩ : Shape).Idx → EReal := m ((c : Thread nD τ).loc main_arg24)
abbrev arg25 : (⟨1, ![128]⟩ : Shape).Idx → EReal := m ((c : Thread nD τ).loc main_arg25)
abbrev arg26 : (⟨1, ![128]⟩ : Shape).Idx → EReal := m ((c : Thread nD τ).loc main_arg26)
abbrev arg27 : (⟨1, ![128]⟩ : Shape).Idx → EReal := m ((c : Thread nD τ).loc main_arg27)
abbrev arg28 : (⟨1, ![128]⟩ : Shape).Idx → EReal := m ((c : Thread nD τ).loc main_arg28)
abbrev arg29 : (⟨2, ![128, 128]⟩ : Shape).Idx → EReal := m ((c : Thread nD τ).loc main_arg29)
abbrev arg30 : (⟨2, ![300, 128]⟩ : Shape).Idx → EReal := m ((c : Thread nD τ).loc main_arg30)
abbrev arg31 : (⟨2, ![300, 128]⟩ : Shape).Idx → EReal := m ((c : Thread nD τ).loc main_arg31)
abbrev arg32 : (⟨2, ![128, 128]⟩ : Shape).Idx → EReal := m ((c : Thread nD τ).loc main_arg32)
abbrev arg33 : (⟨1, ![128]⟩ : Shape).Idx → EReal := m ((c : Thread nD τ).loc main_arg33)
abbrev arg34 : (⟨1, ![128]⟩ : Shape).Idx → EReal := m ((c : Thread nD τ).loc main_arg34)
abbrev arg35 : (⟨1, ![128]⟩ : Shape).Idx → EReal := m ((c : Thread nD τ).loc main_arg35)
abbrev arg36 : (⟨1, ![128]⟩ : Shape).Idx → EReal := m ((c : Thread nD τ).loc main_arg36)
abbrev arg37 : (⟨2, ![128, 256]⟩ : Shape).Idx → EReal := m ((c : Thread nD τ).loc main_arg37)
abbrev arg38 : (⟨2, ![256, 128]⟩ : Shape).Idx → EReal := m ((c : Thread nD τ).loc main_arg38)

section Results

variable
  (D : Cert.PreFacts.Decoded (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) (arg23 m c) (arg24 m c) (arg25 m c) (arg26 m c) (arg27 m c) (arg28 m c) (arg29 m c) (arg30 m c) (arg31 m c) (arg32 m c) (arg33 m c) (arg34 m c) (arg35 m c) (arg36 m c) (arg37 m c) (arg38 m c))

  (hK : ∀ (e : Fin 480000) (j : Fin 128),
    (W6 m ρ c (Proc.devRef .tc main_v5) : (⟨2, ![480000, 128]⟩ : Shape).Idx → EReal) (ix2 e j)
      = RefRead.val_main_v2 (F := Ideal) (arg0 m c) (arg6 m c) (ix2 (rowIdx (arg3 m c) D.src_inRange e) j))
  (hQ : ∀ (e : Fin 480000) (j : Fin 128),
    (W6 m ρ c (Proc.devRef .tc main_v6) : (⟨2, ![480000, 128]⟩ : Shape).Idx → EReal) (ix2 e j)
      = RefRead.val_main_v0 (F := Ideal) (arg0 m c) (arg5 m c) (ix2 (rowIdx (arg4 m c) D.dst_inRange e) j))
  (hV : ∀ (e : Fin 480000) (j : Fin 128),
    (W6 m ρ c (Proc.devRef .tc main_v7) : (⟨2, ![480000, 128]⟩ : Shape).Idx → EReal) (ix2 e j)
      = RefRead.val_main_v4 (F := Ideal) (arg0 m c) (arg7 m c) (ix2 (rowIdx (arg3 m c) D.src_inRange e) j))

  (hwtd : ∀ (e : Fin 480000) (q : Fin 128),
    @Eq EReal ((dat1 (F := Ideal) (V6 m ρ) c).arrAt 15 cfg1.N (ix2 e q))
      (weighted (edgeWeights (V6 m ρ) c) (rowOf (edgeFeatArr (V6 m ρ) c) e) (rowOf (keyArr (V6 m ρ) c) e)
        (rowOf (queryArr (V6 m ρ) c) e) (rowOf (valueArr (V6 m ρ) c) e) q))
  (hattn : ∀ (e : Fin 480000) (h : Fin 8),
    @Eq EReal ((dat1 (F := Ideal) (V6 m ρ) c).arrAt 16 cfg1.N (ix2 e h))
      (attn (edgeWeights (V6 m ρ) c) (rowOf (edgeFeatArr (V6 m ρ) c) e) (rowOf (keyArr (V6 m ρ) c) e)
        (rowOf (queryArr (V6 m ρ) c) e) h))

theorem edgeWeights_eq :
    edgeWeights (V6 m ρ) c = weightsOf (arg8 m c) (arg11 m c) (arg12 m c) (arg15 m c) (arg16 m c) (arg21 m c) (arg22 m c) (arg23 m c) (arg24 m c) (arg27 m c) (arg28 m c) := by
  have e4 : weArr (V6 m ρ) c = arg8 m c := W6_arg m ρ c (r := main_arg8) (by decide)
  have e5 : oewArr (V6 m ρ) c = arg11 m c := W6_arg m ρ c (r := main_arg11) (by decide)
  have e6 : oebArr (V6 m ρ) c = arg12 m c := W6_arg m ρ c (r := main_arg12) (by decide)
  have e7 : g1Arr (V6 m ρ) c = arg15 m c := W6_arg m ρ c (r := main_arg15) (by decide)
  have e8 : b1Arr (V6 m ρ) c = arg16 m c := W6_arg m ρ c (r := main_arg16) (by decide)
  have e9 : f1wArr (V6 m ρ) c = arg21 m c := W6_arg m ρ c (r := main_arg21) (by decide)
  have e10 : f1bArr (V6 m ρ) c = arg22 m c := W6_arg m ρ c (r := main_arg22) (by decide)
  have e11 : f2wArr (V6 m ρ) c = arg23 m c := W6_arg m ρ c (r := main_arg23) (by decide)
  have e12 : f2bArr (V6 m ρ) c = arg24 m c := W6_arg m ρ c (r := main_arg24) (by decide)
  have e13 : g2Arr (V6 m ρ) c = arg27 m c := W6_arg m ρ c (r := main_arg27) (by decide)
  have e14 : b2Arr (V6 m ρ) c = arg28 m c := W6_arg m ρ c (r := main_arg28) (by decide)
  show weightsOf (weArr (V6 m ρ) c) (oewArr (V6 m ρ) c) (oebArr (V6 m ρ) c) (g1Arr (V6 m ρ) c) (b1Arr (V6 m ρ) c)
    (f1wArr (V6 m ρ) c) (f1bArr (V6 m ρ) c) (f2wArr (V6 m ρ) c) (f2bArr (V6 m ρ) c) (g2Arr (V6 m ρ) c) (b2Arr (V6 m ρ) c) = _
  rw [e4, e5, e6, e7, e8, e9, e10, e11, e12, e13, e14]

theorem edgeFeatArr_eq : edgeFeatArr (V6 m ρ) c = arg1 m c := W6_arg m ρ c (r := main_arg1) (by decide)

include hK hQ in

theorem edge_result :
    (W12 m ρ c (Proc.devRef .tc main_v8_2) : (⟨2, ![480000, 128]⟩ : Shape).Idx → EReal)
      = RefRead.val_main_v176 (F := Ideal) (arg0 m c) (arg1 m c) (arg3 m c) (arg4 m c) (arg5 m c) (arg6 m c) (arg8 m c) (arg11 m c) (arg12 m c) (arg15 m c) (arg16 m c) (arg21 m c) (arg22 m c) (arg23 m c) (arg24 m c) (arg27 m c) (arg28 m c) := by
  funext i
  obtain ⟨e, q, rfl⟩ : ∃ (e : Fin 480000) (q : Fin 128), i = ix2 e q := ⟨i 0, i 1, eq_ix2 i⟩
  have h17 : (W12 m ρ c (Proc.devRef .tc main_v8_2) : (⟨2, ![480000, 128]⟩ : Shape).Idx → EReal)
      = (dat1 (F := Ideal) (V6 m ρ) c).arrAt 17 cfg1.N := (W12_main_v8_2 m ρ c).trans (W7_arr m ρ c 17)
  refine (congrFun h17 (ix2 e q)).trans ((edge_array (V6 m ρ) c e q).trans ?_)
  rw [edgeWeights_eq m ρ c]
  exact Cert.ReferenceIdeal.RefValue.edge_bridge D (edgeFeatArr (V6 m ρ) c) (keyArr (V6 m ρ) c) (queryArr (V6 m ρ) c)
    (edgeFeatArr_eq m ρ c) hK hQ e q

include hK hQ hV hwtd in

theorem weighted_result (e : Fin 480000) (h : Fin 8) (d : Fin 16) :
    (W7 m ρ c (Proc.devRef .tc main_v8_0) : (⟨2, ![480000, 128]⟩ : Shape).Idx → EReal) (ix2 e (headCol h d))
      = RefRead.val_main_v39 (F := Ideal) (arg0 m c) (arg1 m c) (arg3 m c) (arg4 m c) (arg5 m c) (arg6 m c) (arg7 m c) (arg8 m c) (ix3 e h d) := by
  have h15 : (W7 m ρ c (Proc.devRef .tc main_v8_0) : (⟨2, ![480000, 128]⟩ : Shape).Idx → EReal)
      = (dat1 (F := Ideal) (V6 m ρ) c).arrAt 15 cfg1.N := W7_arr m ρ c 15
  refine (congrFun h15 (ix2 e (headCol h d))).trans ((hwtd e (headCol h d)).trans ?_)
  rw [edgeWeights_eq m ρ c]
  exact Cert.ReferenceIdeal.RefValue.weighted_bridge D (edgeFeatArr (V6 m ρ) c) (keyArr (V6 m ρ) c)
    (queryArr (V6 m ρ) c) (valueArr (V6 m ρ) c) (edgeFeatArr_eq m ρ c) hK hQ hV e h d

include hK hQ hattn in

theorem attn_result (e : Fin 480000) (h : Fin 8) :
    (W7 m ρ c (Proc.devRef .tc main_v8_1) : (⟨2, ![480000, 8]⟩ : Shape).Idx → EReal) (ix2 e h)
      = RefRead.val_main_v30 (F := Ideal) (arg0 m c) (arg1 m c) (arg3 m c) (arg4 m c) (arg5 m c) (arg6 m c) (arg8 m c) (ix3 e h (0 : Fin 1)) := by
  have h16 : (W7 m ρ c (Proc.devRef .tc main_v8_1) : (⟨2, ![480000, 8]⟩ : Shape).Idx → EReal)
      = (dat1 (F := Ideal) (V6 m ρ) c).arrAt 16 cfg1.N := W7_arr m ρ c 16
  refine (congrFun h16 (ix2 e h)).trans ((hattn e h).trans ?_)
  rw [edgeWeights_eq m ρ c]
  exact Cert.ReferenceIdeal.RefValue.attn_bridge D (edgeFeatArr (V6 m ρ) c) (keyArr (V6 m ρ) c) (queryArr (V6 m ρ) c)
    (edgeFeatArr_eq m ρ c) hK hQ e h

end Results

end Cert.KernelIdeal.HandValue

end
-- ==== Proof.Val.GatherRows.lean ====
-- The gathered key, query and value rows are rows src e, dst e, src e of the reference's projections X · Wk, X · Wq, X · Wv.
import proofs.«406977_j9723805958288_1_alg».proof.Proof.KI.Run
import proofs.«406977_j9723805958288_1_alg».proof.Proof.Val.KeptAt
import proofs.«406977_j9723805958288_1_alg».proof.Proof.Val.Region0Value
import proofs.«406977_j9723805958288_1_alg».proof.Proof.Val.Gathers
import proofs.«406977_j9723805958288_1_alg».proof.Proof.Val.Gathers2
import proofs.«406977_j9723805958288_1_alg».proof.Proof.Val.KernelEdge
import proofs.«406977_j9723805958288_1_alg».proof.Proof.Val.PreFacts
import proofs.«406977_j9723805958288_1_alg».proof.Proof.Ref.Read

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.ValueIdx (ix1 ix2)
open Cert.EdgeRow

variable (m : (ℓ : Loc nD τ sig) → Buf (Elt Ideal) ℓ) (ρ : Dev nD → PrngReg) (c : Dev nD)

theorem proj_at_exit (r : Fin 30000) (cc : Fin 384) :
    (W2 m ρ c (Proc.devRef .tc main_v1) : S30000x384.Idx → EReal) (ix2 r cc)
      = ∑ k : Fin 128, arg0 m c (ix2 r k) * catW (W0 m ρ c) (ix2 k cc) := by
  have h2 : (W2 m ρ c (Proc.devRef .tc main_v1) : S30000x384.Idx → EReal)
      = (dat0 (F := Ideal) (V1 m ρ) c).arrAt 2 cfg0.N := W2_arr m ρ c 2
  have hX : featArr (V1 m ρ) c = arg0 m c := W1_arg m ρ c (r := main_arg0) (by decide)
  refine (congrFun h2 (ix2 r cc)).trans ((region0_value (V1 m ρ) c r cc).trans ?_)
  show ∑ k : Fin 128, featArr (V1 m ρ) c (ix2 r k) * catW (W0 m ρ c) (ix2 k cc) = _
  rw [hX]

theorem src_at_exit : W2 m ρ c (Proc.devRef .tc main_arg3) = arg3 m c := W2_arg m ρ c (r := main_arg3) (by decide)
theorem dst_at_exit : W2 m ρ c (Proc.devRef .tc main_arg4) = arg4 m c := W2_arg m ρ c (r := main_arg4) (by decide)

variable
  (D : Cert.PreFacts.Decoded (arg0 m c) (arg1 m c) (arg2 m c) (arg3 m c) (arg4 m c) (arg5 m c) (arg6 m c) (arg7 m c) (arg8 m c) (arg9 m c) (arg10 m c) (arg11 m c) (arg12 m c) (arg13 m c) (arg14 m c) (arg15 m c) (arg16 m c) (arg17 m c) (arg18 m c) (arg19 m c) (arg20 m c) (arg21 m c) (arg22 m c) (arg23 m c) (arg24 m c) (arg25 m c) (arg26 m c) (arg27 m c) (arg28 m c) (arg29 m c) (arg30 m c) (arg31 m c) (arg32 m c) (arg33 m c) (arg34 m c) (arg35 m c) (arg36 m c) (arg37 m c) (arg38 m c))

theorem key_rows : ∀ (e : Fin 480000) (j : Fin 128),
    (W6 m ρ c (Proc.devRef .tc main_v5) : (⟨2, ![480000, 128]⟩ : Shape).Idx → EReal) (ix2 e j)
      = Cert.ReferenceIdeal.RefRead.val_main_v2 (F := Ideal) (arg0 m c) (arg6 m c) (ix2 (rowIdx (arg3 m c) D.src_inRange e) j) :=
  fun e j =>
    (gathered_key (W2 m ρ c) (arg0 m c) (catW (W0 m ρ c)) (proj_at_exit m ρ c) (arg3 m c) (src_at_exit m ρ c)
        D.src_inRange e j).trans
      (key_join (arg0 m c) (catW (W0 m ρ c)) (rowIdx (arg3 m c) D.src_inRange e) j (arg6 m c)
        fun k j => catW_key (W0 m ρ c) (arg5 m c) (arg6 m c) (arg7 m c) rfl rfl rfl k j)

theorem query_rows : ∀ (e : Fin 480000) (j : Fin 128),
    (W6 m ρ c (Proc.devRef .tc main_v6) : (⟨2, ![480000, 128]⟩ : Shape).Idx → EReal) (ix2 e j)
      = Cert.ReferenceIdeal.RefRead.val_main_v0 (F := Ideal) (arg0 m c) (arg5 m c) (ix2 (rowIdx (arg4 m c) D.dst_inRange e) j) :=
  fun e j =>
    (gathered_query (W2 m ρ c) (arg0 m c) (catW (W0 m ρ c)) (proj_at_exit m ρ c) (arg4 m c) (dst_at_exit m ρ c)
        D.dst_inRange e j).trans
      (query_join (arg0 m c) (catW (W0 m ρ c)) (rowIdx (arg4 m c) D.dst_inRange e) j (arg5 m c)
        fun k j => catW_query (W0 m ρ c) (arg5 m c) (arg6 m c) (arg7 m c) rfl rfl rfl k j)

theorem value_rows : ∀ (e : Fin 480000) (j : Fin 128),
    (W6 m ρ c (Proc.devRef .tc main_v7) : (⟨2, ![480000, 128]⟩ : Shape).Idx → EReal) (ix2 e j)
      = Cert.ReferenceIdeal.RefRead.val_main_v4 (F := Ideal) (arg0 m c) (arg7 m c) (ix2 (rowIdx (arg3 m c) D.src_inRange e) j) :=
  fun e j =>
    (gathered_value (W2 m ρ c) (arg0 m c) (catW (W0 m ρ c)) (proj_at_exit m ρ c) (arg3 m c) (src_at_exit m ρ c)
        D.src_inRange e j).trans
      (value_join (arg0 m c) (catW (W0 m ρ c)) (rowIdx (arg3 m c) D.src_inRange e) j (arg7 m c)
        fun k j => catW_value (W0 m ρ c) (arg5 m c) (arg6 m c) (arg7 m c) rfl rfl rfl k j)

end Cert.KernelIdeal.HandValue

end
-- ==== Proof.Val.Region1Heads.lean ====
-- Entry (p, ·) of the attention-weight and weighted-value blocks is the specification's one-row function of row p of the inputs.
import proofs.«406977_j9723805958288_1_alg».proof.Proof.Gen.KernelIdeal.Skeleton
import proofs.«406977_j9723805958288_1_alg».proof.Proof.Val.EdgeRow
import proofs.«406977_j9723805958288_1_alg».proof.Proof.KI.Region1
import Idealize.ShloMosaic.Lib.Pipeline.Value
import Idealize.ShloMosaic.Lib.ValueIdx
import Idealize.ShloMosaic.PureOps.Ideal.Laws

noncomputable section

namespace Cert.KernelIdeal.HandValue

open Idealize.ShloMosaic Idealize.ShloMosaic.ValueIdx
open Cert.KernelIdeal Cert.KernelIdeal.Gen Cert.KernelIdeal.Hand Cert.EdgeRow
open scoped BigOperators

-- a rows-by-columns product into zeros: at (p, q), the sum over k of left (p, k) times right (k, q)
theorem dot_apply {M K N : ℕ} {φ₁ φ₂ : FTy} (D : DotDims ⟨2, ![M, K]⟩ ⟨2, ![K, N]⟩ ⟨2, ![M, N]⟩) (hD : D = DotDims.plain M K N)
    (lhs : FVec Ideal ⟨2, ![M, K]⟩ φ₁) (rhs : FVec Ideal ⟨2, ![K, N]⟩ φ₂) (p : Fin M) (q : Fin N) :
    matmul D none lhs rhs (constant (F := Ideal) ⟨2, ![M, N]⟩ .f32 0x00000000#32) (ix2 p q) = ∑ k : Fin K, lhs (ix2 p k) * rhs (ix2 k q) := by
  subst hD
  refine (Ideal.matmul_constant_zero_apply _ none lhs rhs _).trans ?_
  refine (Equiv.sum_comp (contrEquiv1 (DotDims.plain M K N) K rfl rfl).symm _).symm.trans (Finset.sum_congr rfl fun k _ => ?_)
  have hk := contrEquiv1_symm_val (DotDims.plain M K N) K rfl rfl k
  exact congrArg₂ (· * ·) (congrArg lhs (Shape.idx_ext₂ rfl hk)) (congrArg rhs (Shape.idx_ext₂ hk rfl))

section Heads
variable (x0 x1 x2 x3 : Vec Ideal S3000x128 .f32) (x4 x5 : Vec Ideal S128x128 .f32) (x6 x7 x8 : Vec Ideal S128 .f32)
  (x9 : Vec Ideal S128x256 .f32) (x10 : Vec Ideal S256 .f32) (x11 : Vec Ideal S256x128 .f32) (x12 x13 x14 : Vec Ideal S128 .f32)
  (p : Fin 3000)

theorem score_apply (q : Fin 128) :
    k1_pay3 (F := Ideal) x0 x1 x2 x4 (ix2 p q)
      = score (weightsOf x4 x5 x6 x7 x8 x9 x10 x11 x12 x13 x14) (rowOf x0 p) (rowOf x1 p) (rowOf x2 p) q := by
  unfold k1_pay3
  simp only [mulf_apply, shapeCast_self, dot_apply dot_S3000x128_S128x128_S3000x128_1_0_0_1_n_n rfl, truncf_apply, broadcast_apply]
  rfl

-- sixteen columns cut out at 16 h, added along the row and kept as a column: the head's sum of the row's scores
theorem headSum_of_slice (h : Fin 8) (o : Nat) (ho : o = 16 * h.val) (hs : S3000x128.Slices ![0, o] S3000x16) :
    shapeCast S3000x1 (multiReduction (F := Ideal) .add [1] S3000 (extractStridedSlice S3000x16 ![0, o] (k1_pay3 (F := Ideal) x0 x1 x2 x4) hs)
        0x00000000#32 reduces_S3000x16_S3000 (.inl rfl) rfl) shapeCasts_S3000_S3000x1 (ix2 p (0 : Fin 1))
      = headSum (weightsOf x4 x5 x6 x7 x8 x9 x10 x11 x12 x13 x14) (rowOf x0 p) (rowOf x1 p) (rowOf x2 p) h := by
  refine (shapeCast_apply _ _ _ (ix1 p) (by rw [Shape.rowMajor_val_one, Shape.rowMajor_val_two]; show p.val = p.val * 1 + 0; omega)).trans ?_
  refine (Ideal.multiReduction_add_single _ _ reduces_S3000x16_S3000 _ _ _).trans (Finset.sum_congr rfl fun d _ => ?_)
  refine (extractStridedSlice_apply _ _ hs _ (ix2 p (headCol h d)) fun a => match a with
    | ⟨0, _⟩ => (Nat.zero_add _).symm
    | ⟨1, _⟩ => by show 16 * h.val + d.val = o + d.val; omega).trans ?_
  exact score_apply x0 x1 x2 x4 x5 x6 x7 x8 x9 x10 x11 x12 x13 x14 p _

end Heads

-- eight blocks of one width side by side: column c of the whole is column c % wd of block c / wd, same row
theorem concat8_apply {α : Type} {n wd tw : ℕ} (v0 v1 v2 v3 v4 v5 v6 v7 : (⟨2, ![n, wd]⟩ : Shape).Idx → α)
    (hc : Shape.Concatenates (([⟨_, v0⟩, ⟨_, v1⟩, ⟨_, v2⟩, ⟨_, v3⟩, ⟨_, v4⟩, ⟨_, v5⟩, ⟨_, v6⟩, ⟨_, v7⟩] : List ((s : Shape) × (s.Idx → α))).map (·.1)) ⟨2, ![n, tw]⟩ 1)
    (p : Fin n) (c : Fin tw) (h : Fin 8) (d : Fin wd) (hh : c.val / wd = h.val) (hd : d.val = c.val % wd) :
    concatenate (⟨2, ![n, tw]⟩ : Shape) 1 [⟨_, v0⟩, ⟨_, v1⟩, ⟨_, v2⟩, ⟨_, v3⟩, ⟨_, v4⟩, ⟨_, v5⟩, ⟨_, v6⟩, ⟨_, v7⟩] hc (ix2 p c)
      = (![v0, v1, v2, v3, v4, v5, v6, v7] h) (ix2 p d) :=
  concatenate_ofFn_apply 1 ![v0, v1, v2, v3, v4, v5, v6, v7] hc rfl wd rfl (ix2 p c) h hh (ix2 p d) hd fun b hb => match b, hb with
    | ⟨0, _⟩, _ => rfl
    | ⟨1, _⟩, hb => absurd rfl hb

-- eight column blocks side by side, clipped and exponentiated: at (p, h) it reads block h at row p
theorem attnPay_apply (v0 v1 v2 v3 v4 v5 v6 v7 : FVec Ideal S3000x1 .f32) (p : Fin 3000) (h : Fin 8) :
    k1_pay12 (F := Ideal) v0 v1 v2 v3 v4 v5 v6 v7 (ix2 p h)
      = Ideal.exp (min clipHi (max clipLo ((![v0, v1, v2, v3, v4, v5, v6, v7] h) (ix2 p (0 : Fin 1))))) := by
  unfold k1_pay12
  exact congrArg (fun z => Ideal.exp (min clipHi (max clipLo z)))
    (concat8_apply v0 v1 v2 v3 v4 v5 v6 v7 _ p h h 0 (Nat.div_one _) (Nat.mod_one _).symm)

-- one column of the weights spread over sixteen columns: every column of row p holds the weight at (p, o)
theorem spread_apply {α : Type} (o : Nat) (ho : o < 8) (x : S3000x8.Idx → α) (hs : S3000x8.Slices ![0, o] S3000x1)
    (p : Fin 3000) (d : Fin 16) :
    broadcastTo S3000x16 (shapeCast S3000x1 (extractStridedSlice S3000x1 ![0, o] x hs) shapeCasts_S3000x1_S3000x1)
        broadcasts_S3000x1_S3000x16 (ix2 p d) = x (ix2 p (⟨o, ho⟩ : Fin 8)) := by
  rw [shapeCast_self]
  refine (broadcastTo_apply _ _ (ix2 p d) (ix2 p (0 : Fin 1)) fun a => match a with
    | ⟨0, _⟩ => rfl
    | ⟨1, _⟩ => rfl).trans ?_
  exact extractStridedSlice_apply _ x hs _ _ fun a => match a with
    | ⟨0, _⟩ => (Nat.zero_add _).symm
    | ⟨1, _⟩ => rfl

-- the value block times the spread weights: column q of row p is the value there times the weight of head q / 16
theorem weightedPay_apply (v : FVec Ideal S3000x128 .f32) (v0 v1 v2 v3 v4 v5 v6 v7 : FVec Ideal S3000x1 .f32) (p : Fin 3000) (q : Fin 128) :
    k1_pay13 (F := Ideal) v v0 v1 v2 v3 v4 v5 v6 v7 (ix2 p q) = v (ix2 p q) * k1_pay12 (F := Ideal) v0 v1 v2 v3 v4 v5 v6 v7 (ix2 p (headOf q)) := by
  unfold k1_pay13
  refine congrArg (v (ix2 p q) * ·) ((concat8_apply _ _ _ _ _ _ _ _ _ p q (headOf q) ⟨q.val % 16, Nat.mod_lt _ (by decide)⟩ rfl rfl).trans ?_)
  generalize headOf q = h
  have X := fun o ho hs => spread_apply o ho (k1_pay12 (F := Ideal) v0 v1 v2 v3 v4 v5 v6 v7) hs p ⟨q.val % 16, Nat.mod_lt _ (by decide)⟩
  match h with
  | ⟨0, _⟩ => exact X 0 (by decide) slices_S3000x8_o0_0_S3000x1
  | ⟨1, _⟩ => exact X 1 (by decide) slices_S3000x8_o0_1_S3000x1
  | ⟨2, _⟩ => exact X 2 (by decide) slices_S3000x8_o0_2_S3000x1
  | ⟨3, _⟩ => exact X 3 (by decide) slices_S3000x8_o0_3_S3000x1
  | ⟨4, _⟩ => exact X 4 (by decide) slices_S3000x8_o0_4_S3000x1
  | ⟨5, _⟩ => exact X 5 (by decide) slices_S3000x8_o0_5_S3000x1
  | ⟨6, _⟩ => exact X 6 (by decide) slices_S3000x8_o0_6_S3000x1
  | ⟨7, _⟩ => exact X 7 (by decide) slices_S3000x8_o0_7_S3000x1

theorem zero2 : (![0, 0] : Fin 2 → Nat) = fun _ => 0 := funext fun a => match a with | ⟨0, _⟩ => rfl | ⟨1, _⟩ => rfl

section Blocks
variable (x0 x1 x2 x3 : Vec Ideal S3000x128 .f32) (x4 x5 : Vec Ideal S128x128 .f32) (x6 x7 x8 : Vec Ideal S128 .f32)
  (x9 : Vec Ideal S128x256 .f32) (x10 : Vec Ideal S256 .f32) (x11 : Vec Ideal S256x128 .f32) (x12 x13 x14 : Vec Ideal S128 .f32)
  (p : Fin 3000)

-- the clipped exponential of the eight head sums at (p, h) is head h's weight on row p
theorem attnHeads_apply (h : Fin 8) :
    k1_pay12 (F := Ideal) (k1_pay4 (F := Ideal) x0 x1 x2 x4) (k1_pay5 (F := Ideal) x0 x1 x2 x4) (k1_pay6 (F := Ideal) x0 x1 x2 x4) (k1_pay7 (F := Ideal) x0 x1 x2 x4) (k1_pay8 (F := Ideal) x0 x1 x2 x4) (k1_pay9 (F := Ideal) x0 x1 x2 x4) (k1_pay10 (F := Ideal) x0 x1 x2 x4) (k1_pay11 (F := Ideal) x0 x1 x2 x4) (ix2 p h)
      = attn (weightsOf x4 x5 x6 x7 x8 x9 x10 x11 x12 x13 x14) (rowOf x0 p) (rowOf x1 p) (rowOf x2 p) h := by
  refine (attnPay_apply _ _ _ _ _ _ _ _ p h).trans (congrArg (fun z => Ideal.exp (min clipHi (max clipLo z))) ?_)
  have H := headSum_of_slice x0 x1 x2 x4 x5 x6 x7 x8 x9 x10 x11 x12 x13 x14 p
  match h with
  | ⟨0, _⟩ => exact H 0 0 rfl _
  | ⟨1, _⟩ => exact H 1 16 rfl _
  | ⟨2, _⟩ => exact H 2 32 rfl _
  | ⟨3, _⟩ => exact H 3 48 rfl _
  | ⟨4, _⟩ => exact H 4 64 rfl _
  | ⟨5, _⟩ => exact H 5 80 rfl _
  | ⟨6, _⟩ => exact H 6 96 rfl _
  | ⟨7, _⟩ => exact H 7 112 rfl _

theorem attn_apply (h : Fin 8) :
    out1_16 (F := Ideal) x0 x1 x2 x3 x4 x5 x6 x7 x8 x9 x10 x11 x12 x13 x14 (ix2 p h) = attn (weightsOf x4 x5 x6 x7 x8 x9 x10 x11 x12 x13 x14) (rowOf x0 p) (rowOf x1 p) (rowOf x2 p) h := by
  unfold out1_16
  rw [View.canon_unit_zero (S := S3000x8) zero2]
  simp only [View.ld_unit_zero (S := S3000x128) zero2, View.ld_unit_zero (S := S128x128) zero2]
  exact attnHeads_apply x0 x1 x2 x4 x5 x6 x7 x8 x9 x10 x11 x12 x13 x14 p h

theorem weighted_apply (q : Fin 128) :
    out1_15 (F := Ideal) x0 x1 x2 x3 x4 x5 x6 x7 x8 x9 x10 x11 x12 x13 x14 (ix2 p q)
      = weighted (weightsOf x4 x5 x6 x7 x8 x9 x10 x11 x12 x13 x14) (rowOf x0 p) (rowOf x1 p) (rowOf x2 p) (rowOf x3 p) q := by
  unfold out1_15
  rw [View.canon_unit_zero (S := S3000x128) zero2]
  simp only [View.ld_unit_zero (S := S3000x128) zero2, View.ld_unit_zero (S := S128x128) zero2]
  refine (weightedPay_apply _ _ _ _ _ _ _ _ _ p q).trans ?_
  unfold k1_pay2
  rw [shapeCast_self, attnHeads_apply x0 x1 x2 x4 x5 x6 x7 x8 x9 x10 x11 x12 x13 x14 p (headOf q)]
  rfl

end Blocks

end Cert.KernelIdeal.HandValue

end
-- ==== Proof.Val.Region1Arrays.lean ====
-- The weighted-value and attention-weight arrays after the edge region, each one row-wise function of the input arrays.
import proofs.«406977_j9723805958288_1_alg».proof.Proof.Val.Region1Heads
import proofs.«406977_j9723805958288_1_alg».proof.Proof.Val.Region1EdgeArray
import Idealize.ShloMosaic.Lib.Pipeline.Value

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)
open Cert.EdgeRow
open Cert.KernelIdeal.HandValue.EdgeBlocks

variable (V : (c : Dev nD) → (b : Ref sig .tc) → Buf (Elt Ideal) ((c : Thread nD τ).loc b))

-- the weights read off a point's eleven weight blocks are the layer's weights
theorem blockWeights_eq (c : Dev nD) (t : Fin cfg1.N) :
    weightsOf (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) = edgeWeights V c := by
  rw [weBlk_eq V c t, oewBlk_eq V c t, oebBlk_eq V c t, g1Blk_eq V c t, b1Blk_eq V c t, f1wBlk_eq V c t, f1bBlk_eq V c t, f2wBlk_eq V c t, f2bBlk_eq V c t, g2Blk_eq V c t, b2Blk_eq V c t]

-- the weighted value of every edge and column as one function of the input arrays, row by row
def weightedArr (c : Dev nD) : Vec Ideal S480000x128 .f32 := fun i =>
  weighted (edgeWeights V c) (rowOf (edgeFeatArr V c) (i 0)) (rowOf (keyArr V c) (i 0)) (rowOf (queryArr V c) (i 0)) (rowOf (valueArr V c) (i 0)) (i 1)

-- point t's output block is block t of it: the block's rows of the inputs are rows 3000 t + p of the arrays, where the entry lands
theorem weighted_flushed (c : Dev nD) (t : Fin cfg1.N) :
    (dat1 (F := Ideal) V c).flushed 15 t = ((cfg1.win 15).blk t).view.read (Elt Ideal) (weightedArr V c) := by
  show (cfg1.win 15).cut (grid1.coords t) ((dat1 V c).after 15 t) = _
  rw [after1_15]
  funext y
  obtain ⟨p, q, rfl⟩ : ∃ (p : Fin 3000) (q : Fin 128), y = ix2 p q := ⟨y 0, y 1, eq_ix2 y⟩
  obtain ⟨h0, h1⟩ := weightedBlk_emb t (ix2 p q)
  refine (weighted_apply _ _ _ _ _ _ _ _ _ _ _ _ _ _ _ p q).trans ?_
  rw [blockWeights_eq V c t, edgeFeatBlk_row V c t p _ h0, keyBlk_row V c t p _ h0, queryBlk_row V c t p _ h0, valueBlk_row V c t p _ h0]
  exact congrArg _ (Fin.ext h1.symm)

theorem weighted_array (c : Dev nD) (e : Fin 480000) (q : Fin 128) :
    @Eq EReal ((dat1 (F := Ideal) V c).arrAt 15 cfg1.N (ix2 e q))
      (weighted (edgeWeights V c) (rowOf (edgeFeatArr V c) e) (rowOf (keyArr V c) e) (rowOf (queryArr V c) e) (rowOf (valueArr V c) e) q) :=
  congrFun ((dat1 (F := Ideal) V c).arrAt_eq_of_cover 15 (weightedArr V c) (fun t _ => weighted_flushed V c t) weighted_covered) (ix2 e q)

-- the attention weight of every edge and head as one function of the input arrays, row by row
def attnArr (c : Dev nD) : Vec Ideal S480000x8 .f32 := fun i =>
  attn (edgeWeights V c) (rowOf (edgeFeatArr V c) (i 0)) (rowOf (keyArr V c) (i 0)) (rowOf (queryArr V c) (i 0)) (i 1)

theorem attn_flushed (c : Dev nD) (t : Fin cfg1.N) :
    (dat1 (F := Ideal) V c).flushed 16 t = ((cfg1.win 16).blk t).view.read (Elt Ideal) (attnArr V c) := by
  show (cfg1.win 16).cut (grid1.coords t) ((dat1 V c).after 16 t) = _
  rw [after1_16]
  funext y
  obtain ⟨p, h, rfl⟩ : ∃ (p : Fin 3000) (h : Fin 8), y = ix2 p h := ⟨y 0, y 1, eq_ix2 y⟩
  obtain ⟨h0, h1⟩ := attnBlk_emb t (ix2 p h)
  refine (attn_apply _ _ _ _ _ _ _ _ _ _ _ _ _ _ _ p h).trans ?_
  rw [blockWeights_eq V c t, edgeFeatBlk_row V c t p _ h0, keyBlk_row V c t p _ h0, queryBlk_row V c t p _ h0]
  exact congrArg _ (Fin.ext h1.symm)

theorem attn_array (c : Dev nD) (e : Fin 480000) (h : Fin 8) :
    @Eq EReal ((dat1 (F := Ideal) V c).arrAt 16 cfg1.N (ix2 e h))
      (attn (edgeWeights V c) (rowOf (edgeFeatArr V c) e) (rowOf (keyArr V c) e) (rowOf (queryArr V c) e) h) :=
  congrFun ((dat1 (F := Ideal) V c).arrAt_eq_of_cover 16 (attnArr V c) (fun t _ => attn_flushed V c t) attn_covered) (ix2 e h)

end Cert.KernelIdeal.HandValue

end
-- ==== Proof.Val.Scatter.lean ====
-- A scatter-add into zeros is a sum over the edges whose destination is the node; the two programs' quotients of segment sums agree when the summands do.
import proofs.«406977_j9723805958288_1_alg».proof.Proof.Gen.KernelIdeal.Launch
import proofs.«406977_j9723805958288_1_alg».proof.Proof.Ref.Read
import proofs.«406977_j9723805958288_1_alg».proof.Proof.Val.EdgeRow
import proofs.«406977_j9723805958288_1_alg».proof.Proof.LibStraightLine
import Idealize.ShloMosaic.Lib.Pipeline.Value
import Idealize.ShloMosaic.Lib.ValueIdx
import Idealize.ShloMosaic.PureOps.Ideal

set_option maxRecDepth 16384

noncomputable section

namespace Cert.KernelIdeal.HandValue

open Cert.KernelIdeal Cert.KernelIdeal.Gen
open Idealize.ShloMosaic Idealize.ShloMosaic.TcCoe Idealize.SL.Sem Idealize.ShloMosaic.StableHlo
open Idealize.ShloMosaic.ValueIdx (ix0 ix1 ix2 ix3 eq_ix2 eq_ix3)
open Cert.LibStraightLine
open Cert.EdgeRow (headCol)
open scoped BigOperators
open Cert.ReferenceIdeal.RefRead

namespace Scatter

theorem lands_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    rw [Option.some.injEq]
    constructor
    · intro e a
      have e' : (d.start j idx a + (d.window j a : Int)).toNat = (i a).val := congrArg (fun f => (f a).val) e
      have h0 := (h a).1
      omega
    · intro e
      funext a
      refine Fin.ext ?_
      show (d.start j idx a + (d.window j a : Int)).toNat = (i a).val
      have := e a
      omega
  · rename_i h
    constructor
    · intro e; cases e
    · intro e
      refine absurd (fun a => ?_) h
      have := e a
      have := (i a).isLt
      constructor <;> omega

theorem sum_lands {s si u : Shape} (d : ScatterDims s si u) {w : Nat} (idx : IVec si w) (upd : u.Idx → EReal) (i : s.Idx)
    [DecidablePred fun j => d.resultIdx? j idx = some i]
    {E : Nat} (P : Fin E → Prop) [DecidablePred P] (emb : Fin E → u.Idx) (hemb : Function.Injective emb)
    (h : ∀ j, d.resultIdx? j idx = some i ↔ ∃ e, P e ∧ emb e = j) :
    ∑ j ∈ Finset.univ.filter (fun j => d.resultIdx? j idx = some i), upd j
      = ∑ e ∈ Finset.univ.filter P, upd (emb e) := by
  classical
  rw [← Finset.sum_image (fun a _ b _ hab => hemb hab)]
  refine Finset.sum_congr (Finset.ext fun j => ?_) (fun _ _ => rfl)
  simp only [Finset.mem_filter, Finset.mem_univ, true_and, Finset.mem_image]
  exact h j

abbrev rowScatter2 (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev rowScatter3 (N E A B : Nat)
    (wf : ScatterDims.WF ⟨3, ![N, A, B]⟩ ⟨2, ![E, 1]⟩ ⟨3, ![E, A, B]⟩ [1, 2] [0] [0] 1) :
    ScatterDims ⟨3, ![N, A, B]⟩ ⟨2, ![E, 1]⟩ ⟨3, ![E, A, B]⟩ where
  updateWindowDims := [1, 2]
  insertedWindowDims := [0]
  scatterDimsToOperandDims := [0]
  indexVectorDim := 1
  wf := wf

section Rank2
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

theorem rowScatter2_start_row : (rowScatter2 N E C wf).start (ix2 e c) idx 0 = (idx (ix2 e 0)).toInt :=
  congrArg (fun k => (idx k).toInt) (eq_ix2 _)

end Rank2

section Rank3
variable {N E A B w : Nat} (wf : ScatterDims.WF ⟨3, ![N, A, B]⟩ ⟨2, ![E, 1]⟩ ⟨3, ![E, A, B]⟩ [1, 2] [0] [0] 1)
  (idx : IVec ⟨2, ![E, 1]⟩ w) (e : Fin E) (a : Fin A) (b : Fin B)

theorem rowScatter3_start_row : (rowScatter3 N E A B wf).start (ix3 e a b) idx 0 = (idx (ix2 e 0)).toInt :=
  congrArg (fun k => (idx k).toInt) (eq_ix2 _)

end Rank3

def segSum {E w N : Nat} (dst : IVec ⟨1, ![E]⟩ w) (n : Fin N) (f : Fin E → EReal) : EReal :=
  ∑ e ∈ Finset.univ.filter (fun e : Fin E => (dst (ix1 e)).toInt = (n.val : Int)), f e

theorem segSum_congr {E w N : Nat} (dst : IVec ⟨1, ![E]⟩ w) (n : Fin N) {f g : Fin E → EReal} (h : ∀ e, f e = g e) :
    segSum dst n f = segSum dst n g :=
  Finset.sum_congr rfl fun e _ => h e

theorem index_column {E w : Nat} (hb : (⟨1, ![E]⟩ : Shape).BroadcastsInDim ⟨2, ![E, 1]⟩ ![0]) (x : IVec ⟨1, ![E]⟩ w)
    (e : Fin E) : broadcastInDim ⟨2, ![E, 1]⟩ ![0] hb x (ix2 e 0) = x (ix1 e) :=
  broadcastInDim_apply _ hb x (ix2 e 0) (ix1 e) (fun a => match a with
    | ⟨0, _⟩ => by
      show e.val = if E = 1 then 0 else e.val
      have := e.isLt
      split <;> omega)

theorem hostDivf_apply {s : Shape} {φ : FTy} (a b : FVec Ideal s φ) (i : s.Idx) :
    Host.divf a b i = Ideal.div (a i) (b i) := rfl

theorem scalar_bcast_apply {t : Shape} (hb : (⟨0, ![]⟩ : Shape).BroadcastsInDim t ![]) (b : BitVec 32) (i : t.Idx) :
    broadcastInDim t ![] hb (constant (F := Ideal) ⟨0, ![]⟩ .f32 b) i = Ideal.ofBits .f32 b :=
  broadcastInDim_apply _ hb _ i ix0 (fun a => a.elim0)

theorem exists_headCol (j : Fin 128) : ∃ (h : Fin 8) (d : Fin 16), j = headCol h d :=
  ⟨⟨j.val / 16, by omega⟩, ⟨j.val % 16, by omega⟩, Fin.ext (by show j.val = 16 * (j.val / 16) + j.val % 16; omega)⟩

abbrev zeroWord : EReal := Ideal.ofBits .f32 0x00000000#32
theorem const_rowScatter2_segSum {N E C w : Nat}
    (wf : ScatterDims.WF ⟨2, ![N, C]⟩ ⟨2, ![E, 1]⟩ ⟨2, ![E, C]⟩ [1] [0] [0] 1)
    (hb : (⟨1, ![E]⟩ : Shape).BroadcastsInDim ⟨2, ![E, 1]⟩ ![0])
    (hz : (⟨0, ![]⟩ : Shape).BroadcastsInDim ⟨2, ![N, C]⟩ ![]) (b : BitVec 32) (dst : IVec ⟨1, ![E]⟩ w)
    (upd : (⟨2, ![E, C]⟩ : Shape).Idx → EReal) (n : Fin N) (c : Fin C) :
    Ideal.hostScatterAdd (rowScatter2 N E C wf)
        (broadcastInDim ⟨2, ![N, C]⟩ ![] hz (constant (F := Ideal) ⟨0, ![]⟩ .f32 b))
        (broadcastInDim ⟨2, ![E, 1]⟩ ![0] hb dst) upd (ix2 n c)
      = Ideal.ofBits .f32 b + segSum dst n fun e => upd (ix2 e c) := by
  unfold Ideal.hostScatterAdd segSum
  refine congrArg₂ (· + ·) (scalar_bcast_apply hz b _)
    (sum_lands _ _ upd _ _ (fun e => ix2 e c) (fun p q hpq => congrFun hpq 0) fun j => ?_)
  obtain ⟨e, c0, rfl⟩ : ∃ (e : Fin E) (c0 : Fin C), j = ix2 e c0 := ⟨j 0, j 1, eq_ix2 j⟩
  rw [lands_iff]
  constructor
  · intro h
    have h0 : (rowScatter2 N E C wf).start (ix2 e c0) _ 0 + ((0 : Nat) : Int) = (n.val : Int) := h 0
    have h1 : (0 : Int) + (c0.val : Int) = (c.val : Int) := h 1
    rw [rowScatter2_start_row, index_column] at h0
    exact ⟨e, (by omega : (dst (ix1 e)).toInt = (n.val : Int)), congrArg (ix2 e) (Fin.ext (by omega))⟩
  · rintro ⟨e', h, he⟩ a
    have h0 : e' = e := congrFun he 0
    have h1 : c = c0 := congrFun he 1
    subst h0 h1
    match a with
    | ⟨0, _⟩ =>
      show (rowScatter2 N E C wf).start (ix2 e' c) _ 0 + ((0 : Nat) : Int) = (n.val : Int)
      rw [rowScatter2_start_row, index_column]; omega
    | ⟨1, _⟩ => show (0 : Int) + (c.val : Int) = (c.val : Int); omega

theorem host_scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl

theorem scatter_rows128 : scatter_S30000x128_S480000x1_S480000x128_1_0_0_1
    = rowScatter2 30000 480000 128 scatter_S30000x128_S480000x1_S480000x128_1_0_0_1_wf := rfl
theorem scatter_rows8 : scatter_S30000x8_S480000x1_S480000x8_1_0_0_1
    = rowScatter2 30000 480000 8 scatter_S30000x8_S480000x1_S480000x8_1_0_0_1_wf := rfl

theorem kernel_weights_apply (dst : IVec S480000 32) (s : FVec Ideal S480000x8 .f32) (n : Fin 30000) (h : Fin 8)
    (d : Fin 16) :
    shapeCast S30000x128 (broadcastInDim S30000x8x16 ![0, 1] bcast_S30000x8_S30000x8x16_0_1
        (Host.scatterAdd (F := Ideal) scatter_S30000x8_S480000x1_S480000x8_1_0_0_1
          (broadcastInDim S30000x8 ![] bcast_S_S30000x8 (constant (F := Ideal) S_ .f32 0x00000000#32))
          (broadcastInDim S480000x1 ![0] bcast_S480000_S480000x1_0 dst) s))
      shapeCasts_S30000x8x16_S30000x128 (ix2 n (headCol h d))
    = zeroWord + segSum dst n fun e => s (ix2 e h) := by
  rw [host_scatterAdd_ideal, scatter_rows8]
  refine (shapeCast_apply _ _ _ (ix3 n h d) ?_).trans ?_
  · rw [Shape.rowMajor_val_three, Shape.rowMajor_val_two]
    show (n.val * 8 + h.val) * 16 + d.val = n.val * 128 + (16 * h.val + d.val)
    omega
  · refine (broadcastInDim_apply _ _ _ (ix3 n h d) (ix2 n h) (fun a => match a with
      | ⟨0, _⟩ => rfl
      | ⟨1, _⟩ => rfl)).trans ?_
    exact const_rowScatter2_segSum _ _ _ _ dst s n h

end Scatter

open Scatter

abbrev hostOps2_results : List (Ref sig .tc) :=
  [main_cst, main_v9, main_v10, main_v11, main_cst_0, main_v12, main_v13, main_v14, main_v15, main_v16, main_cst_1,
   main_v17, main_v18, main_v19, main_v20, main_v21, main_v22, main_v23, main_v24, main_cst_2, main_v25, main_v26,
   main_cst_3, main_v27, main_v28, main_v29, main_v30, main_v31, main_cst_4, main_v32, main_v33, main_cst_5, main_v34,
   main_v35, main_v36, main_v37, main_cst_6, main_v38, main_v39, main_v40, main_v41, main_v42, main_v43, main_v44,
   main_v45, main_v46, main_v47, main_v48, main_v49, main_v50, main_v51, main_v52]

theorem hostOps2_writes : Writes (hostOps2 (F := Ideal)) hostOps2_results := by
  repeat' (first | exact Writes.nil | refine Writes.cons rfl ?_)

local macro "ut" : term => `(hostOps2_writes.untouched (by decide))

namespace Scatter

theorem const_rowScatter3_segSum {N E A B w : Nat}
    (wf : ScatterDims.WF ⟨3, ![N, A, B]⟩ ⟨2, ![E, 1]⟩ ⟨3, ![E, A, B]⟩ [1, 2] [0] [0] 1)
    (hb : (⟨1, ![E]⟩ : Shape).BroadcastsInDim ⟨2, ![E, 1]⟩ ![0])
    (hz : (⟨0, ![]⟩ : Shape).BroadcastsInDim ⟨3, ![N, A, B]⟩ ![]) (q : BitVec 32) (dst : IVec ⟨1, ![E]⟩ w)
    (upd : (⟨3, ![E, A, B]⟩ : Shape).Idx → EReal) (n : Fin N) (a : Fin A) (b : Fin B) :
    Ideal.hostScatterAdd (rowScatter3 N E A B wf)
        (broadcastInDim ⟨3, ![N, A, B]⟩ ![] hz (constant (F := Ideal) ⟨0, ![]⟩ .f32 q))
        (broadcastInDim ⟨2, ![E, 1]⟩ ![0] hb dst) upd (ix3 n a b)
      = Ideal.ofBits .f32 q + segSum dst n fun e => upd (ix3 e a b) := by
  unfold Ideal.hostScatterAdd segSum
  refine congrArg₂ (· + ·) (scalar_bcast_apply hz q _)
    (sum_lands _ _ upd _ _ (fun e => ix3 e a b) (fun p q hpq => congrFun hpq 0) fun j => ?_)
  obtain ⟨e, a0, b0, rfl⟩ : ∃ (e : Fin E) (a0 : Fin A) (b0 : Fin B), j = ix3 e a0 b0 := ⟨j 0, j 1, j 2, eq_ix3 j⟩
  rw [lands_iff]
  constructor
  · intro h
    have h0 : (rowScatter3 N E A B wf).start (ix3 e a0 b0) _ 0 + ((0 : Nat) : Int) = (n.val : Int) := h 0
    have h1 : (0 : Int) + (a0.val : Int) = (a.val : Int) := h 1
    have h2 : (0 : Int) + (b0.val : Int) = (b.val : Int) := h 2
    rw [rowScatter3_start_row, index_column] at h0
    exact ⟨e, (by omega : (dst (ix1 e)).toInt = (n.val : Int)), congrArg₂ (ix3 e) (Fin.ext (by omega)) (Fin.ext (by omega))⟩
  · rintro ⟨e', h, he⟩ r
    have h0 : e' = e := congrFun he 0
    have h1 : a = a0 := congrFun he 1
    have h2 : b = b0 := congrFun he 2
    subst h0 h1 h2
    match r with
    | ⟨0, _⟩ =>
      show (rowScatter3 N E A B wf).start (ix3 e' a b) _ 0 + ((0 : Nat) : Int) = (n.val : Int)
      rw [rowScatter3_start_row, index_column]; omega
    | ⟨1, _⟩ => show (0 : Int) + (a.val : Int) = (a.val : Int); omega
    | ⟨2, _⟩ => show (0 : Int) + (b.val : Int) = (b.val : Int); omega

theorem ref_scatter_rows16 : Cert.ReferenceIdeal.scatter_S30000x8x16_S480000x1_S480000x8x16_12_0_0_1
    = rowScatter3 30000 480000 8 16 Cert.ReferenceIdeal.Gen.scatter_S30000x8x16_S480000x1_S480000x8x16_12_0_0_1_wf := rfl
theorem ref_scatter_rows1 : Cert.ReferenceIdeal.scatter_S30000x8x1_S480000x1_S480000x8x1_12_0_0_1
    = rowScatter3 30000 480000 8 1 Cert.ReferenceIdeal.Gen.scatter_S30000x8x1_S480000x1_S480000x8x1_12_0_0_1_wf := rfl

theorem ref_idx50 (n : Fin 30000) (h : Fin 8) (d : Fin 16) : idx_main_v50 (ix2 n (headCol h d)) = ix3 n h d := by
  funext a; refine Fin.ext ?_
  match a with
  | ⟨0, _⟩ => show (n.val * 128 + (16 * h.val + d.val)) / 128 = n.val; omega
  | ⟨1, _⟩ => show (n.val * 128 + (16 * h.val + d.val)) / 16 % 8 = h.val; omega
  | ⟨2, _⟩ => show (n.val * 128 + (16 * h.val + d.val)) % 16 = d.val; omega

theorem ref_idx48 (n : Fin 30000) (h : Fin 8) (d : Fin 16) : idx_main_v48 (ix3 n h d) = ix3 n h 0 :=
  eq_ix3 _

section Reference
variable (x0 : (⟨S30000x128, .f32⟩ : BufTy).Contents (Elt Ideal)) (x1 : (⟨S480000x128, .f32⟩ : BufTy).Contents (Elt Ideal))
  (x3 x4 : (⟨S480000, .i32⟩ : BufTy).Contents (Elt Ideal)) (x5 x6 x7 x8 : (⟨S128x128, .f32⟩ : BufTy).Contents (Elt Ideal))

theorem ref_numer_apply (n : Fin 30000) (h : Fin 8) (d : Fin 16) :
    val_main_v42 (F := Ideal) x0 x1 x3 x4 x5 x6 x7 x8 (ix3 n h d)
      = zeroWord + segSum x4 n fun e => val_main_v39 (F := Ideal) x0 x1 x3 x4 x5 x6 x7 x8 (ix3 e h d) := by
  unfold val_main_v42 val_main_v40 val_main_v41 val_main_cst_8
  rw [host_scatterAdd_ideal, ref_scatter_rows16]
  exact const_rowScatter3_segSum _ _ _ _ x4 _ n h d

theorem ref_weights_apply (n : Fin 30000) (h : Fin 8) :
    val_main_v45 (F := Ideal) x0 x1 x3 x4 x5 x6 x8 (ix3 n h 0)
      = zeroWord + segSum x4 n fun e => val_main_v30 (F := Ideal) x0 x1 x3 x4 x5 x6 x8 (ix3 e h 0) := by
  unfold val_main_v45 val_main_v43 val_main_v44 val_main_cst_9
  rw [host_scatterAdd_ideal, ref_scatter_rows1]
  exact const_rowScatter3_segSum _ _ _ _ x4 _ n h 0

end Reference

end Scatter

theorem hatt_eq (W : Valuation τ sig (Elt Ideal)) (dst : IVec S480000 32) (Vs : FVec Ideal S480000x128 .f32)
    (s : FVec Ideal S480000x8 .f32)
    (x0 : (⟨S30000x128, .f32⟩ : BufTy).Contents (Elt Ideal)) (x1 : (⟨S480000x128, .f32⟩ : BufTy).Contents (Elt Ideal))
    (x3 x4 : (⟨S480000, .i32⟩ : BufTy).Contents (Elt Ideal)) (x5 x6 x7 x8 : (⟨S128x128, .f32⟩ : BufTy).Contents (Elt Ideal))
    (hd : W (Proc.devRef .tc main_arg4) = dst) (hV : W (Proc.devRef .tc main_v8_0) = Vs)
    (hs : W (Proc.devRef .tc main_v8_1) = s) (hx4 : x4 = dst)
    (hVs : ∀ (e : Fin 480000) (h : Fin 8) (d : Fin 16),
      Vs (ix2 e (headCol h d)) = val_main_v39 (F := Ideal) x0 x1 x3 x4 x5 x6 x7 x8 (ix3 e h d))
    (hss : ∀ (e : Fin 480000) (h : Fin 8),
      s (ix2 e h) = val_main_v30 (F := Ideal) x0 x1 x3 x4 x5 x6 x8 (ix3 e h 0)) :
    after (hostOps2 (F := Ideal)) W (Proc.devRef .tc main_v19) = val_main_v50 (F := Ideal) x0 x1 x3 x4 x5 x6 x7 x8 := by
  subst hx4
  funext i
  obtain ⟨n, j, rfl⟩ : ∃ (n : Fin 30000) (j : Fin 128), i = ix2 n j := ⟨i 0, i 1, eq_ix2 i⟩
  obtain ⟨h, d, rfl⟩ := exists_headCol j
  have k4 := hostOps2_writes.kept W (r := main_arg4) (by decide)
  have kV := hostOps2_writes.kept W (r := main_v8_0) (by decide)
  have ks := hostOps2_writes.kept W (r := main_v8_1) (by decide)
  rw [hd] at k4; rw [hV] at kV; rw [hs] at ks
  have e9 := (after_unary W 1 rfl ut ut).trans (congrArg _ (after_nullary W 0 rfl ut))
  have e10 := (after_unary W 2 rfl ut ut).trans (congrArg _ k4)
  have e11 := after_ternary W 3 rfl ut ut ut ut
  rw [e9, e10, kV] at e11
  have e12 := (after_unary W 5 rfl ut ut).trans (congrArg _ (after_nullary W 4 rfl ut))
  have e13 := (after_unary W 6 rfl ut ut).trans (congrArg _ k4)
  have e14 := after_ternary W 7 rfl ut ut ut ut
  rw [e12, e13, ks] at e14
  have e15 := (after_unary W 8 rfl ut ut).trans (congrArg _ e14)
  have e16 := after_reshape W 9 rfl ut ut e15
  have e17 := (after_unary W 11 rfl ut ut).trans (congrArg _ (after_nullary W 10 rfl ut))
  have e18 := after_binary W 12 rfl ut ut ut
  rw [e16, e17] at e18
  have e19 := after_binary W 13 rfl ut ut ut
  rw [e11, e18] at e19
  rw [e19, val_main_v50_apply, ref_idx50, val_main_v49_apply, val_main_v48_apply, ref_idx48, val_main_v47_apply,
    val_main_v46_apply, val_main_cst_10_apply, ref_numer_apply, ref_weights_apply,
    ← segSum_congr x4 n (fun e => hVs e h d), ← segSum_congr x4 n (fun e => hss e h)]
  refine (hostDivf_apply _ _ _).trans (congrArg₂ Ideal.div ?_ ?_)
  · rw [host_scatterAdd_ideal, scatter_rows128]
    exact const_rowScatter2_segSum _ _ _ _ x4 Vs n (headCol h d)
  · refine (ValueIdx.addf_apply _ _ _).trans (congrArg₂ (· + ·) ?_ (scalar_bcast_apply _ _ _))
    exact kernel_weights_apply x4 s n h d

end Cert.KernelIdeal.HandValue

end
-- ==== Proof.Val.NodeTail.lean ====
-- Output projection, residual and first layer normalisation: each host operation's buffer holds the reference's matching stage.
import proofs.«406977_j9723805958288_1_alg».proof.Proof.Gen.KernelIdeal.Launch
import proofs.«406977_j9723805958288_1_alg».proof.Proof.Ref.Read
import proofs.«406977_j9723805958288_1_alg».proof.Proof.LibStraightLine

set_option maxRecDepth 16384

noncomputable section

namespace Cert.KernelIdeal.HandValue

open Cert.KernelIdeal Cert.KernelIdeal.Gen
open Idealize.ShloMosaic Idealize.ShloMosaic.TcCoe Idealize.ShloMosaic.StableHlo
open Cert.LibStraightLine
open Cert.ReferenceIdeal.RefRead

namespace NodeTail

section Line

variable {τ : Topo} {sig : RefSig} {Val : EltTy → Type} {l : List (HloOp τ sig Val)} {wr : List (Ref sig .tc)}

theorem lineKept (hw : Writes l wr) (V : Valuation τ sig Val) {r : Ref sig .tc} (hr : r ∉ wr := by decide) :
    after l V (Proc.devRef .tc r) = V (Proc.devRef .tc r) :=
  hw.kept V hr

theorem lineNullary (hw : Writes l wr) (V : Valuation τ sig Val) (k : Nat) {y : Ref sig .tc} {v : y.ty.Contents Val} {hy}
    (hk : l[k]? = some (nullary y v hy)) (uy : y ∉ wr.drop (k + 1) := by decide) :
    after l V (Proc.devRef .tc y) = v :=
  after_nullary V k hk (hw.untouched uy)

theorem lineUnary (hw : Writes l wr) (V : Valuation τ sig Val) (k : Nat) {x y : Ref sig .tc}
    {f : x.ty.Contents Val → y.ty.Contents Val} {hx hy}
    (hk : l[k]? = some (unary x y f hx hy)) (uy : y ∉ wr.drop (k + 1) := by decide) (ux : x ∉ wr.drop k := by decide) :
    after l V (Proc.devRef .tc y) = f (after l V (Proc.devRef .tc x)) :=
  after_unary V k hk (hw.untouched uy) (hw.untouched ux)

theorem lineBinary (hw : Writes l wr) (V : Valuation τ sig Val) (k : Nat) {a b y : Ref sig .tc}
    {f : a.ty.Contents Val → b.ty.Contents Val → y.ty.Contents Val} {ha hb hy}
    (hk : l[k]? = some (binary a b y f ha hb hy)) (uy : y ∉ wr.drop (k + 1) := by decide)
    (ua : a ∉ wr.drop k := by decide) (ub : b ∉ wr.drop k := by decide) :
    after l V (Proc.devRef .tc y) = f (after l V (Proc.devRef .tc a)) (after l V (Proc.devRef .tc b)) :=
  after_binary V k hk (hw.untouched uy) (hw.untouched ua) (hw.untouched ub)

end Line

variable {F : FTy → Type} [FloatOps F]

def written2 : List (Ref sig .tc) :=
  [main_cst, main_v9, main_v10, main_v11, main_cst_0, main_v12, main_v13, main_v14, main_v15, main_v16, main_cst_1, main_v17, main_v18, main_v19, main_v20, main_v21, main_v22, main_v23, main_v24, main_cst_2, main_v25, main_v26, main_cst_3, main_v27, main_v28, main_v29, main_v30, main_v31, main_cst_4, main_v32, main_v33, main_cst_5, main_v34, main_v35, main_v36, main_v37, main_cst_6, main_v38, main_v39, main_v40, main_v41, main_v42, main_v43, main_v44, main_v45, main_v46, main_v47, main_v48, main_v49, main_v50, main_v51, main_v52]

theorem writes2 : Writes (hostOps2 (F := F)) written2 := by
  repeat' (first | exact Writes.nil | refine Writes.cons rfl ?_)

section FirstStretch

variable (W : Valuation τ sig (Elt F))
variable (a0 : (⟨S30000x128, .f32⟩ : BufTy).Contents (Elt F)) (a1 : (⟨S480000x128, .f32⟩ : BufTy).Contents (Elt F))
  (a3 a4 : (⟨S480000, .i32⟩ : BufTy).Contents (Elt F)) (a5 a6 a7 a8 a9 : (⟨S128x128, .f32⟩ : BufTy).Contents (Elt F))
  (a10 a13 a14 : (⟨S128, .f32⟩ : BufTy).Contents (Elt F))

theorem residual1_stage
    (hH : after hostOps2 W (Proc.devRef .tc main_v19) = val_main_v50 a0 a1 a3 a4 a5 a6 a7 a8)
    (h0 : W (Proc.devRef .tc main_arg0) = a0) (h9 : W (Proc.devRef .tc main_arg9) = a9)
    (h10 : W (Proc.devRef .tc main_arg10) = a10) :
    after hostOps2 W (Proc.devRef .tc main_v24) = val_main_v55 a0 a1 a3 a4 a5 a6 a7 a8 a9 a10 := by
  have k0 : after hostOps2 W (Proc.devRef .tc main_arg0) = a0 := (lineKept writes2 W).trans h0
  have k9 : after hostOps2 W (Proc.devRef .tc main_arg9) = a9 := (lineKept writes2 W).trans h9
  have k10 : after hostOps2 W (Proc.devRef .tc main_arg10) = a10 := (lineKept writes2 W).trans h10

  have s20 : after hostOps2 W (Proc.devRef .tc main_v20) = val_main_v51 a0 a1 a3 a4 a5 a6 a7 a8 a9 := by
    rw [lineBinary writes2 W 14 rfl, hH, k9]; rfl

  have s21 : after hostOps2 W (Proc.devRef .tc main_v21) = val_main_v52 a10 := by
    rw [lineUnary writes2 W 15 rfl, k10]; rfl
  have s22 : after hostOps2 W (Proc.devRef .tc main_v22) = val_main_v53 a10 := by
    rw [lineUnary writes2 W 16 rfl, s21]; rfl
  have s23 : after hostOps2 W (Proc.devRef .tc main_v23) = val_main_v54 a0 a1 a3 a4 a5 a6 a7 a8 a9 a10 := by
    rw [lineBinary writes2 W 17 rfl, s20, s22]; rfl

  rw [lineBinary writes2 W 18 rfl, k0, s23]; rfl

theorem norm1_stage
    (h24 : after hostOps2 W (Proc.devRef .tc main_v24) = val_main_v55 a0 a1 a3 a4 a5 a6 a7 a8 a9 a10)
    (h13 : W (Proc.devRef .tc main_arg13) = a13) (h14 : W (Proc.devRef .tc main_arg14) = a14) :
    after hostOps2 W (Proc.devRef .tc main_v48) = val_main_v79 a0 a1 a3 a4 a5 a6 a7 a8 a9 a10 a13 a14 := by
  have k13 : after hostOps2 W (Proc.devRef .tc main_arg13) = a13 := (lineKept writes2 W).trans h13
  have k14 : after hostOps2 W (Proc.devRef .tc main_arg14) = a14 := (lineKept writes2 W).trans h14

  have c2 : after hostOps2 W (Proc.devRef .tc main_cst_2) = val_main_cst_11 := by
    rw [lineNullary writes2 W 19 rfl]; rfl
  have s25 : after hostOps2 W (Proc.devRef .tc main_v25) = val_main_v56 a0 a1 a3 a4 a5 a6 a7 a8 a9 a10 := by
    rw [lineBinary writes2 W 20 rfl, h24, c2]; rfl
  have s26 : after hostOps2 W (Proc.devRef .tc main_v26) = val_main_v57 a0 a1 a3 a4 a5 a6 a7 a8 a9 a10 := by
    rw [lineUnary writes2 W 21 rfl, s25]; rfl
  have c3 : after hostOps2 W (Proc.devRef .tc main_cst_3) = val_main_cst_12 := by
    rw [lineNullary writes2 W 22 rfl]; rfl
  have s27 : after hostOps2 W (Proc.devRef .tc main_v27) = val_main_v58 := by
    rw [lineUnary writes2 W 23 rfl, c3]; rfl
  have s28 : after hostOps2 W (Proc.devRef .tc main_v28) = val_main_v59 a0 a1 a3 a4 a5 a6 a7 a8 a9 a10 := by
    rw [lineBinary writes2 W 24 rfl, s26, s27]; rfl

  have s29 : after hostOps2 W (Proc.devRef .tc main_v29) = val_main_v60 a0 a1 a3 a4 a5 a6 a7 a8 a9 a10 := by
    rw [lineUnary writes2 W 25 rfl, s28]; rfl
  have s30 : after hostOps2 W (Proc.devRef .tc main_v30) = val_main_v61 a0 a1 a3 a4 a5 a6 a7 a8 a9 a10 := by
    rw [lineBinary writes2 W 26 rfl, h24, s29]; rfl
  have s31 : after hostOps2 W (Proc.devRef .tc main_v31) = val_main_v62 a0 a1 a3 a4 a5 a6 a7 a8 a9 a10 := by
    rw [lineBinary writes2 W 27 rfl, s30]; rfl

  have c4 : after hostOps2 W (Proc.devRef .tc main_cst_4) = val_main_cst_13 := by
    rw [lineNullary writes2 W 28 rfl]; rfl
  have s32 : after hostOps2 W (Proc.devRef .tc main_v32) = val_main_v63 a0 a1 a3 a4 a5 a6 a7 a8 a9 a10 := by
    rw [lineBinary writes2 W 29 rfl, s31, c4]; rfl
  have s33 : after hostOps2 W (Proc.devRef .tc main_v33) = val_main_v64 a0 a1 a3 a4 a5 a6 a7 a8 a9 a10 := by
    rw [lineUnary writes2 W 30 rfl, s32]; rfl
  have c5 : after hostOps2 W (Proc.devRef .tc main_cst_5) = val_main_cst_14 := by
    rw [lineNullary writes2 W 31 rfl]; rfl
  have s34 : after hostOps2 W (Proc.devRef .tc main_v34) = val_main_v65 := by
    rw [lineUnary writes2 W 32 rfl, c5]; rfl
  have s35 : after hostOps2 W (Proc.devRef .tc main_v35) = val_main_v66 a0 a1 a3 a4 a5 a6 a7 a8 a9 a10 := by
    rw [lineBinary writes2 W 33 rfl, s33, s34]; rfl

  have s36 : after hostOps2 W (Proc.devRef .tc main_v36) = val_main_v67 a0 a1 a3 a4 a5 a6 a7 a8 a9 a10 := by
    rw [lineUnary writes2 W 34 rfl, s28]; rfl
  have s37 : after hostOps2 W (Proc.devRef .tc main_v37) = val_main_v68 a0 a1 a3 a4 a5 a6 a7 a8 a9 a10 := by
    rw [lineBinary writes2 W 35 rfl, h24, s36]; rfl

  have c6 : after hostOps2 W (Proc.devRef .tc main_cst_6) = val_main_cst_15 := by
    rw [lineNullary writes2 W 36 rfl]; rfl
  have s38 : after hostOps2 W (Proc.devRef .tc main_v38) = val_main_v69 := by
    rw [lineUnary writes2 W 37 rfl, c6]; rfl
  have s39 : after hostOps2 W (Proc.devRef .tc main_v39) = val_main_v70 a0 a1 a3 a4 a5 a6 a7 a8 a9 a10 := by
    rw [lineBinary writes2 W 38 rfl, s35, s38]; rfl
  have s40 : after hostOps2 W (Proc.devRef .tc main_v40) = val_main_v71 a0 a1 a3 a4 a5 a6 a7 a8 a9 a10 := by
    rw [lineUnary writes2 W 39 rfl, s39]; rfl
  have s41 : after hostOps2 W (Proc.devRef .tc main_v41) = val_main_v72 a0 a1 a3 a4 a5 a6 a7 a8 a9 a10 := by
    rw [lineUnary writes2 W 40 rfl, s40]; rfl
  have s42 : after hostOps2 W (Proc.devRef .tc main_v42) = val_main_v73 a0 a1 a3 a4 a5 a6 a7 a8 a9 a10 := by
    rw [lineBinary writes2 W 41 rfl, s37, s41]; rfl

  have s43 : after hostOps2 W (Proc.devRef .tc main_v43) = val_main_v74 a13 := by
    rw [lineUnary writes2 W 42 rfl, k13]; rfl
  have s44 : after hostOps2 W (Proc.devRef .tc main_v44) = val_main_v75 a13 := by
    rw [lineUnary writes2 W 43 rfl, s43]; rfl
  have s45 : after hostOps2 W (Proc.devRef .tc main_v45) = val_main_v76 a0 a1 a3 a4 a5 a6 a7 a8 a9 a10 a13 := by
    rw [lineBinary writes2 W 44 rfl, s42, s44]; rfl

  have s46 : after hostOps2 W (Proc.devRef .tc main_v46) = val_main_v77 a14 := by
    rw [lineUnary writes2 W 45 rfl, k14]; rfl
  have s47 : after hostOps2 W (Proc.devRef .tc main_v47) = val_main_v78 a14 := by
    rw [lineUnary writes2 W 46 rfl, s46]; rfl
  rw [lineBinary writes2 W 47 rfl, s45, s47]; rfl

end FirstStretch

end NodeTail

variable {F : FTy → Type} [FloatOps F]

theorem nodeTail_v48 (W : Valuation τ sig (Elt F))
    (a0 : (⟨S30000x128, .f32⟩ : BufTy).Contents (Elt F)) (a1 : (⟨S480000x128, .f32⟩ : BufTy).Contents (Elt F))
    (a3 a4 : (⟨S480000, .i32⟩ : BufTy).Contents (Elt F)) (a5 a6 a7 a8 a9 : (⟨S128x128, .f32⟩ : BufTy).Contents (Elt F))
    (a10 a13 a14 : (⟨S128, .f32⟩ : BufTy).Contents (Elt F))
    (hH : after hostOps2 W (Proc.devRef .tc main_v19) = val_main_v50 a0 a1 a3 a4 a5 a6 a7 a8)
    (h0 : W (Proc.devRef .tc main_arg0) = a0) (h9 : W (Proc.devRef .tc main_arg9) = a9)
    (h10 : W (Proc.devRef .tc main_arg10) = a10) (h13 : W (Proc.devRef .tc main_arg13) = a13)
    (h14 : W (Proc.devRef .tc main_arg14) = a14) :
    after hostOps2 W (Proc.devRef .tc main_v48) = val_main_v79 a0 a1 a3 a4 a5 a6 a7 a8 a9 a10 a13 a14 :=
  NodeTail.norm1_stage W a0 a1 a3 a4 a5 a6 a7 a8 a9 a10 a13 a14
    (NodeTail.residual1_stage W a0 a1 a3 a4 a5 a6 a7 a8 a9 a10 hH h0 h9 h10) h13 h14

end Cert.KernelIdeal.HandValue
-- ==== Proof.Val.NodeTailM.lean ====
-- Feed-forward block, residual and second layer normalisation of the node features, operation by operation against the reference's stages.
import proofs.«406977_j9723805958288_1_alg».proof.Proof.Gen.KernelIdeal.Launch
import proofs.«406977_j9723805958288_1_alg».proof.Proof.Ref.Read
import proofs.«406977_j9723805958288_1_alg».proof.Proof.LibStraightLine

set_option maxRecDepth 16384

noncomputable section

namespace Cert.KernelIdeal.HandValue

open Cert.KernelIdeal Cert.KernelIdeal.Gen
open Idealize.ShloMosaic Idealize.ShloMosaic.TcCoe Idealize.ShloMosaic.StableHlo
open Cert.LibStraightLine
open Cert.ReferenceIdeal.RefRead

variable {F : FTy → Type} [FloatOps F]

syntax "numbered_in_order" : tactic
macro_rules
  | `(tactic| numbered_in_order) =>
    `(tactic| first
      | exact Numbered.nil _
      | exact Numbered.cons ⟨_, rfl, rfl⟩ (by numbered_in_order))

theorem tail0_numbered : Numbered 116 (hostOps2 : List (HloOp τ sig (Elt F))) := by numbered_in_order

theorem relu0_numbered : Numbered 168 (hostOps2_1 : List (HloOp τ sig (Elt F))) := by numbered_in_order

theorem tail2_numbered : Numbered 171 (hostOps2_2 : List (HloOp τ sig (Elt F))) := by numbered_in_order

section Walk

variable (W : Valuation τ sig (Elt F))
  (a0 : (⟨S30000x128, .f32⟩ : BufTy).Contents (Elt F)) (a1 : (⟨S480000x128, .f32⟩ : BufTy).Contents (Elt F))
  (a3 a4 : (⟨S480000, .i32⟩ : BufTy).Contents (Elt F))
  (a5 a6 a7 a8 a9 : (⟨S128x128, .f32⟩ : BufTy).Contents (Elt F))
  (a10 a13 a14 : (⟨S128, .f32⟩ : BufTy).Contents (Elt F))
  (a17 : (⟨S128x256, .f32⟩ : BufTy).Contents (Elt F)) (a18 : (⟨S256, .f32⟩ : BufTy).Contents (Elt F))
  (a19 : (⟨S256x128, .f32⟩ : BufTy).Contents (Elt F)) (a20 a25 a26 : (⟨S128, .f32⟩ : BufTy).Contents (Elt F))

local notation "at8" r:max => StableHlo.after hostOps2 W (Proc.devRef Proc.tc r)
local notation "at9" r:max => StableHlo.after hostOps2_1 (StableHlo.after hostOps2 W) (Proc.devRef Proc.tc r)
local notation "at10" r:max =>
  StableHlo.after hostOps2_2 (StableHlo.after hostOps2_1 (StableHlo.after hostOps2 W)) (Proc.devRef Proc.tc r)

local notation "spec[" f "]" => f a0 a1 a3 a4 a5 a6 a7 a8 a9 a10 a13 a14

theorem node_ffn_norm2
    (h48 : at8 main_v48 = spec[val_main_v79])
    (h17 : W (Proc.devRef .tc main_arg17) = a17) (h18 : W (Proc.devRef .tc main_arg18) = a18)
    (h19 : W (Proc.devRef .tc main_arg19) = a19) (h20 : W (Proc.devRef .tc main_arg20) = a20)
    (h25 : W (Proc.devRef .tc main_arg25) = a25) (h26 : W (Proc.devRef .tc main_arg26) = a26) :
    at10 main_v82 = spec[val_main_v142] a17 a18 a19 a20 a25 a26 := by
  have n8 := tail0_numbered (F := F)
  have n9 := relu0_numbered (F := F)
  have n10 := tail2_numbered (F := F)

  have w17 : at8 main_arg17 = a17 := (n8.kept W (by decide)).trans h17
  have w18 : at8 main_arg18 = a18 := (n8.kept W (by decide)).trans h18
  have w19 : at10 main_arg19 = a19 :=
    (n10.kept _ (by decide)).trans ((n9.kept _ (by decide)).trans ((n8.kept W (by decide)).trans h19))
  have w20 : at10 main_arg20 = a20 :=
    (n10.kept _ (by decide)).trans ((n9.kept _ (by decide)).trans ((n8.kept W (by decide)).trans h20))
  have w25 : at10 main_arg25 = a25 :=
    (n10.kept _ (by decide)).trans ((n9.kept _ (by decide)).trans ((n8.kept W (by decide)).trans h25))
  have w26 : at10 main_arg26 = a26 :=
    (n10.kept _ (by decide)).trans ((n9.kept _ (by decide)).trans ((n8.kept W (by decide)).trans h26))

  have k49 : at8 main_v49 = spec[val_main_v109] a17 := by
    rw [n8.after_binary W (y := main_v49) rfl (by decide) (by decide) (by decide), h48, w17]; rfl

  have k50 : at8 main_v50 = val_main_v110 a18 := by
    rw [n8.after_unary W (y := main_v50) rfl (by decide) (by decide), w18]; rfl
  have k51 : at8 main_v51 = val_main_v111 a18 := by
    rw [n8.after_unary W (y := main_v51) rfl (by decide) (by decide), k50]; rfl

  have k52 : at8 main_v52 = spec[val_main_v112] a17 a18 := by
    rw [n8.after_binary W (y := main_v52) rfl (by decide) (by decide) (by decide), k49, k51]; rfl

  have k52' : at9 main_v52 = spec[val_main_v112] a17 a18 := (n9.kept _ (by decide)).trans k52

  have z0 : at9 main_call3_cst = val_main_call1_cst := by
    rw [n9.after_nullary _ (y := main_call3_cst) rfl (by decide)]; rfl
  have z1 : at9 main_call3_v0 = val_main_call1_v0 := by
    rw [n9.after_unary _ (x := main_call3_cst) (y := main_call3_v0) rfl (by decide) (by decide), z0]; rfl

  have k53 : at9 main_v53 = spec[val_main_v113] a17 a18 := by
    rw [n9.after_binary _ (a := main_v52) (b := main_call3_v0) (y := main_v53) rfl (by decide) (by decide) (by decide),
      k52', z1]; rfl

  have kh : at10 main_v48 = spec[val_main_v79] :=
    (n10.kept _ (by decide)).trans ((n9.kept _ (by decide)).trans h48)
  have ku : at10 main_v53 = spec[val_main_v113] a17 a18 := (n10.kept _ (by decide)).trans k53

  have k54 : at10 main_v54 = spec[val_main_v114] a17 a18 a19 := by
    rw [n10.after_binary _ (y := main_v54) rfl (by decide) (by decide) (by decide), ku, w19]; rfl

  have k55 : at10 main_v55 = val_main_v115 a20 := by
    rw [n10.after_unary _ (y := main_v55) rfl (by decide) (by decide), w20]; rfl
  have k56 : at10 main_v56 = val_main_v116 a20 := by
    rw [n10.after_unary _ (y := main_v56) rfl (by decide) (by decide), k55]; rfl

  have k57 : at10 main_v57 = spec[val_main_v117] a17 a18 a19 a20 := by
    rw [n10.after_binary _ (y := main_v57) rfl (by decide) (by decide) (by decide), k54, k56]; rfl
  have k58 : at10 main_v58 = spec[val_main_v118] a17 a18 a19 a20 := by
    rw [n10.after_binary _ (y := main_v58) rfl (by decide) (by decide) (by decide), kh, k57]; rfl

  have c7 : at10 main_cst_7 = val_main_cst_21 := by
    rw [n10.after_nullary _ (y := main_cst_7) rfl (by decide)]; rfl
  have k59 : at10 main_v59 = spec[val_main_v119] a17 a18 a19 a20 := by
    rw [n10.after_binary _ (y := main_v59) rfl (by decide) (by decide) (by decide), k58, c7]; rfl
  have k60 : at10 main_v60 = spec[val_main_v120] a17 a18 a19 a20 := by
    rw [n10.after_unary _ (y := main_v60) rfl (by decide) (by decide), k59]; rfl

  have c8 : at10 main_cst_8 = val_main_cst_22 := by
    rw [n10.after_nullary _ (y := main_cst_8) rfl (by decide)]; rfl
  have k61 : at10 main_v61 = val_main_v121 := by
    rw [n10.after_unary _ (y := main_v61) rfl (by decide) (by decide), c8]; rfl
  have k62 : at10 main_v62 = spec[val_main_v122] a17 a18 a19 a20 := by
    rw [n10.after_binary _ (y := main_v62) rfl (by decide) (by decide) (by decide), k60, k61]; rfl

  have k63 : at10 main_v63 = spec[val_main_v123] a17 a18 a19 a20 := by
    rw [n10.after_unary _ (y := main_v63) rfl (by decide) (by decide), k62]; rfl
  have k64 : at10 main_v64 = spec[val_main_v124] a17 a18 a19 a20 := by
    rw [n10.after_binary _ (y := main_v64) rfl (by decide) (by decide) (by decide), k58, k63]; rfl
  have k65 : at10 main_v65 = spec[val_main_v125] a17 a18 a19 a20 := by
    rw [n10.after_binary _ (y := main_v65) rfl (by decide) (by decide) (by decide), k64]; rfl

  have c9 : at10 main_cst_9 = val_main_cst_23 := by
    rw [n10.after_nullary _ (y := main_cst_9) rfl (by decide)]; rfl
  have k66 : at10 main_v66 = spec[val_main_v126] a17 a18 a19 a20 := by
    rw [n10.after_binary _ (y := main_v66) rfl (by decide) (by decide) (by decide), k65, c9]; rfl
  have k67 : at10 main_v67 = spec[val_main_v127] a17 a18 a19 a20 := by
    rw [n10.after_unary _ (y := main_v67) rfl (by decide) (by decide), k66]; rfl
  have c10 : at10 main_cst_10 = val_main_cst_24 := by
    rw [n10.after_nullary _ (y := main_cst_10) rfl (by decide)]; rfl
  have k68 : at10 main_v68 = val_main_v128 := by
    rw [n10.after_unary _ (y := main_v68) rfl (by decide) (by decide), c10]; rfl
  have k69 : at10 main_v69 = spec[val_main_v129] a17 a18 a19 a20 := by
    rw [n10.after_binary _ (y := main_v69) rfl (by decide) (by decide) (by decide), k67, k68]; rfl

  have k70 : at10 main_v70 = spec[val_main_v130] a17 a18 a19 a20 := by
    rw [n10.after_unary _ (y := main_v70) rfl (by decide) (by decide), k62]; rfl
  have k71 : at10 main_v71 = spec[val_main_v131] a17 a18 a19 a20 := by
    rw [n10.after_binary _ (y := main_v71) rfl (by decide) (by decide) (by decide), k58, k70]; rfl

  have c11 : at10 main_cst_11 = val_main_cst_25 := by
    rw [n10.after_nullary _ (y := main_cst_11) rfl (by decide)]; rfl
  have k72 : at10 main_v72 = val_main_v132 := by
    rw [n10.after_unary _ (y := main_v72) rfl (by decide) (by decide), c11]; rfl
  have k73 : at10 main_v73 = spec[val_main_v133] a17 a18 a19 a20 := by
    rw [n10.after_binary _ (y := main_v73) rfl (by decide) (by decide) (by decide), k69, k72]; rfl
  have k74 : at10 main_v74 = spec[val_main_v134] a17 a18 a19 a20 := by
    rw [n10.after_unary _ (y := main_v74) rfl (by decide) (by decide), k73]; rfl
  have k75 : at10 main_v75 = spec[val_main_v135] a17 a18 a19 a20 := by
    rw [n10.after_unary _ (y := main_v75) rfl (by decide) (by decide), k74]; rfl

  have k76 : at10 main_v76 = spec[val_main_v136] a17 a18 a19 a20 := by
    rw [n10.after_binary _ (y := main_v76) rfl (by decide) (by decide) (by decide), k71, k75]; rfl

  have k77 : at10 main_v77 = val_main_v137 a25 := by
    rw [n10.after_unary _ (y := main_v77) rfl (by decide) (by decide), w25]; rfl
  have k78 : at10 main_v78 = val_main_v138 a25 := by
    rw [n10.after_unary _ (y := main_v78) rfl (by decide) (by decide), k77]; rfl
  have k79 : at10 main_v79 = spec[val_main_v139] a17 a18 a19 a20 a25 := by
    rw [n10.after_binary _ (y := main_v79) rfl (by decide) (by decide) (by decide), k76, k78]; rfl

  have k80 : at10 main_v80 = val_main_v140 a26 := by
    rw [n10.after_unary _ (y := main_v80) rfl (by decide) (by decide), w26]; rfl
  have k81 : at10 main_v81 = val_main_v141 a26 := by
    rw [n10.after_unary _ (y := main_v81) rfl (by decide) (by decide), k80]; rfl
  rw [n10.after_binary _ (y := main_v82) rfl (by decide) (by decide) (by decide), k79, k81]; rfl

end Walk

end Cert.KernelIdeal.HandValue

end
-- ==== Proof.Val.NodeTailB.lean ====
/-
  The second half of the node-side tail of the graph-transformer layer, matched operation by operation with the
  reference.

  Once the node features have been through their second layer normalisation (h2: the kernel's %82, the reference's
  %142), the kernel's host program and the reference apply the same operations in the same order:
    * cross attention of the 30000 nodes over the 500 memory rows m (argument 2): q = h2 . Wq, k = m . Wk,
      v = m . Wv, the logits q . k^T divided by sqrt 128, their softmax along the 500 columns (row maximum, guarded
      against an empty row by a maximum with -inf, subtract, exponential, row sum, divide): p;
    * the attended values p . v projected by Wo and added back to h2, then layer-normalised (mean, centred values,
      variance, divide by sqrt (variance + 1e-5), scale and shift);
    * a feed-forward block (128 -> 256, maximum with 0, 256 -> 128) added back, then layer-normalised again: the
      node features nf (the kernel's %155, the reference's %249);
    * p with a leading axis of length one (the kernel's %156, the reference's %250).
  The kernel runs them as three lists: 89 operations (of which the last 55 belong here), the three of the
  maximum-with-0, and 32 more. The end of a list holds at an operation's result the operation's function of what it
  holds at the operands, because every buffer is written once, after its operands; so if the operands hold the
  reference's stages, the result holds the reference's next stage, which is by definition the same function of the
  same stages. The shape, contraction, broadcast and reduction records of the two printed programs are separate
  constants with equal fields, so the two sides agree by unfolding those records only: no stage is ever opened
  further than its own operation.
-/
import proofs.«406977_j9723805958288_1_alg».proof.Proof.Gen.KernelIdeal.Launch
import proofs.«406977_j9723805958288_1_alg».proof.Proof.Ref.Read
import proofs.«406977_j9723805958288_1_alg».proof.Proof.LibStraightLine

noncomputable section

namespace Cert.KernelIdeal.HandValue

open Cert.KernelIdeal Cert.KernelIdeal.Gen
open Idealize.ShloMosaic Idealize.ShloMosaic.TcCoe Idealize.ShloMosaic.StableHlo Idealize.SL.Sem
open Cert.LibStraightLine
open Cert.ReferenceIdeal.RefRead

variable {F : FTy → Type} [FloatOps F]

/-! ## The three lists write consecutively numbered buffers -/

/-- The 89 operations write the buffers numbered 171 ... 259, in order. -/
theorem numbered2_2 : Numbered (τ := τ) 171 (hostOps2_2 (F := F)) := by
  repeat' (first | exact Numbered.nil _ | refine Numbered.cons ⟨_, rfl, rfl⟩ ?_)

/-- The maximum-with-0 writes 260, 261, 262. -/
theorem numbered2_3 : Numbered (τ := τ) 260 (hostOps2_3 (F := F)) := by
  repeat' (first | exact Numbered.nil _ | refine Numbered.cons ⟨_, rfl, rfl⟩ ?_)

/-- The last 32 operations write 263 ... 294. -/
theorem numbered2_4 : Numbered (τ := τ) 263 (hostOps2_4 (F := F)) := by
  repeat' (first | exact Numbered.nil _ | refine Numbered.cons ⟨_, rfl, rfl⟩ ?_)

/-! ## What the second half is entered with -/

/-- The contents V9 from which the 89-operation list starts, and arrays a0 ... a38 standing for the reference's
    arguments: the list's end holds at %82 the reference's stage %142 (the first half's result), and V9 holds at
    the eleven arguments the second half reads (the memory rows and the attention, normalisation and feed-forward
    weights) the arrays of the same number. -/
structure TailBEntry (V9 : Valuation τ sig (Elt F))
    (a0 : (⟨Cert.ReferenceIdeal.S30000x128, .f32⟩ : BufTy).Contents (Elt F))
    (a1 : (⟨Cert.ReferenceIdeal.S480000x128, .f32⟩ : BufTy).Contents (Elt F))
    (a2 : (⟨Cert.ReferenceIdeal.S500x300, .f32⟩ : BufTy).Contents (Elt F))
    (a3 : (⟨Cert.ReferenceIdeal.S480000, .i32⟩ : BufTy).Contents (Elt F))
    (a4 : (⟨Cert.ReferenceIdeal.S480000, .i32⟩ : BufTy).Contents (Elt F))
    (a5 : (⟨Cert.ReferenceIdeal.S128x128, .f32⟩ : BufTy).Contents (Elt F))
    (a6 : (⟨Cert.ReferenceIdeal.S128x128, .f32⟩ : BufTy).Contents (Elt F))
    (a7 : (⟨Cert.ReferenceIdeal.S128x128, .f32⟩ : BufTy).Contents (Elt F))
    (a8 : (⟨Cert.ReferenceIdeal.S128x128, .f32⟩ : BufTy).Contents (Elt F))
    (a9 : (⟨Cert.ReferenceIdeal.S128x128, .f32⟩ : BufTy).Contents (Elt F))
    (a10 : (⟨Cert.ReferenceIdeal.S128, .f32⟩ : BufTy).Contents (Elt F))
    (a13 : (⟨Cert.ReferenceIdeal.S128, .f32⟩ : BufTy).Contents (Elt F))
    (a14 : (⟨Cert.ReferenceIdeal.S128, .f32⟩ : BufTy).Contents (Elt F))
    (a17 : (⟨Cert.ReferenceIdeal.S128x256, .f32⟩ : BufTy).Contents (Elt F))
    (a18 : (⟨Cert.ReferenceIdeal.S256, .f32⟩ : BufTy).Contents (Elt F))
    (a19 : (⟨Cert.ReferenceIdeal.S256x128, .f32⟩ : BufTy).Contents (Elt F))
    (a20 : (⟨Cert.ReferenceIdeal.S128, .f32⟩ : BufTy).Contents (Elt F))
    (a25 : (⟨Cert.ReferenceIdeal.S128, .f32⟩ : BufTy).Contents (Elt F))
    (a26 : (⟨Cert.ReferenceIdeal.S128, .f32⟩ : BufTy).Contents (Elt F))
    (a29 : (⟨Cert.ReferenceIdeal.S128x128, .f32⟩ : BufTy).Contents (Elt F))
    (a30 : (⟨Cert.ReferenceIdeal.S300x128, .f32⟩ : BufTy).Contents (Elt F))
    (a31 : (⟨Cert.ReferenceIdeal.S300x128, .f32⟩ : BufTy).Contents (Elt F))
    (a32 : (⟨Cert.ReferenceIdeal.S128x128, .f32⟩ : BufTy).Contents (Elt F))
    (a33 : (⟨Cert.ReferenceIdeal.S128, .f32⟩ : BufTy).Contents (Elt F))
    (a34 : (⟨Cert.ReferenceIdeal.S128, .f32⟩ : BufTy).Contents (Elt F))
    (a35 : (⟨Cert.ReferenceIdeal.S128, .f32⟩ : BufTy).Contents (Elt F))
    (a36 : (⟨Cert.ReferenceIdeal.S128, .f32⟩ : BufTy).Contents (Elt F))
    (a37 : (⟨Cert.ReferenceIdeal.S128x256, .f32⟩ : BufTy).Contents (Elt F))
    (a38 : (⟨Cert.ReferenceIdeal.S256x128, .f32⟩ : BufTy).Contents (Elt F)) : Prop where
  v82 : after hostOps2_2 V9 (Proc.devRef .tc main_v82) = val_main_v142 (F := F) a0 a1 a3 a4 a5 a6 a7 a8 a9 a10 a13 a14 a17 a18 a19 a20 a25 a26
  arg2 : V9 (Proc.devRef .tc main_arg2) = a2
  arg29 : V9 (Proc.devRef .tc main_arg29) = a29
  arg30 : V9 (Proc.devRef .tc main_arg30) = a30
  arg31 : V9 (Proc.devRef .tc main_arg31) = a31
  arg32 : V9 (Proc.devRef .tc main_arg32) = a32
  arg33 : V9 (Proc.devRef .tc main_arg33) = a33
  arg34 : V9 (Proc.devRef .tc main_arg34) = a34
  arg35 : V9 (Proc.devRef .tc main_arg35) = a35
  arg36 : V9 (Proc.devRef .tc main_arg36) = a36
  arg37 : V9 (Proc.devRef .tc main_arg37) = a37
  arg38 : V9 (Proc.devRef .tc main_arg38) = a38

section Rows

variable {V9 : Valuation τ sig (Elt F)}
  {a0 : (⟨Cert.ReferenceIdeal.S30000x128, .f32⟩ : BufTy).Contents (Elt F)}
  {a1 : (⟨Cert.ReferenceIdeal.S480000x128, .f32⟩ : BufTy).Contents (Elt F)}
  {a2 : (⟨Cert.ReferenceIdeal.S500x300, .f32⟩ : BufTy).Contents (Elt F)}
  {a3 : (⟨Cert.ReferenceIdeal.S480000, .i32⟩ : BufTy).Contents (Elt F)}
  {a4 : (⟨Cert.ReferenceIdeal.S480000, .i32⟩ : BufTy).Contents (Elt F)}
  {a5 : (⟨Cert.ReferenceIdeal.S128x128, .f32⟩ : BufTy).Contents (Elt F)}
  {a6 : (⟨Cert.ReferenceIdeal.S128x128, .f32⟩ : BufTy).Contents (Elt F)}
  {a7 : (⟨Cert.ReferenceIdeal.S128x128, .f32⟩ : BufTy).Contents (Elt F)}
  {a8 : (⟨Cert.ReferenceIdeal.S128x128, .f32⟩ : BufTy).Contents (Elt F)}
  {a9 : (⟨Cert.ReferenceIdeal.S128x128, .f32⟩ : BufTy).Contents (Elt F)}
  {a10 : (⟨Cert.ReferenceIdeal.S128, .f32⟩ : BufTy).Contents (Elt F)}
  {a13 : (⟨Cert.ReferenceIdeal.S128, .f32⟩ : BufTy).Contents (Elt F)}
  {a14 : (⟨Cert.ReferenceIdeal.S128, .f32⟩ : BufTy).Contents (Elt F)}
  {a17 : (⟨Cert.ReferenceIdeal.S128x256, .f32⟩ : BufTy).Contents (Elt F)}
  {a18 : (⟨Cert.ReferenceIdeal.S256, .f32⟩ : BufTy).Contents (Elt F)}
  {a19 : (⟨Cert.ReferenceIdeal.S256x128, .f32⟩ : BufTy).Contents (Elt F)}
  {a20 : (⟨Cert.ReferenceIdeal.S128, .f32⟩ : BufTy).Contents (Elt F)}
  {a25 : (⟨Cert.ReferenceIdeal.S128, .f32⟩ : BufTy).Contents (Elt F)}
  {a26 : (⟨Cert.ReferenceIdeal.S128, .f32⟩ : BufTy).Contents (Elt F)}
  {a29 : (⟨Cert.ReferenceIdeal.S128x128, .f32⟩ : BufTy).Contents (Elt F)}
  {a30 : (⟨Cert.ReferenceIdeal.S300x128, .f32⟩ : BufTy).Contents (Elt F)}
  {a31 : (⟨Cert.ReferenceIdeal.S300x128, .f32⟩ : BufTy).Contents (Elt F)}
  {a32 : (⟨Cert.ReferenceIdeal.S128x128, .f32⟩ : BufTy).Contents (Elt F)}
  {a33 : (⟨Cert.ReferenceIdeal.S128, .f32⟩ : BufTy).Contents (Elt F)}
  {a34 : (⟨Cert.ReferenceIdeal.S128, .f32⟩ : BufTy).Contents (Elt F)}
  {a35 : (⟨Cert.ReferenceIdeal.S128, .f32⟩ : BufTy).Contents (Elt F)}
  {a36 : (⟨Cert.ReferenceIdeal.S128, .f32⟩ : BufTy).Contents (Elt F)}
  {a37 : (⟨Cert.ReferenceIdeal.S128x256, .f32⟩ : BufTy).Contents (Elt F)}
  {a38 : (⟨Cert.ReferenceIdeal.S256x128, .f32⟩ : BufTy).Contents (Elt F)}

local notation "Entry" => TailBEntry V9 a0 a1 a2 a3 a4 a5 a6 a7 a8 a9 a10 a13 a14 a17 a18 a19 a20 a25 a26 a29 a30 a31 a32 a33 a34 a35 a36 a37 a38

/-! ## The arguments at the end of the first list: no operation writes them -/

theorem arg2_at2 (E : Entry) : after hostOps2_2 V9 (Proc.devRef .tc main_arg2) = a2 :=
  (numbered2_2.kept V9 (by decide)).trans E.arg2
theorem arg29_at2 (E : Entry) : after hostOps2_2 V9 (Proc.devRef .tc main_arg29) = a29 :=
  (numbered2_2.kept V9 (by decide)).trans E.arg29
theorem arg30_at2 (E : Entry) : after hostOps2_2 V9 (Proc.devRef .tc main_arg30) = a30 :=
  (numbered2_2.kept V9 (by decide)).trans E.arg30
theorem arg31_at2 (E : Entry) : after hostOps2_2 V9 (Proc.devRef .tc main_arg31) = a31 :=
  (numbered2_2.kept V9 (by decide)).trans E.arg31
theorem arg32_at2 (E : Entry) : after hostOps2_2 V9 (Proc.devRef .tc main_arg32) = a32 :=
  (numbered2_2.kept V9 (by decide)).trans E.arg32
theorem arg33_at2 (E : Entry) : after hostOps2_2 V9 (Proc.devRef .tc main_arg33) = a33 :=
  (numbered2_2.kept V9 (by decide)).trans E.arg33
theorem arg34_at2 (E : Entry) : after hostOps2_2 V9 (Proc.devRef .tc main_arg34) = a34 :=
  (numbered2_2.kept V9 (by decide)).trans E.arg34
theorem arg37_at2 (E : Entry) : after hostOps2_2 V9 (Proc.devRef .tc main_arg37) = a37 :=
  (numbered2_2.kept V9 (by decide)).trans E.arg37

/-! ## Cross attention: projections, logits, softmax

Each row has one of three shapes: a constant, a function of one earlier buffer, a function of two. -/

/-- q = h2 . Wq. -/
theorem tailB_v83 (E : Entry) : after hostOps2_2 V9 (Proc.devRef .tc main_v83) = val_main_v177 (F := F) a0 a1 a3 a4 a5 a6 a7 a8 a9 a10 a13 a14 a17 a18 a19 a20 a25 a26 a29 := by
  rw [numbered2_2.after_binary V9 (y := main_v83) rfl (by decide) (by decide) (by decide), E.v82, arg29_at2 E]
  rfl

/-- k = m . Wk. -/
theorem tailB_v84 (E : Entry) : after hostOps2_2 V9 (Proc.devRef .tc main_v84) = val_main_v178 (F := F) a2 a30 := by
  rw [numbered2_2.after_binary V9 (y := main_v84) rfl (by decide) (by decide) (by decide), arg2_at2 E, arg30_at2 E]
  rfl

/-- v = m . Wv. -/
theorem tailB_v85 (E : Entry) : after hostOps2_2 V9 (Proc.devRef .tc main_v85) = val_main_v179 (F := F) a2 a31 := by
  rw [numbered2_2.after_binary V9 (y := main_v85) rfl (by decide) (by decide) (by decide), arg2_at2 E, arg31_at2 E]
  rfl

/-- k transposed. -/
theorem tailB_v86 (E : Entry) : after hostOps2_2 V9 (Proc.devRef .tc main_v86) = val_main_v180 (F := F) a2 a30 := by
  rw [numbered2_2.after_unary V9 (y := main_v86) rfl (by decide) (by decide), tailB_v84 E]
  rfl

/-- The raw logits q . k^T. -/
theorem tailB_v87 (E : Entry) : after hostOps2_2 V9 (Proc.devRef .tc main_v87) = val_main_v181 (F := F) a0 a1 a2 a3 a4 a5 a6 a7 a8 a9 a10 a13 a14 a17 a18 a19 a20 a25 a26 a29 a30 := by
  rw [numbered2_2.after_binary V9 (y := main_v87) rfl (by decide) (by decide) (by decide), tailB_v83 E, tailB_v86 E]
  rfl

/-- The constant sqrt 128. -/
theorem tailB_cst_12 : after hostOps2_2 V9 (Proc.devRef .tc main_cst_12) = val_main_cst_31 (F := F) := by
  rw [numbered2_2.after_nullary V9 (y := main_cst_12) rfl (by decide)]
  rfl

/-- ... spread over the logits' shape. -/
theorem tailB_v88 : after hostOps2_2 V9 (Proc.devRef .tc main_v88) = val_main_v182 (F := F) := by
  rw [numbered2_2.after_unary V9 (y := main_v88) rfl (by decide) (by decide), tailB_cst_12]
  rfl

/-- The scaled logits. -/
theorem tailB_v89 (E : Entry) : after hostOps2_2 V9 (Proc.devRef .tc main_v89) = val_main_v183 (F := F) a0 a1 a2 a3 a4 a5 a6 a7 a8 a9 a10 a13 a14 a17 a18 a19 a20 a25 a26 a29 a30 := by
  rw [numbered2_2.after_binary V9 (y := main_v89) rfl (by decide) (by decide) (by decide), tailB_v87 E, tailB_v88]
  rfl

/-- The constant -inf the row maximum starts from. -/
theorem tailB_cst_13 : after hostOps2_2 V9 (Proc.devRef .tc main_cst_13) = val_main_cst_32 (F := F) := by
  rw [numbered2_2.after_nullary V9 (y := main_cst_13) rfl (by decide)]
  rfl

/-- The row maximum of the scaled logits. -/
theorem tailB_v90 (E : Entry) : after hostOps2_2 V9 (Proc.devRef .tc main_v90) = val_main_v184 (F := F) a0 a1 a2 a3 a4 a5 a6 a7 a8 a9 a10 a13 a14 a17 a18 a19 a20 a25 a26 a29 a30 := by
  rw [numbered2_2.after_binary V9 (y := main_v90) rfl (by decide) (by decide) (by decide), tailB_v89 E, tailB_cst_13]
  rfl

/-! ### The guard against an empty row, the shifted exponentials, their row sums, and the softmax p (through %100) -/

/-- %cst_14 (constant) is the reference's %cst_33. -/
theorem tailB_cst_14 : after hostOps2_2 V9 (Proc.devRef .tc main_cst_14) = val_main_cst_33 (F := F) := by
  rw [numbered2_2.after_nullary V9 (y := main_cst_14) rfl (by decide)]
  rfl

/-- %91 (spread along the missing axes) is the reference's %185. -/
theorem tailB_v91 : after hostOps2_2 V9 (Proc.devRef .tc main_v91) = val_main_v185 (F := F) := by
  rw [numbered2_2.after_unary V9 (y := main_v91) rfl (by decide) (by decide), tailB_cst_14]
  rfl

/-- %92 (elementwise maximum) is the reference's %186. -/
theorem tailB_v92 (E : Entry) : after hostOps2_2 V9 (Proc.devRef .tc main_v92) = val_main_v186 (F := F) a0 a1 a2 a3 a4 a5 a6 a7 a8 a9 a10 a13 a14 a17 a18 a19 a20 a25 a26 a29 a30 := by
  rw [numbered2_2.after_binary V9 (y := main_v92) rfl (by decide) (by decide) (by decide), tailB_v91, tailB_v90 E]
  rfl

/-- %93 (spread along the missing axes) is the reference's %187. -/
theorem tailB_v93 (E : Entry) : after hostOps2_2 V9 (Proc.devRef .tc main_v93) = val_main_v187 (F := F) a0 a1 a2 a3 a4 a5 a6 a7 a8 a9 a10 a13 a14 a17 a18 a19 a20 a25 a26 a29 a30 := by
  rw [numbered2_2.after_unary V9 (y := main_v93) rfl (by decide) (by decide), tailB_v92 E]
  rfl

/-- %94 (spread along the missing axes) is the reference's %188. -/
theorem tailB_v94 (E : Entry) : after hostOps2_2 V9 (Proc.devRef .tc main_v94) = val_main_v188 (F := F) a0 a1 a2 a3 a4 a5 a6 a7 a8 a9 a10 a13 a14 a17 a18 a19 a20 a25 a26 a29 a30 := by
  rw [numbered2_2.after_unary V9 (y := main_v94) rfl (by decide) (by decide), tailB_v93 E]
  rfl

/-- %95 (difference) is the reference's %189. -/
theorem tailB_v95 (E : Entry) : after hostOps2_2 V9 (Proc.devRef .tc main_v95) = val_main_v189 (F := F) a0 a1 a2 a3 a4 a5 a6 a7 a8 a9 a10 a13 a14 a17 a18 a19 a20 a25 a26 a29 a30 := by
  rw [numbered2_2.after_binary V9 (y := main_v95) rfl (by decide) (by decide) (by decide), tailB_v89 E, tailB_v94 E]
  rfl

/-- %96 (exponential) is the reference's %190. -/
theorem tailB_v96 (E : Entry) : after hostOps2_2 V9 (Proc.devRef .tc main_v96) = val_main_v190 (F := F) a0 a1 a2 a3 a4 a5 a6 a7 a8 a9 a10 a13 a14 a17 a18 a19 a20 a25 a26 a29 a30 := by
  rw [numbered2_2.after_unary V9 (y := main_v96) rfl (by decide) (by decide), tailB_v95 E]
  rfl

/-- %cst_15 (constant) is the reference's %cst_34. -/
theorem tailB_cst_15 : after hostOps2_2 V9 (Proc.devRef .tc main_cst_15) = val_main_cst_34 (F := F) := by
  rw [numbered2_2.after_nullary V9 (y := main_cst_15) rfl (by decide)]
  rfl

/-- %97 (row sums) is the reference's %191. -/
theorem tailB_v97 (E : Entry) : after hostOps2_2 V9 (Proc.devRef .tc main_v97) = val_main_v191 (F := F) a0 a1 a2 a3 a4 a5 a6 a7 a8 a9 a10 a13 a14 a17 a18 a19 a20 a25 a26 a29 a30 := by
  rw [numbered2_2.after_binary V9 (y := main_v97) rfl (by decide) (by decide) (by decide), tailB_v96 E, tailB_cst_15]
  rfl

/-- %98 (spread along the missing axes) is the reference's %192. -/
theorem tailB_v98 (E : Entry) : after hostOps2_2 V9 (Proc.devRef .tc main_v98) = val_main_v192 (F := F) a0 a1 a2 a3 a4 a5 a6 a7 a8 a9 a10 a13 a14 a17 a18 a19 a20 a25 a26 a29 a30 := by
  rw [numbered2_2.after_unary V9 (y := main_v98) rfl (by decide) (by decide), tailB_v97 E]
  rfl

/-- %99 (spread along the missing axes) is the reference's %193. -/
theorem tailB_v99 (E : Entry) : after hostOps2_2 V9 (Proc.devRef .tc main_v99) = val_main_v193 (F := F) a0 a1 a2 a3 a4 a5 a6 a7 a8 a9 a10 a13 a14 a17 a18 a19 a20 a25 a26 a29 a30 := by
  rw [numbered2_2.after_unary V9 (y := main_v99) rfl (by decide) (by decide), tailB_v98 E]
  rfl

/-- %100 (quotient) is the reference's %194. -/
theorem tailB_v100 (E : Entry) : after hostOps2_2 V9 (Proc.devRef .tc main_v100) = val_main_v194 (F := F) a0 a1 a2 a3 a4 a5 a6 a7 a8 a9 a10 a13 a14 a17 a18 a19 a20 a25 a26 a29 a30 := by
  rw [numbered2_2.after_binary V9 (y := main_v100) rfl (by decide) (by decide) (by decide), tailB_v96 E, tailB_v99 E]
  rfl

/-! ## The attended values p . v, their projection by Wo, and the residual h2 + (p . v) . Wo -/

/-- %101 (matrix product) is the reference's %195. -/
theorem tailB_v101 (E : Entry) : after hostOps2_2 V9 (Proc.devRef .tc main_v101) = val_main_v195 (F := F) a0 a1 a2 a3 a4 a5 a6 a7 a8 a9 a10 a13 a14 a17 a18 a19 a20 a25 a26 a29 a30 a31 := by
  rw [numbered2_2.after_binary V9 (y := main_v101) rfl (by decide) (by decide) (by decide), tailB_v100 E, tailB_v85 E]
  rfl

/-- %102 (matrix product) is the reference's %196. -/
theorem tailB_v102 (E : Entry) : after hostOps2_2 V9 (Proc.devRef .tc main_v102) = val_main_v196 (F := F) a0 a1 a2 a3 a4 a5 a6 a7 a8 a9 a10 a13 a14 a17 a18 a19 a20 a25 a26 a29 a30 a31 a32 := by
  rw [numbered2_2.after_binary V9 (y := main_v102) rfl (by decide) (by decide) (by decide), tailB_v101 E, arg32_at2 E]
  rfl

/-- %103 (sum) is the reference's %197. -/
theorem tailB_v103 (E : Entry) : after hostOps2_2 V9 (Proc.devRef .tc main_v103) = val_main_v197 (F := F) a0 a1 a2 a3 a4 a5 a6 a7 a8 a9 a10 a13 a14 a17 a18 a19 a20 a25 a26 a29 a30 a31 a32 := by
  rw [numbered2_2.after_binary V9 (y := main_v103) rfl (by decide) (by decide) (by decide), E.v82, tailB_v102 E]
  rfl

/-! ## Layer normalisation after the attention block: mean, centred values, variance, division by sqrt (variance + 1e-5), scale and shift -/

/-- %cst_16 (constant) is the reference's %cst_35. -/
theorem tailB_cst_16 : after hostOps2_2 V9 (Proc.devRef .tc main_cst_16) = val_main_cst_35 (F := F) := by
  rw [numbered2_2.after_nullary V9 (y := main_cst_16) rfl (by decide)]
  rfl

/-- %104 (row sums) is the reference's %198. -/
theorem tailB_v104 (E : Entry) : after hostOps2_2 V9 (Proc.devRef .tc main_v104) = val_main_v198 (F := F) a0 a1 a2 a3 a4 a5 a6 a7 a8 a9 a10 a13 a14 a17 a18 a19 a20 a25 a26 a29 a30 a31 a32 := by
  rw [numbered2_2.after_binary V9 (y := main_v104) rfl (by decide) (by decide) (by decide), tailB_v103 E, tailB_cst_16]
  rfl

/-- %105 (spread along the missing axes) is the reference's %199. -/
theorem tailB_v105 (E : Entry) : after hostOps2_2 V9 (Proc.devRef .tc main_v105) = val_main_v199 (F := F) a0 a1 a2 a3 a4 a5 a6 a7 a8 a9 a10 a13 a14 a17 a18 a19 a20 a25 a26 a29 a30 a31 a32 := by
  rw [numbered2_2.after_unary V9 (y := main_v105) rfl (by decide) (by decide), tailB_v104 E]
  rfl

/-- %cst_17 (constant) is the reference's %cst_36. -/
theorem tailB_cst_17 : after hostOps2_2 V9 (Proc.devRef .tc main_cst_17) = val_main_cst_36 (F := F) := by
  rw [numbered2_2.after_nullary V9 (y := main_cst_17) rfl (by decide)]
  rfl

/-- %106 (spread along the missing axes) is the reference's %200. -/
theorem tailB_v106 : after hostOps2_2 V9 (Proc.devRef .tc main_v106) = val_main_v200 (F := F) := by
  rw [numbered2_2.after_unary V9 (y := main_v106) rfl (by decide) (by decide), tailB_cst_17]
  rfl

/-- %107 (quotient) is the reference's %201. -/
theorem tailB_v107 (E : Entry) : after hostOps2_2 V9 (Proc.devRef .tc main_v107) = val_main_v201 (F := F) a0 a1 a2 a3 a4 a5 a6 a7 a8 a9 a10 a13 a14 a17 a18 a19 a20 a25 a26 a29 a30 a31 a32 := by
  rw [numbered2_2.after_binary V9 (y := main_v107) rfl (by decide) (by decide) (by decide), tailB_v105 E, tailB_v106]
  rfl

/-- %108 (spread along the missing axes) is the reference's %202. -/
theorem tailB_v108 (E : Entry) : after hostOps2_2 V9 (Proc.devRef .tc main_v108) = val_main_v202 (F := F) a0 a1 a2 a3 a4 a5 a6 a7 a8 a9 a10 a13 a14 a17 a18 a19 a20 a25 a26 a29 a30 a31 a32 := by
  rw [numbered2_2.after_unary V9 (y := main_v108) rfl (by decide) (by decide), tailB_v107 E]
  rfl

/-- %109 (difference) is the reference's %203. -/
theorem tailB_v109 (E : Entry) : after hostOps2_2 V9 (Proc.devRef .tc main_v109) = val_main_v203 (F := F) a0 a1 a2 a3 a4 a5 a6 a7 a8 a9 a10 a13 a14 a17 a18 a19 a20 a25 a26 a29 a30 a31 a32 := by
  rw [numbered2_2.after_binary V9 (y := main_v109) rfl (by decide) (by decide) (by decide), tailB_v103 E, tailB_v108 E]
  rfl

/-- %110 (product) is the reference's %204. -/
theorem tailB_v110 (E : Entry) : after hostOps2_2 V9 (Proc.devRef .tc main_v110) = val_main_v204 (F := F) a0 a1 a2 a3 a4 a5 a6 a7 a8 a9 a10 a13 a14 a17 a18 a19 a20 a25 a26 a29 a30 a31 a32 := by
  rw [numbered2_2.after_binary V9 (y := main_v110) rfl (by decide) (by decide) (by decide), tailB_v109 E]
  rfl

/-- %cst_18 (constant) is the reference's %cst_37. -/
theorem tailB_cst_18 : after hostOps2_2 V9 (Proc.devRef .tc main_cst_18) = val_main_cst_37 (F := F) := by
  rw [numbered2_2.after_nullary V9 (y := main_cst_18) rfl (by decide)]
  rfl

/-- %111 (row sums) is the reference's %205. -/
theorem tailB_v111 (E : Entry) : after hostOps2_2 V9 (Proc.devRef .tc main_v111) = val_main_v205 (F := F) a0 a1 a2 a3 a4 a5 a6 a7 a8 a9 a10 a13 a14 a17 a18 a19 a20 a25 a26 a29 a30 a31 a32 := by
  rw [numbered2_2.after_binary V9 (y := main_v111) rfl (by decide) (by decide) (by decide), tailB_v110 E, tailB_cst_18]
  rfl

/-- %112 (spread along the missing axes) is the reference's %206. -/
theorem tailB_v112 (E : Entry) : after hostOps2_2 V9 (Proc.devRef .tc main_v112) = val_main_v206 (F := F) a0 a1 a2 a3 a4 a5 a6 a7 a8 a9 a10 a13 a14 a17 a18 a19 a20 a25 a26 a29 a30 a31 a32 := by
  rw [numbered2_2.after_unary V9 (y := main_v112) rfl (by decide) (by decide), tailB_v111 E]
  rfl

/-- %cst_19 (constant) is the reference's %cst_38. -/
theorem tailB_cst_19 : after hostOps2_2 V9 (Proc.devRef .tc main_cst_19) = val_main_cst_38 (F := F) := by
  rw [numbered2_2.after_nullary V9 (y := main_cst_19) rfl (by decide)]
  rfl

/-- %113 (spread along the missing axes) is the reference's %207. -/
theorem tailB_v113 : after hostOps2_2 V9 (Proc.devRef .tc main_v113) = val_main_v207 (F := F) := by
  rw [numbered2_2.after_unary V9 (y := main_v113) rfl (by decide) (by decide), tailB_cst_19]
  rfl

/-- %114 (quotient) is the reference's %208. -/
theorem tailB_v114 (E : Entry) : after hostOps2_2 V9 (Proc.devRef .tc main_v114) = val_main_v208 (F := F) a0 a1 a2 a3 a4 a5 a6 a7 a8 a9 a10 a13 a14 a17 a18 a19 a20 a25 a26 a29 a30 a31 a32 := by
  rw [numbered2_2.after_binary V9 (y := main_v114) rfl (by decide) (by decide) (by decide), tailB_v112 E, tailB_v113]
  rfl

/-- %115 (spread along the missing axes) is the reference's %209. -/
theorem tailB_v115 (E : Entry) : after hostOps2_2 V9 (Proc.devRef .tc main_v115) = val_main_v209 (F := F) a0 a1 a2 a3 a4 a5 a6 a7 a8 a9 a10 a13 a14 a17 a18 a19 a20 a25 a26 a29 a30 a31 a32 := by
  rw [numbered2_2.after_unary V9 (y := main_v115) rfl (by decide) (by decide), tailB_v107 E]
  rfl

/-- %116 (difference) is the reference's %210. -/
theorem tailB_v116 (E : Entry) : after hostOps2_2 V9 (Proc.devRef .tc main_v116) = val_main_v210 (F := F) a0 a1 a2 a3 a4 a5 a6 a7 a8 a9 a10 a13 a14 a17 a18 a19 a20 a25 a26 a29 a30 a31 a32 := by
  rw [numbered2_2.after_binary V9 (y := main_v116) rfl (by decide) (by decide) (by decide), tailB_v103 E, tailB_v115 E]
  rfl

/-- %cst_20 (constant) is the reference's %cst_39. -/
theorem tailB_cst_20 : after hostOps2_2 V9 (Proc.devRef .tc main_cst_20) = val_main_cst_39 (F := F) := by
  rw [numbered2_2.after_nullary V9 (y := main_cst_20) rfl (by decide)]
  rfl

/-- %117 (spread along the missing axes) is the reference's %211. -/
theorem tailB_v117 : after hostOps2_2 V9 (Proc.devRef .tc main_v117) = val_main_v211 (F := F) := by
  rw [numbered2_2.after_unary V9 (y := main_v117) rfl (by decide) (by decide), tailB_cst_20]
  rfl

/-- %118 (sum) is the reference's %212. -/
theorem tailB_v118 (E : Entry) : after hostOps2_2 V9 (Proc.devRef .tc main_v118) = val_main_v212 (F := F) a0 a1 a2 a3 a4 a5 a6 a7 a8 a9 a10 a13 a14 a17 a18 a19 a20 a25 a26 a29 a30 a31 a32 := by
  rw [numbered2_2.after_binary V9 (y := main_v118) rfl (by decide) (by decide) (by decide), tailB_v114 E, tailB_v117]
  rfl

/-- %119 (square root) is the reference's %213. -/
theorem tailB_v119 (E : Entry) : after hostOps2_2 V9 (Proc.devRef .tc main_v119) = val_main_v213 (F := F) a0 a1 a2 a3 a4 a5 a6 a7 a8 a9 a10 a13 a14 a17 a18 a19 a20 a25 a26 a29 a30 a31 a32 := by
  rw [numbered2_2.after_unary V9 (y := main_v119) rfl (by decide) (by decide), tailB_v118 E]
  rfl

/-- %120 (spread along the missing axes) is the reference's %214. -/
theorem tailB_v120 (E : Entry) : after hostOps2_2 V9 (Proc.devRef .tc main_v120) = val_main_v214 (F := F) a0 a1 a2 a3 a4 a5 a6 a7 a8 a9 a10 a13 a14 a17 a18 a19 a20 a25 a26 a29 a30 a31 a32 := by
  rw [numbered2_2.after_unary V9 (y := main_v120) rfl (by decide) (by decide), tailB_v119 E]
  rfl

/-- %121 (quotient) is the reference's %215. -/
theorem tailB_v121 (E : Entry) : after hostOps2_2 V9 (Proc.devRef .tc main_v121) = val_main_v215 (F := F) a0 a1 a2 a3 a4 a5 a6 a7 a8 a9 a10 a13 a14 a17 a18 a19 a20 a25 a26 a29 a30 a31 a32 := by
  rw [numbered2_2.after_binary V9 (y := main_v121) rfl (by decide) (by decide) (by decide), tailB_v116 E, tailB_v120 E]
  rfl

/-- %122 (spread along the missing axes) is the reference's %216. -/
theorem tailB_v122 (E : Entry) : after hostOps2_2 V9 (Proc.devRef .tc main_v122) = val_main_v216 (F := F) a33 := by
  rw [numbered2_2.after_unary V9 (y := main_v122) rfl (by decide) (by decide), arg33_at2 E]
  rfl

/-- %123 (spread along the missing axes) is the reference's %217. -/
theorem tailB_v123 (E : Entry) : after hostOps2_2 V9 (Proc.devRef .tc main_v123) = val_main_v217 (F := F) a33 := by
  rw [numbered2_2.after_unary V9 (y := main_v123) rfl (by decide) (by decide), tailB_v122 E]
  rfl

/-- %124 (product) is the reference's %218. -/
theorem tailB_v124 (E : Entry) : after hostOps2_2 V9 (Proc.devRef .tc main_v124) = val_main_v218 (F := F) a0 a1 a2 a3 a4 a5 a6 a7 a8 a9 a10 a13 a14 a17 a18 a19 a20 a25 a26 a29 a30 a31 a32 a33 := by
  rw [numbered2_2.after_binary V9 (y := main_v124) rfl (by decide) (by decide) (by decide), tailB_v121 E, tailB_v123 E]
  rfl

/-- %125 (spread along the missing axes) is the reference's %219. -/
theorem tailB_v125 (E : Entry) : after hostOps2_2 V9 (Proc.devRef .tc main_v125) = val_main_v219 (F := F) a34 := by
  rw [numbered2_2.after_unary V9 (y := main_v125) rfl (by decide) (by decide), arg34_at2 E]
  rfl

/-- %126 (spread along the missing axes) is the reference's %220. -/
theorem tailB_v126 (E : Entry) : after hostOps2_2 V9 (Proc.devRef .tc main_v126) = val_main_v220 (F := F) a34 := by
  rw [numbered2_2.after_unary V9 (y := main_v126) rfl (by decide) (by decide), tailB_v125 E]
  rfl

/-- %127 (sum) is the reference's %221. -/
theorem tailB_v127 (E : Entry) : after hostOps2_2 V9 (Proc.devRef .tc main_v127) = val_main_v221 (F := F) a0 a1 a2 a3 a4 a5 a6 a7 a8 a9 a10 a13 a14 a17 a18 a19 a20 a25 a26 a29 a30 a31 a32 a33 a34 := by
  rw [numbered2_2.after_binary V9 (y := main_v127) rfl (by decide) (by decide) (by decide), tailB_v124 E, tailB_v126 E]
  rfl

/-! ## The feed-forward block's first matrix product -/

/-- %128 (matrix product) is the reference's %222. -/
theorem tailB_v128 (E : Entry) : after hostOps2_2 V9 (Proc.devRef .tc main_v128) = val_main_v222 (F := F) a0 a1 a2 a3 a4 a5 a6 a7 a8 a9 a10 a13 a14 a17 a18 a19 a20 a25 a26 a29 a30 a31 a32 a33 a34 a37 := by
  rw [numbered2_2.after_binary V9 (y := main_v128) rfl (by decide) (by decide) (by decide), tailB_v127 E, arg37_at2 E]
  rfl

/-! ## Maximum with 0: the three operations of the second list -/

/-- %call4_cst (constant) is the reference's %call3_cst. -/
theorem tailB_call4_cst : after hostOps2_3 (after hostOps2_2 V9) (Proc.devRef .tc main_call4_cst) = val_main_call3_cst (F := F) := by
  rw [numbered2_3.after_nullary (after hostOps2_2 V9) (y := main_call4_cst) rfl (by decide)]
  rfl

/-- %call4_v0 (spread along the missing axes) is the reference's %call3_v0. -/
theorem tailB_call4_v0 : after hostOps2_3 (after hostOps2_2 V9) (Proc.devRef .tc main_call4_v0) = val_main_call3_v0 (F := F) := by
  rw [numbered2_3.after_unary (after hostOps2_2 V9) (y := main_call4_v0) rfl (by decide) (by decide), tailB_call4_cst]
  rfl

/-- %128 is not written by the three operations of the maximum with 0. -/
theorem v128_at3 (E : Entry) : after hostOps2_3 (after hostOps2_2 V9) (Proc.devRef .tc main_v128) = val_main_v222 (F := F) a0 a1 a2 a3 a4 a5 a6 a7 a8 a9 a10 a13 a14 a17 a18 a19 a20 a25 a26 a29 a30 a31 a32 a33 a34 a37 :=
  (numbered2_3.kept (after hostOps2_2 V9) (by decide)).trans (tailB_v128 E)

/-- %129 (elementwise maximum) is the reference's %223. -/
theorem tailB_v129 (E : Entry) : after hostOps2_3 (after hostOps2_2 V9) (Proc.devRef .tc main_v129) = val_main_v223 (F := F) a0 a1 a2 a3 a4 a5 a6 a7 a8 a9 a10 a13 a14 a17 a18 a19 a20 a25 a26 a29 a30 a31 a32 a33 a34 a37 := by
  rw [numbered2_3.after_binary (after hostOps2_2 V9) (y := main_v129) rfl (by decide) (by decide) (by decide), v128_at3 E, tailB_call4_v0]
  rfl

/-! ## The feed-forward block's second matrix product and its residual -/

/-- %129 is not written by the last 32 operations. -/
theorem v129_at4 (E : Entry) : after hostOps2_4 (after hostOps2_3 (after hostOps2_2 V9)) (Proc.devRef .tc main_v129) = val_main_v223 (F := F) a0 a1 a2 a3 a4 a5 a6 a7 a8 a9 a10 a13 a14 a17 a18 a19 a20 a25 a26 a29 a30 a31 a32 a33 a34 a37 :=
  (numbered2_4.kept (after hostOps2_3 (after hostOps2_2 V9)) (by decide)).trans (tailB_v129 E)

/-- Argument 38 is not written by the three operations of the maximum with 0. -/
theorem arg38_at3 (E : Entry) : after hostOps2_3 (after hostOps2_2 V9) (Proc.devRef .tc main_arg38) = a38 :=
  (numbered2_3.kept (after hostOps2_2 V9) (by decide)).trans ((numbered2_2.kept V9 (by decide)).trans E.arg38)

/-- Argument 38 is not written by the last 32 operations. -/
theorem arg38_at4 (E : Entry) : after hostOps2_4 (after hostOps2_3 (after hostOps2_2 V9)) (Proc.devRef .tc main_arg38) = a38 :=
  (numbered2_4.kept (after hostOps2_3 (after hostOps2_2 V9)) (by decide)).trans (arg38_at3 E)

/-- %130 (matrix product) is the reference's %224. -/
theorem tailB_v130 (E : Entry) : after hostOps2_4 (after hostOps2_3 (after hostOps2_2 V9)) (Proc.devRef .tc main_v130) = val_main_v224 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v130) rfl (by decide) (by decide) (by decide), v129_at4 E, arg38_at4 E]
  rfl

/-- %127 is not written by the three operations of the maximum with 0. -/
theorem v127_at3 (E : Entry) : after hostOps2_3 (after hostOps2_2 V9) (Proc.devRef .tc main_v127) = val_main_v221 (F := F) a0 a1 a2 a3 a4 a5 a6 a7 a8 a9 a10 a13 a14 a17 a18 a19 a20 a25 a26 a29 a30 a31 a32 a33 a34 :=
  (numbered2_3.kept (after hostOps2_2 V9) (by decide)).trans (tailB_v127 E)

/-- %127 is not written by the last 32 operations. -/
theorem v127_at4 (E : Entry) : after hostOps2_4 (after hostOps2_3 (after hostOps2_2 V9)) (Proc.devRef .tc main_v127) = val_main_v221 (F := F) a0 a1 a2 a3 a4 a5 a6 a7 a8 a9 a10 a13 a14 a17 a18 a19 a20 a25 a26 a29 a30 a31 a32 a33 a34 :=
  (numbered2_4.kept (after hostOps2_3 (after hostOps2_2 V9)) (by decide)).trans (v127_at3 E)

/-- %131 (sum) is the reference's %225. -/
theorem tailB_v131 (E : Entry) : after hostOps2_4 (after hostOps2_3 (after hostOps2_2 V9)) (Proc.devRef .tc main_v131) = val_main_v225 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v131) rfl (by decide) (by decide) (by decide), v127_at4 E, tailB_v130 E]
  rfl

/-! ## The last layer normalisation: the node features nf -/

/-- %cst_21 (constant) is the reference's %cst_40. -/
theorem tailB_cst_21 : after hostOps2_4 (after hostOps2_3 (after hostOps2_2 V9)) (Proc.devRef .tc main_cst_21) = val_main_cst_40 (F := F) := by
  rw [numbered2_4.after_nullary (after hostOps2_3 (after hostOps2_2 V9)) (y := main_cst_21) rfl (by decide)]
  rfl

/-- %132 (row sums) is the reference's %226. -/
theorem tailB_v132 (E : Entry) : after hostOps2_4 (after hostOps2_3 (after hostOps2_2 V9)) (Proc.devRef .tc main_v132) = val_main_v226 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v132) rfl (by decide) (by decide) (by decide), tailB_v131 E, tailB_cst_21]
  rfl

/-- %133 (spread along the missing axes) is the reference's %227. -/
theorem tailB_v133 (E : Entry) : after hostOps2_4 (after hostOps2_3 (after hostOps2_2 V9)) (Proc.devRef .tc main_v133) = val_main_v227 (F := F) a0 a1 a2 a3 a4 a5 a6 a7 a8 a9 a10 a13 a14 a17 a18 a19 a20 a25 a26 a29 a30 a31 a32 a33 a34 a37 a38 := by
  rw [numbered2_4.after_unary (after hostOps2_3 (after hostOps2_2 V9)) (y := main_v133) rfl (by decide) (by decide), tailB_v132 E]
  rfl

/-- %cst_22 (constant) is the reference's %cst_41. -/
theorem tailB_cst_22 : after hostOps2_4 (after hostOps2_3 (after hostOps2_2 V9)) (Proc.devRef .tc main_cst_22) = val_main_cst_41 (F := F) := by
  rw [numbered2_4.after_nullary (after hostOps2_3 (after hostOps2_2 V9)) (y := main_cst_22) rfl (by decide)]
  rfl

/-- %134 (spread along the missing axes) is the reference's %228. -/
theorem tailB_v134 : after hostOps2_4 (after hostOps2_3 (after hostOps2_2 V9)) (Proc.devRef .tc main_v134) = val_main_v228 (F := F) := by
  rw [numbered2_4.after_unary (after hostOps2_3 (after hostOps2_2 V9)) (y := main_v134) rfl (by decide) (by decide), tailB_cst_22]
  rfl

/-- %135 (quotient) is the reference's %229. -/
theorem tailB_v135 (E : Entry) : after hostOps2_4 (after hostOps2_3 (after hostOps2_2 V9)) (Proc.devRef .tc main_v135) = val_main_v229 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v135) rfl (by decide) (by decide) (by decide), tailB_v133 E, tailB_v134]
  rfl

/-- %136 (spread along the missing axes) is the reference's %230. -/
theorem tailB_v136 (E : Entry) : after hostOps2_4 (after hostOps2_3 (after hostOps2_2 V9)) (Proc.devRef .tc main_v136) = val_main_v230 (F := F) a0 a1 a2 a3 a4 a5 a6 a7 a8 a9 a10 a13 a14 a17 a18 a19 a20 a25 a26 a29 a30 a31 a32 a33 a34 a37 a38 := by
  rw [numbered2_4.after_unary (after hostOps2_3 (after hostOps2_2 V9)) (y := main_v136) rfl (by decide) (by decide), tailB_v135 E]
  rfl

/-- %137 (difference) is the reference's %231. -/
theorem tailB_v137 (E : Entry) : after hostOps2_4 (after hostOps2_3 (after hostOps2_2 V9)) (Proc.devRef .tc main_v137) = val_main_v231 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v137) rfl (by decide) (by decide) (by decide), tailB_v131 E, tailB_v136 E]
  rfl

/-- %138 (product) is the reference's %232. -/
theorem tailB_v138 (E : Entry) : after hostOps2_4 (after hostOps2_3 (after hostOps2_2 V9)) (Proc.devRef .tc main_v138) = val_main_v232 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v138) rfl (by decide) (by decide) (by decide), tailB_v137 E]
  rfl

/-- %cst_23 (constant) is the reference's %cst_42. -/
theorem tailB_cst_23 : after hostOps2_4 (after hostOps2_3 (after hostOps2_2 V9)) (Proc.devRef .tc main_cst_23) = val_main_cst_42 (F := F) := by
  rw [numbered2_4.after_nullary (after hostOps2_3 (after hostOps2_2 V9)) (y := main_cst_23) rfl (by decide)]
  rfl

/-- %139 (row sums) is the reference's %233. -/
theorem tailB_v139 (E : Entry) : after hostOps2_4 (after hostOps2_3 (after hostOps2_2 V9)) (Proc.devRef .tc main_v139) = val_main_v233 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v139) rfl (by decide) (by decide) (by decide), tailB_v138 E, tailB_cst_23]
  rfl

/-- %140 (spread along the missing axes) is the reference's %234. -/
theorem tailB_v140 (E : Entry) : after hostOps2_4 (after hostOps2_3 (after hostOps2_2 V9)) (Proc.devRef .tc main_v140) = val_main_v234 (F := F) a0 a1 a2 a3 a4 a5 a6 a7 a8 a9 a10 a13 a14 a17 a18 a19 a20 a25 a26 a29 a30 a31 a32 a33 a34 a37 a38 := by
  rw [numbered2_4.after_unary (after hostOps2_3 (after hostOps2_2 V9)) (y := main_v140) rfl (by decide) (by decide), tailB_v139 E]
  rfl

/-- %cst_24 (constant) is the reference's %cst_43. -/
theorem tailB_cst_24 : after hostOps2_4 (after hostOps2_3 (after hostOps2_2 V9)) (Proc.devRef .tc main_cst_24) = val_main_cst_43 (F := F) := by
  rw [numbered2_4.after_nullary (after hostOps2_3 (after hostOps2_2 V9)) (y := main_cst_24) rfl (by decide)]
  rfl

/-- %141 (spread along the missing axes) is the reference's %235. -/
theorem tailB_v141 : after hostOps2_4 (after hostOps2_3 (after hostOps2_2 V9)) (Proc.devRef .tc main_v141) = val_main_v235 (F := F) := by
  rw [numbered2_4.after_unary (after hostOps2_3 (after hostOps2_2 V9)) (y := main_v141) rfl (by decide) (by decide), tailB_cst_24]
  rfl

/-- %142 (quotient) is the reference's %236. -/
theorem tailB_v142 (E : Entry) : after hostOps2_4 (after hostOps2_3 (after hostOps2_2 V9)) (Proc.devRef .tc main_v142) = val_main_v236 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v142) rfl (by decide) (by decide) (by decide), tailB_v140 E, tailB_v141]
  rfl

/-- %143 (spread along the missing axes) is the reference's %237. -/
theorem tailB_v143 (E : Entry) : after hostOps2_4 (after hostOps2_3 (after hostOps2_2 V9)) (Proc.devRef .tc main_v143) = val_main_v237 (F := F) a0 a1 a2 a3 a4 a5 a6 a7 a8 a9 a10 a13 a14 a17 a18 a19 a20 a25 a26 a29 a30 a31 a32 a33 a34 a37 a38 := by
  rw [numbered2_4.after_unary (after hostOps2_3 (after hostOps2_2 V9)) (y := main_v143) rfl (by decide) (by decide), tailB_v135 E]
  rfl

/-- %144 (difference) is the reference's %238. -/
theorem tailB_v144 (E : Entry) : after hostOps2_4 (after hostOps2_3 (after hostOps2_2 V9)) (Proc.devRef .tc main_v144) = val_main_v238 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v144) rfl (by decide) (by decide) (by decide), tailB_v131 E, tailB_v143 E]
  rfl

/-- %cst_25 (constant) is the reference's %cst_44. -/
theorem tailB_cst_25 : after hostOps2_4 (after hostOps2_3 (after hostOps2_2 V9)) (Proc.devRef .tc main_cst_25) = val_main_cst_44 (F := F) := by
  rw [numbered2_4.after_nullary (after hostOps2_3 (after hostOps2_2 V9)) (y := main_cst_25) rfl (by decide)]
  rfl

/-- %145 (spread along the missing axes) is the reference's %239. -/
theorem tailB_v145 : after hostOps2_4 (after hostOps2_3 (after hostOps2_2 V9)) (Proc.devRef .tc main_v145) = val_main_v239 (F := F) := by
  rw [numbered2_4.after_unary (after hostOps2_3 (after hostOps2_2 V9)) (y := main_v145) rfl (by decide) (by decide), tailB_cst_25]
  rfl

/-- %146 (sum) is the reference's %240. -/
theorem tailB_v146 (E : Entry) : after hostOps2_4 (after hostOps2_3 (after hostOps2_2 V9)) (Proc.devRef .tc main_v146) = val_main_v240 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v146) rfl (by decide) (by decide) (by decide), tailB_v142 E, tailB_v145]
  rfl

/-- %147 (square root) is the reference's %241. -/
theorem tailB_v147 (E : Entry) : after hostOps2_4 (after hostOps2_3 (after hostOps2_2 V9)) (Proc.devRef .tc main_v147) = val_main_v241 (F := F) a0 a1 a2 a3 a4 a5 a6 a7 a8 a9 a10 a13 a14 a17 a18 a19 a20 a25 a26 a29 a30 a31 a32 a33 a34 a37 a38 := by
  rw [numbered2_4.after_unary (after hostOps2_3 (after hostOps2_2 V9)) (y := main_v147) rfl (by decide) (by decide), tailB_v146 E]
  rfl

/-- %148 (spread along the missing axes) is the reference's %242. -/
theorem tailB_v148 (E : Entry) : after hostOps2_4 (after hostOps2_3 (after hostOps2_2 V9)) (Proc.devRef .tc main_v148) = val_main_v242 (F := F) a0 a1 a2 a3 a4 a5 a6 a7 a8 a9 a10 a13 a14 a17 a18 a19 a20 a25 a26 a29 a30 a31 a32 a33 a34 a37 a38 := by
  rw [numbered2_4.after_unary (after hostOps2_3 (after hostOps2_2 V9)) (y := main_v148) rfl (by decide) (by decide), tailB_v147 E]
  rfl

/-- %149 (quotient) is the reference's %243. -/
theorem tailB_v149 (E : Entry) : after hostOps2_4 (after hostOps2_3 (after hostOps2_2 V9)) (Proc.devRef .tc main_v149) = val_main_v243 (F := F) a0 a1 a2 a3 a4 a5 a6 a7 a8 a9 a10 a13 a14 a17 a18 a19 a20 a25 a26 a29 a30 a31 a32 a33 a34 a37 a38 := by
  rw [numbered2_4.after_binary (after hostOps2_3 (after hostOps2_2 V9)) (y := main_v149) rfl (by decide) (by decide) (by decide), tailB_v144 E, tailB_v148 E]
  rfl

/-- Argument 35 is not written by the three operations of the maximum with 0. -/
theorem arg35_at3 (E : Entry) : after hostOps2_3 (after hostOps2_2 V9) (Proc.devRef .tc main_arg35) = a35 :=
  (numbered2_3.kept (after hostOps2_2 V9) (by decide)).trans ((numbered2_2.kept V9 (by decide)).trans E.arg35)

/-- Argument 35 is not written by the last 32 operations. -/
theorem arg35_at4 (E : Entry) : after hostOps2_4 (after hostOps2_3 (after hostOps2_2 V9)) (Proc.devRef .tc main_arg35) = a35 :=
  (numbered2_4.kept (after hostOps2_3 (after hostOps2_2 V9)) (by decide)).trans (arg35_at3 E)

/-- %150 (spread along the missing axes) is the reference's %244. -/
theorem tailB_v150 (E : Entry) : after hostOps2_4 (after hostOps2_3 (after hostOps2_2 V9)) (Proc.devRef .tc main_v150) = val_main_v244 (F := F) a35 := by
  rw [numbered2_4.after_unary (after hostOps2_3 (after hostOps2_2 V9)) (y := main_v150) rfl (by decide) (by decide), arg35_at4 E]
  rfl

/-- %151 (spread along the missing axes) is the reference's %245. -/
theorem tailB_v151 (E : Entry) : after hostOps2_4 (after hostOps2_3 (after hostOps2_2 V9)) (Proc.devRef .tc main_v151) = val_main_v245 (F := F) a35 := by
  rw [numbered2_4.after_unary (after hostOps2_3 (after hostOps2_2 V9)) (y := main_v151) rfl (by decide) (by decide), tailB_v150 E]
  rfl

/-- %152 (product) is the reference's %246. -/
theorem tailB_v152 (E : Entry) : after hostOps2_4 (after hostOps2_3 (after hostOps2_2 V9)) (Proc.devRef .tc main_v152) = val_main_v246 (F := F) a0 a1 a2 a3 a4 a5 a6 a7 a8 a9 a10 a13 a14 a17 a18 a19 a20 a25 a26 a29 a30 a31 a32 a33 a34 a35 a37 a38 := by
  rw [numbered2_4.after_binary (after hostOps2_3 (after hostOps2_2 V9)) (y := main_v152) rfl (by decide) (by decide) (by decide), tailB_v149 E, tailB_v151 E]
  rfl

/-- Argument 36 is not written by the three operations of the maximum with 0. -/
theorem arg36_at3 (E : Entry) : after hostOps2_3 (after hostOps2_2 V9) (Proc.devRef .tc main_arg36) = a36 :=
  (numbered2_3.kept (after hostOps2_2 V9) (by decide)).trans ((numbered2_2.kept V9 (by decide)).trans E.arg36)

/-- Argument 36 is not written by the last 32 operations. -/
theorem arg36_at4 (E : Entry) : after hostOps2_4 (after hostOps2_3 (after hostOps2_2 V9)) (Proc.devRef .tc main_arg36) = a36 :=
  (numbered2_4.kept (after hostOps2_3 (after hostOps2_2 V9)) (by decide)).trans (arg36_at3 E)

/-- %153 (spread along the missing axes) is the reference's %247. -/
theorem tailB_v153 (E : Entry) : after hostOps2_4 (after hostOps2_3 (after hostOps2_2 V9)) (Proc.devRef .tc main_v153) = val_main_v247 (F := F) a36 := by
  rw [numbered2_4.after_unary (after hostOps2_3 (after hostOps2_2 V9)) (y := main_v153) rfl (by decide) (by decide), arg36_at4 E]
  rfl

/-- %154 (spread along the missing axes) is the reference's %248. -/
theorem tailB_v154 (E : Entry) : after hostOps2_4 (after hostOps2_3 (after hostOps2_2 V9)) (Proc.devRef .tc main_v154) = val_main_v248 (F := F) a36 := by
  rw [numbered2_4.after_unary (after hostOps2_3 (after hostOps2_2 V9)) (y := main_v154) rfl (by decide) (by decide), tailB_v153 E]
  rfl

/-- %155 (sum) is the reference's %249. -/
theorem tailB_v155 (E : Entry) : after hostOps2_4 (after hostOps2_3 (after hostOps2_2 V9)) (Proc.devRef .tc main_v155) = val_main_v249 (F := F) a0 a1 a2 a3 a4 a5 a6 a7 a8 a9 a10 a13 a14 a17 a18 a19 a20 a25 a26 a29 a30 a31 a32 a33 a34 a35 a36 a37 a38 := by
  rw [numbered2_4.after_binary (after hostOps2_3 (after hostOps2_2 V9)) (y := main_v155) rfl (by decide) (by decide) (by decide), tailB_v152 E, tailB_v154 E]
  rfl

/-! ## The attention weights p with a leading axis of length one -/

/-- %100 is not written by the three operations of the maximum with 0. -/
theorem v100_at3 (E : Entry) : after hostOps2_3 (after hostOps2_2 V9) (Proc.devRef .tc main_v100) = val_main_v194 (F := F) a0 a1 a2 a3 a4 a5 a6 a7 a8 a9 a10 a13 a14 a17 a18 a19 a20 a25 a26 a29 a30 :=
  (numbered2_3.kept (after hostOps2_2 V9) (by decide)).trans (tailB_v100 E)

/-- %100 is not written by the last 32 operations. -/
theorem v100_at4 (E : Entry) : after hostOps2_4 (after hostOps2_3 (after hostOps2_2 V9)) (Proc.devRef .tc main_v100) = val_main_v194 (F := F) a0 a1 a2 a3 a4 a5 a6 a7 a8 a9 a10 a13 a14 a17 a18 a19 a20 a25 a26 a29 a30 :=
  (numbered2_4.kept (after hostOps2_3 (after hostOps2_2 V9)) (by decide)).trans (v100_at3 E)

/-- %156 (spread along the missing axes) is the reference's %250. -/
theorem tailB_v156 (E : Entry) : after hostOps2_4 (after hostOps2_3 (after hostOps2_2 V9)) (Proc.devRef .tc main_v156) = val_main_v250 (F := F) a0 a1 a2 a3 a4 a5 a6 a7 a8 a9 a10 a13 a14 a17 a18 a19 a20 a25 a26 a29 a30 := by
  rw [numbered2_4.after_unary (after hostOps2_3 (after hostOps2_2 V9)) (y := main_v156) rfl (by decide) (by decide), v100_at4 E]
  rfl

end Rows

/-! ## The two results -/

/-- The second half as a whole. From contents V9 whose 89-operation list ends with the reference's stage %142 at
    %82, and which hold the arrays a2, a29 ... a38 at the arguments of those numbers, the three lists end with the
    reference's node features (stage %249) at %155 and the reference's attention weights with their leading axis
    (stage %250) at %156. -/
theorem nodeTailB (V9 : Valuation τ sig (Elt F))
    (a0 : (⟨Cert.ReferenceIdeal.S30000x128, .f32⟩ : BufTy).Contents (Elt F))
    (a1 : (⟨Cert.ReferenceIdeal.S480000x128, .f32⟩ : BufTy).Contents (Elt F))
    (a2 : (⟨Cert.ReferenceIdeal.S500x300, .f32⟩ : BufTy).Contents (Elt F))
    (a3 : (⟨Cert.ReferenceIdeal.S480000, .i32⟩ : BufTy).Contents (Elt F))
    (a4 : (⟨Cert.ReferenceIdeal.S480000, .i32⟩ : BufTy).Contents (Elt F))
    (a5 : (⟨Cert.ReferenceIdeal.S128x128, .f32⟩ : BufTy).Contents (Elt F))
    (a6 : (⟨Cert.ReferenceIdeal.S128x128, .f32⟩ : BufTy).Contents (Elt F))
    (a7 : (⟨Cert.ReferenceIdeal.S128x128, .f32⟩ : BufTy).Contents (Elt F))
    (a8 : (⟨Cert.ReferenceIdeal.S128x128, .f32⟩ : BufTy).Contents (Elt F))
    (a9 : (⟨Cert.ReferenceIdeal.S128x128, .f32⟩ : BufTy).Contents (Elt F))
    (a10 : (⟨Cert.ReferenceIdeal.S128, .f32⟩ : BufTy).Contents (Elt F))
    (a13 : (⟨Cert.ReferenceIdeal.S128, .f32⟩ : BufTy).Contents (Elt F))
    (a14 : (⟨Cert.ReferenceIdeal.S128, .f32⟩ : BufTy).Contents (Elt F))
    (a17 : (⟨Cert.ReferenceIdeal.S128x256, .f32⟩ : BufTy).Contents (Elt F))
    (a18 : (⟨Cert.ReferenceIdeal.S256, .f32⟩ : BufTy).Contents (Elt F))
    (a19 : (⟨Cert.ReferenceIdeal.S256x128, .f32⟩ : BufTy).Contents (Elt F))
    (a20 : (⟨Cert.ReferenceIdeal.S128, .f32⟩ : BufTy).Contents (Elt F))
    (a25 : (⟨Cert.ReferenceIdeal.S128, .f32⟩ : BufTy).Contents (Elt F))
    (a26 : (⟨Cert.ReferenceIdeal.S128, .f32⟩ : BufTy).Contents (Elt F))
    (a29 : (⟨Cert.ReferenceIdeal.S128x128, .f32⟩ : BufTy).Contents (Elt F))
    (a30 : (⟨Cert.ReferenceIdeal.S300x128, .f32⟩ : BufTy).Contents (Elt F))
    (a31 : (⟨Cert.ReferenceIdeal.S300x128, .f32⟩ : BufTy).Contents (Elt F))
    (a32 : (⟨Cert.ReferenceIdeal.S128x128, .f32⟩ : BufTy).Contents (Elt F))
    (a33 : (⟨Cert.ReferenceIdeal.S128, .f32⟩ : BufTy).Contents (Elt F))
    (a34 : (⟨Cert.ReferenceIdeal.S128, .f32⟩ : BufTy).Contents (Elt F))
    (a35 : (⟨Cert.ReferenceIdeal.S128, .f32⟩ : BufTy).Contents (Elt F))
    (a36 : (⟨Cert.ReferenceIdeal.S128, .f32⟩ : BufTy).Contents (Elt F))
    (a37 : (⟨Cert.ReferenceIdeal.S128x256, .f32⟩ : BufTy).Contents (Elt F))
    (a38 : (⟨Cert.ReferenceIdeal.S256x128, .f32⟩ : BufTy).Contents (Elt F))
    (h82 : after hostOps2_2 V9 (Proc.devRef .tc main_v82) = val_main_v142 (F := F) a0 a1 a3 a4 a5 a6 a7 a8 a9 a10 a13 a14 a17 a18 a19 a20 a25 a26)
    (h2 : V9 (Proc.devRef .tc main_arg2) = a2) (h29 : V9 (Proc.devRef .tc main_arg29) = a29) (h30 : V9 (Proc.devRef .tc main_arg30) = a30) (h31 : V9 (Proc.devRef .tc main_arg31) = a31) (h32 : V9 (Proc.devRef .tc main_arg32) = a32) (h33 : V9 (Proc.devRef .tc main_arg33) = a33) (h34 : V9 (Proc.devRef .tc main_arg34) = a34) (h35 : V9 (Proc.devRef .tc main_arg35) = a35) (h36 : V9 (Proc.devRef .tc main_arg36) = a36) (h37 : V9 (Proc.devRef .tc main_arg37) = a37) (h38 : V9 (Proc.devRef .tc main_arg38) = a38) :
    after hostOps2_4 (after hostOps2_3 (after hostOps2_2 V9)) (Proc.devRef .tc main_v155) = val_main_v249 (F := F) a0 a1 a2 a3 a4 a5 a6 a7 a8 a9 a10 a13 a14 a17 a18 a19 a20 a25 a26 a29 a30 a31 a32 a33 a34 a35 a36 a37 a38
    ∧ after hostOps2_4 (after hostOps2_3 (after hostOps2_2 V9)) (Proc.devRef .tc main_v156) = val_main_v250 (F := F) a0 a1 a2 a3 a4 a5 a6 a7 a8 a9 a10 a13 a14 a17 a18 a19 a20 a25 a26 a29 a30 :=
  have E : TailBEntry V9 a0 a1 a2 a3 a4 a5 a6 a7 a8 a9 a10 a13 a14 a17 a18 a19 a20 a25 a26 a29 a30 a31 a32 a33 a34 a35 a36 a37 a38 := ⟨h82, h2, h29, h30, h31, h32, h33, h34, h35, h36, h37, h38⟩
  ⟨tailB_v155 E, tailB_v156 E⟩

end Cert.KernelIdeal.HandValue

end
-- ==== Proof.Val.KernelNode.lean ====
-- The node tail in three links, each from the reference's stage at its input to the reference's stage at its output, chained at the run's boundaries.
import proofs.«406977_j9723805958288_1_alg».proof.Proof.KI.Run
import proofs.«406977_j9723805958288_1_alg».proof.Proof.Val.KeptAt
import proofs.«406977_j9723805958288_1_alg».proof.Proof.Val.NodeTail
import proofs.«406977_j9723805958288_1_alg».proof.Proof.Val.NodeTailM
import proofs.«406977_j9723805958288_1_alg».proof.Proof.Val.NodeTailB
import proofs.«406977_j9723805958288_1_alg».proof.Proof.Ref.Read

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.StableHlo Idealize.SL.Sem
open Cert.ReferenceIdeal

variable (m : (ℓ : Loc nD τ sig) → Buf (Elt Ideal) ℓ) (ρ : Dev nD → PrngReg) (c : Dev nD)

abbrev argAt0 : (⟨Cert.ReferenceIdeal.S30000x128, .f32⟩ : BufTy).Contents (Elt Ideal) := m ((c.tc : Thread nD τ).loc main_arg0)

abbrev argAt1 : (⟨Cert.ReferenceIdeal.S480000x128, .f32⟩ : BufTy).Contents (Elt Ideal) := m ((c.tc : Thread nD τ).loc main_arg1)

abbrev argAt2 : (⟨Cert.ReferenceIdeal.S500x300, .f32⟩ : BufTy).Contents (Elt Ideal) := m ((c.tc : Thread nD τ).loc main_arg2)

abbrev argAt3 : (⟨Cert.ReferenceIdeal.S480000, .i32⟩ : BufTy).Contents (Elt Ideal) := m ((c.tc : Thread nD τ).loc main_arg3)

abbrev argAt4 : (⟨Cert.ReferenceIdeal.S480000, .i32⟩ : BufTy).Contents (Elt Ideal) := m ((c.tc : Thread nD τ).loc main_arg4)

abbrev argAt5 : (⟨Cert.ReferenceIdeal.S128x128, .f32⟩ : BufTy).Contents (Elt Ideal) := m ((c.tc : Thread nD τ).loc main_arg5)

abbrev argAt6 : (⟨Cert.ReferenceIdeal.S128x128, .f32⟩ : BufTy).Contents (Elt Ideal) := m ((c.tc : Thread nD τ).loc main_arg6)

abbrev argAt7 : (⟨Cert.ReferenceIdeal.S128x128, .f32⟩ : BufTy).Contents (Elt Ideal) := m ((c.tc : Thread nD τ).loc main_arg7)

abbrev argAt8 : (⟨Cert.ReferenceIdeal.S128x128, .f32⟩ : BufTy).Contents (Elt Ideal) := m ((c.tc : Thread nD τ).loc main_arg8)

abbrev argAt9 : (⟨Cert.ReferenceIdeal.S128x128, .f32⟩ : BufTy).Contents (Elt Ideal) := m ((c.tc : Thread nD τ).loc main_arg9)

abbrev argAt10 : (⟨Cert.ReferenceIdeal.S128, .f32⟩ : BufTy).Contents (Elt Ideal) := m ((c.tc : Thread nD τ).loc main_arg10)

abbrev argAt13 : (⟨Cert.ReferenceIdeal.S128, .f32⟩ : BufTy).Contents (Elt Ideal) := m ((c.tc : Thread nD τ).loc main_arg13)

abbrev argAt14 : (⟨Cert.ReferenceIdeal.S128, .f32⟩ : BufTy).Contents (Elt Ideal) := m ((c.tc : Thread nD τ).loc main_arg14)

abbrev argAt17 : (⟨Cert.ReferenceIdeal.S128x256, .f32⟩ : BufTy).Contents (Elt Ideal) := m ((c.tc : Thread nD τ).loc main_arg17)

abbrev argAt18 : (⟨Cert.ReferenceIdeal.S256, .f32⟩ : BufTy).Contents (Elt Ideal) := m ((c.tc : Thread nD τ).loc main_arg18)

abbrev argAt19 : (⟨Cert.ReferenceIdeal.S256x128, .f32⟩ : BufTy).Contents (Elt Ideal) := m ((c.tc : Thread nD τ).loc main_arg19)

abbrev argAt20 : (⟨Cert.ReferenceIdeal.S128, .f32⟩ : BufTy).Contents (Elt Ideal) := m ((c.tc : Thread nD τ).loc main_arg20)

abbrev argAt25 : (⟨Cert.ReferenceIdeal.S128, .f32⟩ : BufTy).Contents (Elt Ideal) := m ((c.tc : Thread nD τ).loc main_arg25)

abbrev argAt26 : (⟨Cert.ReferenceIdeal.S128, .f32⟩ : BufTy).Contents (Elt Ideal) := m ((c.tc : Thread nD τ).loc main_arg26)

abbrev argAt29 : (⟨Cert.ReferenceIdeal.S128x128, .f32⟩ : BufTy).Contents (Elt Ideal) := m ((c.tc : Thread nD τ).loc main_arg29)

abbrev argAt30 : (⟨Cert.ReferenceIdeal.S300x128, .f32⟩ : BufTy).Contents (Elt Ideal) := m ((c.tc : Thread nD τ).loc main_arg30)

abbrev argAt31 : (⟨Cert.ReferenceIdeal.S300x128, .f32⟩ : BufTy).Contents (Elt Ideal) := m ((c.tc : Thread nD τ).loc main_arg31)

abbrev argAt32 : (⟨Cert.ReferenceIdeal.S128x128, .f32⟩ : BufTy).Contents (Elt Ideal) := m ((c.tc : Thread nD τ).loc main_arg32)

abbrev argAt33 : (⟨Cert.ReferenceIdeal.S128, .f32⟩ : BufTy).Contents (Elt Ideal) := m ((c.tc : Thread nD τ).loc main_arg33)

abbrev argAt34 : (⟨Cert.ReferenceIdeal.S128, .f32⟩ : BufTy).Contents (Elt Ideal) := m ((c.tc : Thread nD τ).loc main_arg34)

abbrev argAt35 : (⟨Cert.ReferenceIdeal.S128, .f32⟩ : BufTy).Contents (Elt Ideal) := m ((c.tc : Thread nD τ).loc main_arg35)

abbrev argAt36 : (⟨Cert.ReferenceIdeal.S128, .f32⟩ : BufTy).Contents (Elt Ideal) := m ((c.tc : Thread nD τ).loc main_arg36)

abbrev argAt37 : (⟨Cert.ReferenceIdeal.S128x256, .f32⟩ : BufTy).Contents (Elt Ideal) := m ((c.tc : Thread nD τ).loc main_arg37)

abbrev argAt38 : (⟨Cert.ReferenceIdeal.S256x128, .f32⟩ : BufTy).Contents (Elt Ideal) := m ((c.tc : Thread nD τ).loc main_arg38)

theorem node_results_of_82
    (h82 : StableHlo.after hostOps2_2 (W9 m ρ c) (Proc.devRef .tc main_v82)
      = RefRead.val_main_v142 (F := Ideal) (argAt0 m c) (argAt1 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c)) :
    W12 m ρ c (Proc.devRef .tc main_v155)
        = RefRead.val_main_v249 (F := Ideal) (argAt0 m c) (argAt1 m c) (argAt2 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c) (argAt29 m c) (argAt30 m c) (argAt31 m c) (argAt32 m c) (argAt33 m c) (argAt34 m c) (argAt35 m c) (argAt36 m c) (argAt37 m c) (argAt38 m c)
    ∧ W12 m ρ c (Proc.devRef .tc main_v156)
        = RefRead.val_main_v250 (F := Ideal) (argAt0 m c) (argAt1 m c) (argAt2 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c) (argAt29 m c) (argAt30 m c) :=
  nodeTailB (W9 m ρ c) (argAt0 m c) (argAt1 m c) (argAt2 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c) (argAt29 m c) (argAt30 m c) (argAt31 m c) (argAt32 m c) (argAt33 m c) (argAt34 m c) (argAt35 m c) (argAt36 m c) (argAt37 m c) (argAt38 m c) h82
    (W9_arg m ρ c (r := main_arg2) (by decide))
    (W9_arg m ρ c (r := main_arg29) (by decide))
    (W9_arg m ρ c (r := main_arg30) (by decide))
    (W9_arg m ρ c (r := main_arg31) (by decide))
    (W9_arg m ρ c (r := main_arg32) (by decide))
    (W9_arg m ρ c (r := main_arg33) (by decide))
    (W9_arg m ρ c (r := main_arg34) (by decide))
    (W9_arg m ρ c (r := main_arg35) (by decide))
    (W9_arg m ρ c (r := main_arg36) (by decide))
    (W9_arg m ρ c (r := main_arg37) (by decide))
    (W9_arg m ρ c (r := main_arg38) (by decide))

theorem node_results
    (hH : StableHlo.after hostOps2 (W7 m ρ c) (Proc.devRef .tc main_v19)
      = RefRead.val_main_v50 (F := Ideal) (argAt0 m c) (argAt1 m c) (argAt3 m c) (argAt4 m c) (argAt5 m c) (argAt6 m c) (argAt7 m c) (argAt8 m c)) :
    W12 m ρ c (Proc.devRef .tc main_v155)
        = RefRead.val_main_v249 (F := Ideal) (argAt0 m c) (argAt1 m c) (argAt2 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c) (argAt29 m c) (argAt30 m c) (argAt31 m c) (argAt32 m c) (argAt33 m c) (argAt34 m c) (argAt35 m c) (argAt36 m c) (argAt37 m c) (argAt38 m c)
    ∧ W12 m ρ c (Proc.devRef .tc main_v156)
        = RefRead.val_main_v250 (F := Ideal) (argAt0 m c) (argAt1 m c) (argAt2 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c) (argAt29 m c) (argAt30 m c) :=

  have h48 := nodeTail_v48 (W7 m ρ c) (argAt0 m c) (argAt1 m c) (argAt3 m c) (argAt4 m c) (argAt5 m c) (argAt6 m c) (argAt7 m c) (argAt8 m c) (argAt9 m c) (argAt10 m c) (argAt13 m c) (argAt14 m c) hH
    (W7_arg m ρ c (r := main_arg0) (by decide))
    (W7_arg m ρ c (r := main_arg9) (by decide))
    (W7_arg m ρ c (r := main_arg10) (by decide))
    (W7_arg m ρ c (r := main_arg13) (by decide))
    (W7_arg m ρ c (r := main_arg14) (by decide))

  have h82 := node_ffn_norm2 (W7 m ρ c) (argAt0 m c) (argAt1 m c) (argAt3 m c) (argAt4 m c) (argAt5 m c) (argAt6 m c) (argAt7 m c) (argAt8 m c) (argAt9 m c) (argAt10 m c) (argAt13 m c) (argAt14 m c) (argAt17 m c) (argAt18 m c) (argAt19 m c) (argAt20 m c) (argAt25 m c) (argAt26 m c) h48
    (W7_arg m ρ c (r := main_arg17) (by decide))
    (W7_arg m ρ c (r := main_arg18) (by decide))
    (W7_arg m ρ c (r := main_arg19) (by decide))
    (W7_arg m ρ c (r := main_arg20) (by decide))
    (W7_arg m ρ c (r := main_arg25) (by decide))
    (W7_arg m ρ c (r := main_arg26) (by decide))

  node_results_of_82 m ρ c h82

end Cert.KernelIdeal.HandValue

end
-- ==== Proof.Val.KernelResults.lean ====
-- The kernel program's three results are the reference's three result stages of the launch arguments.
import proofs.«406977_j9723805958288_1_alg».proof.Proof.Gen.Pre_finite_inputs
import proofs.«406977_j9723805958288_1_alg».proof.Proof.Val.Results
import proofs.«406977_j9723805958288_1_alg».proof.Proof.Val.PreFacts
import proofs.«406977_j9723805958288_1_alg».proof.Proof.Val.KeptAt
import proofs.«406977_j9723805958288_1_alg».proof.Proof.Val.GatherRows
import proofs.«406977_j9723805958288_1_alg».proof.Proof.Val.Region1Arrays
import proofs.«406977_j9723805958288_1_alg».proof.Proof.Val.KernelEdge
import proofs.«406977_j9723805958288_1_alg».proof.Proof.Val.Scatter
import proofs.«406977_j9723805958288_1_alg».proof.Proof.Val.KernelNode

set_option maxRecDepth 16384

noncomputable section

namespace Cert.KernelIdeal.HandValue

open Cert.KernelIdeal Cert.KernelIdeal.Gen Cert.KernelIdeal.Hand
open Cert.KernelIdeal.HandValue.EdgeBlocks
open Idealize.ShloMosaic Idealize.ShloMosaic.TcCoe Idealize.SL.Sem Idealize.ShloMosaic.StableHlo
open Cert.EdgeRow

theorem kernel_results : Cert.Algebraic.KernelResults := by
  intro m ρ hpre c
  have D := Cert.PreFacts.decode (hpre c)
  have hK := key_rows m ρ c D
  have hQ := query_rows m ρ c D
  have hV := value_rows m ρ c D
  have hwtd := weighted_array (V6 m ρ) c
  have hattn := attn_array (V6 m ρ) c
  have hH := hatt_eq (W7 m ρ c) (arg4 m c) (W7 m ρ c (Proc.devRef .tc main_v8_0)) (W7 m ρ c (Proc.devRef .tc main_v8_1))
    (arg0 m c) (arg1 m c) (arg3 m c) (arg4 m c) (arg5 m c) (arg6 m c) (arg7 m c) (arg8 m c)
    (W7_arg m ρ c (r := main_arg4) (by decide)) rfl rfl rfl
    (weighted_result m ρ c D hK hQ hV hwtd) (attn_result m ρ c D hK hQ hattn)
  obtain ⟨hnode, hlogits⟩ := node_results m ρ c hH
  exact ⟨hlogits, hnode, edge_result m ρ c D hK hQ⟩

end Cert.KernelIdeal.HandValue

end
-- ==== Proof.lean ====
-- The five claims: three frames, the empty idealization ledger, and equality of the three results over the extended reals.
import proofs.«406977_j9723805958288_1_alg».proof.Defs
import proofs.«406977_j9723805958288_1_alg».proof.Proof.Gen.Kernel
import proofs.«406977_j9723805958288_1_alg».proof.Proof.Gen.KernelIdeal
import proofs.«406977_j9723805958288_1_alg».proof.Proof.Gen.ReferenceIdeal
import proofs.«406977_j9723805958288_1_alg».proof.Proof.Gen.Pre_finite_inputs
import proofs.«406977_j9723805958288_1_alg».proof.Proof.K.Kept
import proofs.«406977_j9723805958288_1_alg».proof.Proof.KI.Kept
import proofs.«406977_j9723805958288_1_alg».proof.Proof.Ref.Frame
import proofs.«406977_j9723805958288_1_alg».proof.Proof.Val.Algebraic
import proofs.«406977_j9723805958288_1_alg».proof.Proof.Val.KernelResults

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.ReferenceIdeal.RefFrame.frame_ri,
    trivial,
    Cert.Algebraic.algebraic_of Cert.KernelIdeal.HandValue.kernel_results⟩

end Cert.Proof

end
